-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S4096x2048 : Shape := ⟨2, ![4096, 2048]⟩
abbrev S4096x4096 : Shape := ⟨2, ![4096, 4096]⟩
abbrev S3x4096x1000 : Shape := ⟨3, ![3, 4096, 1000]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S3x4096x1000 : S_.BroadcastsInDim S3x4096x1000 (![] : Fin 0 → Fin S3x4096x1000.rank)
  reducesTo_S3x4096x1000_S_d0_1_2 : S3x4096x1000.ReducesTo [0, 1, 2] S_

variable [Facts]

def fn_part1 {F : FTy → Type} [FloatOps F] (main_arg4 : FVec F S3x4096x1000 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S3x4096x1000 .f32 := Host.absf main_arg4
  let main_cst_6 : FVec F S_ .f32 := constant S_ .f32 0x7F800000#32
  let main_v20 : FVec F S3x4096x1000 .f32 := broadcastInDim S3x4096x1000 ![] bcast_S_S3x4096x1000 main_cst_6
  let main_v21 : IVec S3x4096x1000 1 := cmpf .olt main_v19 main_v20
  let main_c_7 : IVec S_ 1 := constantI S_ 1 1#1
  let main_v22 : IVec S_ 1 := (fun x v => Host.reduce IntOp.andi x v reducesTo_S3x4096x1000_S_d0_1_2 h_S_) main_v21 main_c_7
  let main_v23 : IVec S_ 1 := andi main_v18 main_v22
  main_v23

def fn {F : FTy → Type} [FloatOps F] (main_arg0 : FVec F S512x256 .f32) (main_arg1 : FVec F S4096x2048 .f32) (main_arg2 : FVec F S4096x4096 .f32) (main_arg3 : FVec F S4096x4096 .f32) (main_arg4 : FVec F S3x4096x1000 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S512x256 : Shape := ⟨2, ![512, 256]⟩
abbrev S4096x2048 : Shape := ⟨2, ![4096, 2048]⟩
abbrev S4096x4096 : Shape := ⟨2, ![4096, 4096]⟩
abbrev S3x4096x1000 : Shape := ⟨3, ![3, 4096, 1000]⟩
abbrev S_ : Shape := ⟨0, ![]⟩
abbrev S8 : Shape := ⟨1, ![8]⟩
abbrev S512x256x1 : Shape := ⟨3, ![512, 256, 1]⟩
abbrev S1x1x8 : Shape := ⟨3, ![1, 1, 8]⟩
abbrev S512x256x8 : Shape := ⟨3, ![512, 256, 8]⟩
abbrev S512x2048 : Shape := ⟨2, ![512, 2048]⟩
abbrev S512x4096 : Shape := ⟨2, ![512, 4096]⟩
abbrev S1024x1024 : Shape := ⟨2, ![1024, 1024]⟩
abbrev S512x1024 : Shape := ⟨2, ![512, 1024]⟩
abbrev S512x1000 : Shape := ⟨2, ![512, 1000]⟩
abbrev S1x4096x1000 : Shape := ⟨3, ![1, 4096, 1000]⟩
abbrev S4096x1000 : Shape := ⟨2, ![4096, 1000]⟩
abbrev S1024x512 : Shape := ⟨2, ![1024, 512]⟩
abbrev S512x512 : Shape := ⟨2, ![512, 512]⟩

abbrev nBuf : Space → Nat
  | .hbm => 54
  | .vmem => 45
  | .smem => 0
  | _ => 0

abbrev bufTy : (tb : Table) → Fin (tcTables nBuf tb) → BufTy
  | .hbm, ⟨0, _⟩ => ⟨S512x256, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S3x4096x1000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512x256, .i32⟩
  | .hbm, ⟨24, _⟩ => ⟨S_, .i32⟩
  | .hbm, ⟨25, _⟩ => ⟨S512x256, .i32⟩
  | .hbm, ⟨26, _⟩ => ⟨S512x256, .i32⟩
  | .hbm, ⟨27, _⟩ => ⟨S512x256, .i32⟩
  | .hbm, ⟨28, _⟩ => ⟨S8, .i32⟩
  | .hbm, ⟨29, _⟩ => ⟨S512x256x1, .i32⟩
  | .hbm, ⟨30, _⟩ => ⟨S1x1x8, .i32⟩
  | .hbm, ⟨31, _⟩ => ⟨S512x256x8, .i32⟩
  | .hbm, ⟨32, _⟩ => ⟨S512x256x8, .i32⟩
  | .hbm, ⟨33, _⟩ => ⟨S512x256x8, .i32⟩
  | .hbm, ⟨34, _⟩ => ⟨S_, .i32⟩
  | .hbm, ⟨35, _⟩ => ⟨S512x256x8, .i32⟩
  | .hbm, ⟨36, _⟩ => ⟨S512x256x8, .i32⟩
  | .hbm, ⟨37, _⟩ => ⟨S512x256x8, .f32⟩
  | .hbm, ⟨38, _⟩ => ⟨S512x2048, .f32⟩
  | .hbm, ⟨39, _⟩ => ⟨S512x2048, .bf16⟩
  | .hbm, ⟨40, _⟩ => ⟨S512x4096, .bf16⟩
  | .hbm, ⟨41, _⟩ => ⟨S512x4096, .bf16⟩
  | .hbm, ⟨42, _⟩ => ⟨S512x4096, .bf16⟩
  | .hbm, ⟨43, _⟩ => ⟨S_, .f32⟩
  | .hbm, ⟨44, _⟩ => ⟨S512x1000, .f32⟩
  | .hbm, ⟨45, _⟩ => ⟨S1x4096x1000, .f32⟩
  | .hbm, ⟨46, _⟩ => ⟨S4096x1000, .f32⟩
  | .hbm, ⟨47, _⟩ => ⟨S512x1000, .f32⟩
  | .hbm, ⟨48, _⟩ => ⟨S1x4096x1000, .f32⟩
  | .hbm, ⟨49, _⟩ => ⟨S4096x1000, .f32⟩
  | .hbm, ⟨50, _⟩ => ⟨S512x1000, .f32⟩
  | .hbm, ⟨51, _⟩ => ⟨S1x4096x1000, .f32⟩
  | .hbm, ⟨52, _⟩ => ⟨S4096x1000, .f32⟩
  | .hbm, ⟨53, _⟩ => ⟨S512x1000, .f32⟩
  | .local _ .vmem, ⟨0, _⟩ => ⟨S512x2048, .bf16⟩
  | .local _ .vmem, ⟨1, _⟩ => ⟨S1024x1024, .f32⟩
  | .local _ .vmem, ⟨2, _⟩ => ⟨S1024x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x4096, .bf16⟩
  | .local _ .vmem, ⟨7, _⟩ => ⟨S1024x1024, .f32⟩
  | .local _ .vmem, ⟨8, _⟩ => ⟨S1024x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x4096, .bf16⟩
  | .local _ .vmem, ⟨13, _⟩ => ⟨S1024x1024, .f32⟩
  | .local _ .vmem, ⟨14, _⟩ => ⟨S1024x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x512, .f32⟩
  | .local _ .vmem, ⟨21, _⟩ => ⟨S1024x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x1024, .bf16⟩
  | .local _ .vmem, ⟨28, _⟩ => ⟨S512x1024, .bf16⟩
  | .local _ .vmem, ⟨29, _⟩ => ⟨S1024x512, .f32⟩
  | .local _ .vmem, ⟨30, _⟩ => ⟨S1024x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x1024, .bf16⟩
  | .local _ .vmem, ⟨37, _⟩ => ⟨S512x1024, .bf16⟩
  | .local _ .vmem, ⟨38, _⟩ => ⟨S1024x512, .f32⟩
  | .local _ .vmem, ⟨39, _⟩ => ⟨S1024x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc5_scratch0 : Ref sig .tc := ⟨.vmem, 44, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 4], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S512x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![2, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![2, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S8_S1x1x8_2 : S8.BroadcastsInDim S1x1x8 (![2] : Fin 1 → Fin S1x1x8.rank)
  bcast_S512x256x1_S512x256x8_0_1_2 : S512x256x1.BroadcastsInDim S512x256x8 (![0, 1, 2] : Fin 3 → Fin S512x256x8.rank)
  bcast_S1x1x8_S512x256x8_0_1_2 : S1x1x8.BroadcastsInDim S512x256x8 (![0, 1, 2] : Fin 3 → Fin S512x256x8.rank)
  bcast_S_S512x256x8 : S_.BroadcastsInDim S512x256x8 (![] : Fin 0 → Fin S512x256x8.rank)
  shapeCasts_S512x256x8_S512x2048 : S512x256x8.ShapeCasts S512x2048
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  natLt_1_32 : 1 < 32
  packedbf16_S512x1024_S512x1024_0_0 : (Rect.unit (s := S512x1024) ![0, 0] S512x1024.size inb_S512x1024_S512x1024_0_0).PackedRows (EltTy.packing .bf16)
  bcast_S_S512x1000 : S_.BroadcastsInDim S512x1000 (![] : Fin 0 → Fin S512x1000.rank)
  slices_S3x4096x1000_S1x4096x1000_0_0_0 : S3x4096x1000.Slices ![0, 0, 0] S1x4096x1000
  shapeCasts_S1x4096x1000_S4096x1000 : S1x4096x1000.ShapeCasts S4096x1000
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S3x4096x1000_S1x4096x1000_1_0_0 : S3x4096x1000.Slices ![1, 0, 0] S1x4096x1000
  slices_S3x4096x1000_S1x4096x1000_2_0_0 : S3x4096x1000.Slices ![2, 0, 0] S1x4096x1000
  dot_S512x1024_S1024x1024_S512x1024_1_1_0_0_n_n_wf : DotDims.WF S512x1024 S1024x1024 S512x1024 [1] [1] [0] [0] [] []
  dot_S512x1024_S1024x512_S512x512_1_0_0_1_n_n_wf : DotDims.WF S512x1024 S1024x512 S512x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S512x1024.size a ≤ S512x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .bf16 = 32 ∨ (Rect.block (s := S512x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x2048.size a
  hwx0_1 : ∀ i : grid0.Coords, EltTy.bits .f32 = 32 ∨ (Rect.block (s := S4096x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x4096.size a
  hwx0_2 : ∀ i : grid0.Coords, EltTy.bits .bf16 = 32 ∨ (Rect.block (s := S512x4096) S512x1024.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S512x1024.size a ≤ S512x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x4096.size a
  hwx1_0 : ∀ i : grid1.Coords, EltTy.bits .bf16 = 32 ∨ (Rect.block (s := S512x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x4096.size a
  hwx1_2 : ∀ i : grid1.Coords, EltTy.bits .bf16 = 32 ∨ (Rect.block (s := S512x4096) S512x1024.size (cc1_transform_2 i) (hinb1_2 i)).WholeWords (EltTy.packing .bf16)
  hrank2 : 0 < grid2.rank
  k2_mult1_dvd : ∀ i : grid2.Coords, 128 ∣ (k2_mult1 i).toNat
  k2_off1_inb : ∀ i : grid2.Coords, ∀ a, (k2_off1 i) a + S512x1024.size a ≤ S512x4096.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S512x4096.size a
  hwx2_0 : ∀ i : grid2.Coords, EltTy.bits .bf16 = 32 ∨ (Rect.block (s := S512x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S512x4096.size a
  hwx2_2 : ∀ i : grid2.Coords, EltTy.bits .bf16 = 32 ∨ (Rect.block (s := S512x4096) S512x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S512x4096.size a
  hwx3_0 : ∀ i : grid3.Coords, EltTy.bits .bf16 = 32 ∨ (Rect.block (s := S512x4096) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S1024x512.size a < S4096x1000.size a
  hwx3_1 : ∀ i : grid3.Coords, EltTy.bits .f32 = 32 ∨ (Rect.unit (s := S4096x1000) (fun a => cc3_transform_1 i a * S1024x512.size a) (fun a => (Pipeline.Clip.of (cc3_transform_1 i a) (S1024x512.size a) (S4096x1000.size a)).extent (S1024x512.size a)) fun a => Pipeline.Clip.inb (Pipeline.Clip.ok_of (hstart3_1 i a))).WholeWords (EltTy.packing .f32)
  hwxs3_1 : ∀ i : grid3.Coords, EltTy.bits .f32 = 32 ∨ (Rect.unit (s := S1024x512) (fun _ => 0) (fun a => (Pipeline.Clip.of (cc3_transform_1 i a) (S1024x512.size a) (S4096x1000.size a)).extent (S1024x512.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S512x512.size a < S512x1000.size a
  hwx3_2 : ∀ i : grid3.Coords, EltTy.bits .f32 = 32 ∨ (Rect.unit (s := S512x1000) (fun a => cc3_transform_2 i a * S512x512.size a) (fun a => (Pipeline.Clip.of (cc3_transform_2 i a) (S512x512.size a) (S512x1000.size a)).extent (S512x512.size a)) fun a => Pipeline.Clip.inb (Pipeline.Clip.ok_of (hstart3_2 i a))).WholeWords (EltTy.packing .f32)
  hwxs3_2 : ∀ i : grid3.Coords, EltTy.bits .f32 = 32 ∨ (Rect.unit (s := S512x512) (fun _ => 0) (fun a => (Pipeline.Clip.of (cc3_transform_2 i a) (S512x512.size a) (S512x1000.size a)).extent (S512x512.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S512x512.size a < S512x1000.size a
  hwx3_3 : ∀ i : grid3.Coords, EltTy.bits .f32 = 32 ∨ (Rect.unit (s := S512x1000) (fun a => cc3_transform_3 i a * S512x512.size a) (fun a => (Pipeline.Clip.of (cc3_transform_3 i a) (S512x512.size a) (S512x1000.size a)).extent (S512x512.size a)) fun a => Pipeline.Clip.inb (Pipeline.Clip.ok_of (hstart3_3 i a))).WholeWords (EltTy.packing .f32)
  hwxs3_3 : ∀ i : grid3.Coords, EltTy.bits .f32 = 32 ∨ (Rect.unit (s := S512x512) (fun _ => 0) (fun a => (Pipeline.Clip.of (cc3_transform_3 i a) (S512x512.size a) (S512x1000.size a)).extent (S512x512.size a)) fun a => (Nat.zero_add _).trans_le (Pipeline.Clip.extent_le (Pipeline.Clip.ok_of (hstart3_3 i a)))).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S512x4096.size a
  hwx4_0 : ∀ i : grid4.Coords, EltTy.bits .bf16 = 32 ∨ (Rect.block (s := S512x4096) S512x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S1024x512.size a < S4096x1000.size a
  hwx4_1 : ∀ i : grid4.Coords, EltTy.bits .f32 = 32 ∨ (Rect.unit (s := S4096x1000) (fun a => cc4_transform_1 i a * S1024x512.size a) (fun a => (Pipeline.Clip.of (cc4_transform_1 i a) (S1024x512.size a) (S4096x1000.size a)).extent (S1024x512.size a)) fun a => Pipeline.Clip.inb (Pipeline.Clip.ok_of (hstart4_1 i a))).WholeWords (EltTy.packing .f32)
  hwxs4_1 : ∀ i : grid4.Coords, EltTy.bits .f32 = 32 ∨ (Rect.unit (s := S1024x512) (fun _ => 0) (fun a => (Pipeline.Clip.of (cc4_transform_1 i a) (S1024x512.size a) (S4096x1000.size a)).extent (S1024x512.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S512x512.size a < S512x1000.size a
  hwx4_2 : ∀ i : grid4.Coords, EltTy.bits .f32 = 32 ∨ (Rect.unit (s := S512x1000) (fun a => cc4_transform_2 i a * S512x512.size a) (fun a => (Pipeline.Clip.of (cc4_transform_2 i a) (S512x512.size a) (S512x1000.size a)).extent (S512x512.size a)) fun a => Pipeline.Clip.inb (Pipeline.Clip.ok_of (hstart4_2 i a))).WholeWords (EltTy.packing .f32)
  hwxs4_2 : ∀ i : grid4.Coords, EltTy.bits .f32 = 32 ∨ (Rect.unit (s := S512x512) (fun _ => 0) (fun a => (Pipeline.Clip.of (cc4_transform_2 i a) (S512x512.size a) (S512x1000.size a)).extent (S512x512.size a)) fun a => (Nat.zero_add _).trans_le (Pipeline.Clip.extent_le (Pipeline.Clip.ok_of (hstart4_2 i a)))).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hstart4_3 : ∀ (i : grid4.Coords) a, cc4_transform_3 i a * S512x512.size a < S512x1000.size a
  hwx4_3 : ∀ i : grid4.Coords, EltTy.bits .f32 = 32 ∨ (Rect.unit (s := S512x1000) (fun a => cc4_transform_3 i a * S512x512.size a) (fun a => (Pipeline.Clip.of (cc4_transform_3 i a) (S512x512.size a) (S512x1000.size a)).extent (S512x512.size a)) fun a => Pipeline.Clip.inb (Pipeline.Clip.ok_of (hstart4_3 i a))).WholeWords (EltTy.packing .f32)
  hwxs4_3 : ∀ i : grid4.Coords, EltTy.bits .f32 = 32 ∨ (Rect.unit (s := S512x512) (fun _ => 0) (fun a => (Pipeline.Clip.of (cc4_transform_3 i a) (S512x512.size a) (S512x1000.size a)).extent (S512x512.size a)) fun a => (Nat.zero_add _).trans_le (Pipeline.Clip.extent_le (Pipeline.Clip.ok_of (hstart4_3 i a)))).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S512x4096.size a
  hwx5_0 : ∀ i : grid5.Coords, EltTy.bits .bf16 = 32 ∨ (Rect.block (s := S512x4096) S512x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S1024x512.size a < S4096x1000.size a
  hwx5_1 : ∀ i : grid5.Coords, EltTy.bits .f32 = 32 ∨ (Rect.unit (s := S4096x1000) (fun a => cc5_transform_1 i a * S1024x512.size a) (fun a => (Pipeline.Clip.of (cc5_transform_1 i a) (S1024x512.size a) (S4096x1000.size a)).extent (S1024x512.size a)) fun a => Pipeline.Clip.inb (Pipeline.Clip.ok_of (hstart5_1 i a))).WholeWords (EltTy.packing .f32)
  hwxs5_1 : ∀ i : grid5.Coords, EltTy.bits .f32 = 32 ∨ (Rect.unit (s := S1024x512) (fun _ => 0) (fun a => (Pipeline.Clip.of (cc5_transform_1 i a) (S1024x512.size a) (S4096x1000.size a)).extent (S1024x512.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S512x512.size a < S512x1000.size a
  hwx5_2 : ∀ i : grid5.Coords, EltTy.bits .f32 = 32 ∨ (Rect.unit (s := S512x1000) (fun a => cc5_transform_2 i a * S512x512.size a) (fun a => (Pipeline.Clip.of (cc5_transform_2 i a) (S512x512.size a) (S512x1000.size a)).extent (S512x512.size a)) fun a => Pipeline.Clip.inb (Pipeline.Clip.ok_of (hstart5_2 i a))).WholeWords (EltTy.packing .f32)
  hwxs5_2 : ∀ i : grid5.Coords, EltTy.bits .f32 = 32 ∨ (Rect.unit (s := S512x512) (fun _ => 0) (fun a => (Pipeline.Clip.of (cc5_transform_2 i a) (S512x512.size a) (S512x1000.size a)).extent (S512x512.size a)) fun a => (Nat.zero_add _).trans_le (Pipeline.Clip.extent_le (Pipeline.Clip.ok_of (hstart5_2 i a)))).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hstart5_3 : ∀ (i : grid5.Coords) a, cc5_transform_3 i a * S512x512.size a < S512x1000.size a
  hwx5_3 : ∀ i : grid5.Coords, EltTy.bits .f32 = 32 ∨ (Rect.unit (s := S512x1000) (fun a => cc5_transform_3 i a * S512x512.size a) (fun a => (Pipeline.Clip.of (cc5_transform_3 i a) (S512x512.size a) (S512x1000.size a)).extent (S512x512.size a)) fun a => Pipeline.Clip.inb (Pipeline.Clip.ok_of (hstart5_3 i a))).WholeWords (EltTy.packing .f32)
  hwxs5_3 : ∀ i : grid5.Coords, EltTy.bits .f32 = 32 ∨ (Rect.unit (s := S512x512) (fun _ => 0) (fun a => (Pipeline.Clip.of (cc5_transform_3 i a) (S512x512.size a) (S512x1000.size a)).extent (S512x512.size a)) fun a => (Nat.zero_add _).trans_le (Pipeline.Clip.extent_le (Pipeline.Clip.ok_of (hstart5_3 i a)))).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v22) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v23) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v24) S512x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v23) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpecClip (Memref.whole main_v28) S1024x512.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v26) S512x512.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v29) S512x512.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v24) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpecClip (Memref.whole main_v31) S1024x512.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v29) S512x512.size cc4_transform_2 reads4_2 false false 2 stage4_2 sem4_2
    hrank4 hreads4_2 hstart4_2 nbuf4_2 (Memref.isWhole_whole _) hwx4_2 hwxs4_2 hstage4_2

abbrev win4_3 : Pipeline.Window sig grid4 :=
  Pipeline.Window.ofSpecClip (Memref.whole main_v32) S512x512.size cc4_transform_3 reads4_3 true false 2 stage4_3 sem4_3
    hrank4 hreads4_3 hstart4_3 nbuf4_3 (Memref.isWhole_whole _) hwx4_3 hwxs4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v25) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpecClip (Memref.whole main_v34) S1024x512.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v32) S512x512.size cc5_transform_2 reads5_2 false false 2 stage5_2 sem5_2
    hrank5 hreads5_2 hstart5_2 nbuf5_2 (Memref.isWhole_whole _) hwx5_2 hwxs5_2 hstage5_2

abbrev win5_3 : Pipeline.Window sig grid5 :=
  Pipeline.Window.ofSpecClip (Memref.whole main_v35) S512x512.size cc5_transform_3 reads5_3 true false 2 stage5_3 sem5_3
    hrank5 hreads5_3 hstart5_3 nbuf5_3 (Memref.isWhole_whole _) hwx5_3 hwxs5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where
  halias3_3 : Pipeline.Aliased win3 2 3
  halias4_3 : Pipeline.Aliased win4 2 3
  halias5_3 : Pipeline.Aliased win5 2 3

variable [Facts]
-- ==== ReferenceIdeal.lean ====
abbrev S512x256 : Shape := ⟨2, ![512, 256]⟩
abbrev S4096x2048 : Shape := ⟨2, ![4096, 2048]⟩
abbrev S4096x4096 : Shape := ⟨2, ![4096, 4096]⟩
abbrev S3x4096x1000 : Shape := ⟨3, ![3, 4096, 1000]⟩
abbrev S_ : Shape := ⟨0, ![]⟩
abbrev S8 : Shape := ⟨1, ![8]⟩
abbrev S512x256x1 : Shape := ⟨3, ![512, 256, 1]⟩
abbrev S1x1x8 : Shape := ⟨3, ![1, 1, 8]⟩
abbrev S512x256x8 : Shape := ⟨3, ![512, 256, 8]⟩
abbrev S512x2048 : Shape := ⟨2, ![512, 2048]⟩
abbrev S512x1000 : Shape := ⟨2, ![512, 1000]⟩
abbrev S2048x4096 : Shape := ⟨2, ![2048, 4096]⟩
abbrev S512x4096 : Shape := ⟨2, ![512, 4096]⟩
abbrev S1x4096x1000 : Shape := ⟨3, ![1, 4096, 1000]⟩
abbrev S4096x1000 : Shape := ⟨2, ![4096, 1000]⟩

abbrev nBuf : Space → Nat
  | .hbm => 71
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S3x4096x1000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512x256, .i32⟩
  | .hbm, ⟨24, _⟩ => ⟨S_, .i32⟩
  | .hbm, ⟨25, _⟩ => ⟨S512x256, .i32⟩
  | .hbm, ⟨26, _⟩ => ⟨S512x256, .i32⟩
  | .hbm, ⟨27, _⟩ => ⟨S512x256, .i32⟩
  | .hbm, ⟨28, _⟩ => ⟨S8, .i32⟩
  | .hbm, ⟨29, _⟩ => ⟨S512x256x1, .i32⟩
  | .hbm, ⟨30, _⟩ => ⟨S1x1x8, .i32⟩
  | .hbm, ⟨31, _⟩ => ⟨S512x256x8, .i32⟩
  | .hbm, ⟨32, _⟩ => ⟨S512x256x8, .i32⟩
  | .hbm, ⟨33, _⟩ => ⟨S512x256x8, .i32⟩
  | .hbm, ⟨34, _⟩ => ⟨S_, .i32⟩
  | .hbm, ⟨35, _⟩ => ⟨S512x256x8, .i32⟩
  | .hbm, ⟨36, _⟩ => ⟨S512x256x8, .i32⟩
  | .hbm, ⟨37, _⟩ => ⟨S512x256x8, .f32⟩
  | .hbm, ⟨38, _⟩ => ⟨S512x2048, .f32⟩
  | .hbm, ⟨39, _⟩ => ⟨S_, .f32⟩
  | .hbm, ⟨40, _⟩ => ⟨S512x1000, .f32⟩
  | .hbm, ⟨41, _⟩ => ⟨S2048x4096, .f32⟩
  | .hbm, ⟨42, _⟩ => ⟨S512x4096, .f32⟩
  | .hbm, ⟨43, _⟩ => ⟨S_, .f32⟩
  | .hbm, ⟨44, _⟩ => ⟨S512x4096, .f32⟩
  | .hbm, ⟨45, _⟩ => ⟨S512x4096, .i1⟩
  | .hbm, ⟨46, _⟩ => ⟨S512x4096, .f32⟩
  | .hbm, ⟨47, _⟩ => ⟨S1x4096x1000, .f32⟩
  | .hbm, ⟨48, _⟩ => ⟨S4096x1000, .f32⟩
  | .hbm, ⟨49, _⟩ => ⟨S512x1000, .f32⟩
  | .hbm, ⟨50, _⟩ => ⟨S512x1000, .f32⟩
  | .hbm, ⟨51, _⟩ => ⟨S4096x4096, .f32⟩
  | .hbm, ⟨52, _⟩ => ⟨S512x4096, .f32⟩
  | .hbm, ⟨53, _⟩ => ⟨S_, .f32⟩
  | .hbm, ⟨54, _⟩ => ⟨S512x4096, .f32⟩
  | .hbm, ⟨55, _⟩ => ⟨S512x4096, .i1⟩
  | .hbm, ⟨56, _⟩ => ⟨S512x4096, .f32⟩
  | .hbm, ⟨57, _⟩ => ⟨S1x4096x1000, .f32⟩
  | .hbm, ⟨58, _⟩ => ⟨S4096x1000, .f32⟩
  | .hbm, ⟨59, _⟩ => ⟨S512x1000, .f32⟩
  | .hbm, ⟨60, _⟩ => ⟨S512x1000, .f32⟩
  | .hbm, ⟨61, _⟩ => ⟨S4096x4096, .f32⟩
  | .hbm, ⟨62, _⟩ => ⟨S512x4096, .f32⟩
  | .hbm, ⟨63, _⟩ => ⟨S_, .f32⟩
  | .hbm, ⟨64, _⟩ => ⟨S512x4096, .f32⟩
  | .hbm, ⟨65, _⟩ => ⟨S512x4096, .i1⟩
  | .hbm, ⟨66, _⟩ => ⟨S512x4096, .f32⟩
  | .hbm, ⟨67, _⟩ => ⟨S1x4096x1000, .f32⟩
  | .hbm, ⟨68, _⟩ => ⟨S4096x1000, .f32⟩
  | .hbm, ⟨69, _⟩ => ⟨S512x1000, .f32⟩
  | .hbm, ⟨70, _⟩ => ⟨S512x1000, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S8_S1x1x8_2 : S8.BroadcastsInDim S1x1x8 (![2] : Fin 1 → Fin S1x1x8.rank)
  bcast_S512x256x1_S512x256x8_0_1_2 : S512x256x1.BroadcastsInDim S512x256x8 (![0, 1, 2] : Fin 3 → Fin S512x256x8.rank)
  bcast_S1x1x8_S512x256x8_0_1_2 : S1x1x8.BroadcastsInDim S512x256x8 (![0, 1, 2] : Fin 3 → Fin S512x256x8.rank)
  bcast_S_S512x256x8 : S_.BroadcastsInDim S512x256x8 (![] : Fin 0 → Fin S512x256x8.rank)
  shapeCasts_S512x256x8_S512x2048 : S512x256x8.ShapeCasts S512x2048
  bcast_S_S512x1000 : S_.BroadcastsInDim S512x1000 (![] : Fin 0 → Fin S512x1000.rank)
  transposes_S4096x2048_S2048x4096_1_0 : S4096x2048.Transposes [1, 0] S2048x4096
  bcast_S_S512x4096 : S_.BroadcastsInDim S512x4096 (![] : Fin 0 → Fin S512x4096.rank)
  slices_S3x4096x1000_S1x4096x1000_0_0_0 : S3x4096x1000.Slices ![0, 0, 0] S1x4096x1000
  shapeCasts_S1x4096x1000_S4096x1000 : S1x4096x1000.ShapeCasts S4096x1000
  transposes_S4096x4096_S4096x4096_1_0 : S4096x4096.Transposes [1, 0] S4096x4096
  slices_S3x4096x1000_S1x4096x1000_1_0_0 : S3x4096x1000.Slices ![1, 0, 0] S1x4096x1000
  slices_S3x4096x1000_S1x4096x1000_2_0_0 : S3x4096x1000.Slices ![2, 0, 0] S1x4096x1000
  dot_S512x2048_S2048x4096_S512x4096_1_0_0_1_n_n_wf : DotDims.WF S512x2048 S2048x4096 S512x4096 [1] [0] [0] [1] [] []
  dot_S512x4096_S4096x1000_S512x1000_1_0_0_1_n_n_wf : DotDims.WF S512x4096 S4096x1000 S512x1000 [1] [0] [0] [1] [] []
  dot_S512x4096_S4096x4096_S512x4096_1_0_0_1_n_n_wf : DotDims.WF S512x4096 S4096x4096 S512x4096 [1] [0] [0] [1] [] []

variable [Facts₀]

def dot_S512x2048_S2048x4096_S512x4096_1_0_0_1_n_n : DotDims S512x2048 S2048x4096 S512x4096 where
  lhsContracting := [1]
  rhsContracting := [0]
  lhsNonContracting := [0]
  rhsNonContracting := [1]
  lhsBatch := []
  rhsBatch := []
  wf := dot_S512x2048_S2048x4096_S512x4096_1_0_0_1_n_n_wf
def dot_S512x4096_S4096x1000_S512x1000_1_0_0_1_n_n : DotDims S512x4096 S4096x1000 S512x1000 where
  lhsContracting := [1]
  rhsContracting := [0]
  lhsNonContracting := [0]
  rhsNonContracting := [1]
  lhsBatch := []
  rhsBatch := []
  wf := dot_S512x4096_S4096x1000_S512x1000_1_0_0_1_n_n_wf
def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf

class Facts : Prop extends Facts₀ where

variable [Facts]
-- ==== Proof.K.Thread.lean ====
import proofs.«409727_j78632261255731_3_alg».proof.Proof.Gen.Kernel.Launch
import proofs.«409727_j78632261255731_3_alg».proof.Proof.Gen.Kernel.Skeleton
import proofs.«409727_j78632261255731_3_alg».proof.Proof.Gen.Kernel.Points
import proofs.«409727_j78632261255731_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

abbrev UU : Type := UR sig nD τ × UR sig nD τ

local notation "𝕄" => MT nD τ sig Unit (Elt F) ℕ UU ℕ

abbrev EP1 : Emb (UR sig nD τ) (MT nD τ sig Unit (Elt F) ℕ UU ℕ) := embL
abbrev EP2 : Emb (UR sig nD τ) (MT nD τ sig Unit (Elt F) ℕ UU ℕ) := embR
abbrev 𝒱₀ : Variants := Variants.none
abbrev L : GSem nD τ sig → Finset Unit := fun _ => ∅
abbrev lv : GSem nD τ sig → Unit → ℕ := fun _ _ => 0

abbrev gh (p : Fin 6) (c : Dev nD) : sProp 𝕄 :=
  iprop(Pipeline.cellsGhost (Pipeline.pin (pcfgs (F := F)) adm) EP2 p c ∗ Pipeline.toksInit (Pipeline.pin (pcfgs (F := F)) adm) EP2 p c)

abbrev base (c : Dev nD) : sProp 𝕄 :=
  iprop((∃ r, prngReg c r) ∗ ∃ W, owes (c : Thread nD τ) (0 : CellTallies nD τ sig Unit) W)

def TS (Inv : Dev nD → Valuation τ sig (Elt F) → Prop) (G : Dev nD → sProp 𝕄) (c : Dev nD) : sProp 𝕄 :=
  iprop(∃ V : Valuation τ sig (Elt F), ⌜Inv c V⌝ ∗ StableHlo.held (c : Thread nD τ) (Pipeline.ucRefs τ sig) V ∗ base c ∗ G c)

def hostEx (ops : List (HloOp τ sig (Elt F))) (hsub : ops.Forall fun op => op.bufs ⊆ StableHlo.tcRefs τ sig)
    (hfresh : ops.Forall fun op => op.fresh = ∅)
    (Inv Inv' : Dev nD → Valuation τ sig (Elt F) → Prop) (hInv : ∀ c V, Inv c V → Inv' c (StableHlo.after ops V))
    (G : Dev nD → sProp 𝕄) :
    HostSeg (Name := ℕ) (U := UU) (pcfgs (F := F)) defs₀ 𝒱₀ L lv where
  prog := StableHlo.seq ops
  pre := TS Inv G
  post := TS Inv' G
  run c {β} k K := by
    unfold TS
    iintro ⟨Hk, Hbd, ⟨%V, %hV, Hh, HR⟩, Hla⟩
    have hrun := (HostSeg.ofOps (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => V) (fun c => iprop(base c ∗ G c))).run c k K
    dsimp only [HostSeg.ofOps] at hrun
    iapply hrun
    isplitl [Hk]
    · iintro ⟨Hbd, Hh, HR⟩
      iapply Hk
      isplitl [Hbd]; · iexact Hbd
      iexists (StableHlo.after ops V)
      isplitr; · ipureintro; exact hInv c V hV
      isplitl [Hh]; · iexact Hh
      iexact HR
    · isplitl [Hbd]; · iexact Hbd
      isplitl [Hh HR]
      · isplitl [Hh]; · iexact Hh
        iexact HR
      iexact Hla

def regionEx (p : Fin 6) (Inv Inv' : Dev nD → Valuation τ sig (Elt F) → Prop) (G : Dev nD → sProp 𝕄)
    (rd : Valuation τ sig (Elt F) → (q : Fin 6) → (c : Dev nD) → RDat τ (Elt F) Unit ℕ UU ℕ (Pipeline.pin (pcfgs (F := F)) adm q) c)
    (R : ∀ V, Pipeline.RDat.RegionSeg (pcfgs (F := F)) adm (rd V) () defs₀ 𝒱₀ L lv p)
    (hpre : ∀ V (c : Dev nD), iprop(StableHlo.held (c : Thread nD τ) (Pipeline.ucRefs τ sig) V ∗ base c) ⊢ (R V).pre c)
    (hpost : ∀ V (c : Dev nD), Inv c V → (R V).post c ⊢ iprop(∃ V', ⌜Inv' c V'⌝ ∗ StableHlo.held (c : Thread nD τ) (Pipeline.ucRefs τ sig) V' ∗ base c)) :
    HostSeg (Name := ℕ) (U := UU) (pcfgs (F := F)) defs₀ 𝒱₀ L lv where
  prog := Prog.lift (.customCall (Pipeline.entry p) ())
  pre := TS Inv (fun c => iprop(gh p c ∗ G c))
  post := TS Inv' G
  run c {β} k K := by
    unfold TS
    have hprog : (Prog.lift (.customCall (Pipeline.entry p) ()) >>= k : Prog (TpuEff nD τ sig (Elt F) (Pipeline.Sig Λ₀ (Fin 6) fun p => (pcfgs (F := F) p).Adm) .tc) β)
        = Prog.op (.customCall (Pipeline.entry p) ()) k := rfl
    rw [hprog]
    iintro ⟨Hk, Hbd, ⟨%V, %hV, Hh, Hb, Hg, HG⟩, #Hla⟩
    iapply (Pipeline.RDat.RegionSeg.wp (pcfgs (F := F)) adm (rd V) () cellOf_inj EP2 defs₀ 𝒱₀ L lv (R V) c none (fun u h => nomatch h) k K)
    isplitl [Hk HG]
    · iintro ⟨Hbd, Hpost⟩
      ihave H := (hpost V c hV) $$ Hpost
      icases H with ⟨%V', %hV', Hh, Hb⟩
      iapply Hk
      isplitl [Hbd]; · iexact Hbd
      iexists V'
      isplitr; · ipureintro; exact hV'
      isplitl [Hh]; · iexact Hh
      isplitl [Hb]; · iexact Hb
      iexact HG
    · isplitl [Hbd]; · iexact Hbd
      isplitl [Hh Hb]
      · iapply (hpre V c); isplitl [Hh]; · iexact Hh
        iexact Hb
      isplitr; · iexact Hla
      iexact Hg

theorem exitR {p : Fin 6} (rd : (q : Fin 6) → (c : Dev nD) → RDat τ (Elt F) Unit ℕ UU ℕ (Pipeline.pin (pcfgs (F := F)) adm q) c)
    (hw : Pipeline.WinFacts (Pipeline.pin (pcfgs (F := F)) adm p).spec) (harr : ∀ w, ((Pipeline.pin (pcfgs (F := F)) adm p).spec w).arr.IsWhole)
    (c : Dev nD) (hshare : ∀ w, (rd p c).share w = fullShare) (n : ℕ) (V : Valuation τ sig (Elt F)) :
    iprop((rd p c).arraysAt n ∗ Pipeline.unscopedRest (Ix := Unit) (Name := ℕ) (U := UU) (Lvl := ℕ) (Pipeline.pin (pcfgs (F := F)) adm p).spec c (fun b => V b))
      ⊢ iprop(∃ V' : Valuation τ sig (Elt F),
          ⌜(∀ b : Ref sig .tc, (∀ w, Pipeline.arrRef (Pipeline.pin (pcfgs (F := F)) adm p).spec w ≠ b) → V' b = V b)
            ∧ ∀ w, (rd p c).ArrAt w n (V' (Pipeline.arrRef (Pipeline.pin (pcfgs (F := F)) adm p).spec w))⌝
          ∗ StableHlo.held (c : Thread nD τ) (Pipeline.ucRefs τ sig) V') := by
  unfold RDat.arraysAt
  iintro ⟨Ha, Hrest⟩
  ihave Ha' := (BI.bigSep_exists_pi Finset.univ (fun w X => iprop(⌜(rd p c).ArrAt w n X⌝
      ∗ ((Pipeline.pin (pcfgs (F := F)) adm p).win w).arr.view.loc (c : Thread nD τ) ↦[((Pipeline.pin (pcfgs (F := F)) adm p).win w).arr.view.set]{(rd p c).share w} X))) $$ Ha
  icases Ha' with ⟨%A, Ha⟩
  ihave Ha2 := (BI.bigSep_pure_sep Finset.univ (fun w => (rd p c).ArrAt w n (A w))
      (fun w => ((Pipeline.pin (pcfgs (F := F)) adm p).win w).arr.view.loc (c : Thread nD τ) ↦[((Pipeline.pin (pcfgs (F := F)) adm p).win w).arr.view.set]{(rd p c).share w} A w)) $$ Ha
  icases Ha2 with ⟨%hA', Ha⟩
  iexists (Pipeline.withArrays (Pipeline.pin (pcfgs (F := F)) adm p).spec c V A)
  isplitr
  · ipureintro
    refine ⟨fun b hb => Pipeline.withArrays_of_ne _ c V A b hb, fun w => ?_⟩
    rw [Pipeline.withArrays_arr _ hw.arr_inj c V A w]; exact hA' w (Finset.mem_univ w)
  · have hrest : Pipeline.unscopedRest (Ix := Unit) (Name := ℕ) (U := UU) (Lvl := ℕ) (Pipeline.pin (pcfgs (F := F)) adm p).spec c
          (fun b => Pipeline.withArrays (Pipeline.pin (pcfgs (F := F)) adm p).spec c V A b)
        = Pipeline.unscopedRest (Ix := Unit) (Name := ℕ) (U := UU) (Lvl := ℕ) (Pipeline.pin (pcfgs (F := F)) adm p).spec c (fun b => V b) := by
      unfold Pipeline.unscopedRest
      exact bigSep_congr fun b hb => by
        dsimp only
        rw [Pipeline.withArrays_of_ne (Pipeline.pin (pcfgs (F := F)) adm p).spec c V A b
          (fun w e => (Finset.mem_sdiff.mp hb).2 (Finset.mem_image.mpr ⟨w, Finset.mem_univ _, e⟩))]
    rw [← Pipeline.unscopedBufs_held (Ix := Unit) (Name := ℕ) (U := UU) (Lvl := ℕ) c (Pipeline.withArrays (Pipeline.pin (pcfgs (F := F)) adm p).spec c V A),
      Pipeline.unscopedBufs_split (Pipeline.pin (pcfgs (F := F)) adm) p hw.arr_unscoped hw.arr_inj c _, hrest]
    isplitl [Ha]
    · iapply (Entails.of_eq (bigSep_congr (fun w _ => by rw [(harr w).set_eq_univ, hshare w, Pipeline.withArrays_arr _ hw.arr_inj c V A w]) :
        (bigSep Finset.univ fun w => (((Pipeline.pin (pcfgs (F := F)) adm p).win w).arr.view.loc (c : Thread nD τ) ↦[((Pipeline.pin (pcfgs (F := F)) adm p).win w).arr.view.set]{(rd p c).share w} A w : sProp 𝕄))
          = bigSep Finset.univ fun w => (((c : Thread nD τ).loc (Pipeline.arrRef (Pipeline.pin (pcfgs (F := F)) adm p).spec w)) ↦{fullShare} Pipeline.withArrays (Pipeline.pin (pcfgs (F := F)) adm p).spec c V A (Pipeline.arrRef (Pipeline.pin (pcfgs (F := F)) adm p).spec w) : sProp 𝕄)))
      iexact Ha
    · iexact Hrest

/-- Proof data that asks nothing of the values: enough for a frame, and the same for every region. -/
def frameDat (V : Valuation τ sig (Elt F)) (cfg : Cfg sig Λ₀) (c : Dev nD) : RDat τ (Elt F) Unit ℕ UU ℕ cfg c where
  A w := V (Pipeline.arrRef cfg.spec w)
  after _ _ _ _ := True
  Φ _ := Pipeline.ΦA cfg.spec c
  q _ := fullShare
  owed _ := 0

end Cert.Kernel.Hand
end
-- ==== Proof.K.FrameL0.lean ====
import proofs.«409727_j78632261255731_3_alg».proof.Proof.K.Thread
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]
local notation "𝕄" => MT nD τ sig Unit (Elt F) ℕ UU ℕ

abbrev frcond0_0 (i : grid0.Coords) : Prop := (Scalar.cmpi .ne (Scalar.extui (Scalar.cmpi .eq (BitVec.ofNat 32 (i 1).val) 0#32)) 0#32) = 1#1
abbrev frcond0_1 (i : grid0.Coords) : Prop := k0_cond2 i = 1#1

abbrev frscM0 : Memref sig .tc .vmem S512x1024 .f32 := Memref.whole cc0_scratch0

theorem frPhiA0_eq (c : Dev nD) :
    (Pipeline.ΦA spec0 c : sProp 𝕄)
      = iprop(iprop(iprop((∃ d, owns (c : Thread nD τ) frscM0 fullShare d))
          ∗ Pipeline.scopedRestBut (Ix := Unit) (Name := ℕ) (U := UU) (Lvl := ℕ) (Val := Elt F) spec0 c [cc0_scratch0]) ∗ (∃ r, prngReg c r)) := by
  unfold Pipeline.ΦA; rw [scopedRest0_split]; simp only [frscM0, owns_whole]; try rfl

set_option maxHeartbeats 8000000 in
/-- Both branch conditions fall either way, and every case runs by the same steps. -/
theorem frkernelRun0 (c : Dev nD) (i : grid0.Coords) (arg2 : Memref sig .tc .vmem S512x2048 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)
    (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)) -∗ K ⟨⟩))
      ⊢ wp frame (wpE (defs₀ (F := F)) Variants.none c none) E (cc0__layer_kernel i arg2 harg2 arg3 harg3 arg4 harg4 arg5 harg5) K := by
  simp only [cc0__layer_kernel_eq_skeleton]; unfold cc0__layer_kernel_skel
  unfold owns
  iintro ⟨⟨%d0, %f0, -, H0⟩, ⟨%d1, %f1, -, H1⟩, ⟨%d2, %f2, -, H2⟩, ⟨%d3, %f3, -, H3⟩, Hk⟩
  by_cases hc0 : frcond0_0 i <;> by_cases hc1 : frcond0_1 i <;>
  · sl_exec (disch := first | exact hc0 | exact hc1)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    iexists _; iexists _; isplitr; swap; · iexact H3
    ipureintro; rfl

set_option maxHeartbeats 4000000 in
theorem frbody0 (V : Valuation τ sig (Elt F)) (c : Dev nD) : (frameDat V cfg0 c).BodyObligation (defs₀ (F := F)) Variants.none () Set.univ := fun t Y _ => by
  rw [bigSep_W0, bigSep_W0]
  show iprop(Pipeline.ΦA spec0 c ∗ (frameDat V cfg0 c).owesAt () t.castSucc
      ∗ owns (c : Thread nD τ) (win0_0.stage (cfg0.slots t 0)) fullShare (Y 0)
      ∗ owns (c : Thread nD τ) (win0_1.stage (cfg0.slots t 1)) fullShare (Y 1)
      ∗ owns (c : Thread nD τ) (win0_2.stage (cfg0.slots t 2)) fullShare (Y 2))
    ⊢ wp frame (wpE (defs₀ (F := F)) Variants.none c none) Set.univ (bodyAt0 t) (fun _ =>
        iprop(Pipeline.ΦA spec0 c ∗ (frameDat V cfg0 c).owesAt () t.castSucc
          ∗ (∃ X, ⌜True⌝ ∗ owns (c : Thread nD τ) (win0_0.stage (cfg0.slots t 0)) fullShare X)
          ∗ (∃ X, ⌜True⌝ ∗ owns (c : Thread nD τ) (win0_1.stage (cfg0.slots t 1)) fullShare X)
          ∗ (∃ X, ⌜True⌝ ∗ owns (c : Thread nD τ) (win0_2.stage (cfg0.slots t 2)) fullShare X)))
  unfold bodyAt0
  rw [frPhiA0_eq]
  iintro ⟨⟨⟨HS, Hr⟩, Hg⟩, Ho, H0, H1, H2⟩
  iapply (frkernelRun0 c (grid0.coords t) _ _ _ _ _ _ _ _ Set.univ _)
  isplitl [H0]; · iexists _; iexact H0
  isplitl [H1]; · iexists _; iexact H1
  isplitl [H2]; · iexists _; iexact H2
  isplitl [HS]; · iexact HS
  iintro ⟨⟨%e0, H0⟩, ⟨%e1, H1⟩, ⟨%e2, H2⟩, HS⟩
  isplitl [HS Hr Hg]
  · isplitl [HS Hr]
    · isplitl [HS]; · iexact HS
      iexact Hr
    iexact Hg
  isplitl [Ho]; · iexact Ho
  isplitl [H0]
  · iexists _; isplitr; · ipureintro; trivial
    iexact H0
  isplitl [H1]
  · iexists _; isplitr; · ipureintro; trivial
    iexact H1
  iexists _; isplitr; · ipureintro; trivial
  iexact H2

end Cert.Kernel.Hand
end
-- ==== Proof.K.FrameL1.lean ====
import proofs.«409727_j78632261255731_3_alg».proof.Proof.K.Thread
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]
local notation "𝕄" => MT nD τ sig Unit (Elt F) ℕ UU ℕ

abbrev frcond1_0 (i : grid1.Coords) : Prop := (Scalar.cmpi .ne (Scalar.extui (Scalar.cmpi .eq (BitVec.ofNat 32 (i 1).val) 0#32)) 0#32) = 1#1
abbrev frcond1_1 (i : grid1.Coords) : Prop := k1_cond2 i = 1#1

abbrev frscM1 : Memref sig .tc .vmem S512x1024 .f32 := Memref.whole cc1_scratch0

theorem frPhiA1_eq (c : Dev nD) :
    (Pipeline.ΦA spec1 c : sProp 𝕄)
      = iprop(iprop(iprop((∃ d, owns (c : Thread nD τ) frscM1 fullShare d))
          ∗ Pipeline.scopedRestBut (Ix := Unit) (Name := ℕ) (U := UU) (Lvl := ℕ) (Val := Elt F) spec1 c [cc1_scratch0]) ∗ (∃ r, prngReg c r)) := by
  unfold Pipeline.ΦA; rw [scopedRest1_split]; simp only [frscM1, owns_whole]; try rfl

set_option maxHeartbeats 8000000 in
/-- Both branch conditions fall either way, and every case runs by the same steps. -/
theorem frkernelRun1 (c : Dev nD) (i : grid1.Coords) (arg2 : Memref sig .tc .vmem S512x4096 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)
    (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)) -∗ K ⟨⟩))
      ⊢ wp frame (wpE (defs₀ (F := F)) Variants.none c none) E (cc1__layer_kernel i arg2 harg2 arg3 harg3 arg4 harg4 arg5 harg5) K := by
  simp only [cc1__layer_kernel_eq_skeleton]; unfold cc1__layer_kernel_skel
  unfold owns
  iintro ⟨⟨%d0, %f0, -, H0⟩, ⟨%d1, %f1, -, H1⟩, ⟨%d2, %f2, -, H2⟩, ⟨%d3, %f3, -, H3⟩, Hk⟩
  by_cases hc0 : frcond1_0 i <;> by_cases hc1 : frcond1_1 i <;>
  · sl_exec (disch := first | exact hc0 | exact hc1)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    iexists _; iexists _; isplitr; swap; · iexact H3
    ipureintro; rfl

set_option maxHeartbeats 4000000 in
theorem frbody1 (V : Valuation τ sig (Elt F)) (c : Dev nD) : (frameDat V cfg1 c).BodyObligation (defs₀ (F := F)) Variants.none () Set.univ := fun t Y _ => by
  rw [bigSep_W1, bigSep_W1]
  show iprop(Pipeline.ΦA spec1 c ∗ (frameDat V cfg1 c).owesAt () t.castSucc
      ∗ owns (c : Thread nD τ) (win1_0.stage (cfg1.slots t 0)) fullShare (Y 0)
      ∗ owns (c : Thread nD τ) (win1_1.stage (cfg1.slots t 1)) fullShare (Y 1)
      ∗ owns (c : Thread nD τ) (win1_2.stage (cfg1.slots t 2)) fullShare (Y 2))
    ⊢ wp frame (wpE (defs₀ (F := F)) Variants.none c none) Set.univ (bodyAt1 t) (fun _ =>
        iprop(Pipeline.ΦA spec1 c ∗ (frameDat V cfg1 c).owesAt () t.castSucc
          ∗ (∃ X, ⌜True⌝ ∗ owns (c : Thread nD τ) (win1_0.stage (cfg1.slots t 0)) fullShare X)
          ∗ (∃ X, ⌜True⌝ ∗ owns (c : Thread nD τ) (win1_1.stage (cfg1.slots t 1)) fullShare X)
          ∗ (∃ X, ⌜True⌝ ∗ owns (c : Thread nD τ) (win1_2.stage (cfg1.slots t 2)) fullShare X)))
  unfold bodyAt1
  rw [frPhiA1_eq]
  iintro ⟨⟨⟨HS, Hr⟩, Hg⟩, Ho, H0, H1, H2⟩
  iapply (frkernelRun1 c (grid1.coords t) _ _ _ _ _ _ _ _ Set.univ _)
  isplitl [H0]; · iexists _; iexact H0
  isplitl [H1]; · iexists _; iexact H1
  isplitl [H2]; · iexists _; iexact H2
  isplitl [HS]; · iexact HS
  iintro ⟨⟨%e0, H0⟩, ⟨%e1, H1⟩, ⟨%e2, H2⟩, HS⟩
  isplitl [HS Hr Hg]
  · isplitl [HS Hr]
    · isplitl [HS]; · iexact HS
      iexact Hr
    iexact Hg
  isplitl [Ho]; · iexact Ho
  isplitl [H0]
  · iexists _; isplitr; · ipureintro; trivial
    iexact H0
  isplitl [H1]
  · iexists _; isplitr; · ipureintro; trivial
    iexact H1
  iexists _; isplitr; · ipureintro; trivial
  iexact H2

end Cert.Kernel.Hand
end
-- ==== Proof.K.FrameL2.lean ====
import proofs.«409727_j78632261255731_3_alg».proof.Proof.K.Thread
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]
local notation "𝕄" => MT nD τ sig Unit (Elt F) ℕ UU ℕ

abbrev frcond2_0 (i : grid2.Coords) : Prop := (Scalar.cmpi .ne (Scalar.extui (Scalar.cmpi .eq (BitVec.ofNat 32 (i 1).val) 0#32)) 0#32) = 1#1
abbrev frcond2_1 (i : grid2.Coords) : Prop := k2_cond2 i = 1#1

abbrev frscM2 : Memref sig .tc .vmem S512x1024 .f32 := Memref.whole cc2_scratch0

theorem frPhiA2_eq (c : Dev nD) :
    (Pipeline.ΦA spec2 c : sProp 𝕄)
      = iprop(iprop(iprop((∃ d, owns (c : Thread nD τ) frscM2 fullShare d))
          ∗ Pipeline.scopedRestBut (Ix := Unit) (Name := ℕ) (U := UU) (Lvl := ℕ) (Val := Elt F) spec2 c [cc2_scratch0]) ∗ (∃ r, prngReg c r)) := by
  unfold Pipeline.ΦA; rw [scopedRest2_split]; simp only [frscM2, owns_whole]; try rfl

set_option maxHeartbeats 8000000 in
/-- Both branch conditions fall either way, and every case runs by the same steps. -/
theorem frkernelRun2 (c : Dev nD) (i : grid2.Coords) (arg2 : Memref sig .tc .vmem S512x4096 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)
    (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)) -∗ K ⟨⟩))
      ⊢ wp frame (wpE (defs₀ (F := F)) Variants.none c none) E (cc2__layer_kernel i arg2 harg2 arg3 harg3 arg4 harg4 arg5 harg5) K := by
  simp only [cc2__layer_kernel_eq_skeleton]; unfold cc2__layer_kernel_skel
  unfold owns
  iintro ⟨⟨%d0, %f0, -, H0⟩, ⟨%d1, %f1, -, H1⟩, ⟨%d2, %f2, -, H2⟩, ⟨%d3, %f3, -, H3⟩, Hk⟩
  by_cases hc0 : frcond2_0 i <;> by_cases hc1 : frcond2_1 i <;>
  · sl_exec (disch := first | exact hc0 | exact hc1)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    iexists _; iexists _; isplitr; swap; · iexact H3
    ipureintro; rfl

set_option maxHeartbeats 4000000 in
theorem frbody2 (V : Valuation τ sig (Elt F)) (c : Dev nD) : (frameDat V cfg2 c).BodyObligation (defs₀ (F := F)) Variants.none () Set.univ := fun t Y _ => by
  rw [bigSep_W2, bigSep_W2]
  show iprop(Pipeline.ΦA spec2 c ∗ (frameDat V cfg2 c).owesAt () t.castSucc
      ∗ owns (c : Thread nD τ) (win2_0.stage (cfg2.slots t 0)) fullShare (Y 0)
      ∗ owns (c : Thread nD τ) (win2_1.stage (cfg2.slots t 1)) fullShare (Y 1)
      ∗ owns (c : Thread nD τ) (win2_2.stage (cfg2.slots t 2)) fullShare (Y 2))
    ⊢ wp frame (wpE (defs₀ (F := F)) Variants.none c none) Set.univ (bodyAt2 t) (fun _ =>
        iprop(Pipeline.ΦA spec2 c ∗ (frameDat V cfg2 c).owesAt () t.castSucc
          ∗ (∃ X, ⌜True⌝ ∗ owns (c : Thread nD τ) (win2_0.stage (cfg2.slots t 0)) fullShare X)
          ∗ (∃ X, ⌜True⌝ ∗ owns (c : Thread nD τ) (win2_1.stage (cfg2.slots t 1)) fullShare X)
          ∗ (∃ X, ⌜True⌝ ∗ owns (c : Thread nD τ) (win2_2.stage (cfg2.slots t 2)) fullShare X)))
  unfold bodyAt2
  rw [frPhiA2_eq]
  iintro ⟨⟨⟨HS, Hr⟩, Hg⟩, Ho, H0, H1, H2⟩
  iapply (frkernelRun2 c (grid2.coords t) _ _ _ _ _ _ _ _ Set.univ _)
  isplitl [H0]; · iexists _; iexact H0
  isplitl [H1]; · iexists _; iexact H1
  isplitl [H2]; · iexists _; iexact H2
  isplitl [HS]; · iexact HS
  iintro ⟨⟨%e0, H0⟩, ⟨%e1, H1⟩, ⟨%e2, H2⟩, HS⟩
  isplitl [HS Hr Hg]
  · isplitl [HS Hr]
    · isplitl [HS]; · iexact HS
      iexact Hr
    iexact Hg
  isplitl [Ho]; · iexact Ho
  isplitl [H0]
  · iexists _; isplitr; · ipureintro; trivial
    iexact H0
  isplitl [H1]
  · iexists _; isplitr; · ipureintro; trivial
    iexact H1
  iexists _; isplitr; · ipureintro; trivial
  iexact H2

end Cert.Kernel.Hand
end
-- ==== Proof.K.FrameP3.lean ====
import proofs.«409727_j78632261255731_3_alg».proof.Proof.K.Thread
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]
local notation "𝕄" => MT nD τ sig Unit (Elt F) ℕ UU ℕ

abbrev frcond3_0 (i : grid3.Coords) : Prop := (Scalar.cmpi .ne (Scalar.extui (Scalar.cmpi .eq (BitVec.ofNat 32 (i 1).val) 0#32)) 0#32) = 1#1
abbrev frcond3_1 (i : grid3.Coords) : Prop := k3_cond2 i = 1#1

set_option maxHeartbeats 1000000 in
/-- Both branch conditions fall either way, and every case runs by the same steps. -/
theorem frkernel3 (c : Dev nD) (E : Set ℕ) (i : grid3.Coords)
    (arg2 : Memref sig .tc .vmem S512x1024 .bf16) (harg2 : arg2.IsWhole)
    (arg3 : Memref sig .tc .vmem S1024x512 .f32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d)) -∗ K ⟨⟩))
      ⊢ wp frame (wpE (defs₀ (F := F)) Variants.none c none) E (cc3__proj_kernel i arg2 harg2 arg3 harg3 arg4 harg4 arg5 harg5 arg6 harg6) K := by
  simp only [cc3__proj_kernel_eq_skeleton]; unfold cc3__proj_kernel_skel
  unfold owns
  iintro ⟨⟨%d2, %f2, -, H2⟩, ⟨%d3, %f3, -, H3⟩, ⟨%d4, %f4, -, H4⟩, ⟨%d5, %f5, -, H5⟩, ⟨%d6, %f6, -, H6⟩, Hk⟩
  by_cases hc0 : frcond3_0 i <;> by_cases hc1 : frcond3_1 i <;>
  · sl_exec (disch := first | exact hc0 | exact hc1)
    sl_step
    iapply Hk
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

theorem frPhi3_eq (c : Dev nD) :
    (Pipeline.ΦA spec3 c : sProp 𝕄)
      = iprop(iprop(iprop(∃ d, owns (c : Thread nD τ) (Memref.whole cc3_scratch0 : Memref sig .tc .vmem S512x512 .f32) fullShare d)
          ∗ Pipeline.scopedRestBut (Ix := Unit) (Name := ℕ) (U := UU) (Lvl := ℕ) (Val := Elt F) spec3 c [cc3_scratch0]) ∗ (∃ r, prngReg c r)) := by
  unfold Pipeline.ΦA; rw [scopedRest3_split]; simp only [owns_whole]; try rfl

set_option maxHeartbeats 1000000 in
theorem frbody3 (V : Valuation τ sig (Elt F)) (c : Dev nD) :
    (frameDat V cfg3 c).BodyObligation (defs₀ (F := F)) Variants.none () Set.univ := fun t Y _ => by
  rw [bigSep_W3, bigSep_W3]
  show iprop(Pipeline.ΦA spec3 c ∗ (frameDat V cfg3 c).owesAt () t.castSucc
      ∗ owns (c : Thread nD τ) (st3_0 t) fullShare (Y 0) ∗ owns (c : Thread nD τ) (st3_1 t) fullShare (Y 1)
      ∗ owns (c : Thread nD τ) (st3_2 t) fullShare (Y 2) ∗ owns (c : Thread nD τ) (st3_3 t) fullShare (Y 3))
    ⊢ wp frame (wpE (defs₀ (F := F)) Variants.none c none) Set.univ (bodyAt3 t) fun _ =>
      iprop(Pipeline.ΦA spec3 c ∗ (frameDat V cfg3 c).owesAt () t.castSucc
        ∗ (∃ X, ⌜True⌝ ∗ owns (c : Thread nD τ) (st3_0 t) fullShare X) ∗ (∃ X, ⌜True⌝ ∗ owns (c : Thread nD τ) (st3_1 t) fullShare X)
        ∗ (∃ X, ⌜True⌝ ∗ owns (c : Thread nD τ) (st3_2 t) fullShare X) ∗ (∃ X, ⌜True⌝ ∗ owns (c : Thread nD τ) (st3_3 t) fullShare X))
  rw [frPhi3_eq]
  iintro ⟨⟨⟨HS, HR⟩, Hp⟩, Ho, H0, H1, H2, H3⟩
  iapply (frkernel3 c Set.univ _ _ _ _ _ _ _ _ _ _ _ _)
  isplitl [H0]; · iexists _; iexact H0
  isplitl [H1]; · iexists _; iexact H1
  isplitl [H2]; · iexists _; iexact H2
  isplitl [H3]; · iexists _; iexact H3
  isplitl [HS]; · iexact HS
  iintro ⟨⟨%x0, H0⟩, ⟨%x1, H1⟩, ⟨%x2, H2⟩, ⟨%x3, H3⟩, HS⟩
  isplitl [HS HR Hp]
  · isplitr [Hp]
    · isplitl [HS]; · iexact HS
      iexact HR
    iexact Hp
  isplitl [Ho]; · iexact Ho
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  iexists x3; isplitr; · ipureintro; trivial
  iexact H3

end Cert.Kernel.Hand
end
-- ==== Proof.K.FrameP4.lean ====
import proofs.«409727_j78632261255731_3_alg».proof.Proof.K.Thread
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]
local notation "𝕄" => MT nD τ sig Unit (Elt F) ℕ UU ℕ

abbrev frcond4_0 (i : grid4.Coords) : Prop := (Scalar.cmpi .ne (Scalar.extui (Scalar.cmpi .eq (BitVec.ofNat 32 (i 1).val) 0#32)) 0#32) = 1#1
abbrev frcond4_1 (i : grid4.Coords) : Prop := k4_cond2 i = 1#1

set_option maxHeartbeats 1000000 in
/-- Both branch conditions fall either way, and every case runs by the same steps. -/
theorem frkernel4 (c : Dev nD) (E : Set ℕ) (i : grid4.Coords)
    (arg2 : Memref sig .tc .vmem S512x1024 .bf16) (harg2 : arg2.IsWhole)
    (arg3 : Memref sig .tc .vmem S1024x512 .f32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d)) -∗ K ⟨⟩))
      ⊢ wp frame (wpE (defs₀ (F := F)) Variants.none c none) E (cc4__proj_kernel i arg2 harg2 arg3 harg3 arg4 harg4 arg5 harg5 arg6 harg6) K := by
  simp only [cc4__proj_kernel_eq_skeleton]; unfold cc4__proj_kernel_skel
  unfold owns
  iintro ⟨⟨%d2, %f2, -, H2⟩, ⟨%d3, %f3, -, H3⟩, ⟨%d4, %f4, -, H4⟩, ⟨%d5, %f5, -, H5⟩, ⟨%d6, %f6, -, H6⟩, Hk⟩
  by_cases hc0 : frcond4_0 i <;> by_cases hc1 : frcond4_1 i <;>
  · sl_exec (disch := first | exact hc0 | exact hc1)
    sl_step
    iapply Hk
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

theorem frPhi4_eq (c : Dev nD) :
    (Pipeline.ΦA spec4 c : sProp 𝕄)
      = iprop(iprop(iprop(∃ d, owns (c : Thread nD τ) (Memref.whole cc4_scratch0 : Memref sig .tc .vmem S512x512 .f32) fullShare d)
          ∗ Pipeline.scopedRestBut (Ix := Unit) (Name := ℕ) (U := UU) (Lvl := ℕ) (Val := Elt F) spec4 c [cc4_scratch0]) ∗ (∃ r, prngReg c r)) := by
  unfold Pipeline.ΦA; rw [scopedRest4_split]; simp only [owns_whole]; try rfl

set_option maxHeartbeats 1000000 in
theorem frbody4 (V : Valuation τ sig (Elt F)) (c : Dev nD) :
    (frameDat V cfg4 c).BodyObligation (defs₀ (F := F)) Variants.none () Set.univ := fun t Y _ => by
  rw [bigSep_W4, bigSep_W4]
  show iprop(Pipeline.ΦA spec4 c ∗ (frameDat V cfg4 c).owesAt () t.castSucc
      ∗ owns (c : Thread nD τ) (st4_0 t) fullShare (Y 0) ∗ owns (c : Thread nD τ) (st4_1 t) fullShare (Y 1)
      ∗ owns (c : Thread nD τ) (st4_2 t) fullShare (Y 2) ∗ owns (c : Thread nD τ) (st4_3 t) fullShare (Y 3))
    ⊢ wp frame (wpE (defs₀ (F := F)) Variants.none c none) Set.univ (bodyAt4 t) fun _ =>
      iprop(Pipeline.ΦA spec4 c ∗ (frameDat V cfg4 c).owesAt () t.castSucc
        ∗ (∃ X, ⌜True⌝ ∗ owns (c : Thread nD τ) (st4_0 t) fullShare X) ∗ (∃ X, ⌜True⌝ ∗ owns (c : Thread nD τ) (st4_1 t) fullShare X)
        ∗ (∃ X, ⌜True⌝ ∗ owns (c : Thread nD τ) (st4_2 t) fullShare X) ∗ (∃ X, ⌜True⌝ ∗ owns (c : Thread nD τ) (st4_3 t) fullShare X))
  rw [frPhi4_eq]
  iintro ⟨⟨⟨HS, HR⟩, Hp⟩, Ho, H0, H1, H2, H3⟩
  iapply (frkernel4 c Set.univ _ _ _ _ _ _ _ _ _ _ _ _)
  isplitl [H0]; · iexists _; iexact H0
  isplitl [H1]; · iexists _; iexact H1
  isplitl [H2]; · iexists _; iexact H2
  isplitl [H3]; · iexists _; iexact H3
  isplitl [HS]; · iexact HS
  iintro ⟨⟨%x0, H0⟩, ⟨%x1, H1⟩, ⟨%x2, H2⟩, ⟨%x3, H3⟩, HS⟩
  isplitl [HS HR Hp]
  · isplitr [Hp]
    · isplitl [HS]; · iexact HS
      iexact HR
    iexact Hp
  isplitl [Ho]; · iexact Ho
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  iexists x3; isplitr; · ipureintro; trivial
  iexact H3

end Cert.Kernel.Hand
end
-- ==== Proof.K.FrameP5.lean ====
import proofs.«409727_j78632261255731_3_alg».proof.Proof.K.Thread
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]
local notation "𝕄" => MT nD τ sig Unit (Elt F) ℕ UU ℕ

abbrev frcond5_0 (i : grid5.Coords) : Prop := (Scalar.cmpi .ne (Scalar.extui (Scalar.cmpi .eq (BitVec.ofNat 32 (i 1).val) 0#32)) 0#32) = 1#1
abbrev frcond5_1 (i : grid5.Coords) : Prop := k5_cond2 i = 1#1

set_option maxHeartbeats 1000000 in
/-- Both branch conditions fall either way, and every case runs by the same steps. -/
theorem frkernel5 (c : Dev nD) (E : Set ℕ) (i : grid5.Coords)
    (arg2 : Memref sig .tc .vmem S512x1024 .bf16) (harg2 : arg2.IsWhole)
    (arg3 : Memref sig .tc .vmem S1024x512 .f32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d)) -∗ K ⟨⟩))
      ⊢ wp frame (wpE (defs₀ (F := F)) Variants.none c none) E (cc5__proj_kernel i arg2 harg2 arg3 harg3 arg4 harg4 arg5 harg5 arg6 harg6) K := by
  simp only [cc5__proj_kernel_eq_skeleton]; unfold cc5__proj_kernel_skel
  unfold owns
  iintro ⟨⟨%d2, %f2, -, H2⟩, ⟨%d3, %f3, -, H3⟩, ⟨%d4, %f4, -, H4⟩, ⟨%d5, %f5, -, H5⟩, ⟨%d6, %f6, -, H6⟩, Hk⟩
  by_cases hc0 : frcond5_0 i <;> by_cases hc1 : frcond5_1 i <;>
  · sl_exec (disch := first | exact hc0 | exact hc1)
    sl_step
    iapply Hk
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

theorem frPhi5_eq (c : Dev nD) :
    (Pipeline.ΦA spec5 c : sProp 𝕄)
      = iprop(iprop(iprop(∃ d, owns (c : Thread nD τ) (Memref.whole cc5_scratch0 : Memref sig .tc .vmem S512x512 .f32) fullShare d)
          ∗ Pipeline.scopedRestBut (Ix := Unit) (Name := ℕ) (U := UU) (Lvl := ℕ) (Val := Elt F) spec5 c [cc5_scratch0]) ∗ (∃ r, prngReg c r)) := by
  unfold Pipeline.ΦA; rw [scopedRest5_split]; simp only [owns_whole]; try rfl

set_option maxHeartbeats 1000000 in
theorem frbody5 (V : Valuation τ sig (Elt F)) (c : Dev nD) :
    (frameDat V cfg5 c).BodyObligation (defs₀ (F := F)) Variants.none () Set.univ := fun t Y _ => by
  rw [bigSep_W5, bigSep_W5]
  show iprop(Pipeline.ΦA spec5 c ∗ (frameDat V cfg5 c).owesAt () t.castSucc
      ∗ owns (c : Thread nD τ) (st5_0 t) fullShare (Y 0) ∗ owns (c : Thread nD τ) (st5_1 t) fullShare (Y 1)
      ∗ owns (c : Thread nD τ) (st5_2 t) fullShare (Y 2) ∗ owns (c : Thread nD τ) (st5_3 t) fullShare (Y 3))
    ⊢ wp frame (wpE (defs₀ (F := F)) Variants.none c none) Set.univ (bodyAt5 t) fun _ =>
      iprop(Pipeline.ΦA spec5 c ∗ (frameDat V cfg5 c).owesAt () t.castSucc
        ∗ (∃ X, ⌜True⌝ ∗ owns (c : Thread nD τ) (st5_0 t) fullShare X) ∗ (∃ X, ⌜True⌝ ∗ owns (c : Thread nD τ) (st5_1 t) fullShare X)
        ∗ (∃ X, ⌜True⌝ ∗ owns (c : Thread nD τ) (st5_2 t) fullShare X) ∗ (∃ X, ⌜True⌝ ∗ owns (c : Thread nD τ) (st5_3 t) fullShare X))
  rw [frPhi5_eq]
  iintro ⟨⟨⟨HS, HR⟩, Hp⟩, Ho, H0, H1, H2, H3⟩
  iapply (frkernel5 c Set.univ _ _ _ _ _ _ _ _ _ _ _ _)
  isplitl [H0]; · iexists _; iexact H0
  isplitl [H1]; · iexists _; iexact H1
  isplitl [H2]; · iexists _; iexact H2
  isplitl [H3]; · iexists _; iexact H3
  isplitl [HS]; · iexact HS
  iintro ⟨⟨%x0, H0⟩, ⟨%x1, H1⟩, ⟨%x2, H2⟩, ⟨%x3, H3⟩, HS⟩
  isplitl [HS HR Hp]
  · isplitr [Hp]
    · isplitl [HS]; · iexact HS
      iexact HR
    iexact Hp
  isplitl [Ho]; · iexact Ho
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  iexists x3; isplitr; · ipureintro; trivial
  iexact H3

end Cert.Kernel.Hand
end
-- ==== Proof.K.FrameRun.lean ====
import proofs.«409727_j78632261255731_3_alg».proof.Proof.Gen.Kernel.Regions
import proofs.«409727_j78632261255731_3_alg».proof.Proof.K.Thread
import proofs.«409727_j78632261255731_3_alg».proof.Proof.K.FrameL0
import proofs.«409727_j78632261255731_3_alg».proof.Proof.K.FrameL1
import proofs.«409727_j78632261255731_3_alg».proof.Proof.K.FrameL2
import proofs.«409727_j78632261255731_3_alg».proof.Proof.K.FrameP3
import proofs.«409727_j78632261255731_3_alg».proof.Proof.K.FrameP4
import proofs.«409727_j78632261255731_3_alg».proof.Proof.K.FrameP5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ UU ℕ

abbrev famR (V : Valuation τ sig (Elt F)) : (q : Fin 6) → (c : Dev nD) → RDat τ (Elt F) Unit ℕ UU ℕ (Pipeline.pin (pcfgs (F := F)) adm q) c :=
  fun _ c => frameDat V _ c

/-- What a region may leave: every buffer other than its arrays unchanged. -/
def leftBy (p : Fin 6) (V V' : Valuation τ sig (Elt F)) (c : Dev nD) : Prop :=
  (∀ b : Ref sig .tc, (∀ w, Pipeline.arrRef (cfgs p).spec w ≠ b) → V' b = V b)
    ∧ ∀ w, (famR V p c).ArrAt w (cfgs p).N (V' (Pipeline.arrRef (cfgs p).spec w))

set_option backward.isDefEq.respectTransparency.types false in
/-- One record for all six regions: only the body obligation differs. -/
def regR (p : Fin 6) (V : Valuation τ sig (Elt F)) (lf : Pipeline.LaunchFacts (nD := nD) (τ := τ) cfgs p)
    (hbody : ∀ c, (famR V p c).BodyObligation (defs₀ (F := F)) 𝒱₀ () Set.univ) :
    Pipeline.RDat.RegionSeg (pcfgs (F := F)) adm (famR V) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.RDat.hwaits_of_owed_zero _ _ _ _ L lv p fun _ _ => rfl
  pre c := iprop(StableHlo.held (c : Thread nD τ) (Pipeline.ucRefs τ sig) V ∗ base c)
  post c := iprop(∃ V' : Valuation τ sig (Elt F), ⌜leftBy p V V' c⌝ ∗ StableHlo.held (c : Thread nD τ) (Pipeline.ucRefs τ sig) V' ∗ base c)
  X c := iprop(∃ r, prngReg c r)
  Y c := iprop(∃ r, prngReg c r)
  Z c := Pipeline.unscopedRest (Ix := Unit) (Name := ℕ) (U := UU) (Lvl := ℕ) (cfgs p).spec c (fun b => V b)
  hentry c := by
    rw [Pipeline.ownSems0_none]
    have hsplit := Pipeline.RDat.arrays_of_unscopedBufs (p := p) (pcfgs (F := F)) adm (famR V) lf.win lf.arr_whole c
      ((famR V p c).share_full fun _ => rfl) (fun b => V b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (famR V p c).Φ 0 = Pipeline.ΦA (cfgs p).spec c from rfl]; unfold Pipeline.ΦA
    iintro ⟨Hp, -, Hr⟩
    isplitl [Hr]; · iexact Hr
    iexact Hp
  hout c := by
    rw [Pipeline.ownSems0_none, show (famR V p c).Φ (Fin.last _) = Pipeline.ΦA (cfgs p).spec c from rfl]; unfold Pipeline.ΦA
    iintro ⟨Hr, Hp⟩
    isplitl [Hp]; · iexact Hp
    isplitr; · iempintro
    iexact Hr
  hexit c := by
    iintro ⟨Ha, HO, HY, Hrest⟩
    ihave H := (exitR (p := p) (famR V) lf.win lf.arr_whole c ((famR V p c).share_full fun _ => rfl) (cfgs p).N V) $$ [Ha Hrest]
    · isplitl [Ha]; · iexact Ha
      iexact Hrest
    icases H with ⟨%V', %hV', Hh⟩
    imodintro
    iexists V'
    isplitr; · ipureintro; exact hV'
    isplitl [Hh]; · iexact Hh
    isplitl [HY]; · iexact HY
    unfold RDat.owesAt Pipeline.owesWithin
    icases HO with ⟨%W, -, HO⟩; iexists W; iexact HO

abbrev reg0 (V : Valuation τ sig (Elt F)) := regR 0 V launch0 (frbody0 V)
abbrev reg1 (V : Valuation τ sig (Elt F)) := regR 1 V launch1 (frbody1 V)
abbrev reg2 (V : Valuation τ sig (Elt F)) := regR 2 V launch2 (frbody2 V)
abbrev reg3 (V : Valuation τ sig (Elt F)) := regR 3 V launch3 (frbody3 V)
abbrev reg4 (V : Valuation τ sig (Elt F)) := regR 4 V launch4 (frbody4 V)
abbrev reg5 (V : Valuation τ sig (Elt F)) := regR 5 V launch5 (frbody5 V)

variable (m : (ℓ : Loc nD τ sig) → Buf (Elt F) ℓ) (ρ : Dev nD → PrngReg)

def InvA (c : Dev nD) (V : Valuation τ sig (Elt F)) : Prop :=
  V main_arg0 = m ((c : Thread nD τ).loc main_arg0) ∧ V main_arg1 = m ((c : Thread nD τ).loc main_arg1)
  ∧ V main_arg2 = m ((c : Thread nD τ).loc main_arg2) ∧ V main_arg3 = m ((c : Thread nD τ).loc main_arg3)
  ∧ V main_arg4 = m ((c : Thread nD τ).loc main_arg4)

theorem InvA_host (ops : List (HloOp τ sig (Elt F))) (Wr : List (Ref sig .tc))
    (hw : ops.Forall fun op => op.writes ⊆ (Wr.map (Proc.devRef (τ := τ) .tc)).toFinset)
    (h0 : main_arg0 ∉ Wr) (h1 : main_arg1 ∉ Wr) (h2 : main_arg2 ∉ Wr) (h3 : main_arg3 ∉ Wr) (h4 : main_arg4 ∉ Wr)
    (c : Dev nD) (V : Valuation τ sig (Elt F)) (h : InvA m c V) : InvA m c (StableHlo.after ops V) :=
  ⟨(StableHlo.after_of_writes_sub ops V hw h0).trans h.1, (StableHlo.after_of_writes_sub ops V hw h1).trans h.2.1,
    (StableHlo.after_of_writes_sub ops V hw h2).trans h.2.2.1, (StableHlo.after_of_writes_sub ops V hw h3).trans h.2.2.2.1,
    (StableHlo.after_of_writes_sub ops V hw h4).trans h.2.2.2.2⟩

abbrev GG6 : Dev nD → sProp (MT nD τ sig Unit (Elt F) ℕ UU ℕ) := fun _ => iprop(emp)
abbrev GG5 : Dev nD → sProp (MT nD τ sig Unit (Elt F) ℕ UU ℕ) := fun c => iprop(gh 5 c ∗ GG6 c)
abbrev GG4 : Dev nD → sProp (MT nD τ sig Unit (Elt F) ℕ UU ℕ) := fun c => iprop(gh 4 c ∗ GG5 c)
abbrev GG3 : Dev nD → sProp (MT nD τ sig Unit (Elt F) ℕ UU ℕ) := fun c => iprop(gh 3 c ∗ GG4 c)
abbrev GG2 : Dev nD → sProp (MT nD τ sig Unit (Elt F) ℕ UU ℕ) := fun c => iprop(gh 2 c ∗ GG3 c)
abbrev GG1 : Dev nD → sProp (MT nD τ sig Unit (Elt F) ℕ UU ℕ) := fun c => iprop(gh 1 c ∗ GG2 c)
abbrev GG0 : Dev nD → sProp (MT nD τ sig Unit (Elt F) ℕ UU ℕ) := fun c => iprop(gh 0 c ∗ GG1 c)

/-- A region that leaves every argument as it found it keeps the arguments as launched. -/
theorem keeps (p : Fin 6) (V : Valuation τ sig (Elt F)) (c : Dev nD) (h : InvA m c V)
    (hk : ∀ V', leftBy p V V' c → V' main_arg0 = V main_arg0 ∧ V' main_arg1 = V main_arg1 ∧ V' main_arg2 = V main_arg2
      ∧ V' main_arg3 = V main_arg3 ∧ V' main_arg4 = V main_arg4) :
    iprop(∃ V' : Valuation τ sig (Elt F), ⌜leftBy p V V' c⌝ ∗ StableHlo.held (c : Thread nD τ) (Pipeline.ucRefs τ sig) V' ∗ base c)
      ⊢ iprop(∃ V', ⌜InvA m c V'⌝ ∗ StableHlo.held (c : Thread nD τ) (Pipeline.ucRefs τ sig) V' ∗ base c) := by
  iintro ⟨%V', %hV', H⟩
  iexists V'
  isplitr
  · ipureintro
    obtain ⟨k0, k1, k2, k3, k4⟩ := hk V' hV'
    exact ⟨k0.trans h.1, k1.trans h.2.1, k2.trans h.2.2.1, k3.trans h.2.2.2.1, k4.trans h.2.2.2.2⟩
  iexact H

/-- A layer region reads one argument, its weights, and writes none. -/
theorem hpostA0 (V : Valuation τ sig (Elt F)) (c : Dev nD) (h : InvA m c V) :
    (reg0 V).post c ⊢ iprop(∃ V', ⌜InvA m c V'⌝ ∗ StableHlo.held (c : Thread nD τ) (Pipeline.ucRefs τ sig) V' ∗ base c) :=
  keeps m 0 V c h fun V' hV' => ⟨hV'.1 main_arg0 (by decide),
    (by have h1 := hV'.2 1; rw [(famR V 0 c).ArrAt_in 1 rfl] at h1; exact h1),
    hV'.1 main_arg2 (by decide), hV'.1 main_arg3 (by decide), hV'.1 main_arg4 (by decide)⟩
theorem hpostA1 (V : Valuation τ sig (Elt F)) (c : Dev nD) (h : InvA m c V) :
    (reg1 V).post c ⊢ iprop(∃ V', ⌜InvA m c V'⌝ ∗ StableHlo.held (c : Thread nD τ) (Pipeline.ucRefs τ sig) V' ∗ base c) :=
  keeps m 1 V c h fun V' hV' => ⟨hV'.1 main_arg0 (by decide), hV'.1 main_arg1 (by decide),
    (by have h1 := hV'.2 1; rw [(famR V 1 c).ArrAt_in 1 rfl] at h1; exact h1),
    hV'.1 main_arg3 (by decide), hV'.1 main_arg4 (by decide)⟩
theorem hpostA2 (V : Valuation τ sig (Elt F)) (c : Dev nD) (h : InvA m c V) :
    (reg2 V).post c ⊢ iprop(∃ V', ⌜InvA m c V'⌝ ∗ StableHlo.held (c : Thread nD τ) (Pipeline.ucRefs τ sig) V' ∗ base c) :=
  keeps m 2 V c h fun V' hV' => ⟨hV'.1 main_arg0 (by decide), hV'.1 main_arg1 (by decide), hV'.1 main_arg2 (by decide),
    (by have h1 := hV'.2 1; rw [(famR V 2 c).ArrAt_in 1 rfl] at h1; exact h1),
    hV'.1 main_arg4 (by decide)⟩
/-- A read-out region has no argument among its arrays. -/
theorem hpostA3 (V : Valuation τ sig (Elt F)) (c : Dev nD) (h : InvA m c V) :
    (reg3 V).post c ⊢ iprop(∃ V', ⌜InvA m c V'⌝ ∗ StableHlo.held (c : Thread nD τ) (Pipeline.ucRefs τ sig) V' ∗ base c) :=
  keeps m 3 V c h fun V' hV' => ⟨hV'.1 main_arg0 (by decide), hV'.1 main_arg1 (by decide), hV'.1 main_arg2 (by decide),
    hV'.1 main_arg3 (by decide), hV'.1 main_arg4 (by decide)⟩
theorem hpostA4 (V : Valuation τ sig (Elt F)) (c : Dev nD) (h : InvA m c V) :
    (reg4 V).post c ⊢ iprop(∃ V', ⌜InvA m c V'⌝ ∗ StableHlo.held (c : Thread nD τ) (Pipeline.ucRefs τ sig) V' ∗ base c) :=
  keeps m 4 V c h fun V' hV' => ⟨hV'.1 main_arg0 (by decide), hV'.1 main_arg1 (by decide), hV'.1 main_arg2 (by decide),
    hV'.1 main_arg3 (by decide), hV'.1 main_arg4 (by decide)⟩
theorem hpostA5 (V : Valuation τ sig (Elt F)) (c : Dev nD) (h : InvA m c V) :
    (reg5 V).post c ⊢ iprop(∃ V', ⌜InvA m c V'⌝ ∗ StableHlo.held (c : Thread nD τ) (Pipeline.ucRefs τ sig) V' ∗ base c) :=
  keeps m 5 V c h fun V' hV' => ⟨hV'.1 main_arg0 (by decide), hV'.1 main_arg1 (by decide), hV'.1 main_arg2 (by decide),
    hV'.1 main_arg3 (by decide), hV'.1 main_arg4 (by decide)⟩

abbrev kitFam : (q : Fin 6) → (c : Dev nD) → RDat τ (Elt F) Unit ℕ UU ℕ (Pipeline.pin (pcfgs (F := F)) adm q) c :=
  fun q c => frameDat (fun b => m (c, b)) _ c

abbrev segsA : List (Pipeline.RDat.Seg (pcfgs (F := F)) adm (kitFam m) () defs₀ 𝒱₀ L lv) :=
  [ .host (hostEx hostOps0 hostOps0_sub hostOps0_fresh (InvA m) (InvA m) (InvA_host m hostOps0 hostOps0_W hostOps0_writes (by decide) (by decide) (by decide) (by decide) (by decide)) GG0),
    .host (hostEx hostOps0_1 hostOps0_1_sub hostOps0_1_fresh (InvA m) (InvA m) (InvA_host m hostOps0_1 hostOps0_1_W hostOps0_1_writes (by decide) (by decide) (by decide) (by decide) (by decide)) GG0),
    .host (hostEx hostOps0_2 hostOps0_2_sub hostOps0_2_fresh (InvA m) (InvA m) (InvA_host m hostOps0_2 hostOps0_2_W hostOps0_2_writes (by decide) (by decide) (by decide) (by decide) (by decide)) GG0),
    .host (hostEx hostOps0_3 hostOps0_3_sub hostOps0_3_fresh (InvA m) (InvA m) (InvA_host m hostOps0_3 hostOps0_3_W hostOps0_3_writes (by decide) (by decide) (by decide) (by decide) (by decide)) GG0),
    .host (hostEx hostOps0_4 hostOps0_4_sub hostOps0_4_fresh (InvA m) (InvA m) (InvA_host m hostOps0_4 hostOps0_4_W hostOps0_4_writes (by decide) (by decide) (by decide) (by decide) (by decide)) GG0),
    .host (regionEx 0 (InvA m) (InvA m) GG1 famR reg0 (fun _ _ => .rfl) (hpostA0 m)),
    .host (regionEx 1 (InvA m) (InvA m) GG2 famR reg1 (fun _ _ => .rfl) (hpostA1 m)),
    .host (regionEx 2 (InvA m) (InvA m) GG3 famR reg2 (fun _ _ => .rfl) (hpostA2 m)),
    .host (hostEx hostOps3 hostOps3_sub hostOps3_fresh (InvA m) (InvA m) (InvA_host m hostOps3 hostOps3_W hostOps3_writes (by decide) (by decide) (by decide) (by decide) (by decide)) GG3),
    .host (regionEx 3 (InvA m) (InvA m) GG4 famR reg3 (fun _ _ => .rfl) (hpostA3 m)),
    .host (hostEx hostOps4 hostOps4_sub hostOps4_fresh (InvA m) (InvA m) (InvA_host m hostOps4 hostOps4_W hostOps4_writes (by decide) (by decide) (by decide) (by decide) (by decide)) GG4),
    .host (regionEx 4 (InvA m) (InvA m) GG5 famR reg4 (fun _ _ => .rfl) (hpostA4 m)),
    .host (hostEx hostOps5 hostOps5_sub hostOps5_fresh (InvA m) (InvA m) (InvA_host m hostOps5 hostOps5_W hostOps5_writes (by decide) (by decide) (by decide) (by decide) (by decide)) GG5),
    .host (regionEx 5 (InvA m) (InvA m) GG6 famR reg5 (fun _ _ => .rfl) (hpostA5 m)) ]

theorem main_runA (c : Dev nD) : main (F := F) c = Pipeline.RDat.Seg.run (segsA m) := by
  rw [main_chain c, Pipeline.RDat.Seg.run_eq_chain]
  rfl

abbrev u₀ : UU :=
  (initOf (Pipeline.cells (Pipeline.pin (pcfgs (F := F)) adm) cellOf_inj) (Pipeline.launchToks (Pipeline.pin (pcfgs (F := F)) adm) cellOf_inj),
   initOf (Pipeline.cells (Pipeline.pin (pcfgs (F := F)) adm) cellOf_inj) (Pipeline.launchToks (Pipeline.pin (pcfgs (F := F)) adm) cellOf_inj))

abbrev Gl (c : Dev nD) : sProp (MT nD τ sig Unit (Elt F) ℕ UU ℕ) :=
  iprop((bigSep Finset.univ fun p : Fin 6 => Pipeline.cellsGhost (Pipeline.pin (pcfgs (F := F)) adm) EP2 p c)
    ∗ bigSep Finset.univ fun p : Fin 6 => (Pipeline.toksInit (Pipeline.pin (pcfgs (F := F)) adm) EP2 p c : sProp (MT nD τ sig Unit (Elt F) ℕ UU ℕ)))

theorem bigSep_P6 {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

theorem Gl_GG0 (c : Dev nD) : Gl (F := F) c ⊢ GG0 (F := F) c := by
  unfold Gl
  rw [bigSep_P6, bigSep_P6]
  iintro ⟨⟨C0, C1, C2, C3, C4, C5⟩, ⟨T0, T1, T2, T3, T4, T5⟩⟩
  isplitl [C0 T0]; · isplitl [C0]; · iexact C0
                     iexact T0
  isplitl [C1 T1]; · isplitl [C1]; · iexact C1
                     iexact T1
  isplitl [C2 T2]; · isplitl [C2]; · iexact C2
                     iexact T2
  isplitl [C3 T3]; · isplitl [C3]; · iexact C3
                     iexact T3
  isplitl [C4 T4]; · isplitl [C4]; · iexact C4
                     iexact T4
  isplitl [C5 T5]; · isplitl [C5]; · iexact C5
                     iexact T5
  iempintro

set_option backward.isDefEq.respectTransparency.types false in
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.RDat.θ_run_regions_kit (pcfgs (F := F)) adm (kitFam m) () cellOf_inj EP1 defs₀ 𝒱₀ L lv m ρ main (segsA m)
    (fun c Q => by rw [main_runA m c]) (by simp only [segsA, Pipeline.RDat.Seg.pipes_host, Pipeline.RDat.Seg.pipes_nil]; exact List.nodup_nil)
    (O₀ := 0) (hL := fun _ _ => rfl) (G := Gl (F := F)) (u₀ := u₀ (F := F)) (hu₀ := ?_)
    (T₀ := TS (InvA m) GG0)
    (Tₙ := fun c => iprop(∃ V : Valuation τ sig (Elt F), ⌜InvA m c V⌝ ∗ StableHlo.held (c : Thread nD τ) (Pipeline.ucRefs τ sig) V))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => ?_⟩)
    (hinit := ?_)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  ·
    iintro Hu
    ihave H := (ownU_pair _ _) $$ Hu
    icases H with ⟨H1, H2⟩
    imod (Pipeline.fund_ghost (Pipeline.pin (pcfgs (F := F)) adm) EP2 cellOf_inj) $$ H2 with ⟨Hg, Ht⟩
    imodintro
    isplitl [H1]; · iexact H1
    unfold Gl
    rw [bigSep_sep']
    isplitl [Hg]; · iexact Hg
    iexact Ht
  ·
    show TS (InvA m) GG6 c ⊢ iprop((∃ V : Valuation τ sig (Elt F), ⌜InvA m c V⌝ ∗ StableHlo.held (c : Thread nD τ) (Pipeline.ucRefs τ sig) V)
      ∗ ∃ W, owes (c : Thread nD τ) (0 : CellTallies nD τ sig Unit) W)
    unfold TS
    iintro ⟨%V, %hV, Hh, ⟨-, HO⟩, -⟩
    isplitl [Hh]
    · iexists V; isplitr; · ipureintro; exact hV
      iexact Hh
    iexact HO
  ·
    refine Pipeline.initEach L lv fun c => ?_
    rw [show unscopedBufs c (fun b => m ((c : Thread nD τ).loc b)) = StableHlo.held (c : Thread nD τ) (Pipeline.ucRefs τ sig) (fun b => m (c, b))
      from Pipeline.unscopedBufs_held c (fun b => m (c, b))]
    iintro ⟨⟨Hh, -, HO, -, Hp, HG⟩, -⟩
    imodintro
    unfold TS
    iexists (fun b => m (c, b))
    isplitr; · ipureintro; exact ⟨rfl, rfl, rfl, rfl, rfl⟩
    isplitl [Hh]; · iexact Hh
    isplitl [Hp HO]
    · isplitl [Hp]; · iexists _; iexact Hp
      iexists ∅; iexact HO
    iapply (Gl_GG0 c); iexact HG
  ·
    unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans hV.1,
        (h (Proc.devRef .tc main_arg1) (Finset.mem_filter.mpr ⟨StableHlo.devRef_mem_tcRefs main_arg1, by decide⟩)).trans hV.2.1,
        (h (Proc.devRef .tc main_arg2) (Finset.mem_filter.mpr ⟨StableHlo.devRef_mem_tcRefs main_arg2, by decide⟩)).trans hV.2.2.1,
        (h (Proc.devRef .tc main_arg3) (Finset.mem_filter.mpr ⟨StableHlo.devRef_mem_tcRefs main_arg3, by decide⟩)).trans hV.2.2.2.1,
        (h (Proc.devRef .tc main_arg4) (Finset.mem_filter.mpr ⟨StableHlo.devRef_mem_tcRefs main_arg4, by decide⟩)).trans hV.2.2.2.2⟩
    · iexact HSI

end Cert.Kernel.Hand
end
-- ==== Proof.KI.Thread.lean ====
import proofs.«409727_j78632261255731_3_alg».proof.Proof.Gen.KernelIdeal.Launch
import proofs.«409727_j78632261255731_3_alg».proof.Proof.Gen.KernelIdeal.Skeleton
import proofs.«409727_j78632261255731_3_alg».proof.Proof.Gen.KernelIdeal.Points
import proofs.«409727_j78632261255731_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

abbrev UU : Type := UR sig nD τ × UR sig nD τ

local notation "𝕄" => MT nD τ sig Unit (Elt F) ℕ UU ℕ

abbrev EP1 : Emb (UR sig nD τ) (MT nD τ sig Unit (Elt F) ℕ UU ℕ) := embL
abbrev EP2 : Emb (UR sig nD τ) (MT nD τ sig Unit (Elt F) ℕ UU ℕ) := embR
abbrev 𝒱₀ : Variants := Variants.none
abbrev L : GSem nD τ sig → Finset Unit := fun _ => ∅
abbrev lv : GSem nD τ sig → Unit → ℕ := fun _ _ => 0

abbrev gh (p : Fin 6) (c : Dev nD) : sProp 𝕄 :=
  iprop(Pipeline.cellsGhost (Pipeline.pin (pcfgs (F := F)) adm) EP2 p c ∗ Pipeline.toksInit (Pipeline.pin (pcfgs (F := F)) adm) EP2 p c)

abbrev base (c : Dev nD) : sProp 𝕄 :=
  iprop((∃ r, prngReg c r) ∗ ∃ W, owes (c : Thread nD τ) (0 : CellTallies nD τ sig Unit) W)

def TS (Inv : Dev nD → Valuation τ sig (Elt F) → Prop) (G : Dev nD → sProp 𝕄) (c : Dev nD) : sProp 𝕄 :=
  iprop(∃ V : Valuation τ sig (Elt F), ⌜Inv c V⌝ ∗ StableHlo.held (c : Thread nD τ) (Pipeline.ucRefs τ sig) V ∗ base c ∗ G c)

def hostEx (ops : List (HloOp τ sig (Elt F))) (hsub : ops.Forall fun op => op.bufs ⊆ StableHlo.tcRefs τ sig)
    (hfresh : ops.Forall fun op => op.fresh = ∅)
    (Inv Inv' : Dev nD → Valuation τ sig (Elt F) → Prop) (hInv : ∀ c V, Inv c V → Inv' c (StableHlo.after ops V))
    (G : Dev nD → sProp 𝕄) :
    HostSeg (Name := ℕ) (U := UU) (pcfgs (F := F)) defs₀ 𝒱₀ L lv where
  prog := StableHlo.seq ops
  pre := TS Inv G
  post := TS Inv' G
  run c {β} k K := by
    unfold TS
    iintro ⟨Hk, Hbd, ⟨%V, %hV, Hh, HR⟩, Hla⟩
    have hrun := (HostSeg.ofOps (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => V) (fun c => iprop(base c ∗ G c))).run c k K
    dsimp only [HostSeg.ofOps] at hrun
    iapply hrun
    isplitl [Hk]
    · iintro ⟨Hbd, Hh, HR⟩
      iapply Hk
      isplitl [Hbd]; · iexact Hbd
      iexists (StableHlo.after ops V)
      isplitr; · ipureintro; exact hInv c V hV
      isplitl [Hh]; · iexact Hh
      iexact HR
    · isplitl [Hbd]; · iexact Hbd
      isplitl [Hh HR]
      · isplitl [Hh]; · iexact Hh
        iexact HR
      iexact Hla

def dummyR (V : Valuation τ sig (Elt F)) (cfg : Cfg sig Λ₀) (c : Dev nD) : RDat τ (Elt F) Unit ℕ UU ℕ cfg c where
  A w := V (Pipeline.arrRef cfg.spec w)
  after _ _ _ _ := True
  Φ _ := iprop(emp)
  q _ := fullShare
  owed _ := 0

end Cert.KernelIdeal.Hand
end
-- ==== Proof.KI.ThreadD.lean ====
import proofs.«409727_j78632261255731_3_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ UU ℕ

def regionExD (p : Fin 6) (Inv Inv' : Dev nD → Valuation τ sig (Elt F) → Prop) (G : Dev nD → sProp 𝕄)
    (pd : Valuation τ sig (Elt F) → (q : Fin 6) → (c : Dev nD) → Dat τ (Elt F) Unit ℕ UU ℕ (Pipeline.pin (pcfgs (F := F)) adm q) c)
    (R : ∀ V, Pipeline.RegionSeg (pcfgs (F := F)) adm (pd V) () defs₀ 𝒱₀ L lv p)
    (hpre : ∀ V (c : Dev nD), iprop(StableHlo.held (c : Thread nD τ) (Pipeline.ucRefs τ sig) V ∗ base c) ⊢ (R V).pre c)
    (hpost : ∀ V (c : Dev nD), Inv c V → (R V).post c ⊢ iprop(∃ V', ⌜Inv' c V'⌝ ∗ StableHlo.held (c : Thread nD τ) (Pipeline.ucRefs τ sig) V' ∗ base c)) :
    HostSeg (Name := ℕ) (U := UU) (pcfgs (F := F)) defs₀ 𝒱₀ L lv where
  prog := Prog.lift (.customCall (Pipeline.entry p) ())
  pre := TS Inv (fun c => iprop(gh p c ∗ G c))
  post := TS Inv' G
  run c {β} k K := by
    unfold TS
    have hprog : (Prog.lift (.customCall (Pipeline.entry p) ()) >>= k : Prog (TpuEff nD τ sig (Elt F) (Pipeline.Sig Λ₀ (Fin 6) fun p => (pcfgs (F := F) p).Adm) .tc) β)
        = Prog.op (.customCall (Pipeline.entry p) ()) k := rfl
    rw [hprog]
    iintro ⟨Hk, Hbd, ⟨%V, %hV, Hh, Hb, Hg, HG⟩, #Hla⟩
    iapply (Pipeline.RegionSeg.wp (pcfgs (F := F)) adm (pd V) () cellOf_inj EP2 defs₀ 𝒱₀ L lv (R V) c none (fun u h => nomatch h) k K)
    isplitl [Hk HG]
    · iintro ⟨Hbd, Hpost⟩
      ihave H := (hpost V c hV) $$ Hpost
      icases H with ⟨%V', %hV', Hh, Hb⟩
      iapply Hk
      isplitl [Hbd]; · iexact Hbd
      iexists V'
      isplitr; · ipureintro; exact hV'
      isplitl [Hh]; · iexact Hh
      isplitl [Hb]; · iexact Hb
      iexact HG
    · isplitl [Hbd]; · iexact Hbd
      isplitl [Hh Hb]
      · iapply (hpre V c); isplitl [Hh]; · iexact Hh
        iexact Hb
      isplitr; · iexact Hla
      iexact Hg

end Cert.KernelIdeal.Hand
end
-- ==== Proof.KI.HostVals.lean ====
import proofs.«409727_j78632261255731_3_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

def grayLevelK {F : FTy → Type} [FloatOps F] (x : (⟨S512x256, .f32⟩ : BufTy).Contents (Elt F)) :
    (⟨S512x256, .i32⟩ : BufTy).Contents (Elt F) :=
  fptosi 32 (Host.roundeven (mulf (Host.divf (subf (minimumf (broadcastInDim S512x256 ![] bcast_S_S512x256 (id (constant S_ .f32 0x3F800000#32))) (maximumf (broadcastInDim S512x256 ![] bcast_S_S512x256 (id (constant S_ .f32 0x00000000#32))) x)) (broadcastInDim S512x256 ![] bcast_S_S512x256 (constant S_ .f32 0x00000000#32))) (broadcastInDim S512x256 ![] bcast_S_S512x256 (constant S_ .f32 0x3F800000#32))) (broadcastInDim S512x256 ![] bcast_S_S512x256 (constant S_ .f32 0x437F0000#32))))

def grayBitsK {F : FTy → Type} [FloatOps F] (x : (⟨S512x256, .f32⟩ : BufTy).Contents (Elt F)) :
    (⟨S512x2048, .f32⟩ : BufTy).Contents (Elt F) :=
  shapeCast _ (sitofp .f32 (andi (Host.shrsi (broadcastInDim S512x256x8 ![0, 1, 2] bcast_S512x256x1_S512x256x8_0_1_2 (broadcastInDim S512x256x1 ![0, 1] bcast_S512x256_S512x256x1_0_1 (xori (grayLevelK x) (Host.shrsi (grayLevelK x) (broadcastInDim S512x256 ![] bcast_S_S512x256 (constantI S_ 32 1#32)))))) (broadcastInDim S512x256x8 ![0, 1, 2] bcast_S1x1x8_S512x256x8_0_1_2 (broadcastInDim S1x1x8 ![2] bcast_S8_S1x1x8_2 (iotaInDim S8 32 0)))) (broadcastInDim S512x256x8 ![] bcast_S_S512x256x8 (constantI S_ 32 1#32)))) shapeCasts_S512x256x8_S512x2048

def grayStageK {F : FTy → Type} [FloatOps F] (x : (⟨S512x256, .f32⟩ : BufTy).Contents (Elt F)) :
    (⟨S512x2048, .bf16⟩ : BufTy).Contents (Elt F) :=
  ((truncf .bf16 · bitsLt_bf16_f32) : (⟨S512x2048, .f32⟩ : BufTy).Contents (Elt F) → (⟨S512x2048, .bf16⟩ : BufTy).Contents (Elt F))
    (grayBitsK x)

def grayK (x : S512x256.Idx → EReal) : S512x2048.Idx → EReal := grayStageK (F := Ideal) x

theorem grayK_apply (x : S512x256.Idx → EReal) (i : S512x2048.Idx) : grayK x i = grayBitsK (F := Ideal) x i := rfl

theorem host_v22 (W : Valuation τ sig (Elt Ideal)) :
    (StableHlo.after hostOps0_4 (StableHlo.after hostOps0_3 (StableHlo.after hostOps0_2 (StableHlo.after hostOps0_1
      (StableHlo.after hostOps0 W)))) main_v22 : S512x2048.Idx → EReal) = grayK (W main_arg0) := by
  show StableHlo.after hostOps0_4 (StableHlo.after hostOps0_3 (StableHlo.after hostOps0_2 (StableHlo.after hostOps0_1
      (StableHlo.after hostOps0 W)))) (Proc.devRef .tc main_v22) = _
  after_results_simp
  rfl

theorem host3_v26 (W : Valuation τ sig (Elt Ideal)) :
    @Eq (S512x1000.Idx → EReal) (StableHlo.after hostOps3 W main_v26) (fun _ => 0) := by
  show @Eq (S512x1000.Idx → EReal) (StableHlo.after hostOps3 W (Proc.devRef .tc main_v26)) (fun _ => 0)
  after_results
  funext i
  exact Ideal.ofBits_zero_f32

theorem host3_v29 (W : Valuation τ sig (Elt Ideal)) :
    @Eq (S512x1000.Idx → EReal) (StableHlo.after hostOps3 W main_v29) (fun _ => 0) := by
  show @Eq (S512x1000.Idx → EReal) (StableHlo.after hostOps3 W (Proc.devRef .tc main_v29)) (fun _ => 0)
  after_results
  funext i
  exact Ideal.ofBits_zero_f32

theorem sliceK_at (x4 : S3x4096x1000.Idx → EReal) (l : Fin 3) (off : Fin S3x4096x1000.rank → ℕ)
    (hs : S3x4096x1000.Slices off S1x4096x1000) (h0 : off 0 = l.val) (h1 : off 1 = 0) (h2 : off 2 = 0)
    (h : Fin 4096) (j : Fin 1000) :
    shapeCast S4096x1000 (extractStridedSlice S1x4096x1000 off x4 hs) shapeCasts_S1x4096x1000_S4096x1000 (ValueIdx.ix2 h j)
      = x4 (ValueIdx.ix3 l h j) := by
  have hh := h.isLt
  have hj := j.isLt
  rw [shapeCast_apply _ shapeCasts_S1x4096x1000_S4096x1000 (ValueIdx.ix2 h j) (ValueIdx.ix3 (0 : Fin 1) h j)
    (by rewrite [Shape.rowMajor_val_three, Shape.rowMajor_val_two]
        show (0 * 4096 + h.val) * 1000 + j.val = h.val * 1000 + j.val
        omega)]
  exact extractStridedSlice_apply off x4 hs (ValueIdx.ix3 (0 : Fin 1) h j) (ValueIdx.ix3 l h j) (fun a => match a with
    | ⟨0, _⟩ => by show l.val = off 0 + 0; omega
    | ⟨1, _⟩ => by show h.val = off 1 + h.val; omega
    | ⟨2, _⟩ => by show j.val = off 2 + j.val; omega)

theorem host3_v28 (W : Valuation τ sig (Elt Ideal)) (h : Fin 4096) (j : Fin 1000) :
    (StableHlo.after hostOps3 W main_v28 : S4096x1000.Idx → EReal) (ValueIdx.ix2 h j)
      = (W main_arg4 : S3x4096x1000.Idx → EReal) (ValueIdx.ix3 0 h j) := by
  have e : @Eq (S4096x1000.Idx → EReal) (StableHlo.after hostOps3 W (Proc.devRef .tc main_v28))
      (shapeCast S4096x1000 (extractStridedSlice S1x4096x1000 ![0, 0, 0] (W main_arg4 : S3x4096x1000.Idx → EReal)
        slices_S3x4096x1000_S1x4096x1000_0_0_0) shapeCasts_S1x4096x1000_S4096x1000) := by
    after_results; rfl
  exact (congrFun e _).trans (sliceK_at (W main_arg4) 0 ![0, 0, 0] slices_S3x4096x1000_S1x4096x1000_0_0_0 rfl rfl rfl h j)

theorem host4_v31 (W : Valuation τ sig (Elt Ideal)) (h : Fin 4096) (j : Fin 1000) :
    (StableHlo.after hostOps4 W main_v31 : S4096x1000.Idx → EReal) (ValueIdx.ix2 h j)
      = (W main_arg4 : S3x4096x1000.Idx → EReal) (ValueIdx.ix3 1 h j) := by
  have e : @Eq (S4096x1000.Idx → EReal) (StableHlo.after hostOps4 W (Proc.devRef .tc main_v31))
      (shapeCast S4096x1000 (extractStridedSlice S1x4096x1000 ![1, 0, 0] (W main_arg4 : S3x4096x1000.Idx → EReal)
        slices_S3x4096x1000_S1x4096x1000_1_0_0) shapeCasts_S1x4096x1000_S4096x1000) := by
    after_results; rfl
  exact (congrFun e _).trans (sliceK_at (W main_arg4) 1 ![1, 0, 0] slices_S3x4096x1000_S1x4096x1000_1_0_0 rfl rfl rfl h j)

theorem host4_v32 (W : Valuation τ sig (Elt Ideal)) :
    StableHlo.after hostOps4 W main_v32 = W main_v29 := by
  show StableHlo.after hostOps4 W (Proc.devRef .tc main_v32) = _
  after_results; rfl

theorem host5_v34 (W : Valuation τ sig (Elt Ideal)) (h : Fin 4096) (j : Fin 1000) :
    (StableHlo.after hostOps5 W main_v34 : S4096x1000.Idx → EReal) (ValueIdx.ix2 h j)
      = (W main_arg4 : S3x4096x1000.Idx → EReal) (ValueIdx.ix3 2 h j) := by
  have e : @Eq (S4096x1000.Idx → EReal) (StableHlo.after hostOps5 W (Proc.devRef .tc main_v34))
      (shapeCast S4096x1000 (extractStridedSlice S1x4096x1000 ![2, 0, 0] (W main_arg4 : S3x4096x1000.Idx → EReal)
        slices_S3x4096x1000_S1x4096x1000_2_0_0) shapeCasts_S1x4096x1000_S4096x1000) := by
    after_results; rfl
  exact (congrFun e _).trans (sliceK_at (W main_arg4) 2 ![2, 0, 0] slices_S3x4096x1000_S1x4096x1000_2_0_0 rfl rfl rfl h j)

theorem host5_v35 (W : Valuation τ sig (Elt Ideal)) :
    StableHlo.after hostOps5 W main_v35 = W main_v32 := by
  show StableHlo.after hostOps5 W (Proc.devRef .tc main_v35) = _
  after_results; rfl

end Cert.KernelIdeal.Hand

end
-- ==== Proof.Spec.lean ====
import Idealize.ShloMosaic.PureOps.Ideal
import Idealize.ShloMosaic.Lib.ValueIdx

noncomputable section

namespace Cert.Spec

open Idealize.ShloMosaic

def thr (z : EReal) : EReal :=
  (((Ideal.cmp .oge z (Ideal.ofBits .f32 0x40800000#32)).toNat : ℝ) : EReal)

def layer {K : ℕ} (x : Fin 512 → Fin K → EReal) (W : Fin 4096 → Fin K → EReal) (b : Fin 512) (h : Fin 4096) : EReal :=
  thr (∑ k : Fin K, x b k * W h k)

def proj (prev : Fin 512 → Fin 1000 → EReal) (act : Fin 512 → Fin 4096 → EReal) (w : Fin 4096 → Fin 1000 → EReal)
    (b : Fin 512) (j : Fin 1000) : EReal :=
  prev b j + ∑ h : Fin 4096, act b h * w h j

end Cert.Spec

end
-- ==== Proof.Ref.Value.lean ====
import proofs.«409727_j78632261255731_3_alg».proof.Proof.Gen.ReferenceIdeal.Run
import proofs.«409727_j78632261255731_3_alg».proof.Proof.Gen.ReferenceIdeal.Read
import proofs.«409727_j78632261255731_3_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem eq_ix2_of {n0 n1 : ℕ} (i : (⟨2, ![n0, n1]⟩ : Shape).Idx) (a : Fin n0) (b : Fin n1)
    (h0 : i 0 = a) (h1 : i 1 = b) : i = ValueIdx.ix2 a b := by
  subst h0 h1; exact ValueIdx.eq_ix2 i

theorem eq_ix3_of {n0 n1 n2 : ℕ} (i : (⟨3, ![n0, n1, n2]⟩ : Shape).Idx) (a : Fin n0) (b : Fin n1) (c : Fin n2)
    (h0 : i 0 = a) (h1 : i 1 = b) (h2 : i 2 = c) : i = ValueIdx.ix3 a b c := by
  subst h0 h1 h2; exact ValueIdx.eq_ix3 i

def grayR (x : S512x256.Idx → EReal) : Fin 512 → Fin 2048 → EReal :=
  fun b k => val_main_v21 (F := Ideal) x (ValueIdx.ix2 b k)

def refA0 (x0 : S512x256.Idx → EReal) (x1 : S4096x2048.Idx → EReal) : Fin 512 → Fin 4096 → EReal :=
  Cert.Spec.layer (grayR x0) (fun h k => x1 (ValueIdx.ix2 h k))
def refA1 (x0 : S512x256.Idx → EReal) (x1 : S4096x2048.Idx → EReal) (x2 : S4096x4096.Idx → EReal) : Fin 512 → Fin 4096 → EReal :=
  Cert.Spec.layer (refA0 x0 x1) (fun h k => x2 (ValueIdx.ix2 h k))
def refA2 (x0 : S512x256.Idx → EReal) (x1 : S4096x2048.Idx → EReal) (x2 : S4096x4096.Idx → EReal) (x3 : S4096x4096.Idx → EReal) : Fin 512 → Fin 4096 → EReal :=
  Cert.Spec.layer (refA1 x0 x1 x2) (fun h k => x3 (ValueIdx.ix2 h k))
def refW (x4 : S3x4096x1000.Idx → EReal) (l : Fin 3) : Fin 4096 → Fin 1000 → EReal :=
  fun h j => x4 (ValueIdx.ix3 l h j)

theorem thr_eq (z : EReal) :
    FloatOps.uitofp (F := Ideal) .f32 (FloatOps.cmpf (F := Ideal) (φ := .f32) .oge z (FloatOps.ofBits (F := Ideal) .f32 0x40800000#32))
      = Cert.Spec.thr z := rfl

theorem slice0_at (x4 : S3x4096x1000.Idx → EReal) (h : Fin 4096) (j : Fin 1000) :
    val_main_v29 (F := Ideal) x4 (ValueIdx.ix2 h j) = refW x4 0 h j := by
  rw [val_main_v29_apply, val_main_v28_apply]
  refine congrArg x4 (eq_ix3_of _ _ _ _ (Fin.ext ?_) (Fin.ext ?_) (Fin.ext ?_))
  · rfl
  · show (h.val * 1000 + j.val) / 1000 % 4096 = h.val
    have := h.isLt; have := j.isLt; omega
  · show (h.val * 1000 + j.val) % 1000 = j.val
    have := j.isLt; omega
theorem slice1_at (x4 : S3x4096x1000.Idx → EReal) (h : Fin 4096) (j : Fin 1000) :
    val_main_v38 (F := Ideal) x4 (ValueIdx.ix2 h j) = refW x4 1 h j := by
  rw [val_main_v38_apply, val_main_v37_apply]
  refine congrArg x4 (eq_ix3_of _ _ _ _ (Fin.ext ?_) (Fin.ext ?_) (Fin.ext ?_))
  · rfl
  · show (h.val * 1000 + j.val) / 1000 % 4096 = h.val
    have := h.isLt; have := j.isLt; omega
  · show (h.val * 1000 + j.val) % 1000 = j.val
    have := j.isLt; omega
theorem slice2_at (x4 : S3x4096x1000.Idx → EReal) (h : Fin 4096) (j : Fin 1000) :
    val_main_v47 (F := Ideal) x4 (ValueIdx.ix2 h j) = refW x4 2 h j := by
  rw [val_main_v47_apply, val_main_v46_apply]
  refine congrArg x4 (eq_ix3_of _ _ _ _ (Fin.ext ?_) (Fin.ext ?_) (Fin.ext ?_))
  · rfl
  · show (h.val * 1000 + j.val) / 1000 % 4096 = h.val
    have := h.isLt; have := j.isLt; omega
  · show (h.val * 1000 + j.val) % 1000 = j.val
    have := j.isLt; omega

theorem act0_at (x0 : S512x256.Idx → EReal) (x1 : S4096x2048.Idx → EReal) (b : Fin 512) (h : Fin 4096) :
    val_main_v27 (F := Ideal) x0 x1 (ValueIdx.ix2 b h) = refA0 x0 x1 b h := by
  rw [val_main_v27_apply, val_main_v26_apply, val_main_v25_apply, val_main_cst_6_apply, val_main_v24_apply]
  refine (thr_eq _).trans (congrArg Cert.Spec.thr (Finset.sum_congr rfl fun k _ => ?_))
  rw [val_main_v23_apply]
  exact congrArg₂ (· * ·) (congrArg (val_main_v21 (F := Ideal) x0) (eq_ix2_of _ b k rfl rfl))
    (congrArg x1 (eq_ix2_of _ h k rfl rfl))

theorem act1_at (x0 : S512x256.Idx → EReal) (x1 : S4096x2048.Idx → EReal) (x2 : S4096x4096.Idx → EReal) (b : Fin 512) (h : Fin 4096) :
    val_main_v36 (F := Ideal) x0 x1 x2 (ValueIdx.ix2 b h) = refA1 x0 x1 x2 b h := by
  rw [val_main_v36_apply, val_main_v35_apply, val_main_v34_apply, val_main_cst_7_apply, val_main_v33_apply]
  refine (thr_eq _).trans (congrArg Cert.Spec.thr (Finset.sum_congr rfl fun k _ => ?_))
  rw [val_main_v32_apply]
  exact congrArg₂ (· * ·) ((congrArg (val_main_v27 (F := Ideal) x0 x1) (eq_ix2_of _ b k rfl rfl)).trans (act0_at x0 x1 b k))
    (congrArg x2 (eq_ix2_of _ h k rfl rfl))

theorem act2_at (x0 : S512x256.Idx → EReal) (x1 : S4096x2048.Idx → EReal) (x2 : S4096x4096.Idx → EReal) (x3 : S4096x4096.Idx → EReal) (b : Fin 512) (h : Fin 4096) :
    val_main_v45 (F := Ideal) x0 x1 x2 x3 (ValueIdx.ix2 b h) = refA2 x0 x1 x2 x3 b h := by
  rw [val_main_v45_apply, val_main_v44_apply, val_main_v43_apply, val_main_cst_8_apply, val_main_v42_apply]
  refine (thr_eq _).trans (congrArg Cert.Spec.thr (Finset.sum_congr rfl fun k _ => ?_))
  rw [val_main_v41_apply]
  exact congrArg₂ (· * ·) ((congrArg (val_main_v36 (F := Ideal) x0 x1 x2) (eq_ix2_of _ b k rfl rfl)).trans (act1_at x0 x1 x2 b k))
    (congrArg x3 (eq_ix2_of _ h k rfl rfl))

theorem out0_at (x0 : S512x256.Idx → EReal) (x1 : S4096x2048.Idx → EReal) (x4 : S3x4096x1000.Idx → EReal) (b : Fin 512) (j : Fin 1000) :
    val_main_v31 (F := Ideal) x0 x1 x4 (ValueIdx.ix2 b j)
      = Cert.Spec.proj (fun _ _ => 0) (refA0 x0 x1) (refW x4 0) b j := by
  rw [val_main_v31_apply, val_main_v22_apply, val_main_cst_5_apply, val_main_v30_apply]
  refine congrArg₂ (· + ·) Ideal.ofBits_zero_f32 (Finset.sum_congr rfl fun h _ => ?_)
  exact congrArg₂ (· * ·) ((congrArg (val_main_v27 (F := Ideal) x0 x1) (eq_ix2_of _ b h rfl rfl)).trans (act0_at x0 x1 b h))
    ((congrArg (val_main_v29 (F := Ideal) x4) (eq_ix2_of _ h j rfl rfl)).trans (slice0_at x4 h j))

theorem out1_at (x0 : S512x256.Idx → EReal) (x1 : S4096x2048.Idx → EReal) (x2 : S4096x4096.Idx → EReal) (x4 : S3x4096x1000.Idx → EReal) (b : Fin 512) (j : Fin 1000) :
    val_main_v40 (F := Ideal) x0 x1 x2 x4 (ValueIdx.ix2 b j)
      = Cert.Spec.proj (Cert.Spec.proj (fun _ _ => 0) (refA0 x0 x1) (refW x4 0)) (refA1 x0 x1 x2) (refW x4 1) b j := by
  rw [val_main_v40_apply, val_main_v39_apply]
  refine congrArg₂ (· + ·) (out0_at x0 x1 x4 b j) (Finset.sum_congr rfl fun h _ => ?_)
  exact congrArg₂ (· * ·) ((congrArg (val_main_v36 (F := Ideal) x0 x1 x2) (eq_ix2_of _ b h rfl rfl)).trans (act1_at x0 x1 x2 b h))
    ((congrArg (val_main_v38 (F := Ideal) x4) (eq_ix2_of _ h j rfl rfl)).trans (slice1_at x4 h j))

theorem out2_at (x0 : S512x256.Idx → EReal) (x1 : S4096x2048.Idx → EReal) (x2 : S4096x4096.Idx → EReal) (x3 : S4096x4096.Idx → EReal) (x4 : S3x4096x1000.Idx → EReal) (b : Fin 512) (j : Fin 1000) :
    val_main_v49 (F := Ideal) x0 x1 x2 x3 x4 (ValueIdx.ix2 b j)
      = Cert.Spec.proj (Cert.Spec.proj (Cert.Spec.proj (fun _ _ => 0) (refA0 x0 x1) (refW x4 0)) (refA1 x0 x1 x2) (refW x4 1))
          (refA2 x0 x1 x2 x3) (refW x4 2) b j := by
  rw [val_main_v49_apply, val_main_v48_apply]
  refine congrArg₂ (· + ·) (out1_at x0 x1 x2 x4 b j) (Finset.sum_congr rfl fun h _ => ?_)
  exact congrArg₂ (· * ·) ((congrArg (val_main_v45 (F := Ideal) x0 x1 x2 x3) (eq_ix2_of _ b h rfl rfl)).trans (act2_at x0 x1 x2 x3 b h))
    ((congrArg (val_main_v47 (F := Ideal) x4) (eq_ix2_of _ h j rfl rfl)).trans (slice2_at x4 h j))

theorem ref_value (m : (ℓ : Loc nD τ sig) → Buf (Elt Ideal) ℓ) (c : Dev nD) (b : Fin 512) (j : Fin 1000) :
    (Cert.ReferenceIdeal.Value.res_main_v49 (F := Ideal) m c : S512x1000.Idx → EReal) (ValueIdx.ix2 b j)
      = Cert.Spec.proj (Cert.Spec.proj (Cert.Spec.proj (fun _ _ => 0)
            (refA0 (m ((c.tc : Thread nD τ).loc main_arg0)) (m ((c.tc : Thread nD τ).loc main_arg1)))
            (refW (m ((c.tc : Thread nD τ).loc main_arg4)) 0))
          (refA1 (m ((c.tc : Thread nD τ).loc main_arg0)) (m ((c.tc : Thread nD τ).loc main_arg1)) (m ((c.tc : Thread nD τ).loc main_arg2)))
          (refW (m ((c.tc : Thread nD τ).loc main_arg4)) 1))
        (refA2 (m ((c.tc : Thread nD τ).loc main_arg0)) (m ((c.tc : Thread nD τ).loc main_arg1)) (m ((c.tc : Thread nD τ).loc main_arg2))
          (m ((c.tc : Thread nD τ).loc main_arg3)))
        (refW (m ((c.tc : Thread nD τ).loc main_arg4)) 2) b j := by
  rw [val_main_v49_eq]
  exact out2_at _ _ _ _ _ b j

end Cert.ReferenceIdeal.RefValue

end
-- ==== Proof.GrayEq.lean ====
import proofs.«409727_j78632261255731_3_alg».proof.Proof.Ref.Value
import proofs.«409727_j78632261255731_3_alg».proof.Proof.KI.HostVals

set_option maxRecDepth 16384

noncomputable section

namespace Cert.KernelIdeal.Hand

open Idealize.ShloMosaic

theorem grayBitsK_eq_ref {F : FTy → Type} [FloatOps F]
    (x : (⟨Cert.KernelIdeal.S512x256, .f32⟩ : BufTy).Contents (Elt F)) :
    grayBitsK (F := F) x = Cert.ReferenceIdeal.Read.val_main_v21 (F := F) x := rfl

theorem gray_eq (x : (⟨2, ![512, 256]⟩ : Shape).Idx → EReal) (b : Fin 512) (k : Fin 2048) :
    Cert.KernelIdeal.Hand.grayK x (ValueIdx.ix2 b k) = Cert.ReferenceIdeal.RefValue.grayR x b k :=
  (grayK_apply x (ValueIdx.ix2 b k)).trans (congrFun (grayBitsK_eq_ref (F := Ideal) x) (ValueIdx.ix2 b k))

end Cert.KernelIdeal.Hand

end
-- ==== Proof.KI.ValueInv.lean ====
import proofs.«409727_j78632261255731_3_alg».proof.Proof.Gen.KernelIdeal.Regions
import proofs.«409727_j78632261255731_3_alg».proof.Proof.KI.HostVals
import proofs.«409727_j78632261255731_3_alg».proof.Proof.GrayEq
import proofs.«409727_j78632261255731_3_alg».proof.Proof.Ref.Value
import proofs.«409727_j78632261255731_3_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

abbrev argX0 : S512x256.Idx → EReal := m ((c : Thread nD τ).loc main_arg0)
abbrev argX1 : S4096x2048.Idx → EReal := m ((c : Thread nD τ).loc main_arg1)
abbrev argX2 : S4096x4096.Idx → EReal := m ((c : Thread nD τ).loc main_arg2)
abbrev argX3 : S4096x4096.Idx → EReal := m ((c : Thread nD τ).loc main_arg3)
abbrev argX4 : S3x4096x1000.Idx → EReal := m ((c : Thread nD τ).loc main_arg4)

def valA0 : Fin 512 → Fin 4096 → EReal :=
  Cert.Spec.layer (fun b k => grayK (argX0 m c) (ValueIdx.ix2 b k)) (fun h k => argX1 m c (ValueIdx.ix2 h k))
def valA1 : Fin 512 → Fin 4096 → EReal :=
  Cert.Spec.layer (valA0 m c) (fun h k => argX2 m c (ValueIdx.ix2 h k))
def valA2 : Fin 512 → Fin 4096 → EReal :=
  Cert.Spec.layer (valA1 m c) (fun h k => argX3 m c (ValueIdx.ix2 h k))
def valW (l : Fin 3) : Fin 4096 → Fin 1000 → EReal := fun h j => argX4 m c (ValueIdx.ix3 l h j)
def valP0 : Fin 512 → Fin 1000 → EReal := Cert.Spec.proj (fun _ _ => 0) (valA0 m c) (valW m c 0)
def valP1 : Fin 512 → Fin 1000 → EReal := Cert.Spec.proj (valP0 m c) (valA1 m c) (valW m c 1)
def valP2 : Fin 512 → Fin 1000 → EReal := Cert.Spec.proj (valP1 m c) (valA2 m c) (valW m c 2)

def Is2 {n0 n1 : ℕ} (v : (⟨2, ![n0, n1]⟩ : Shape).Idx → EReal) (f : Fin n0 → Fin n1 → EReal) : Prop :=
  ∀ (a : Fin n0) (b : Fin n1), v (ValueIdx.ix2 a b) = f a b

theorem Is2.of_eq {n0 n1 : ℕ} {v v' : (⟨2, ![n0, n1]⟩ : Shape).Idx → EReal} {f : Fin n0 → Fin n1 → EReal}
    (h : Is2 v f) (e : v' = v) : Is2 v' f := e ▸ h

theorem Is2.fun_eq {n0 n1 : ℕ} {v : (⟨2, ![n0, n1]⟩ : Shape).Idx → EReal} {f : Fin n0 → Fin n1 → EReal}
    (h : Is2 v f) : (fun a b => v (ValueIdx.ix2 a b)) = f := funext fun a => funext fun b => h a b

variable (V V' : Valuation τ sig (Elt Ideal))

def argsOK : Prop :=
  V main_arg0 = m ((c : Thread nD τ).loc main_arg0) ∧ V main_arg1 = m ((c : Thread nD τ).loc main_arg1) ∧ V main_arg2 = m ((c : Thread nD τ).loc main_arg2)
    ∧ V main_arg3 = m ((c : Thread nD τ).loc main_arg3) ∧ V main_arg4 = m ((c : Thread nD τ).loc main_arg4)

def I5 : Prop := argsOK m c V ∧ @Eq (S512x2048.Idx → EReal) (V main_v22) (grayK (argX0 m c))
def I6 : Prop := argsOK m c V ∧ Is2 (n0 := 512) (n1 := 4096) (V main_v23) (valA0 m c)
def I7 : Prop := argsOK m c V ∧ Is2 (n0 := 512) (n1 := 4096) (V main_v23) (valA0 m c)
  ∧ Is2 (n0 := 512) (n1 := 4096) (V main_v24) (valA1 m c)
def I8 : Prop := argsOK m c V ∧ Is2 (n0 := 512) (n1 := 4096) (V main_v23) (valA0 m c)
  ∧ Is2 (n0 := 512) (n1 := 4096) (V main_v24) (valA1 m c) ∧ Is2 (n0 := 512) (n1 := 4096) (V main_v25) (valA2 m c)
def I9 : Prop := I8 m c V ∧ Is2 (n0 := 512) (n1 := 1000) (V main_v26) (fun _ _ => 0)
  ∧ Is2 (n0 := 4096) (n1 := 1000) (V main_v28) (valW m c 0) ∧ Is2 (n0 := 512) (n1 := 1000) (V main_v29) (fun _ _ => 0)
def I10 : Prop := argsOK m c V ∧ Is2 (n0 := 512) (n1 := 4096) (V main_v24) (valA1 m c)
  ∧ Is2 (n0 := 512) (n1 := 4096) (V main_v25) (valA2 m c) ∧ Is2 (n0 := 512) (n1 := 1000) (V main_v29) (valP0 m c)
def I11 : Prop := I10 m c V ∧ Is2 (n0 := 4096) (n1 := 1000) (V main_v31) (valW m c 1)
  ∧ Is2 (n0 := 512) (n1 := 1000) (V main_v32) (valP0 m c)
def I12 : Prop := argsOK m c V ∧ Is2 (n0 := 512) (n1 := 4096) (V main_v25) (valA2 m c)
  ∧ Is2 (n0 := 512) (n1 := 1000) (V main_v32) (valP1 m c)
def I13 : Prop := I12 m c V ∧ Is2 (n0 := 4096) (n1 := 1000) (V main_v34) (valW m c 2)
  ∧ Is2 (n0 := 512) (n1 := 1000) (V main_v35) (valP1 m c)
def I14 : Prop := argsOK m c V ∧ Is2 (n0 := 512) (n1 := 1000) (V main_v35) (valP2 m c)

variable {m c V V'}

theorem argsOK_of_ne (r : Ref sig .tc) (h : argsOK m c V) (hne : ∀ b : Ref sig .tc, b ≠ r → V' b = V b)
    (h0 : main_arg0 ≠ r) (h1 : main_arg1 ≠ r) (h2 : main_arg2 ≠ r) (h3 : main_arg3 ≠ r) (h4 : main_arg4 ≠ r) :
    argsOK m c V' :=
  ⟨(hne _ h0).trans h.1, (hne _ h1).trans h.2.1, (hne _ h2).trans h.2.2.1, (hne _ h3).trans h.2.2.2.1,
    (hne _ h4).trans h.2.2.2.2⟩

theorem argsOK_host3 (h : argsOK m c V) : argsOK m c (StableHlo.after hostOps3 V) :=
  ⟨(StableHlo.after_of_writes_sub hostOps3 V hostOps3_writes (r := main_arg0) (by decide)).trans h.1,
   (StableHlo.after_of_writes_sub hostOps3 V hostOps3_writes (r := main_arg1) (by decide)).trans h.2.1,
   (StableHlo.after_of_writes_sub hostOps3 V hostOps3_writes (r := main_arg2) (by decide)).trans h.2.2.1,
   (StableHlo.after_of_writes_sub hostOps3 V hostOps3_writes (r := main_arg3) (by decide)).trans h.2.2.2.1,
   (StableHlo.after_of_writes_sub hostOps3 V hostOps3_writes (r := main_arg4) (by decide)).trans h.2.2.2.2⟩
theorem argsOK_host4 (h : argsOK m c V) : argsOK m c (StableHlo.after hostOps4 V) :=
  ⟨(StableHlo.after_of_writes_sub hostOps4 V hostOps4_writes (r := main_arg0) (by decide)).trans h.1,
   (StableHlo.after_of_writes_sub hostOps4 V hostOps4_writes (r := main_arg1) (by decide)).trans h.2.1,
   (StableHlo.after_of_writes_sub hostOps4 V hostOps4_writes (r := main_arg2) (by decide)).trans h.2.2.1,
   (StableHlo.after_of_writes_sub hostOps4 V hostOps4_writes (r := main_arg3) (by decide)).trans h.2.2.2.1,
   (StableHlo.after_of_writes_sub hostOps4 V hostOps4_writes (r := main_arg4) (by decide)).trans h.2.2.2.2⟩
theorem argsOK_host5 (h : argsOK m c V) : argsOK m c (StableHlo.after hostOps5 V) :=
  ⟨(StableHlo.after_of_writes_sub hostOps5 V hostOps5_writes (r := main_arg0) (by decide)).trans h.1,
   (StableHlo.after_of_writes_sub hostOps5 V hostOps5_writes (r := main_arg1) (by decide)).trans h.2.1,
   (StableHlo.after_of_writes_sub hostOps5 V hostOps5_writes (r := main_arg2) (by decide)).trans h.2.2.1,
   (StableHlo.after_of_writes_sub hostOps5 V hostOps5_writes (r := main_arg3) (by decide)).trans h.2.2.2.1,
   (StableHlo.after_of_writes_sub hostOps5 V hostOps5_writes (r := main_arg4) (by decide)).trans h.2.2.2.2⟩

theorem inv_pre (V0 : Valuation τ sig (Elt Ideal)) (h : ∀ b : DevRef τ sig, V0 b = m (c, b)) :
    I5 m c (StableHlo.after hostOps0_4 (StableHlo.after hostOps0_3 (StableHlo.after hostOps0_2 (StableHlo.after hostOps0_1
      (StableHlo.after hostOps0 V0))))) := by
  obtain rfl : V0 = fun b => m (c, b) := funext h
  refine ⟨⟨?_, ?_, ?_, ?_, ?_⟩, ?_⟩
  · exact (V5_of m c main_arg0 (by decide)).trans <| (V4_of m c main_arg0 (by decide)).trans <| (V3_of m c main_arg0 (by decide)).trans <| (V2_of m c main_arg0 (by decide)).trans <| (V1_of m c main_arg0 (by decide)).trans rfl
  · exact (V5_of m c main_arg1 (by decide)).trans <| (V4_of m c main_arg1 (by decide)).trans <| (V3_of m c main_arg1 (by decide)).trans <| (V2_of m c main_arg1 (by decide)).trans <| (V1_of m c main_arg1 (by decide)).trans rfl
  · exact (V5_of m c main_arg2 (by decide)).trans <| (V4_of m c main_arg2 (by decide)).trans <| (V3_of m c main_arg2 (by decide)).trans <| (V2_of m c main_arg2 (by decide)).trans <| (V1_of m c main_arg2 (by decide)).trans rfl
  · exact (V5_of m c main_arg3 (by decide)).trans <| (V4_of m c main_arg3 (by decide)).trans <| (V3_of m c main_arg3 (by decide)).trans <| (V2_of m c main_arg3 (by decide)).trans <| (V1_of m c main_arg3 (by decide)).trans rfl
  · exact (V5_of m c main_arg4 (by decide)).trans <| (V4_of m c main_arg4 (by decide)).trans <| (V3_of m c main_arg4 (by decide)).trans <| (V2_of m c main_arg4 (by decide)).trans <| (V1_of m c main_arg4 (by decide)).trans rfl
  · exact host_v22 (fun b => m (c, b))

theorem layer_step {K : ℕ} {x : (⟨2, ![512, K]⟩ : Shape).Idx → EReal} {w : (⟨2, ![4096, K]⟩ : Shape).Idx → EReal}
    {o : (⟨2, ![512, 4096]⟩ : Shape).Idx → EReal} {X : Fin 512 → Fin K → EReal} {W : Fin 4096 → Fin K → EReal}
    (hx : Is2 x X) (hw : Is2 w W)
    (ho : ∀ b h, o (ValueIdx.ix2 b h) = Cert.Spec.layer (fun b k => x (ValueIdx.ix2 b k)) (fun h k => w (ValueIdx.ix2 h k)) b h) :
    Is2 o (Cert.Spec.layer X W) := fun b h => by
  rw [ho b h, hx.fun_eq, hw.fun_eq]

theorem proj_step {p : (⟨2, ![512, 1000]⟩ : Shape).Idx → EReal} {a : (⟨2, ![512, 4096]⟩ : Shape).Idx → EReal}
    {w : (⟨2, ![4096, 1000]⟩ : Shape).Idx → EReal} {o : (⟨2, ![512, 1000]⟩ : Shape).Idx → EReal}
    {P : Fin 512 → Fin 1000 → EReal} {A : Fin 512 → Fin 4096 → EReal} {W : Fin 4096 → Fin 1000 → EReal}
    (hp : Is2 p P) (ha : Is2 a A) (hw : Is2 w W)
    (ho : ∀ b j, o (ValueIdx.ix2 b j) = Cert.Spec.proj (fun b j => p (ValueIdx.ix2 b j)) (fun b h => a (ValueIdx.ix2 b h))
      (fun h j => w (ValueIdx.ix2 h j)) b j) :
    Is2 o (Cert.Spec.proj P A W) := fun b j => by
  rw [ho b j, hp.fun_eq, ha.fun_eq, hw.fun_eq]

theorem inv_reg0 (h : I5 m c V) (hne : ∀ b : Ref sig .tc, b ≠ main_v23 → V' b = V b)
    (hout : ∀ (b : Fin 512) (h : Fin 4096), (V' main_v23 : S512x4096.Idx → EReal) (ValueIdx.ix2 b h)
      = Cert.Spec.layer (fun b k => (V main_v22 : S512x2048.Idx → EReal) (ValueIdx.ix2 b k))
          (fun h k => (V main_arg1 : S4096x2048.Idx → EReal) (ValueIdx.ix2 h k)) b h) :
    I6 m c V' :=
  ⟨argsOK_of_ne main_v23 h.1 hne (by decide) (by decide) (by decide) (by decide) (by decide),
    layer_step (x := V main_v22) (w := V main_arg1) (fun b k => congrFun h.2 _) (fun a b => congrFun h.1.2.1 _) hout⟩

theorem inv_reg1 (h : I6 m c V) (hne : ∀ b : Ref sig .tc, b ≠ main_v24 → V' b = V b)
    (hout : ∀ (b : Fin 512) (h : Fin 4096), (V' main_v24 : S512x4096.Idx → EReal) (ValueIdx.ix2 b h)
      = Cert.Spec.layer (fun b k => (V main_v23 : S512x4096.Idx → EReal) (ValueIdx.ix2 b k))
          (fun h k => (V main_arg2 : S4096x4096.Idx → EReal) (ValueIdx.ix2 h k)) b h) :
    I7 m c V' :=
  ⟨argsOK_of_ne main_v24 h.1 hne (by decide) (by decide) (by decide) (by decide) (by decide),
    h.2.of_eq (hne main_v23 (by decide)),
    layer_step (x := V main_v23) (w := V main_arg2) h.2 (fun a b => congrFun h.1.2.2.1 _) hout⟩

theorem inv_reg2 (h : I7 m c V) (hne : ∀ b : Ref sig .tc, b ≠ main_v25 → V' b = V b)
    (hout : ∀ (b : Fin 512) (h : Fin 4096), (V' main_v25 : S512x4096.Idx → EReal) (ValueIdx.ix2 b h)
      = Cert.Spec.layer (fun b k => (V main_v24 : S512x4096.Idx → EReal) (ValueIdx.ix2 b k))
          (fun h k => (V main_arg3 : S4096x4096.Idx → EReal) (ValueIdx.ix2 h k)) b h) :
    I8 m c V' :=
  ⟨argsOK_of_ne main_v25 h.1 hne (by decide) (by decide) (by decide) (by decide) (by decide),
    h.2.1.of_eq (hne main_v23 (by decide)), h.2.2.of_eq (hne main_v24 (by decide)),
    layer_step (x := V main_v24) (w := V main_arg3) h.2.2 (fun a b => congrFun h.1.2.2.2.1 _) hout⟩

theorem inv_host3 (h : I8 m c V) : I9 m c (StableHlo.after hostOps3 V) :=
  ⟨⟨argsOK_host3 h.1,
      h.2.1.of_eq (StableHlo.after_of_writes_sub hostOps3 V hostOps3_writes (r := main_v23) (by decide)),
      h.2.2.1.of_eq (StableHlo.after_of_writes_sub hostOps3 V hostOps3_writes (r := main_v24) (by decide)),
      h.2.2.2.of_eq (StableHlo.after_of_writes_sub hostOps3 V hostOps3_writes (r := main_v25) (by decide))⟩,
    fun a b => congrFun (host3_v26 V) _,
    fun a b => (host3_v28 V a b).trans (congrFun h.1.2.2.2.2 _),
    fun a b => congrFun (host3_v29 V) _⟩

theorem inv_host4 (h : I10 m c V) : I11 m c (StableHlo.after hostOps4 V) :=
  ⟨⟨argsOK_host4 h.1,
      h.2.1.of_eq (StableHlo.after_of_writes_sub hostOps4 V hostOps4_writes (r := main_v24) (by decide)),
      h.2.2.1.of_eq (StableHlo.after_of_writes_sub hostOps4 V hostOps4_writes (r := main_v25) (by decide)),
      h.2.2.2.of_eq (StableHlo.after_of_writes_sub hostOps4 V hostOps4_writes (r := main_v29) (by decide))⟩,
    fun a b => (host4_v31 V a b).trans (congrFun h.1.2.2.2.2 _),
    h.2.2.2.of_eq (host4_v32 V)⟩

theorem inv_host5 (h : I12 m c V) : I13 m c (StableHlo.after hostOps5 V) :=
  ⟨⟨argsOK_host5 h.1,
      h.2.1.of_eq (StableHlo.after_of_writes_sub hostOps5 V hostOps5_writes (r := main_v25) (by decide)),
      h.2.2.of_eq (StableHlo.after_of_writes_sub hostOps5 V hostOps5_writes (r := main_v32) (by decide))⟩,
    fun a b => (host5_v34 V a b).trans (congrFun h.1.2.2.2.2 _),
    h.2.2.of_eq (host5_v35 V)⟩

theorem inv_reg3 (h : I9 m c V) (hne : ∀ b : Ref sig .tc, b ≠ main_v29 → V' b = V b)
    (hout : ∀ (b : Fin 512) (j : Fin 1000), (V' main_v29 : S512x1000.Idx → EReal) (ValueIdx.ix2 b j)
      = Cert.Spec.proj (fun b j => (V main_v26 : S512x1000.Idx → EReal) (ValueIdx.ix2 b j))
          (fun b h => (V main_v23 : S512x4096.Idx → EReal) (ValueIdx.ix2 b h))
          (fun h j => (V main_v28 : S4096x1000.Idx → EReal) (ValueIdx.ix2 h j)) b j) :
    I10 m c V' :=
  ⟨argsOK_of_ne main_v29 h.1.1 hne (by decide) (by decide) (by decide) (by decide) (by decide),
    h.1.2.2.1.of_eq (hne main_v24 (by decide)), h.1.2.2.2.of_eq (hne main_v25 (by decide)),
    proj_step (p := V main_v26) (a := V main_v23) (w := V main_v28) h.2.1 h.1.2.1 h.2.2.1 hout⟩

theorem inv_reg4 (h : I11 m c V) (hne : ∀ b : Ref sig .tc, b ≠ main_v32 → V' b = V b)
    (hout : ∀ (b : Fin 512) (j : Fin 1000), (V' main_v32 : S512x1000.Idx → EReal) (ValueIdx.ix2 b j)
      = Cert.Spec.proj (fun b j => (V main_v29 : S512x1000.Idx → EReal) (ValueIdx.ix2 b j))
          (fun b h => (V main_v24 : S512x4096.Idx → EReal) (ValueIdx.ix2 b h))
          (fun h j => (V main_v31 : S4096x1000.Idx → EReal) (ValueIdx.ix2 h j)) b j) :
    I12 m c V' :=
  ⟨argsOK_of_ne main_v32 h.1.1 hne (by decide) (by decide) (by decide) (by decide) (by decide),
    h.1.2.2.1.of_eq (hne main_v25 (by decide)),
    proj_step (p := V main_v29) (a := V main_v24) (w := V main_v31) h.1.2.2.2 h.1.2.1 h.2.1 hout⟩

theorem inv_reg5 (h : I13 m c V) (hne : ∀ b : Ref sig .tc, b ≠ main_v35 → V' b = V b)
    (hout : ∀ (b : Fin 512) (j : Fin 1000), (V' main_v35 : S512x1000.Idx → EReal) (ValueIdx.ix2 b j)
      = Cert.Spec.proj (fun b j => (V main_v32 : S512x1000.Idx → EReal) (ValueIdx.ix2 b j))
          (fun b h => (V main_v25 : S512x4096.Idx → EReal) (ValueIdx.ix2 b h))
          (fun h j => (V main_v34 : S4096x1000.Idx → EReal) (ValueIdx.ix2 h j)) b j) :
    I14 m c V' :=
  ⟨argsOK_of_ne main_v35 h.1.1 hne (by decide) (by decide) (by decide) (by decide) (by decide),
    proj_step (p := V main_v32) (a := V main_v25) (w := V main_v34) h.1.2.2 h.1.2.1 h.2.1 hout⟩

variable (m c)

theorem valA0_eq : valA0 m c = Cert.ReferenceIdeal.RefValue.refA0 (argX0 m c) (argX1 m c) :=
  congrArg (fun g => Cert.Spec.layer g (fun h k => argX1 m c (ValueIdx.ix2 h k)))
    (funext fun b => funext fun k => gray_eq (argX0 m c) b k)
theorem valA1_eq : valA1 m c = Cert.ReferenceIdeal.RefValue.refA1 (argX0 m c) (argX1 m c) (argX2 m c) :=
  congrArg (fun g => Cert.Spec.layer g (fun h k => argX2 m c (ValueIdx.ix2 h k))) (valA0_eq m c)
theorem valA2_eq : valA2 m c = Cert.ReferenceIdeal.RefValue.refA2 (argX0 m c) (argX1 m c) (argX2 m c) (argX3 m c) :=
  congrArg (fun g => Cert.Spec.layer g (fun h k => argX3 m c (ValueIdx.ix2 h k))) (valA1_eq m c)
theorem valW_eq (l : Fin 3) : valW m c l = Cert.ReferenceIdeal.RefValue.refW (argX4 m c) l := rfl

theorem valP2_eq : valP2 m c
    = Cert.Spec.proj (Cert.Spec.proj (Cert.Spec.proj (fun _ _ => 0)
          (Cert.ReferenceIdeal.RefValue.refA0 (argX0 m c) (argX1 m c)) (Cert.ReferenceIdeal.RefValue.refW (argX4 m c) 0))
        (Cert.ReferenceIdeal.RefValue.refA1 (argX0 m c) (argX1 m c) (argX2 m c)) (Cert.ReferenceIdeal.RefValue.refW (argX4 m c) 1))
      (Cert.ReferenceIdeal.RefValue.refA2 (argX0 m c) (argX1 m c) (argX2 m c) (argX3 m c)) (Cert.ReferenceIdeal.RefValue.refW (argX4 m c) 2) := by
  unfold valP2 valP1 valP0
  rw [valA0_eq, valA1_eq, valA2_eq, valW_eq, valW_eq, valW_eq]

variable {m c}

theorem inv_final (h : I14 m c V) (b : Fin 512) (j : Fin 1000) :
    (V main_v35 : S512x1000.Idx → EReal) (ValueIdx.ix2 b j)
      = Cert.Spec.proj (Cert.Spec.proj (Cert.Spec.proj (fun _ _ => 0)
            (Cert.ReferenceIdeal.RefValue.refA0 (m ((c : Thread nD τ).loc main_arg0)) (m ((c : Thread nD τ).loc main_arg1)))
            (Cert.ReferenceIdeal.RefValue.refW (m ((c : Thread nD τ).loc main_arg4)) 0))
          (Cert.ReferenceIdeal.RefValue.refA1 (m ((c : Thread nD τ).loc main_arg0)) (m ((c : Thread nD τ).loc main_arg1)) (m ((c : Thread nD τ).loc main_arg2)))
          (Cert.ReferenceIdeal.RefValue.refW (m ((c : Thread nD τ).loc main_arg4)) 1))
        (Cert.ReferenceIdeal.RefValue.refA2 (m ((c : Thread nD τ).loc main_arg0)) (m ((c : Thread nD τ).loc main_arg1)) (m ((c : Thread nD τ).loc main_arg2)) (m ((c : Thread nD τ).loc main_arg3)))
        (Cert.ReferenceIdeal.RefValue.refW (m ((c : Thread nD τ).loc main_arg4)) 2) b j :=
  (h.2 b j).trans (congrFun (congrFun (valP2_eq m c) b) j)

end Cert.KernelIdeal.Hand

end
-- ==== Proof.KI.ValL0.lean ====
import proofs.«409727_j78632261255731_3_alg».proof.Proof.Gen.KernelIdeal.Launch
import proofs.«409727_j78632261255731_3_alg».proof.Proof.Gen.KernelIdeal.Skeleton
import proofs.«409727_j78632261255731_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«409727_j78632261255731_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] {U : Type} [URA U]

local notation "𝕄" => MT nD τ sig Unit (Elt F) ℕ U ℕ

abbrev vc0_0 (i : grid0.Coords) : Prop := (Scalar.cmpi .ne (Scalar.extui (Scalar.cmpi .eq (BitVec.ofNat 32 (i 1).val) 0#32)) 0#32) = 1#1
theorem vhc0_0 : ∀ t : Fin cfg0.N, vc0_0 (grid0.coords t) ↔ t.val % 2 = 0 :=
  (by decide +kernel : ∀ t : Fin grid0.N, vc0_0 (grid0.coords t) ↔ t.val % 2 = 0)
abbrev vc0_1 (i : grid0.Coords) : Prop := k0_cond2 i = 1#1
theorem vhc0_1 : ∀ t : Fin cfg0.N, vc0_1 (grid0.coords t) ↔ t.val % 2 = 1 :=
  (by decide +kernel : ∀ t : Fin grid0.N, vc0_1 (grid0.coords t) ↔ t.val % 2 = 1)

theorem vlive0_0 : ∀ t : Fin cfg0.N, cfg0.idle 0 (grid0.coords t) = false := by decide +kernel
theorem vlive0_1 : ∀ t : Fin cfg0.N, cfg0.idle 1 (grid0.coords t) = false := by decide +kernel
theorem vidle0_2 : ∀ t : Fin cfg0.N, ¬vc0_1 (grid0.coords t) → cfg0.idle 2 (grid0.coords t) = true := by decide +kernel
theorem vnoflush0_2 : ∀ t : Fin cfg0.N, ¬vc0_1 (grid0.coords t) → (cfg0.win 2).flush t = false := by decide +kernel
theorem vlive0_2 : ∀ t : Fin cfg0.N, vc0_1 (grid0.coords t) → cfg0.idle 2 (grid0.coords t) = false := by decide +kernel

abbrev vms0_0 (t : Fin cfg0.N) : Memref sig .tc .vmem S512x2048 .bf16 := win0_0.stage (cfg0.slots t 0)
abbrev vhs0_0 (t : Fin cfg0.N) : (vms0_0 t).IsWhole := hstage0_0 ((cfg0.slots t 0).cast nbuf0_0)
abbrev vms0_1 (t : Fin cfg0.N) : Memref sig .tc .vmem S1024x1024 .f32 := win0_1.stage (cfg0.slots t 1)
abbrev vhs0_1 (t : Fin cfg0.N) : (vms0_1 t).IsWhole := hstage0_1 ((cfg0.slots t 1).cast nbuf0_1)
abbrev vms0_2 (t : Fin cfg0.N) : Memref sig .tc .vmem S512x1024 .bf16 := win0_2.stage (cfg0.slots t 2)
abbrev vhs0_2 (t : Fin cfg0.N) : (vms0_2 t).IsWhole := hstage0_2 ((cfg0.slots t 2).cast nbuf0_2)
abbrev vsc0 : Memref sig .tc .vmem S512x1024 .f32 := Memref.whole cc0_scratch0
abbrev vVS0 : View sig .tc .vmem S512x1024 .f32 := (vsc0).view
abbrev vVO0 : View sig .tc .vmem S512x1024 .bf16 := (Memref.whole cc0_stg2_0 : Memref sig .tc .vmem S512x1024 .bf16).view

theorem vPhiA0_eq (c : Dev nD) :
    (Pipeline.ΦA spec0 c : sProp 𝕄)
      = iprop(iprop(iprop((∃ d, owns (c : Thread nD τ) vsc0 fullShare d)) ∗ Pipeline.scopedRestBut (Ix := Unit) (Name := ℕ) (U := U) (Lvl := ℕ) (Val := Elt F) spec0 c [cc0_scratch0]) ∗ (∃ r, prngReg c r)) := by
  unfold Pipeline.ΦA; rw [scopedRest0_split]; simp only [vsc0, owns_whole]; try rfl

section
variable (c : Dev nD) (i : grid0.Coords) (arg2 : Memref sig .tc .vmem S512x2048 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)

set_option maxHeartbeats 1000000 in
noncomputable def vrun0_A (hc0 : vc0_0 i) (hc1 : ¬vc0_1 i)
    (x0 : Vec F S512x2048 .bf16) (x1 : Vec F S1024x1024 .f32) :
    { LS0 : List (View.Piece (Elt F) S512x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__layer_kernel i arg2 harg2 arg3 harg3 arg4 harg4 arg5 harg5) K } := by
  refine ⟨?_, fun xi2 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def vrun0_B (hc0 : ¬vc0_0 i) (hc1 : ¬vc0_1 i)
    (x0 : Vec F S512x2048 .bf16) (x1 : Vec F S1024x1024 .f32) (xs0 : Vec F S512x1024 .f32) :
    { LS0 : List (View.Piece (Elt F) S512x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__layer_kernel i arg2 harg2 arg3 harg3 arg4 harg4 arg5 harg5) K } := by
  refine ⟨?_, fun xi2 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def vrun0_C (hc0 : ¬vc0_0 i) (hc1 : vc0_1 i)
    (x0 : Vec F S512x2048 .bf16) (x1 : Vec F S1024x1024 .f32) (xs0 : Vec F S512x1024 .f32) :
    Σ' (L2 : List (View.Piece (Elt F) S512x1024 .bf16)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__layer_kernel i arg2 harg2 arg3 harg3 arg4 harg4 arg5 harg5) K } := by
  refine ⟨?_, ?_, fun E K => ?run⟩
  case run =>
    simp only [cc0__layer_kernel_eq_skeleton]; unfold cc0__layer_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

theorem vscover0_A (hc0 : vc0_0 i) (hc1 : ¬vc0_1 i)
    (x0 : Vec F S512x2048 .bf16) (x1 : Vec F S1024x1024 .f32) (y : S512x1024.Idx) :
    ∃ pc ∈ (vrun0_A (U := U) c i arg2 harg2 arg3 harg3 arg4 harg4 arg5 harg5 hc0 hc1 x0 x1).1, y ∈ pc.1.set :=
  View.cover_of_tiledL (vrun0_A (U := U) c i arg2 harg2 arg3 harg3 arg4 harg4 arg5 harg5 hc0 hc1 x0 x1).1 S512x1024.size (by sl_kernel_rfl) y

def vsout0_A (hc0 : vc0_0 i) (hc1 : ¬vc0_1 i)
    (x0 : Vec F S512x2048 .bf16) (x1 : Vec F S1024x1024 .f32) : Vec F S512x1024 .f32 :=
  vVS0.read (Elt F) (vVS0.writes (Elt F) vVS0.junk (vrun0_A (U := U) c i arg2 harg2 arg3 harg3 arg4 harg4 arg5 harg5 hc0 hc1 x0 x1).1)

theorem vscover0_B (hc0 : ¬vc0_0 i) (hc1 : ¬vc0_1 i)
    (x0 : Vec F S512x2048 .bf16) (x1 : Vec F S1024x1024 .f32) (xs0 : Vec F S512x1024 .f32) (y : S512x1024.Idx) :
    ∃ pc ∈ (vrun0_B (U := U) c i arg2 harg2 arg3 harg3 arg4 harg4 arg5 harg5 hc0 hc1 x0 x1 xs0).1, y ∈ pc.1.set :=
  View.cover_of_tiledL (vrun0_B (U := U) c i arg2 harg2 arg3 harg3 arg4 harg4 arg5 harg5 hc0 hc1 x0 x1 xs0).1 S512x1024.size (by sl_kernel_rfl) y

def vsout0_B (hc0 : ¬vc0_0 i) (hc1 : ¬vc0_1 i)
    (x0 : Vec F S512x2048 .bf16) (x1 : Vec F S1024x1024 .f32) (xs0 : Vec F S512x1024 .f32) : Vec F S512x1024 .f32 :=
  vVS0.read (Elt F) (vVS0.writes (Elt F) vVS0.junk (vrun0_B (U := U) c i arg2 harg2 arg3 harg3 arg4 harg4 arg5 harg5 hc0 hc1 x0 x1 xs0).1)

theorem vscover0_C (hc0 : ¬vc0_0 i) (hc1 : vc0_1 i)
    (x0 : Vec F S512x2048 .bf16) (x1 : Vec F S1024x1024 .f32) (xs0 : Vec F S512x1024 .f32) (y : S512x1024.Idx) :
    ∃ pc ∈ (vrun0_C (U := U) c i arg2 harg2 arg3 harg3 arg4 harg4 arg5 harg5 hc0 hc1 x0 x1 xs0).2.1, y ∈ pc.1.set :=
  View.cover_of_tiledL (vrun0_C (U := U) c i arg2 harg2 arg3 harg3 arg4 harg4 arg5 harg5 hc0 hc1 x0 x1 xs0).2.1 S512x1024.size (by sl_kernel_rfl) y

def vsout0_C (hc0 : ¬vc0_0 i) (hc1 : vc0_1 i)
    (x0 : Vec F S512x2048 .bf16) (x1 : Vec F S1024x1024 .f32) (xs0 : Vec F S512x1024 .f32) : Vec F S512x1024 .f32 :=
  vVS0.read (Elt F) (vVS0.writes (Elt F) vVS0.junk (vrun0_C (U := U) c i arg2 harg2 arg3 harg3 arg4 harg4 arg5 harg5 hc0 hc1 x0 x1 xs0).2.1)

theorem vcover0_C (hc0 : ¬vc0_0 i) (hc1 : vc0_1 i)
    (x0 : Vec F S512x2048 .bf16) (x1 : Vec F S1024x1024 .f32) (xs0 : Vec F S512x1024 .f32) (y : S512x1024.Idx) :
    ∃ pc ∈ (vrun0_C (U := U) c i arg2 harg2 arg3 harg3 arg4 harg4 arg5 harg5 hc0 hc1 x0 x1 xs0).1, y ∈ pc.1.set :=
  View.cover_of_tiledL (vrun0_C (U := U) c i arg2 harg2 arg3 harg3 arg4 harg4 arg5 harg5 hc0 hc1 x0 x1 xs0).1 S512x1024.size (by sl_kernel_rfl) y

def vout0_C (hc0 : ¬vc0_0 i) (hc1 : vc0_1 i)
    (x0 : Vec F S512x2048 .bf16) (x1 : Vec F S1024x1024 .f32) (xs0 : Vec F S512x1024 .f32) : Vec F S512x1024 .bf16 :=
  vVO0.read (Elt F) (vVO0.writes (Elt F) vVO0.junk (vrun0_C (U := U) c i arg2 harg2 arg3 harg3 arg4 harg4 arg5 harg5 hc0 hc1 x0 x1 xs0).1)
end

variable (V : (c : Dev nD) → (b : Ref sig .tc) → Buf (Elt F) ((c : Thread nD τ).loc b))

def viblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem vbefore0_0_of {c : Dev nD} (dat : Dat τ (Elt F) Unit ℕ U ℕ cfg0 c) (hA : dat.A 0 = V c (Pipeline.arrRef spec0 0))
    (hafter : ∀ t, dat.after 0 t = viblk0 V c 0 t) (t : Fin cfg0.N) (d) : dat.before 0 t d = viblk0 V c 0 t :=
  (dat.before_in_eq_fetched 0 rfl (fun _ => rfl) (fun _ _ _ => rfl) (fun t => by rw [hafter]; unfold Dat.blockOf viblk0; rw [hA]; try rfl) t d).trans
    (by unfold Dat.fetched Dat.blockOf viblk0; rw [hA]; try rfl)
theorem vbefore0_1_of {c : Dev nD} (dat : Dat τ (Elt F) Unit ℕ U ℕ cfg0 c) (hA : dat.A 1 = V c (Pipeline.arrRef spec0 1))
    (hafter : ∀ t, dat.after 1 t = viblk0 V c 1 t) (t : Fin cfg0.N) (d) : dat.before 1 t d = viblk0 V c 1 t :=
  (dat.before_in_eq_fetched 1 rfl (fun _ => rfl) (fun _ _ _ => rfl) (fun t => by rw [hafter]; unfold Dat.blockOf viblk0; rw [hA]; try rfl) t d).trans
    (by unfold Dat.fetched Dat.blockOf viblk0; rw [hA]; try rfl)

def vstep0 (c : Dev nD) (t : Fin cfg0.N) (prev : Vec F S512x1024 .f32) : Vec F S512x1024 .f32 :=
  if h0 : t.val % 2 = 0 then
    vsout0_A (U := U) c (grid0.coords t) (vms0_0 t) (vhs0_0 t) (vms0_1 t) (vhs0_1 t) (vms0_2 t) (vhs0_2 t) vsc0 (Memref.isWhole_whole _) ((vhc0_0 t).mpr h0) (fun h => by have := (vhc0_1 t).mp h; omega) (viblk0 V c 0 t) (viblk0 V c 1 t)
  else if h1 : t.val % 2 = 1 then
    vsout0_C (U := U) c (grid0.coords t) (vms0_0 t) (vhs0_0 t) (vms0_1 t) (vhs0_1 t) (vms0_2 t) (vhs0_2 t) vsc0 (Memref.isWhole_whole _) (fun h => h0 ((vhc0_0 t).mp h)) ((vhc0_1 t).mpr h1) (viblk0 V c 0 t) (viblk0 V c 1 t) prev
  else
    vsout0_B (U := U) c (grid0.coords t) (vms0_0 t) (vhs0_0 t) (vms0_1 t) (vhs0_1 t) (vms0_2 t) (vhs0_2 t) vsc0 (Memref.isWhole_whole _) (fun h => h0 ((vhc0_0 t).mp h)) (fun h => h1 ((vhc0_1 t).mp h)) (viblk0 V c 0 t) (viblk0 V c 1 t) prev

theorem vstep0_A (c : Dev nD) (t : Fin cfg0.N) (prev : Vec F S512x1024 .f32) (h0 : t.val % 2 = 0) (hc0 : vc0_0 (grid0.coords t)) (hc1 : ¬vc0_1 (grid0.coords t)) :
    vstep0 (U := U) V c t prev = vsout0_A (U := U) c (grid0.coords t) (vms0_0 t) (vhs0_0 t) (vms0_1 t) (vhs0_1 t) (vms0_2 t) (vhs0_2 t) vsc0 (Memref.isWhole_whole _) hc0 hc1 (viblk0 V c 0 t) (viblk0 V c 1 t) := dif_pos h0
theorem vstep0_B (c : Dev nD) (t : Fin cfg0.N) (prev : Vec F S512x1024 .f32) (h0 : ¬t.val % 2 = 0) (h1 : ¬t.val % 2 = 1) (hc0 : ¬vc0_0 (grid0.coords t)) (hc1 : ¬vc0_1 (grid0.coords t)) :
    vstep0 (U := U) V c t prev = vsout0_B (U := U) c (grid0.coords t) (vms0_0 t) (vhs0_0 t) (vms0_1 t) (vhs0_1 t) (vms0_2 t) (vhs0_2 t) vsc0 (Memref.isWhole_whole _) hc0 hc1 (viblk0 V c 0 t) (viblk0 V c 1 t) prev := (dif_neg h0).trans (dif_neg h1)
theorem vstep0_C (c : Dev nD) (t : Fin cfg0.N) (prev : Vec F S512x1024 .f32) (h0 : ¬t.val % 2 = 0) (h1 : t.val % 2 = 1) (hc0 : ¬vc0_0 (grid0.coords t)) (hc1 : vc0_1 (grid0.coords t)) :
    vstep0 (U := U) V c t prev = vsout0_C (U := U) c (grid0.coords t) (vms0_0 t) (vhs0_0 t) (vms0_1 t) (vhs0_1 t) (vms0_2 t) (vhs0_2 t) vsc0 (Memref.isWhole_whole _) hc0 hc1 (viblk0 V c 0 t) (viblk0 V c 1 t) prev := (dif_neg h0).trans (dif_pos h1)

def vaccB0 (c : Dev nD) : ℕ → Vec F S512x1024 .f32
  | 0 => vVS0.read (Elt F) vVS0.junk
  | n + 1 => if hn : n < cfg0.N then vstep0 (U := U) V c ⟨n, hn⟩ (vaccB0 c n) else vVS0.read (Elt F) vVS0.junk

theorem vaccB0_succ (c : Dev nD) (t : Fin cfg0.N) : vaccB0 (U := U) V c (t.val + 1) = vstep0 (U := U) V c t (vaccB0 (U := U) V c t.val) := by
  rw [vaccB0]; exact dif_pos t.isLt

def vout0 (c : Dev nD) (t : Fin cfg0.N) : Vec F S512x1024 .bf16 :=
  if h1 : t.val % 2 = 1 then
    vout0_C (U := U) c (grid0.coords t) (vms0_0 t) (vhs0_0 t) (vms0_1 t) (vhs0_1 t) (vms0_2 t) (vhs0_2 t) vsc0 (Memref.isWhole_whole _) (fun h => by have := (vhc0_0 t).mp h; omega) ((vhc0_1 t).mpr h1) (viblk0 V c 0 t) (viblk0 V c 1 t) (vaccB0 (U := U) V c t.val)
  else vVO0.read (Elt F) vVO0.junk

theorem vout0_last (c : Dev nD) (t : Fin cfg0.N) (h1 : t.val % 2 = 1) (hc0 : ¬vc0_0 (grid0.coords t)) (hc1 : vc0_1 (grid0.coords t)) :
    vout0 (U := U) V c t = vout0_C (U := U) c (grid0.coords t) (vms0_0 t) (vhs0_0 t) (vms0_1 t) (vhs0_1 t) (vms0_2 t) (vhs0_2 t) vsc0 (Memref.isWhole_whole _) hc0 hc1 (viblk0 V c 0 t) (viblk0 V c 1 t) (vaccB0 (U := U) V c t.val) := dif_pos h1

def vPhiS0 (c : Dev nD) : ℕ → sProp 𝕄
  | 0 => Pipeline.ΦA spec0 c
  | n + 1 => iprop(iprop(owns (c : Thread nD τ) vsc0 fullShare (vaccB0 (U := U) V c (n + 1)) ∗ Pipeline.scopedRestBut (Ix := Unit) (Name := ℕ) (U := U) (Lvl := ℕ) (Val := Elt F) spec0 c [cc0_scratch0]) ∗ (∃ r, prngReg c r))

theorem vPhiS0_zero (c : Dev nD) (n : ℕ) (hz : n = 0) : vPhiS0 (U := U) V c n = Pipeline.ΦA spec0 c := by subst hz; rfl
theorem vPhiS0_pos (c : Dev nD) (n : ℕ) (hz : n ≠ 0) :
    vPhiS0 (U := U) V c n = iprop(iprop(owns (c : Thread nD τ) vsc0 fullShare (vaccB0 (U := U) V c n) ∗ Pipeline.scopedRestBut (Ix := Unit) (Name := ℕ) (U := U) (Lvl := ℕ) (Val := Elt F) spec0 c [cc0_scratch0]) ∗ (∃ r, prngReg c r)) := by
  cases n with
  | zero => exact absurd rfl hz
  | succ n => rfl

def vdatF0 (c : Dev nD) : Dat τ (Elt F) Unit ℕ U ℕ cfg0 c where
  A w := V c (Pipeline.arrRef spec0 w)
  after w t := match w with
    | ⟨0, _⟩ => viblk0 V c 0 t
    | ⟨1, _⟩ => viblk0 V c 1 t
    | ⟨2, _⟩ => vout0 (U := U) V c t
  Φ t := vPhiS0 (U := U) V c t.val
  q _ := fullShare
  owed _ := 0

theorem vA_eq0 (c : Dev nD) (w : Fin cfg0.W) : (vdatF0 (U := U) V c).A w = V c (Pipeline.arrRef spec0 w) := by
  dsimp only [vdatF0]
theorem vafter0_0 (c : Dev nD) (t : Fin cfg0.N) : (vdatF0 (U := U) V c).after 0 t = viblk0 V c 0 t := by dsimp only [vdatF0]
theorem vafter0_1 (c : Dev nD) (t : Fin cfg0.N) : (vdatF0 (U := U) V c).after 1 t = viblk0 V c 1 t := by dsimp only [vdatF0]
theorem vafter0_2 (c : Dev nD) (t : Fin cfg0.N) : (vdatF0 (U := U) V c).after 2 t = vout0 (U := U) V c t := by dsimp only [vdatF0]
theorem vbefore0_0 (c : Dev nD) (t : Fin cfg0.N) (d) : (vdatF0 (U := U) V c).before 0 t d = viblk0 V c 0 t :=
  vbefore0_0_of V (vdatF0 V c) (vA_eq0 V c 0) (vafter0_0 V c) t d
theorem vbefore0_1 (c : Dev nD) (t : Fin cfg0.N) (d) : (vdatF0 (U := U) V c).before 1 t d = viblk0 V c 1 t :=
  vbefore0_1_of V (vdatF0 V c) (vA_eq0 V c 1) (vafter0_1 V c) t d

def vbodyPre0 (c : Dev nD) (t : Fin cfg0.N) : sProp 𝕄 :=
  iprop((vdatF0 (U := U) V c).Φ t.castSucc ∗ (vdatF0 (U := U) V c).owesAt () t.castSucc
    ∗ (∃ d, owns (c : Thread nD τ) (vms0_0 t) fullShare ((vdatF0 (U := U) V c).before 0 t d))
    ∗ (∃ d, owns (c : Thread nD τ) (vms0_1 t) fullShare ((vdatF0 (U := U) V c).before 1 t d))
    ∗ (∃ d, owns (c : Thread nD τ) (vms0_2 t) fullShare ((vdatF0 (U := U) V c).before 2 t d)))

def vbodyPost0 (c : Dev nD) (t : Fin cfg0.N) : sProp 𝕄 :=
  iprop((vdatF0 (U := U) V c).Φ t.succ ∗ (vdatF0 (U := U) V c).owesAt () t.succ
    ∗ (vdatF0 (U := U) V c).leavesExact 0 t
    ∗ (vdatF0 (U := U) V c).leavesExact 1 t
    ∗ (vdatF0 (U := U) V c).leavesExact 2 t)

set_option maxHeartbeats 4800000 in
theorem vsound0 (c : Dev nD) (t : Fin cfg0.N) :
    vbodyPre0 (U := U) V c t ⊢ wp frame (wpE (defs₀ (F := F)) Variants.none c none) Set.univ (bodyAt0 t) (fun _ => vbodyPost0 (U := U) V c t) := by
  unfold vbodyPre0 vbodyPost0 bodyAt0
  simp only [vbefore0_0, vbefore0_1]
  rw [show (vdatF0 (U := U) V c).owesAt () t.succ = (vdatF0 (U := U) V c).owesAt () t.castSucc from rfl]
  rw [show (vdatF0 (U := U) V c).Φ t.succ = vPhiS0 (U := U) V c (t.val + 1) from rfl, vPhiS0_pos V c _ (Nat.succ_ne_zero _), vaccB0_succ]
  rw [show (vdatF0 (U := U) V c).Φ t.castSucc = vPhiS0 (U := U) V c t.val from rfl]
  rw [show (vdatF0 (U := U) V c).leavesExact 0 t = owns (c : Thread nD τ) (vms0_0 t) fullShare ((vdatF0 (U := U) V c).after 0 t) from by
    unfold Dat.leavesExact; rw [vlive0_0 t], vafter0_0]
  rw [show (vdatF0 (U := U) V c).leavesExact 1 t = owns (c : Thread nD τ) (vms0_1 t) fullShare ((vdatF0 (U := U) V c).after 1 t) from by
    unfold Dat.leavesExact; rw [vlive0_1 t], vafter0_1]
  have hN : t.val < 8 := lt_of_lt_of_eq t.isLt (show cfg0.N = 8 from N_0)
  by_cases h0 : t.val % 2 = 0
  · have hc0 : vc0_0 (grid0.coords t) := (vhc0_0 t).mpr h0
    have hc1 : ¬vc0_1 (grid0.coords t) := fun h => by have := (vhc0_1 t).mp h; omega
    rw [Dat.leavesExact_idle (vdatF0 (U := U) V c) 2 t (vidle0_2 t hc1) (vnoflush0_2 t hc1)]
    rw [vstep0_A V c t _ h0 hc0 hc1]
    unfold vsout0_A; (try dsimp only)
    by_cases hz : t.val = 0
    · rw [vPhiS0_zero V c _ hz, vPhiA0_eq]
      iintro ⟨⟨⟨HS0, HR⟩, Hg⟩, Ho, ⟨%d0, H0⟩, ⟨%d1, H1⟩, ⟨%d2, H2⟩⟩
      iapply ((vrun0_A (U := U) c (grid0.coords t) _ _ _ _ _ _ _ _ hc0 hc1 (viblk0 V c 0 t) (viblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover0_A c _ _ _ _ _ _ _ _ _ _ _ _ _)
          iexact HR
        iexact Hg
      isplitl [Ho]; · iexact Ho
      isplitl [H0]; · iexact H0
      isplitl [H1]; · iexact H1
      iexists _; iexact H2
    · rw [vPhiS0_pos V c _ hz]
      iintro ⟨⟨⟨HS0, HR⟩, Hg⟩, Ho, ⟨%d0, H0⟩, ⟨%d1, H1⟩, ⟨%d2, H2⟩⟩
      iapply ((vrun0_A (U := U) c (grid0.coords t) _ _ _ _ _ _ _ _ hc0 hc1 (viblk0 V c 0 t) (viblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    have hc0 : ¬vc0_0 (grid0.coords t) := fun h => h0 ((vhc0_0 t).mp h)
    rw [vPhiS0_pos V c _ hz]
    by_cases h1 : t.val % 2 = 1
    · have hc1 : vc0_1 (grid0.coords t) := (vhc0_1 t).mpr h1
      rw [show (vdatF0 (U := U) V c).leavesExact 2 t = owns (c : Thread nD τ) (vms0_2 t) fullShare ((vdatF0 (U := U) V c).after 2 t) from by
        unfold Dat.leavesExact; rw [vlive0_2 t hc1], vafter0_2, vout0_last V c t h1 hc0 hc1]
      rw [vstep0_C V c t _ h0 h1 hc0 hc1]
      unfold vsout0_C vout0_C; (try dsimp only)
      iintro ⟨⟨⟨HS0, HR⟩, Hg⟩, Ho, ⟨%d0, H0⟩, ⟨%d1, H1⟩, ⟨%d2, H2⟩⟩
      iapply ((vrun0_C (U := U) c (grid0.coords t) _ _ _ _ _ _ _ _ hc0 hc1 (viblk0 V c 0 t) (viblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (vcover0_C c _ _ _ _ _ _ _ _ _ _ _ _ _ _)
    · have hc1 : ¬vc0_1 (grid0.coords t) := fun h => h1 ((vhc0_1 t).mp h)
      rw [Dat.leavesExact_idle (vdatF0 (U := U) V c) 2 t (vidle0_2 t hc1) (vnoflush0_2 t hc1)]
      rw [vstep0_B V c t _ h0 h1 hc0 hc1]
      unfold vsout0_B; (try dsimp only)
      iintro ⟨⟨⟨HS0, HR⟩, Hg⟩, Ho, ⟨%d0, H0⟩, ⟨%d1, H1⟩, ⟨%d2, H2⟩⟩
      iapply ((vrun0_B (U := U) c (grid0.coords t) _ _ _ _ _ _ _ _ hc0 hc1 (viblk0 V c 0 t) (viblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover0_B c _ _ _ _ _ _ _ _ _ _ _ _ _ _)
          iexact HR
        iexact Hg
      isplitl [Ho]; · iexact Ho
      isplitl [H0]; · iexact H0
      isplitl [H1]; · iexact H1
      iexists _; iexact H2

theorem vbodyF0 (c : Dev nD) : BodyObligation (vdatF0 (U := U) V c) (defs₀ (F := F)) Variants.none () Set.univ := fun t => by
  rw [bigSep_W0, bigSep_W0]
  exact vsound0 V c t

theorem vhinF0 (c : Dev nD) : (Pipeline.ΦA spec0 c : sProp 𝕄) ⊢ (vdatF0 (U := U) V c).Φ 0 := by
  rw [show (vdatF0 (U := U) V c).Φ 0 = vPhiS0 (U := U) V c 0 from rfl, vPhiS0_zero V c 0 rfl]
  try exact Idealize.SL.BI.Entails.refl _

theorem vhoutF0 (c : Dev nD) : (vdatF0 (U := U) V c).Φ (Fin.last cfg0.N) ⊢ (Pipeline.ΦA spec0 c : sProp 𝕄) := by
  rw [show (vdatF0 (U := U) V c).Φ (Fin.last cfg0.N) = vPhiS0 (U := U) V c (Fin.last cfg0.N).val from rfl,
    vPhiS0_pos V c _ (by rw [Fin.val_last]; have : cfg0.N = 8 := N_0; omega), vPhiA0_eq]
  iintro ⟨⟨HS0, HR⟩, Hg⟩
  isplitl [HS0 HR]
  · isplitl [HS0]
    · iexists _; iexact HS0
    iexact HR
  iexact Hg

theorem vhz0 : (![0, 0] : Fin 2 → Nat) = fun _ => 0 := funext fun a => by fin_cases a <;> rfl

section
variable (c : Dev nD) (i : grid0.Coords) (arg2 : Memref sig .tc .vmem S512x2048 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)

theorem vsoutB0_eq (hc0 : ¬vc0_0 i) (hc1 : ¬vc0_1 i)
    (x0 : Vec F S512x2048 .bf16) (x1 : Vec F S1024x1024 .f32) (xs0 : Vec F S512x1024 .f32) :
    vsout0_B (U := U) c i arg2 harg2 arg3 harg3 arg4 harg4 arg5 harg5 hc0 hc1 x0 x1 xs0 = k0_pay2 (View.ld x0 (Rect.unit (s := S512x2048) (k0_off1 i) S512x1024.size (k0_off1_inb i))) x1 xs0 := by
  unfold vsout0_B
  rw [View.read_writes_eq_canon _ _ _ (vscover0_B c i arg2 harg2 arg3 harg3 arg4 harg4 arg5 harg5 hc0 hc1 x0 x1 xs0)]
  unfold vrun0_B
  dsimp only
  sl_unfold_words
  rw [View.canon_unit_zero vhz0]
  simp only [View.readAt_eq_ld, harg2.read_unread, harg3.read_unread, harg5.read_unread, View.ld_unit_zero (S := S1024x1024) vhz0, View.ld_unit_zero (S := S512x1024) vhz0]

theorem vsoutA0_eq (hc0 : vc0_0 i) (hc1 : ¬vc0_1 i)
    (x0 : Vec F S512x2048 .bf16) (x1 : Vec F S1024x1024 .f32) :
    vsout0_A (U := U) c i arg2 harg2 arg3 harg3 arg4 harg4 arg5 harg5 hc0 hc1 x0 x1 = k0_pay2 (View.ld x0 (Rect.unit (s := S512x2048) (k0_off1 i) S512x1024.size (k0_off1_inb i))) x1 k0_pay1 := by
  unfold vsout0_A
  rw [View.read_writes_eq_canon _ _ _ (vscover0_A c i arg2 harg2 arg3 harg3 arg4 harg4 arg5 harg5 hc0 hc1 x0 x1)]
  unfold vrun0_A
  dsimp only
  sl_unfold_words
  rw [View.canon_cons_unit_zero (S := S512x1024) vhz0, View.readCov_unit_zero (S := S512x1024) _ vhz0]
  simp only [View.readAt_eq_ld, harg2.read_unread, harg3.read_unread, View.ld_unit_zero (S := S1024x1024) vhz0]

theorem vsoutC0_eq (hc0 : ¬vc0_0 i) (hc1 : vc0_1 i)
    (x0 : Vec F S512x2048 .bf16) (x1 : Vec F S1024x1024 .f32) (xs0 : Vec F S512x1024 .f32) :
    vsout0_C (U := U) c i arg2 harg2 arg3 harg3 arg4 harg4 arg5 harg5 hc0 hc1 x0 x1 xs0 = k0_pay2 (View.ld x0 (Rect.unit (s := S512x2048) (k0_off1 i) S512x1024.size (k0_off1_inb i))) x1 xs0 := by
  unfold vsout0_C
  rw [View.read_writes_eq_canon _ _ _ (vscover0_C c i arg2 harg2 arg3 harg3 arg4 harg4 arg5 harg5 hc0 hc1 x0 x1 xs0)]
  unfold vrun0_C
  dsimp only
  sl_unfold_words
  rw [View.canon_unit_zero vhz0]
  simp only [View.readAt_eq_ld, harg2.read_unread, harg3.read_unread, harg5.read_unread, View.ld_unit_zero (S := S1024x1024) vhz0, View.ld_unit_zero (S := S512x1024) vhz0]

theorem voutC0_eq (hc0 : ¬vc0_0 i) (hc1 : vc0_1 i)
    (x0 : Vec F S512x2048 .bf16) (x1 : Vec F S1024x1024 .f32) (xs0 : Vec F S512x1024 .f32) :
    vout0_C (U := U) c i arg2 harg2 arg3 harg3 arg4 harg4 arg5 harg5 hc0 hc1 x0 x1 xs0 = k0_pay3 (k0_pay2 (View.ld x0 (Rect.unit (s := S512x2048) (k0_off1 i) S512x1024.size (k0_off1_inb i))) x1 xs0) := by
  unfold vout0_C
  rw [View.read_writes_eq_canon _ _ _ (vcover0_C c i arg2 harg2 arg3 harg3 arg4 harg4 arg5 harg5 hc0 hc1 x0 x1 xs0)]
  unfold vrun0_C
  dsimp only
  sl_unfold_words
  rw [View.canon_unit_zero vhz0, View.readCov_unit_zero (S := S512x1024) _ vhz0]
  simp only [View.readAt_eq_ld, harg2.read_unread, harg3.read_unread, harg5.read_unread, View.ld_unit_zero (S := S1024x1024) vhz0, View.ld_unit_zero (S := S512x1024) vhz0]
end

theorem vbit0 (w : BitVec 1) : (((w.setWidth 32).toInt : ℝ) : EReal) = ((w.toNat : ℝ) : EReal) := by
  have h : (w.setWidth 32).toInt = (w.toNat : ℤ) := by revert w; decide
  rw [h, Int.cast_natCast]

theorem vpay1_0_apply (i : S512x1024.Idx) : (k0_pay1 (F := Ideal) : S512x1024.Idx → EReal) i = 0 := by
  unfold k0_pay1
  simp only [shapeCast_self]
  exact Ideal.ofBits_zero_f32

theorem vlhs0_0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem vlhs0_1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem vrhs0_0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem vrhs0_1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

theorem vpay2_0_apply (x6 : Vec Ideal S512x1024 .bf16) (x8 : Vec Ideal S1024x1024 .f32) (a : Vec Ideal S512x1024 .f32) (b : Fin 512) (j : Fin 1024) :
    (k0_pay2 x6 x8 a : S512x1024.Idx → EReal) (ValueIdx.ix2 b j)
      = (a : S512x1024.Idx → EReal) (ValueIdx.ix2 b j) + ∑ kk : Fin 1024, (x6 : S512x1024.Idx → EReal) (ValueIdx.ix2 b kk) * (x8 : S1024x1024.Idx → EReal) (ValueIdx.ix2 j kk) := by
  unfold k0_pay2
  simp only [shapeCast_self]
  show (a : S512x1024.Idx → EReal) (ValueIdx.ix2 b j) + FloatOps.matmul (F := Ideal) (φ₁ := .bf16) (φ₂ := .bf16) dot_S512x1024_S1024x1024_S512x1024_1_1_0_0_n_n none x6 x8 (constant (F := Ideal) S512x1024 .f32 0x00000000#32) (ValueIdx.ix2 b j) = _
  rw [Ideal.matmul_constant_zero_apply, ← Equiv.sum_comp (ValueIdx.contrEquiv1 dot_S512x1024_S1024x1024_S512x1024_1_1_0_0_n_n 1024 rfl rfl).symm]
  refine congrArg (fun z => (a : S512x1024.Idx → EReal) (ValueIdx.ix2 b j) + z) (Finset.sum_congr rfl fun kk _ => ?_)
  have hk := ValueIdx.contrEquiv1_symm_val dot_S512x1024_S1024x1024_S512x1024_1_1_0_0_n_n 1024 rfl rfl kk
  have el : dot_S512x1024_S1024x1024_S512x1024_1_1_0_0_n_n.lhsIdx (ValueIdx.ix2 b j) ((ValueIdx.contrEquiv1 dot_S512x1024_S1024x1024_S512x1024_1_1_0_0_n_n 1024 rfl rfl).symm kk) = ValueIdx.ix2 b kk := funext fun ax => Fin.ext (by
    match ax with
    | ⟨0, _⟩ => exact vlhs0_0 _ _
    | ⟨1, _⟩ => exact (vlhs0_1 _ _).trans hk)
  have er : dot_S512x1024_S1024x1024_S512x1024_1_1_0_0_n_n.rhsIdx (ValueIdx.ix2 b j) ((ValueIdx.contrEquiv1 dot_S512x1024_S1024x1024_S512x1024_1_1_0_0_n_n 1024 rfl rfl).symm kk) = ValueIdx.ix2 j kk := funext fun ax => Fin.ext (by
    match ax with
    | ⟨0, _⟩ => exact vrhs0_0 _ _
    | ⟨1, _⟩ => exact (vrhs0_1 _ _).trans hk)
  rw [el, er]

theorem vpay3_0_apply (a : Vec Ideal S512x1024 .f32) (i : S512x1024.Idx) :
    (k0_pay3 a : S512x1024.Idx → EReal) i = Cert.Spec.thr ((a : S512x1024.Idx → EReal) i) := by
  unfold k0_pay3 Cert.Spec.thr
  show ((((Ideal.cmp .oge ((a : S512x1024.Idx → EReal) i) (Ideal.ofBits .f32 0x40800000#32)).setWidth 32).toInt : ℝ) : EReal) = _
  exact vbit0 _

variable (VI : (c : Dev nD) → (b : Ref sig .tc) → Buf (Elt Ideal) ((c : Thread nD τ).loc b))

abbrev vX0 (c : Dev nD) : Vec Ideal S512x2048 .bf16 := VI c main_v22
abbrev vW0 (c : Dev nD) : Vec Ideal S4096x2048 .f32 := VI c main_arg1
abbrev vxblk0 (c : Dev nD) (t : Fin cfg0.N) : Vec Ideal S512x2048 .bf16 := viblk0 (F := Ideal) VI c 0 t
abbrev vwblk0 (c : Dev nD) (t : Fin cfg0.N) : Vec Ideal S1024x1024 .f32 := viblk0 (F := Ideal) VI c 1 t

def vXn0 (c : Dev nD) (b : Fin 512) (q : ℕ) : EReal := if h : q < 2048 then (vX0 VI c : S512x2048.Idx → EReal) (ValueIdx.ix2 b ⟨q, h⟩) else 0
def vWn0 (c : Dev nD) (r q : ℕ) : EReal := if h : r < 4096 ∧ q < 2048 then (vW0 VI c : S4096x2048.Idx → EReal) (ValueIdx.ix2 ⟨r, h.1⟩ ⟨q, h.2⟩) else 0

theorem vxidx0 : ∀ t : Fin cfg0.N, win0_0.index t 0 = 0 ∧ win0_0.index t 1 = 0 :=
  (by decide +kernel : ∀ t : Fin grid0.N, win0_0.index t 0 = 0 ∧ win0_0.index t 1 = 0)
theorem vwidx0 : ∀ t : Fin cfg0.N, win0_1.index t 0 = t.val / 2 ∧ win0_1.index t 1 = t.val % 2 :=
  (by decide +kernel : ∀ t : Fin grid0.N, win0_1.index t 0 = t.val / 2 ∧ win0_1.index t 1 = t.val % 2)
theorem voidx0 : ∀ t : Fin cfg0.N, win0_2.index t 0 = 0 ∧ win0_2.index t 1 = t.val / 2 :=
  (by decide +kernel : ∀ t : Fin grid0.N, win0_2.index t 0 = 0 ∧ win0_2.index t 1 = t.val / 2)
theorem voff0 : ∀ t : Fin cfg0.N, k0_off1 (grid0.coords t) 0 = 0 ∧ k0_off1 (grid0.coords t) 1 = t.val % 2 * 1024 :=
  (by decide +kernel : ∀ t : Fin grid0.N, k0_off1 (grid0.coords t) 0 = 0 ∧ k0_off1 (grid0.coords t) 1 = t.val % 2 * 1024)

theorem vxb0_apply (c : Dev nD) (t : Fin cfg0.N) (b : Fin 512) (q : Fin 2048) :
    (vxblk0 VI c t : S512x2048.Idx → EReal) (ValueIdx.ix2 b q) = (vX0 VI c : S512x2048.Idx → EReal) (ValueIdx.ix2 b q) := by
  unfold vxblk0 viblk0
  rw [View.read_apply]
  show VI c main_v22 _ = VI c main_v22 _
  congr 1
  funext a
  apply Fin.ext
  match a with
  | ⟨0, _⟩ => show win0_0.index t 0 * 512 + 1 * b.val = b.val; rw [(vxidx0 t).1]; omega
  | ⟨1, _⟩ => show win0_0.index t 1 * 2048 + 1 * q.val = q.val; rw [(vxidx0 t).2]; omega

theorem vwb0_apply (c : Dev nD) (t : Fin cfg0.N) (j kk : Fin 1024) :
    (vwblk0 VI c t : S1024x1024.Idx → EReal) (ValueIdx.ix2 j kk) = vWn0 VI c (t.val / 2 * 1024 + j.val) (t.val % 2 * 1024 + kk.val) := by
  have hN : t.val < 8 := lt_of_lt_of_eq t.isLt (show cfg0.N = 8 from N_0)
  have hj := j.isLt
  have hk := kk.isLt
  unfold vWn0
  rw [dif_pos ⟨by omega, by omega⟩]
  unfold vwblk0 viblk0
  rw [View.read_apply]
  show VI c main_arg1 _ = VI c main_arg1 _
  congr 1
  funext a
  apply Fin.ext
  match a with
  | ⟨0, _⟩ => show win0_1.index t 0 * 1024 + 1 * j.val = t.val / 2 * 1024 + j.val; rw [(vwidx0 t).1]; omega
  | ⟨1, _⟩ => show win0_1.index t 1 * 1024 + 1 * kk.val = t.val % 2 * 1024 + kk.val; rw [(vwidx0 t).2]; omega

theorem vld0_apply (x0 : Vec Ideal S512x2048 .bf16) (t : Fin cfg0.N) (b : Fin 512) (kk : Fin 1024) (hq : t.val % 2 * 1024 + kk.val < 2048) :
    (View.ld x0 (Rect.unit (s := S512x2048) (k0_off1 (grid0.coords t)) S512x1024.size (k0_off1_inb (grid0.coords t))) : S512x1024.Idx → EReal) (ValueIdx.ix2 b kk) = (x0 : S512x2048.Idx → EReal) (ValueIdx.ix2 b ⟨t.val % 2 * 1024 + kk.val, hq⟩) := by
  show (x0 : S512x2048.Idx → EReal) ((Rect.unit (s := S512x2048) (k0_off1 (grid0.coords t)) S512x1024.size (k0_off1_inb (grid0.coords t))).idx (ValueIdx.ix2 b kk)) = _
  congr 1
  funext a
  apply Fin.ext
  match a with
  | ⟨0, _⟩ => show k0_off1 (grid0.coords t) 0 + 1 * b.val = b.val; rw [(voff0 t).1]; omega
  | ⟨1, _⟩ => show k0_off1 (grid0.coords t) 1 + 1 * kk.val = t.val % 2 * 1024 + kk.val; rw [(voff0 t).2]; omega

theorem vstep0_apply (c : Dev nD) (t : Fin cfg0.N) (prev : Vec Ideal S512x1024 .f32) (b : Fin 512) (j : Fin 1024) :
    (vstep0 (F := Ideal) (U := U) VI c t prev : S512x1024.Idx → EReal) (ValueIdx.ix2 b j)
      = (if t.val % 2 = 0 then 0 else (prev : S512x1024.Idx → EReal) (ValueIdx.ix2 b j))
        + ∑ x ∈ Finset.range 1024, vXn0 VI c b (t.val % 2 * 1024 + x) * vWn0 VI c (t.val / 2 * 1024 + j.val) (t.val % 2 * 1024 + x) := by
  have core : ∀ a : Vec Ideal S512x1024 .f32,
      (k0_pay2 (View.ld (vxblk0 VI c t) (Rect.unit (s := S512x2048) (k0_off1 (grid0.coords t)) S512x1024.size (k0_off1_inb (grid0.coords t)))) (vwblk0 VI c t) a : S512x1024.Idx → EReal) (ValueIdx.ix2 b j)
        = (a : S512x1024.Idx → EReal) (ValueIdx.ix2 b j) + ∑ x ∈ Finset.range 1024, vXn0 VI c b (t.val % 2 * 1024 + x) * vWn0 VI c (t.val / 2 * 1024 + j.val) (t.val % 2 * 1024 + x) := by
    intro a
    refine (vpay2_0_apply (View.ld (vxblk0 VI c t) (Rect.unit (s := S512x2048) (k0_off1 (grid0.coords t)) S512x1024.size (k0_off1_inb (grid0.coords t)))) (vwblk0 VI c t) a b j).trans ?_
    rw [← Fin.sum_univ_eq_sum_range (fun x => vXn0 VI c b (t.val % 2 * 1024 + x) * vWn0 VI c (t.val / 2 * 1024 + j.val) (t.val % 2 * 1024 + x)) 1024]
    refine congrArg (fun z => (a : S512x1024.Idx → EReal) (ValueIdx.ix2 b j) + z) (Finset.sum_congr rfl fun kk _ => ?_)
    have hq : t.val % 2 * 1024 + kk.val < 2048 := by
      have := kk.isLt; have := Nat.mod_lt t.val (show 0 < 2 by decide); omega
    rw [vld0_apply (vxblk0 VI c t) t b kk hq, vxb0_apply VI c t b ⟨t.val % 2 * 1024 + kk.val, hq⟩, vwb0_apply VI c t j kk]
    unfold vXn0
    rw [dif_pos hq]
  by_cases h0 : t.val % 2 = 0
  · have hc0 : vc0_0 (grid0.coords t) := (vhc0_0 t).mpr h0
    have hc1 : ¬vc0_1 (grid0.coords t) := fun h => by have := (vhc0_1 t).mp h; omega
    rw [if_pos h0]
    refine (congrFun (vstep0_A (F := Ideal) (U := U) VI c t prev h0 hc0 hc1) (ValueIdx.ix2 b j)).trans ?_
    refine (congrFun (vsoutA0_eq (F := Ideal) (U := U) c (grid0.coords t) (vms0_0 t) (vhs0_0 t) (vms0_1 t) (vhs0_1 t) (vms0_2 t) (vhs0_2 t) vsc0 (Memref.isWhole_whole _) hc0 hc1 (vxblk0 VI c t) (vwblk0 VI c t)) (ValueIdx.ix2 b j)).trans ?_
    refine (core (k0_pay1 (F := Ideal))).trans ?_
    rw [vpay1_0_apply]
  · have hc0 : ¬vc0_0 (grid0.coords t) := fun h => h0 ((vhc0_0 t).mp h)
    rw [if_neg h0]
    by_cases h1 : t.val % 2 = 1
    · have hc1 : vc0_1 (grid0.coords t) := (vhc0_1 t).mpr h1
      refine (congrFun (vstep0_C (F := Ideal) (U := U) VI c t prev h0 h1 hc0 hc1) (ValueIdx.ix2 b j)).trans ?_
      refine (congrFun (vsoutC0_eq (F := Ideal) (U := U) c (grid0.coords t) (vms0_0 t) (vhs0_0 t) (vms0_1 t) (vhs0_1 t) (vms0_2 t) (vhs0_2 t) vsc0 (Memref.isWhole_whole _) hc0 hc1 (vxblk0 VI c t) (vwblk0 VI c t) prev) (ValueIdx.ix2 b j)).trans ?_
      exact core prev
    · have hc1 : ¬vc0_1 (grid0.coords t) := fun h => h1 ((vhc0_1 t).mp h)
      refine (congrFun (vstep0_B (F := Ideal) (U := U) VI c t prev h0 h1 hc0 hc1) (ValueIdx.ix2 b j)).trans ?_
      refine (congrFun (vsoutB0_eq (F := Ideal) (U := U) c (grid0.coords t) (vms0_0 t) (vhs0_0 t) (vms0_1 t) (vhs0_1 t) (vms0_2 t) (vhs0_2 t) vsc0 (Memref.isWhole_whole _) hc0 hc1 (vxblk0 VI c t) (vwblk0 VI c t) prev) (ValueIdx.ix2 b j)).trans ?_
      exact core prev

theorem vaccU0 (c : Dev nD) (n : ℕ) (hn : n < 8) (b : Fin 512) (j : Fin 1024) :
    (vaccB0 (F := Ideal) (U := U) VI c (n + 1) : S512x1024.Idx → EReal) (ValueIdx.ix2 b j)
      = (if n % 2 = 0 then 0 else (vaccB0 (F := Ideal) (U := U) VI c n : S512x1024.Idx → EReal) (ValueIdx.ix2 b j))
        + ∑ x ∈ Finset.range 1024, vXn0 VI c b (n % 2 * 1024 + x) * vWn0 VI c (n / 2 * 1024 + j.val) (n % 2 * 1024 + x) := by
  have hlt : n < cfg0.N := lt_of_lt_of_eq hn (show 8 = cfg0.N from N_0.symm)
  refine (congrFun (vaccB0_succ (F := Ideal) (U := U) VI c ⟨n, hlt⟩) (ValueIdx.ix2 b j)).trans ?_
  exact vstep0_apply VI c ⟨n, hlt⟩ _ b j

theorem vacc0_eq (c : Dev nD) : ∀ (n : ℕ), n < 8 → ∀ (b : Fin 512) (j : Fin 1024),
    (vaccB0 (F := Ideal) (U := U) VI c (n + 1) : S512x1024.Idx → EReal) (ValueIdx.ix2 b j)
      = ∑ q ∈ Finset.range ((n % 2 + 1) * 1024), vXn0 VI c b q * vWn0 VI c (n / 2 * 1024 + j.val) q := by
  intro n
  induction n with
  | zero =>
    intro hn b j
    rw [vaccU0 VI c 0 hn b j, if_pos (Nat.zero_mod _)]
    simp only [Nat.zero_mod, Nat.zero_div, zero_mul, zero_add, one_mul]
  | succ m ih =>
    intro hn b j
    rw [vaccU0 VI c (m + 1) hn b j]
    by_cases h0 : (m + 1) % 2 = 0
    · rw [if_pos h0, h0]
      simp only [zero_mul, zero_add, one_mul]
    · rw [if_neg h0, ih (by omega) b j]
      have e1 : (m + 1) % 2 = m % 2 + 1 := by omega
      have e2 : (m + 1) / 2 = m / 2 := by omega
      rw [e1, e2, show (m % 2 + 1 + 1) * 1024 = (m % 2 + 1) * 1024 + 1024 by ring, Finset.sum_range_add]

theorem vaccLast0 (c : Dev nD) (n : ℕ) (hn : n < 8) (h1 : n % 2 = 1) (b : Fin 512) (j : Fin 1024) (hr : n / 2 * 1024 + j.val < 4096) :
    (vaccB0 (F := Ideal) (U := U) VI c (n + 1) : S512x1024.Idx → EReal) (ValueIdx.ix2 b j)
      = ∑ k : Fin 2048, (vX0 VI c : S512x2048.Idx → EReal) (ValueIdx.ix2 b k) * (vW0 VI c : S4096x2048.Idx → EReal) (ValueIdx.ix2 ⟨n / 2 * 1024 + j.val, hr⟩ k) := by
  rw [vacc0_eq VI c n hn b j, h1, show (1 + 1) * 1024 = 2048 by norm_num,
    ← Fin.sum_univ_eq_sum_range (fun q => vXn0 VI c b q * vWn0 VI c (n / 2 * 1024 + j.val) q) 2048]
  refine Finset.sum_congr rfl fun k _ => ?_
  unfold vXn0 vWn0
  rw [dif_pos k.isLt, dif_pos ⟨hr, k.isLt⟩]

def vdat0 (V : (c : Dev nD) → (b : Ref sig .tc) → Buf (Elt Ideal) ((c : Thread nD τ).loc b)) (c : Dev nD) : Dat τ (Elt Ideal) Unit ℕ U ℕ cfg0 c := vdatF0 (F := Ideal) (U := U) V c
theorem vdat0_A (V : (c : Dev nD) → (b : Ref sig .tc) → Buf (Elt Ideal) ((c : Thread nD τ).loc b)) (c : Dev nD) (w : Fin cfg0.W) : (vdat0 (U := U) V c).A w = V c (Pipeline.arrRef spec0 w) := vA_eq0 (F := Ideal) (U := U) V c w
theorem vdat0_share (V : (c : Dev nD) → (b : Ref sig .tc) → Buf (Elt Ideal) ((c : Thread nD τ).loc b)) (c : Dev nD) (w : Fin cfg0.W) : (vdat0 (U := U) V c).share w = fullShare := by
  unfold Dat.share; split <;> rfl
theorem vdat0_owed (V : (c : Dev nD) → (b : Ref sig .tc) → Buf (Elt Ideal) ((c : Thread nD τ).loc b)) (c : Dev nD) (t : Fin (cfg0.N + 1)) : (vdat0 (U := U) V c).owed t = 0 := rfl
theorem vbody0 (V : (c : Dev nD) → (b : Ref sig .tc) → Buf (Elt Ideal) ((c : Thread nD τ).loc b)) (c : Dev nD) : BodyObligation (vdat0 (U := U) V c) (defs₀ (F := Ideal)) Variants.none () Set.univ := vbodyF0 (F := Ideal) (U := U) V c
theorem vhin0 (V : (c : Dev nD) → (b : Ref sig .tc) → Buf (Elt Ideal) ((c : Thread nD τ).loc b)) (c : Dev nD) : (Pipeline.ΦA spec0 c : sProp (MT nD τ sig Unit (Elt Ideal) ℕ U ℕ)) ⊢ (vdat0 V c).Φ 0 := vhinF0 (F := Ideal) (U := U) V c
theorem vhout0 (V : (c : Dev nD) → (b : Ref sig .tc) → Buf (Elt Ideal) ((c : Thread nD τ).loc b)) (c : Dev nD) : (vdat0 V c).Φ (Fin.last cfg0.N) ⊢ (Pipeline.ΦA spec0 c : sProp (MT nD τ sig Unit (Elt Ideal) ℕ U ℕ)) := vhoutF0 (F := Ideal) (U := U) V c

def vG0 (c : Dev nD) : Vec Ideal S512x4096 .bf16 := fun i =>
  Cert.Spec.layer (fun b k => (vX0 VI c : S512x2048.Idx → EReal) (ValueIdx.ix2 b k)) (fun h k => (vW0 VI c : S4096x2048.Idx → EReal) (ValueIdx.ix2 h k))
    ⟨(i 0).val, (i 0).isLt⟩ ⟨(i 1).val, (i 1).isLt⟩

theorem vkey0 (c : Dev nD) (t : Fin cfg0.N) (h1 : t.val % 2 = 1) (b : Fin 512) (j : Fin 1024) :
    (vout0 (F := Ideal) (U := U) VI c t : S512x1024.Idx → EReal) (ValueIdx.ix2 b j)
      = (vG0 VI c : S512x4096.Idx → EReal) (((cfg0.win 2).blk t).view.emb (ValueIdx.ix2 b j)) := by
  have hN : t.val < 8 := lt_of_lt_of_eq t.isLt (show cfg0.N = 8 from N_0)
  have h0 : ¬t.val % 2 = 0 := by omega
  have hc0 : ¬vc0_0 (grid0.coords t) := fun h => h0 ((vhc0_0 t).mp h)
  have hc1 : vc0_1 (grid0.coords t) := (vhc0_1 t).mpr h1
  have hj := j.isLt
  have hr : t.val / 2 * 1024 + j.val < 4096 := by omega
  refine (congrFun (vout0_last (F := Ideal) (U := U) VI c t h1 hc0 hc1) (ValueIdx.ix2 b j)).trans ?_
  refine (congrFun (voutC0_eq (F := Ideal) (U := U) c (grid0.coords t) (vms0_0 t) (vhs0_0 t) (vms0_1 t) (vhs0_1 t) (vms0_2 t) (vhs0_2 t) vsc0 (Memref.isWhole_whole _) hc0 hc1 (vxblk0 VI c t) (vwblk0 VI c t) (vaccB0 (F := Ideal) (U := U) VI c t.val)) (ValueIdx.ix2 b j)).trans ?_
  refine (vpay3_0_apply _ (ValueIdx.ix2 b j)).trans ?_
  have hacc : (k0_pay2 (View.ld (vxblk0 VI c t) (Rect.unit (s := S512x2048) (k0_off1 (grid0.coords t)) S512x1024.size (k0_off1_inb (grid0.coords t)))) (vwblk0 VI c t) (vaccB0 (F := Ideal) (U := U) VI c t.val) : S512x1024.Idx → EReal) (ValueIdx.ix2 b j)
      = (vaccB0 (F := Ideal) (U := U) VI c (t.val + 1) : S512x1024.Idx → EReal) (ValueIdx.ix2 b j) :=
    ((congrFun (vaccB0_succ (F := Ideal) (U := U) VI c t) (ValueIdx.ix2 b j)).trans
      ((congrFun (vstep0_C (F := Ideal) (U := U) VI c t _ h0 h1 hc0 hc1) (ValueIdx.ix2 b j)).trans
        (congrFun (vsoutC0_eq (F := Ideal) (U := U) c (grid0.coords t) (vms0_0 t) (vhs0_0 t) (vms0_1 t) (vhs0_1 t) (vms0_2 t) (vhs0_2 t) vsc0 (Memref.isWhole_whole _) hc0 hc1 (vxblk0 VI c t) (vwblk0 VI c t) (vaccB0 (F := Ideal) (U := U) VI c t.val)) (ValueIdx.ix2 b j)))).symm
  rw [hacc, vaccLast0 VI c t.val hN h1 b j hr]
  have e0 : (⟨((((cfg0.win 2).blk t).view.emb (ValueIdx.ix2 b j)) 0).val, ((((cfg0.win 2).blk t).view.emb (ValueIdx.ix2 b j)) 0).isLt⟩ : Fin 512) = b :=
    Fin.ext (by show win0_2.index t 0 * 512 + 1 * b.val = b.val; rw [(voidx0 t).1]; omega)
  have e1 : (⟨((((cfg0.win 2).blk t).view.emb (ValueIdx.ix2 b j)) 1).val, ((((cfg0.win 2).blk t).view.emb (ValueIdx.ix2 b j)) 1).isLt⟩ : Fin 4096) = ⟨t.val / 2 * 1024 + j.val, hr⟩ :=
    Fin.ext (by show win0_2.index t 1 * 1024 + 1 * j.val = t.val / 2 * 1024 + j.val; rw [(voidx0 t).2]; omega)
  refine Eq.trans ?_ (show Cert.Spec.layer (fun b k => (vX0 VI c : S512x2048.Idx → EReal) (ValueIdx.ix2 b k)) (fun h k => (vW0 VI c : S4096x2048.Idx → EReal) (ValueIdx.ix2 h k))
      ⟨((((cfg0.win 2).blk t).view.emb (ValueIdx.ix2 b j)) 0).val, ((((cfg0.win 2).blk t).view.emb (ValueIdx.ix2 b j)) 0).isLt⟩
      ⟨((((cfg0.win 2).blk t).view.emb (ValueIdx.ix2 b j)) 1).val, ((((cfg0.win 2).blk t).view.emb (ValueIdx.ix2 b j)) 1).isLt⟩
        = (vG0 VI c : S512x4096.Idx → EReal) (((cfg0.win 2).blk t).view.emb (ValueIdx.ix2 b j)) from rfl)
  rw [e0, e1]
  rfl

theorem vflushed0 (c : Dev nD) (t : Fin cfg0.N) (hf : (cfg0.win 2).flush t = true) :
    (vdat0 (U := U) VI c).flushed 2 t = ((cfg0.win 2).blk t).view.read (Elt Ideal) (vG0 VI c) := by
  have h1 : t.val % 2 = 1 := (flush0_2 t).mp hf
  show (cfg0.win 2).cut (grid0.coords t) ((vdatF0 (F := Ideal) (U := U) VI c).after 2 t) = _
  rw [vafter0_2 (F := Ideal) (U := U) VI c t]
  funext (x : S512x1024.Idx)
  obtain ⟨b, j, rfl⟩ : ∃ (b : Fin 512) (j : Fin 1024), x = ValueIdx.ix2 b j := ⟨x 0, x 1, ValueIdx.eq_ix2 x⟩
  rw [View.read_apply]
  exact vkey0 VI c t h1 b j

theorem vcover0 (i : S512x4096.Idx) : ∃ t : Fin cfg0.N, (cfg0.win 2).flush t = true ∧ i ∈ ((cfg0.win 2).blk t).view.set := by
  have h0 : (i 0 : Nat) < 512 := (i 0).isLt
  have h1 : (i 1 : Nat) < 4096 := (i 1).isLt
  have hlt : (i 1 : Nat) / 1024 * 2 + 1 < cfg0.N := lt_of_lt_of_eq (by omega) (show 8 = cfg0.N from N_0.symm)
  refine ⟨⟨(i 1 : Nat) / 1024 * 2 + 1, hlt⟩, (flush0_2 _).mpr (by show ((i 1 : Nat) / 1024 * 2 + 1) % 2 = 1; omega), ?_⟩
  show i ∈ ((View.whole main_v23).slice (win0_2.rect ⟨(i 1 : Nat) / 1024 * 2 + 1, hlt⟩)).set
  rw [View.set_slice_whole, Rect.mem_set_unit]
  intro a
  have e := voidx0 ⟨(i 1 : Nat) / 1024 * 2 + 1, hlt⟩
  have ediv : ((i 1 : Nat) / 1024 * 2 + 1) / 2 = (i 1 : Nat) / 1024 := by omega
  match a with
  | ⟨0, _⟩ =>
    show win0_2.index ⟨(i 1 : Nat) / 1024 * 2 + 1, hlt⟩ 0 * 512 ≤ (i 0 : Nat) ∧ (i 0 : Nat) < win0_2.index ⟨(i 1 : Nat) / 1024 * 2 + 1, hlt⟩ 0 * 512 + 512
    rw [e.1]; omega
  | ⟨1, _⟩ =>
    show win0_2.index ⟨(i 1 : Nat) / 1024 * 2 + 1, hlt⟩ 1 * 1024 ≤ (i 1 : Nat) ∧ (i 1 : Nat) < win0_2.index ⟨(i 1 : Nat) / 1024 * 2 + 1, hlt⟩ 1 * 1024 + 1024
    rw [e.2]; show ((i 1 : Nat) / 1024 * 2 + 1) / 2 * 1024 ≤ (i 1 : Nat) ∧ (i 1 : Nat) < ((i 1 : Nat) / 1024 * 2 + 1) / 2 * 1024 + 1024
    rw [ediv]; omega

theorem vfinalG0 (c : Dev nD) : (vdat0 (U := U) VI c).arrAt 2 cfg0.N = vG0 VI c :=
  (vdat0 (U := U) VI c).arrAt_eq_of_cover 2 (vG0 VI c) (vflushed0 VI c) vcover0

theorem vfinal0 (V : (c : Dev nD) → (b : Ref sig .tc) → Buf (Elt Ideal) ((c : Thread nD τ).loc b)) (c : Dev nD) (b : Fin 512) (h : Fin 4096) :
    ((vdat0 (U := U) V c).arrAt 2 cfg0.N : S512x4096.Idx → EReal) (ValueIdx.ix2 b h)
      = Cert.Spec.layer (fun b k => (V c main_v22 : S512x2048.Idx → EReal) (ValueIdx.ix2 b k))
          (fun h k => (V c main_arg1 : S4096x2048.Idx → EReal) (ValueIdx.ix2 h k)) b h := by
  refine (congrFun (vfinalG0 (U := U) V c) (ValueIdx.ix2 b h)).trans ?_
  rfl

end Cert.KernelIdeal.Hand

end
-- ==== Proof.KI.ValL1.lean ====
import proofs.«409727_j78632261255731_3_alg».proof.Proof.Gen.KernelIdeal.Launch
import proofs.«409727_j78632261255731_3_alg».proof.Proof.Gen.KernelIdeal.Skeleton
import proofs.«409727_j78632261255731_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«409727_j78632261255731_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] {U : Type} [URA U]

local notation "𝕄" => MT nD τ sig Unit (Elt F) ℕ U ℕ

abbrev vc1_0 (i : grid1.Coords) : Prop := (Scalar.cmpi .ne (Scalar.extui (Scalar.cmpi .eq (BitVec.ofNat 32 (i 1).val) 0#32)) 0#32) = 1#1
theorem vhc1_0 : ∀ t : Fin cfg1.N, vc1_0 (grid1.coords t) ↔ t.val % 4 = 0 :=
  (by decide +kernel : ∀ t : Fin grid1.N, vc1_0 (grid1.coords t) ↔ t.val % 4 = 0)
abbrev vc1_1 (i : grid1.Coords) : Prop := k1_cond2 i = 1#1
theorem vhc1_1 : ∀ t : Fin cfg1.N, vc1_1 (grid1.coords t) ↔ t.val % 4 = 3 :=
  (by decide +kernel : ∀ t : Fin grid1.N, vc1_1 (grid1.coords t) ↔ t.val % 4 = 3)

theorem vlive1_0 : ∀ t : Fin cfg1.N, cfg1.idle 0 (grid1.coords t) = false := by decide +kernel
theorem vlive1_1 : ∀ t : Fin cfg1.N, cfg1.idle 1 (grid1.coords t) = false := by decide +kernel
theorem vidle1_2 : ∀ t : Fin cfg1.N, ¬vc1_1 (grid1.coords t) → cfg1.idle 2 (grid1.coords t) = true := by decide +kernel
theorem vnoflush1_2 : ∀ t : Fin cfg1.N, ¬vc1_1 (grid1.coords t) → (cfg1.win 2).flush t = false := by decide +kernel
theorem vlive1_2 : ∀ t : Fin cfg1.N, vc1_1 (grid1.coords t) → cfg1.idle 2 (grid1.coords t) = false := by decide +kernel

abbrev vms1_0 (t : Fin cfg1.N) : Memref sig .tc .vmem S512x4096 .bf16 := win1_0.stage (cfg1.slots t 0)
abbrev vhs1_0 (t : Fin cfg1.N) : (vms1_0 t).IsWhole := hstage1_0 ((cfg1.slots t 0).cast nbuf1_0)
abbrev vms1_1 (t : Fin cfg1.N) : Memref sig .tc .vmem S1024x1024 .f32 := win1_1.stage (cfg1.slots t 1)
abbrev vhs1_1 (t : Fin cfg1.N) : (vms1_1 t).IsWhole := hstage1_1 ((cfg1.slots t 1).cast nbuf1_1)
abbrev vms1_2 (t : Fin cfg1.N) : Memref sig .tc .vmem S512x1024 .bf16 := win1_2.stage (cfg1.slots t 2)
abbrev vhs1_2 (t : Fin cfg1.N) : (vms1_2 t).IsWhole := hstage1_2 ((cfg1.slots t 2).cast nbuf1_2)
abbrev vsc1 : Memref sig .tc .vmem S512x1024 .f32 := Memref.whole cc1_scratch0
abbrev vVS1 : View sig .tc .vmem S512x1024 .f32 := (vsc1).view
abbrev vVO1 : View sig .tc .vmem S512x1024 .bf16 := (Memref.whole cc1_stg2_0 : Memref sig .tc .vmem S512x1024 .bf16).view

theorem vPhiA1_eq (c : Dev nD) :
    (Pipeline.ΦA spec1 c : sProp 𝕄)
      = iprop(iprop(iprop((∃ d, owns (c : Thread nD τ) vsc1 fullShare d)) ∗ Pipeline.scopedRestBut (Ix := Unit) (Name := ℕ) (U := U) (Lvl := ℕ) (Val := Elt F) spec1 c [cc1_scratch0]) ∗ (∃ r, prngReg c r)) := by
  unfold Pipeline.ΦA; rw [scopedRest1_split]; simp only [vsc1, owns_whole]; try rfl

section
variable (c : Dev nD) (i : grid1.Coords) (arg2 : Memref sig .tc .vmem S512x4096 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)

set_option maxHeartbeats 1000000 in
noncomputable def vrun1_A (hc0 : vc1_0 i) (hc1 : ¬vc1_1 i)
    (x0 : Vec F S512x4096 .bf16) (x1 : Vec F S1024x1024 .f32) :
    { LS0 : List (View.Piece (Elt F) S512x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__layer_kernel i arg2 harg2 arg3 harg3 arg4 harg4 arg5 harg5) K } := by
  refine ⟨?_, fun xi2 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def vrun1_B (hc0 : ¬vc1_0 i) (hc1 : ¬vc1_1 i)
    (x0 : Vec F S512x4096 .bf16) (x1 : Vec F S1024x1024 .f32) (xs0 : Vec F S512x1024 .f32) :
    { LS0 : List (View.Piece (Elt F) S512x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__layer_kernel i arg2 harg2 arg3 harg3 arg4 harg4 arg5 harg5) K } := by
  refine ⟨?_, fun xi2 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def vrun1_C (hc0 : ¬vc1_0 i) (hc1 : vc1_1 i)
    (x0 : Vec F S512x4096 .bf16) (x1 : Vec F S1024x1024 .f32) (xs0 : Vec F S512x1024 .f32) :
    Σ' (L2 : List (View.Piece (Elt F) S512x1024 .bf16)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__layer_kernel i arg2 harg2 arg3 harg3 arg4 harg4 arg5 harg5) K } := by
  refine ⟨?_, ?_, fun E K => ?run⟩
  case run =>
    simp only [cc1__layer_kernel_eq_skeleton]; unfold cc1__layer_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

theorem vscover1_A (hc0 : vc1_0 i) (hc1 : ¬vc1_1 i)
    (x0 : Vec F S512x4096 .bf16) (x1 : Vec F S1024x1024 .f32) (y : S512x1024.Idx) :
    ∃ pc ∈ (vrun1_A (U := U) c i arg2 harg2 arg3 harg3 arg4 harg4 arg5 harg5 hc0 hc1 x0 x1).1, y ∈ pc.1.set :=
  View.cover_of_tiledL (vrun1_A (U := U) c i arg2 harg2 arg3 harg3 arg4 harg4 arg5 harg5 hc0 hc1 x0 x1).1 S512x1024.size (by sl_kernel_rfl) y

def vsout1_A (hc0 : vc1_0 i) (hc1 : ¬vc1_1 i)
    (x0 : Vec F S512x4096 .bf16) (x1 : Vec F S1024x1024 .f32) : Vec F S512x1024 .f32 :=
  vVS1.read (Elt F) (vVS1.writes (Elt F) vVS1.junk (vrun1_A (U := U) c i arg2 harg2 arg3 harg3 arg4 harg4 arg5 harg5 hc0 hc1 x0 x1).1)

theorem vscover1_B (hc0 : ¬vc1_0 i) (hc1 : ¬vc1_1 i)
    (x0 : Vec F S512x4096 .bf16) (x1 : Vec F S1024x1024 .f32) (xs0 : Vec F S512x1024 .f32) (y : S512x1024.Idx) :
    ∃ pc ∈ (vrun1_B (U := U) c i arg2 harg2 arg3 harg3 arg4 harg4 arg5 harg5 hc0 hc1 x0 x1 xs0).1, y ∈ pc.1.set :=
  View.cover_of_tiledL (vrun1_B (U := U) c i arg2 harg2 arg3 harg3 arg4 harg4 arg5 harg5 hc0 hc1 x0 x1 xs0).1 S512x1024.size (by sl_kernel_rfl) y

def vsout1_B (hc0 : ¬vc1_0 i) (hc1 : ¬vc1_1 i)
    (x0 : Vec F S512x4096 .bf16) (x1 : Vec F S1024x1024 .f32) (xs0 : Vec F S512x1024 .f32) : Vec F S512x1024 .f32 :=
  vVS1.read (Elt F) (vVS1.writes (Elt F) vVS1.junk (vrun1_B (U := U) c i arg2 harg2 arg3 harg3 arg4 harg4 arg5 harg5 hc0 hc1 x0 x1 xs0).1)

theorem vscover1_C (hc0 : ¬vc1_0 i) (hc1 : vc1_1 i)
    (x0 : Vec F S512x4096 .bf16) (x1 : Vec F S1024x1024 .f32) (xs0 : Vec F S512x1024 .f32) (y : S512x1024.Idx) :
    ∃ pc ∈ (vrun1_C (U := U) c i arg2 harg2 arg3 harg3 arg4 harg4 arg5 harg5 hc0 hc1 x0 x1 xs0).2.1, y ∈ pc.1.set :=
  View.cover_of_tiledL (vrun1_C (U := U) c i arg2 harg2 arg3 harg3 arg4 harg4 arg5 harg5 hc0 hc1 x0 x1 xs0).2.1 S512x1024.size (by sl_kernel_rfl) y

def vsout1_C (hc0 : ¬vc1_0 i) (hc1 : vc1_1 i)
    (x0 : Vec F S512x4096 .bf16) (x1 : Vec F S1024x1024 .f32) (xs0 : Vec F S512x1024 .f32) : Vec F S512x1024 .f32 :=
  vVS1.read (Elt F) (vVS1.writes (Elt F) vVS1.junk (vrun1_C (U := U) c i arg2 harg2 arg3 harg3 arg4 harg4 arg5 harg5 hc0 hc1 x0 x1 xs0).2.1)

theorem vcover1_C (hc0 : ¬vc1_0 i) (hc1 : vc1_1 i)
    (x0 : Vec F S512x4096 .bf16) (x1 : Vec F S1024x1024 .f32) (xs0 : Vec F S512x1024 .f32) (y : S512x1024.Idx) :
    ∃ pc ∈ (vrun1_C (U := U) c i arg2 harg2 arg3 harg3 arg4 harg4 arg5 harg5 hc0 hc1 x0 x1 xs0).1, y ∈ pc.1.set :=
  View.cover_of_tiledL (vrun1_C (U := U) c i arg2 harg2 arg3 harg3 arg4 harg4 arg5 harg5 hc0 hc1 x0 x1 xs0).1 S512x1024.size (by sl_kernel_rfl) y

def vout1_C (hc0 : ¬vc1_0 i) (hc1 : vc1_1 i)
    (x0 : Vec F S512x4096 .bf16) (x1 : Vec F S1024x1024 .f32) (xs0 : Vec F S512x1024 .f32) : Vec F S512x1024 .bf16 :=
  vVO1.read (Elt F) (vVO1.writes (Elt F) vVO1.junk (vrun1_C (U := U) c i arg2 harg2 arg3 harg3 arg4 harg4 arg5 harg5 hc0 hc1 x0 x1 xs0).1)
end

variable (V : (c : Dev nD) → (b : Ref sig .tc) → Buf (Elt F) ((c : Thread nD τ).loc b))

def viblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem vbefore1_0_of {c : Dev nD} (dat : Dat τ (Elt F) Unit ℕ U ℕ cfg1 c) (hA : dat.A 0 = V c (Pipeline.arrRef spec1 0))
    (hafter : ∀ t, dat.after 0 t = viblk1 V c 0 t) (t : Fin cfg1.N) (d) : dat.before 0 t d = viblk1 V c 0 t :=
  (dat.before_in_eq_fetched 0 rfl (fun _ => rfl) (fun _ _ _ => rfl) (fun t => by rw [hafter]; unfold Dat.blockOf viblk1; rw [hA]; try rfl) t d).trans
    (by unfold Dat.fetched Dat.blockOf viblk1; rw [hA]; try rfl)
theorem vbefore1_1_of {c : Dev nD} (dat : Dat τ (Elt F) Unit ℕ U ℕ cfg1 c) (hA : dat.A 1 = V c (Pipeline.arrRef spec1 1))
    (hafter : ∀ t, dat.after 1 t = viblk1 V c 1 t) (t : Fin cfg1.N) (d) : dat.before 1 t d = viblk1 V c 1 t :=
  (dat.before_in_eq_fetched 1 rfl (fun _ => rfl) (fun _ _ _ => rfl) (fun t => by rw [hafter]; unfold Dat.blockOf viblk1; rw [hA]; try rfl) t d).trans
    (by unfold Dat.fetched Dat.blockOf viblk1; rw [hA]; try rfl)

def vstep1 (c : Dev nD) (t : Fin cfg1.N) (prev : Vec F S512x1024 .f32) : Vec F S512x1024 .f32 :=
  if h0 : t.val % 4 = 0 then
    vsout1_A (U := U) c (grid1.coords t) (vms1_0 t) (vhs1_0 t) (vms1_1 t) (vhs1_1 t) (vms1_2 t) (vhs1_2 t) vsc1 (Memref.isWhole_whole _) ((vhc1_0 t).mpr h0) (fun h => by have := (vhc1_1 t).mp h; omega) (viblk1 V c 0 t) (viblk1 V c 1 t)
  else if h1 : t.val % 4 = 3 then
    vsout1_C (U := U) c (grid1.coords t) (vms1_0 t) (vhs1_0 t) (vms1_1 t) (vhs1_1 t) (vms1_2 t) (vhs1_2 t) vsc1 (Memref.isWhole_whole _) (fun h => h0 ((vhc1_0 t).mp h)) ((vhc1_1 t).mpr h1) (viblk1 V c 0 t) (viblk1 V c 1 t) prev
  else
    vsout1_B (U := U) c (grid1.coords t) (vms1_0 t) (vhs1_0 t) (vms1_1 t) (vhs1_1 t) (vms1_2 t) (vhs1_2 t) vsc1 (Memref.isWhole_whole _) (fun h => h0 ((vhc1_0 t).mp h)) (fun h => h1 ((vhc1_1 t).mp h)) (viblk1 V c 0 t) (viblk1 V c 1 t) prev

theorem vstep1_A (c : Dev nD) (t : Fin cfg1.N) (prev : Vec F S512x1024 .f32) (h0 : t.val % 4 = 0) (hc0 : vc1_0 (grid1.coords t)) (hc1 : ¬vc1_1 (grid1.coords t)) :
    vstep1 (U := U) V c t prev = vsout1_A (U := U) c (grid1.coords t) (vms1_0 t) (vhs1_0 t) (vms1_1 t) (vhs1_1 t) (vms1_2 t) (vhs1_2 t) vsc1 (Memref.isWhole_whole _) hc0 hc1 (viblk1 V c 0 t) (viblk1 V c 1 t) := dif_pos h0
theorem vstep1_B (c : Dev nD) (t : Fin cfg1.N) (prev : Vec F S512x1024 .f32) (h0 : ¬t.val % 4 = 0) (h1 : ¬t.val % 4 = 3) (hc0 : ¬vc1_0 (grid1.coords t)) (hc1 : ¬vc1_1 (grid1.coords t)) :
    vstep1 (U := U) V c t prev = vsout1_B (U := U) c (grid1.coords t) (vms1_0 t) (vhs1_0 t) (vms1_1 t) (vhs1_1 t) (vms1_2 t) (vhs1_2 t) vsc1 (Memref.isWhole_whole _) hc0 hc1 (viblk1 V c 0 t) (viblk1 V c 1 t) prev := (dif_neg h0).trans (dif_neg h1)
theorem vstep1_C (c : Dev nD) (t : Fin cfg1.N) (prev : Vec F S512x1024 .f32) (h0 : ¬t.val % 4 = 0) (h1 : t.val % 4 = 3) (hc0 : ¬vc1_0 (grid1.coords t)) (hc1 : vc1_1 (grid1.coords t)) :
    vstep1 (U := U) V c t prev = vsout1_C (U := U) c (grid1.coords t) (vms1_0 t) (vhs1_0 t) (vms1_1 t) (vhs1_1 t) (vms1_2 t) (vhs1_2 t) vsc1 (Memref.isWhole_whole _) hc0 hc1 (viblk1 V c 0 t) (viblk1 V c 1 t) prev := (dif_neg h0).trans (dif_pos h1)

def vaccB1 (c : Dev nD) : ℕ → Vec F S512x1024 .f32
  | 0 => vVS1.read (Elt F) vVS1.junk
  | n + 1 => if hn : n < cfg1.N then vstep1 (U := U) V c ⟨n, hn⟩ (vaccB1 c n) else vVS1.read (Elt F) vVS1.junk

theorem vaccB1_succ (c : Dev nD) (t : Fin cfg1.N) : vaccB1 (U := U) V c (t.val + 1) = vstep1 (U := U) V c t (vaccB1 (U := U) V c t.val) := by
  rw [vaccB1]; exact dif_pos t.isLt

def vout1 (c : Dev nD) (t : Fin cfg1.N) : Vec F S512x1024 .bf16 :=
  if h1 : t.val % 4 = 3 then
    vout1_C (U := U) c (grid1.coords t) (vms1_0 t) (vhs1_0 t) (vms1_1 t) (vhs1_1 t) (vms1_2 t) (vhs1_2 t) vsc1 (Memref.isWhole_whole _) (fun h => by have := (vhc1_0 t).mp h; omega) ((vhc1_1 t).mpr h1) (viblk1 V c 0 t) (viblk1 V c 1 t) (vaccB1 (U := U) V c t.val)
  else vVO1.read (Elt F) vVO1.junk

theorem vout1_last (c : Dev nD) (t : Fin cfg1.N) (h1 : t.val % 4 = 3) (hc0 : ¬vc1_0 (grid1.coords t)) (hc1 : vc1_1 (grid1.coords t)) :
    vout1 (U := U) V c t = vout1_C (U := U) c (grid1.coords t) (vms1_0 t) (vhs1_0 t) (vms1_1 t) (vhs1_1 t) (vms1_2 t) (vhs1_2 t) vsc1 (Memref.isWhole_whole _) hc0 hc1 (viblk1 V c 0 t) (viblk1 V c 1 t) (vaccB1 (U := U) V c t.val) := dif_pos h1

def vPhiS1 (c : Dev nD) : ℕ → sProp 𝕄
  | 0 => Pipeline.ΦA spec1 c
  | n + 1 => iprop(iprop(owns (c : Thread nD τ) vsc1 fullShare (vaccB1 (U := U) V c (n + 1)) ∗ Pipeline.scopedRestBut (Ix := Unit) (Name := ℕ) (U := U) (Lvl := ℕ) (Val := Elt F) spec1 c [cc1_scratch0]) ∗ (∃ r, prngReg c r))

theorem vPhiS1_zero (c : Dev nD) (n : ℕ) (hz : n = 0) : vPhiS1 (U := U) V c n = Pipeline.ΦA spec1 c := by subst hz; rfl
theorem vPhiS1_pos (c : Dev nD) (n : ℕ) (hz : n ≠ 0) :
    vPhiS1 (U := U) V c n = iprop(iprop(owns (c : Thread nD τ) vsc1 fullShare (vaccB1 (U := U) V c n) ∗ Pipeline.scopedRestBut (Ix := Unit) (Name := ℕ) (U := U) (Lvl := ℕ) (Val := Elt F) spec1 c [cc1_scratch0]) ∗ (∃ r, prngReg c r)) := by
  cases n with
  | zero => exact absurd rfl hz
  | succ n => rfl

def vdatF1 (c : Dev nD) : Dat τ (Elt F) Unit ℕ U ℕ cfg1 c where
  A w := V c (Pipeline.arrRef spec1 w)
  after w t := match w with
    | ⟨0, _⟩ => viblk1 V c 0 t
    | ⟨1, _⟩ => viblk1 V c 1 t
    | ⟨2, _⟩ => vout1 (U := U) V c t
  Φ t := vPhiS1 (U := U) V c t.val
  q _ := fullShare
  owed _ := 0

theorem vA_eq1 (c : Dev nD) (w : Fin cfg1.W) : (vdatF1 (U := U) V c).A w = V c (Pipeline.arrRef spec1 w) := by
  dsimp only [vdatF1]
theorem vafter1_0 (c : Dev nD) (t : Fin cfg1.N) : (vdatF1 (U := U) V c).after 0 t = viblk1 V c 0 t := by dsimp only [vdatF1]
theorem vafter1_1 (c : Dev nD) (t : Fin cfg1.N) : (vdatF1 (U := U) V c).after 1 t = viblk1 V c 1 t := by dsimp only [vdatF1]
theorem vafter1_2 (c : Dev nD) (t : Fin cfg1.N) : (vdatF1 (U := U) V c).after 2 t = vout1 (U := U) V c t := by dsimp only [vdatF1]
theorem vbefore1_0 (c : Dev nD) (t : Fin cfg1.N) (d) : (vdatF1 (U := U) V c).before 0 t d = viblk1 V c 0 t :=
  vbefore1_0_of V (vdatF1 V c) (vA_eq1 V c 0) (vafter1_0 V c) t d
theorem vbefore1_1 (c : Dev nD) (t : Fin cfg1.N) (d) : (vdatF1 (U := U) V c).before 1 t d = viblk1 V c 1 t :=
  vbefore1_1_of V (vdatF1 V c) (vA_eq1 V c 1) (vafter1_1 V c) t d

def vbodyPre1 (c : Dev nD) (t : Fin cfg1.N) : sProp 𝕄 :=
  iprop((vdatF1 (U := U) V c).Φ t.castSucc ∗ (vdatF1 (U := U) V c).owesAt () t.castSucc
    ∗ (∃ d, owns (c : Thread nD τ) (vms1_0 t) fullShare ((vdatF1 (U := U) V c).before 0 t d))
    ∗ (∃ d, owns (c : Thread nD τ) (vms1_1 t) fullShare ((vdatF1 (U := U) V c).before 1 t d))
    ∗ (∃ d, owns (c : Thread nD τ) (vms1_2 t) fullShare ((vdatF1 (U := U) V c).before 2 t d)))

def vbodyPost1 (c : Dev nD) (t : Fin cfg1.N) : sProp 𝕄 :=
  iprop((vdatF1 (U := U) V c).Φ t.succ ∗ (vdatF1 (U := U) V c).owesAt () t.succ
    ∗ (vdatF1 (U := U) V c).leavesExact 0 t
    ∗ (vdatF1 (U := U) V c).leavesExact 1 t
    ∗ (vdatF1 (U := U) V c).leavesExact 2 t)

set_option maxHeartbeats 4800000 in
theorem vsound1 (c : Dev nD) (t : Fin cfg1.N) :
    vbodyPre1 (U := U) V c t ⊢ wp frame (wpE (defs₀ (F := F)) Variants.none c none) Set.univ (bodyAt1 t) (fun _ => vbodyPost1 (U := U) V c t) := by
  unfold vbodyPre1 vbodyPost1 bodyAt1
  simp only [vbefore1_0, vbefore1_1]
  rw [show (vdatF1 (U := U) V c).owesAt () t.succ = (vdatF1 (U := U) V c).owesAt () t.castSucc from rfl]
  rw [show (vdatF1 (U := U) V c).Φ t.succ = vPhiS1 (U := U) V c (t.val + 1) from rfl, vPhiS1_pos V c _ (Nat.succ_ne_zero _), vaccB1_succ]
  rw [show (vdatF1 (U := U) V c).Φ t.castSucc = vPhiS1 (U := U) V c t.val from rfl]
  rw [show (vdatF1 (U := U) V c).leavesExact 0 t = owns (c : Thread nD τ) (vms1_0 t) fullShare ((vdatF1 (U := U) V c).after 0 t) from by
    unfold Dat.leavesExact; rw [vlive1_0 t], vafter1_0]
  rw [show (vdatF1 (U := U) V c).leavesExact 1 t = owns (c : Thread nD τ) (vms1_1 t) fullShare ((vdatF1 (U := U) V c).after 1 t) from by
    unfold Dat.leavesExact; rw [vlive1_1 t], vafter1_1]
  have hN : t.val < 16 := lt_of_lt_of_eq t.isLt (show cfg1.N = 16 from N_1)
  by_cases h0 : t.val % 4 = 0
  · have hc0 : vc1_0 (grid1.coords t) := (vhc1_0 t).mpr h0
    have hc1 : ¬vc1_1 (grid1.coords t) := fun h => by have := (vhc1_1 t).mp h; omega
    rw [Dat.leavesExact_idle (vdatF1 (U := U) V c) 2 t (vidle1_2 t hc1) (vnoflush1_2 t hc1)]
    rw [vstep1_A V c t _ h0 hc0 hc1]
    unfold vsout1_A; (try dsimp only)
    by_cases hz : t.val = 0
    · rw [vPhiS1_zero V c _ hz, vPhiA1_eq]
      iintro ⟨⟨⟨HS0, HR⟩, Hg⟩, Ho, ⟨%d0, H0⟩, ⟨%d1, H1⟩, ⟨%d2, H2⟩⟩
      iapply ((vrun1_A (U := U) c (grid1.coords t) _ _ _ _ _ _ _ _ hc0 hc1 (viblk1 V c 0 t) (viblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover1_A c _ _ _ _ _ _ _ _ _ _ _ _ _)
          iexact HR
        iexact Hg
      isplitl [Ho]; · iexact Ho
      isplitl [H0]; · iexact H0
      isplitl [H1]; · iexact H1
      iexists _; iexact H2
    · rw [vPhiS1_pos V c _ hz]
      iintro ⟨⟨⟨HS0, HR⟩, Hg⟩, Ho, ⟨%d0, H0⟩, ⟨%d1, H1⟩, ⟨%d2, H2⟩⟩
      iapply ((vrun1_A (U := U) c (grid1.coords t) _ _ _ _ _ _ _ _ hc0 hc1 (viblk1 V c 0 t) (viblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    have hc0 : ¬vc1_0 (grid1.coords t) := fun h => h0 ((vhc1_0 t).mp h)
    rw [vPhiS1_pos V c _ hz]
    by_cases h1 : t.val % 4 = 3
    · have hc1 : vc1_1 (grid1.coords t) := (vhc1_1 t).mpr h1
      rw [show (vdatF1 (U := U) V c).leavesExact 2 t = owns (c : Thread nD τ) (vms1_2 t) fullShare ((vdatF1 (U := U) V c).after 2 t) from by
        unfold Dat.leavesExact; rw [vlive1_2 t hc1], vafter1_2, vout1_last V c t h1 hc0 hc1]
      rw [vstep1_C V c t _ h0 h1 hc0 hc1]
      unfold vsout1_C vout1_C; (try dsimp only)
      iintro ⟨⟨⟨HS0, HR⟩, Hg⟩, Ho, ⟨%d0, H0⟩, ⟨%d1, H1⟩, ⟨%d2, H2⟩⟩
      iapply ((vrun1_C (U := U) c (grid1.coords t) _ _ _ _ _ _ _ _ hc0 hc1 (viblk1 V c 0 t) (viblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (vcover1_C c _ _ _ _ _ _ _ _ _ _ _ _ _ _)
    · have hc1 : ¬vc1_1 (grid1.coords t) := fun h => h1 ((vhc1_1 t).mp h)
      rw [Dat.leavesExact_idle (vdatF1 (U := U) V c) 2 t (vidle1_2 t hc1) (vnoflush1_2 t hc1)]
      rw [vstep1_B V c t _ h0 h1 hc0 hc1]
      unfold vsout1_B; (try dsimp only)
      iintro ⟨⟨⟨HS0, HR⟩, Hg⟩, Ho, ⟨%d0, H0⟩, ⟨%d1, H1⟩, ⟨%d2, H2⟩⟩
      iapply ((vrun1_B (U := U) c (grid1.coords t) _ _ _ _ _ _ _ _ hc0 hc1 (viblk1 V c 0 t) (viblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover1_B c _ _ _ _ _ _ _ _ _ _ _ _ _ _)
          iexact HR
        iexact Hg
      isplitl [Ho]; · iexact Ho
      isplitl [H0]; · iexact H0
      isplitl [H1]; · iexact H1
      iexists _; iexact H2

theorem vbodyF1 (c : Dev nD) : BodyObligation (vdatF1 (U := U) V c) (defs₀ (F := F)) Variants.none () Set.univ := fun t => by
  rw [bigSep_W1, bigSep_W1]
  exact vsound1 V c t

theorem vhinF1 (c : Dev nD) : (Pipeline.ΦA spec1 c : sProp 𝕄) ⊢ (vdatF1 (U := U) V c).Φ 0 := by
  rw [show (vdatF1 (U := U) V c).Φ 0 = vPhiS1 (U := U) V c 0 from rfl, vPhiS1_zero V c 0 rfl]
  try exact Idealize.SL.BI.Entails.refl _

theorem vhoutF1 (c : Dev nD) : (vdatF1 (U := U) V c).Φ (Fin.last cfg1.N) ⊢ (Pipeline.ΦA spec1 c : sProp 𝕄) := by
  rw [show (vdatF1 (U := U) V c).Φ (Fin.last cfg1.N) = vPhiS1 (U := U) V c (Fin.last cfg1.N).val from rfl,
    vPhiS1_pos V c _ (by rw [Fin.val_last]; have : cfg1.N = 16 := N_1; omega), vPhiA1_eq]
  iintro ⟨⟨HS0, HR⟩, Hg⟩
  isplitl [HS0 HR]
  · isplitl [HS0]
    · iexists _; iexact HS0
    iexact HR
  iexact Hg

theorem vhz1 : (![0, 0] : Fin 2 → Nat) = fun _ => 0 := funext fun a => by fin_cases a <;> rfl

section
variable (c : Dev nD) (i : grid1.Coords) (arg2 : Memref sig .tc .vmem S512x4096 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)

theorem vsoutB1_eq (hc0 : ¬vc1_0 i) (hc1 : ¬vc1_1 i)
    (x0 : Vec F S512x4096 .bf16) (x1 : Vec F S1024x1024 .f32) (xs0 : Vec F S512x1024 .f32) :
    vsout1_B (U := U) c i arg2 harg2 arg3 harg3 arg4 harg4 arg5 harg5 hc0 hc1 x0 x1 xs0 = k1_pay2 (View.ld x0 (Rect.unit (s := S512x4096) (k1_off1 i) S512x1024.size (k1_off1_inb i))) x1 xs0 := by
  unfold vsout1_B
  rw [View.read_writes_eq_canon _ _ _ (vscover1_B c i arg2 harg2 arg3 harg3 arg4 harg4 arg5 harg5 hc0 hc1 x0 x1 xs0)]
  unfold vrun1_B
  dsimp only
  sl_unfold_words
  rw [View.canon_unit_zero vhz1]
  simp only [View.readAt_eq_ld, harg2.read_unread, harg3.read_unread, harg5.read_unread, View.ld_unit_zero (S := S1024x1024) vhz1, View.ld_unit_zero (S := S512x1024) vhz1]

theorem vsoutA1_eq (hc0 : vc1_0 i) (hc1 : ¬vc1_1 i)
    (x0 : Vec F S512x4096 .bf16) (x1 : Vec F S1024x1024 .f32) :
    vsout1_A (U := U) c i arg2 harg2 arg3 harg3 arg4 harg4 arg5 harg5 hc0 hc1 x0 x1 = k1_pay2 (View.ld x0 (Rect.unit (s := S512x4096) (k1_off1 i) S512x1024.size (k1_off1_inb i))) x1 k1_pay1 := by
  unfold vsout1_A
  rw [View.read_writes_eq_canon _ _ _ (vscover1_A c i arg2 harg2 arg3 harg3 arg4 harg4 arg5 harg5 hc0 hc1 x0 x1)]
  unfold vrun1_A
  dsimp only
  sl_unfold_words
  rw [View.canon_cons_unit_zero (S := S512x1024) vhz1, View.readCov_unit_zero (S := S512x1024) _ vhz1]
  simp only [View.readAt_eq_ld, harg2.read_unread, harg3.read_unread, View.ld_unit_zero (S := S1024x1024) vhz1]

theorem vsoutC1_eq (hc0 : ¬vc1_0 i) (hc1 : vc1_1 i)
    (x0 : Vec F S512x4096 .bf16) (x1 : Vec F S1024x1024 .f32) (xs0 : Vec F S512x1024 .f32) :
    vsout1_C (U := U) c i arg2 harg2 arg3 harg3 arg4 harg4 arg5 harg5 hc0 hc1 x0 x1 xs0 = k1_pay2 (View.ld x0 (Rect.unit (s := S512x4096) (k1_off1 i) S512x1024.size (k1_off1_inb i))) x1 xs0 := by
  unfold vsout1_C
  rw [View.read_writes_eq_canon _ _ _ (vscover1_C c i arg2 harg2 arg3 harg3 arg4 harg4 arg5 harg5 hc0 hc1 x0 x1 xs0)]
  unfold vrun1_C
  dsimp only
  sl_unfold_words
  rw [View.canon_unit_zero vhz1]
  simp only [View.readAt_eq_ld, harg2.read_unread, harg3.read_unread, harg5.read_unread, View.ld_unit_zero (S := S1024x1024) vhz1, View.ld_unit_zero (S := S512x1024) vhz1]

theorem voutC1_eq (hc0 : ¬vc1_0 i) (hc1 : vc1_1 i)
    (x0 : Vec F S512x4096 .bf16) (x1 : Vec F S1024x1024 .f32) (xs0 : Vec F S512x1024 .f32) :
    vout1_C (U := U) c i arg2 harg2 arg3 harg3 arg4 harg4 arg5 harg5 hc0 hc1 x0 x1 xs0 = k1_pay3 (k1_pay2 (View.ld x0 (Rect.unit (s := S512x4096) (k1_off1 i) S512x1024.size (k1_off1_inb i))) x1 xs0) := by
  unfold vout1_C
  rw [View.read_writes_eq_canon _ _ _ (vcover1_C c i arg2 harg2 arg3 harg3 arg4 harg4 arg5 harg5 hc0 hc1 x0 x1 xs0)]
  unfold vrun1_C
  dsimp only
  sl_unfold_words
  rw [View.canon_unit_zero vhz1, View.readCov_unit_zero (S := S512x1024) _ vhz1]
  simp only [View.readAt_eq_ld, harg2.read_unread, harg3.read_unread, harg5.read_unread, View.ld_unit_zero (S := S1024x1024) vhz1, View.ld_unit_zero (S := S512x1024) vhz1]
end

theorem vbit1 (w : BitVec 1) : (((w.setWidth 32).toInt : ℝ) : EReal) = ((w.toNat : ℝ) : EReal) := by
  have h : (w.setWidth 32).toInt = (w.toNat : ℤ) := by revert w; decide
  rw [h, Int.cast_natCast]

theorem vpay1_1_apply (i : S512x1024.Idx) : (k1_pay1 (F := Ideal) : S512x1024.Idx → EReal) i = 0 := by
  unfold k1_pay1
  simp only [shapeCast_self]
  exact Ideal.ofBits_zero_f32

theorem vlhs1_0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem vlhs1_1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem vrhs1_0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem vrhs1_1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

theorem vpay2_1_apply (x6 : Vec Ideal S512x1024 .bf16) (x8 : Vec Ideal S1024x1024 .f32) (a : Vec Ideal S512x1024 .f32) (b : Fin 512) (j : Fin 1024) :
    (k1_pay2 x6 x8 a : S512x1024.Idx → EReal) (ValueIdx.ix2 b j)
      = (a : S512x1024.Idx → EReal) (ValueIdx.ix2 b j) + ∑ kk : Fin 1024, (x6 : S512x1024.Idx → EReal) (ValueIdx.ix2 b kk) * (x8 : S1024x1024.Idx → EReal) (ValueIdx.ix2 j kk) := by
  unfold k1_pay2
  simp only [shapeCast_self]
  show (a : S512x1024.Idx → EReal) (ValueIdx.ix2 b j) + FloatOps.matmul (F := Ideal) (φ₁ := .bf16) (φ₂ := .bf16) dot_S512x1024_S1024x1024_S512x1024_1_1_0_0_n_n none x6 x8 (constant (F := Ideal) S512x1024 .f32 0x00000000#32) (ValueIdx.ix2 b j) = _
  rw [Ideal.matmul_constant_zero_apply, ← Equiv.sum_comp (ValueIdx.contrEquiv1 dot_S512x1024_S1024x1024_S512x1024_1_1_0_0_n_n 1024 rfl rfl).symm]
  refine congrArg (fun z => (a : S512x1024.Idx → EReal) (ValueIdx.ix2 b j) + z) (Finset.sum_congr rfl fun kk _ => ?_)
  have hk := ValueIdx.contrEquiv1_symm_val dot_S512x1024_S1024x1024_S512x1024_1_1_0_0_n_n 1024 rfl rfl kk
  have el : dot_S512x1024_S1024x1024_S512x1024_1_1_0_0_n_n.lhsIdx (ValueIdx.ix2 b j) ((ValueIdx.contrEquiv1 dot_S512x1024_S1024x1024_S512x1024_1_1_0_0_n_n 1024 rfl rfl).symm kk) = ValueIdx.ix2 b kk := funext fun ax => Fin.ext (by
    match ax with
    | ⟨0, _⟩ => exact vlhs1_0 _ _
    | ⟨1, _⟩ => exact (vlhs1_1 _ _).trans hk)
  have er : dot_S512x1024_S1024x1024_S512x1024_1_1_0_0_n_n.rhsIdx (ValueIdx.ix2 b j) ((ValueIdx.contrEquiv1 dot_S512x1024_S1024x1024_S512x1024_1_1_0_0_n_n 1024 rfl rfl).symm kk) = ValueIdx.ix2 j kk := funext fun ax => Fin.ext (by
    match ax with
    | ⟨0, _⟩ => exact vrhs1_0 _ _
    | ⟨1, _⟩ => exact (vrhs1_1 _ _).trans hk)
  rw [el, er]

theorem vpay3_1_apply (a : Vec Ideal S512x1024 .f32) (i : S512x1024.Idx) :
    (k1_pay3 a : S512x1024.Idx → EReal) i = Cert.Spec.thr ((a : S512x1024.Idx → EReal) i) := by
  unfold k1_pay3 Cert.Spec.thr
  show ((((Ideal.cmp .oge ((a : S512x1024.Idx → EReal) i) (Ideal.ofBits .f32 0x40800000#32)).setWidth 32).toInt : ℝ) : EReal) = _
  exact vbit1 _

variable (VI : (c : Dev nD) → (b : Ref sig .tc) → Buf (Elt Ideal) ((c : Thread nD τ).loc b))

abbrev vX1 (c : Dev nD) : Vec Ideal S512x4096 .bf16 := VI c main_v23
abbrev vW1 (c : Dev nD) : Vec Ideal S4096x4096 .f32 := VI c main_arg2
abbrev vxblk1 (c : Dev nD) (t : Fin cfg1.N) : Vec Ideal S512x4096 .bf16 := viblk1 (F := Ideal) VI c 0 t
abbrev vwblk1 (c : Dev nD) (t : Fin cfg1.N) : Vec Ideal S1024x1024 .f32 := viblk1 (F := Ideal) VI c 1 t

def vXn1 (c : Dev nD) (b : Fin 512) (q : ℕ) : EReal := if h : q < 4096 then (vX1 VI c : S512x4096.Idx → EReal) (ValueIdx.ix2 b ⟨q, h⟩) else 0
def vWn1 (c : Dev nD) (r q : ℕ) : EReal := if h : r < 4096 ∧ q < 4096 then (vW1 VI c : S4096x4096.Idx → EReal) (ValueIdx.ix2 ⟨r, h.1⟩ ⟨q, h.2⟩) else 0

theorem vxidx1 : ∀ t : Fin cfg1.N, win1_0.index t 0 = 0 ∧ win1_0.index t 1 = 0 :=
  (by decide +kernel : ∀ t : Fin grid1.N, win1_0.index t 0 = 0 ∧ win1_0.index t 1 = 0)
theorem vwidx1 : ∀ t : Fin cfg1.N, win1_1.index t 0 = t.val / 4 ∧ win1_1.index t 1 = t.val % 4 :=
  (by decide +kernel : ∀ t : Fin grid1.N, win1_1.index t 0 = t.val / 4 ∧ win1_1.index t 1 = t.val % 4)
theorem voidx1 : ∀ t : Fin cfg1.N, win1_2.index t 0 = 0 ∧ win1_2.index t 1 = t.val / 4 :=
  (by decide +kernel : ∀ t : Fin grid1.N, win1_2.index t 0 = 0 ∧ win1_2.index t 1 = t.val / 4)
theorem voff1 : ∀ t : Fin cfg1.N, k1_off1 (grid1.coords t) 0 = 0 ∧ k1_off1 (grid1.coords t) 1 = t.val % 4 * 1024 :=
  (by decide +kernel : ∀ t : Fin grid1.N, k1_off1 (grid1.coords t) 0 = 0 ∧ k1_off1 (grid1.coords t) 1 = t.val % 4 * 1024)

theorem vxb1_apply (c : Dev nD) (t : Fin cfg1.N) (b : Fin 512) (q : Fin 4096) :
    (vxblk1 VI c t : S512x4096.Idx → EReal) (ValueIdx.ix2 b q) = (vX1 VI c : S512x4096.Idx → EReal) (ValueIdx.ix2 b q) := by
  unfold vxblk1 viblk1
  rw [View.read_apply]
  show VI c main_v23 _ = VI c main_v23 _
  congr 1
  funext a
  apply Fin.ext
  match a with
  | ⟨0, _⟩ => show win1_0.index t 0 * 512 + 1 * b.val = b.val; rw [(vxidx1 t).1]; omega
  | ⟨1, _⟩ => show win1_0.index t 1 * 4096 + 1 * q.val = q.val; rw [(vxidx1 t).2]; omega

theorem vwb1_apply (c : Dev nD) (t : Fin cfg1.N) (j kk : Fin 1024) :
    (vwblk1 VI c t : S1024x1024.Idx → EReal) (ValueIdx.ix2 j kk) = vWn1 VI c (t.val / 4 * 1024 + j.val) (t.val % 4 * 1024 + kk.val) := by
  have hN : t.val < 16 := lt_of_lt_of_eq t.isLt (show cfg1.N = 16 from N_1)
  have hj := j.isLt
  have hk := kk.isLt
  unfold vWn1
  rw [dif_pos ⟨by omega, by omega⟩]
  unfold vwblk1 viblk1
  rw [View.read_apply]
  show VI c main_arg2 _ = VI c main_arg2 _
  congr 1
  funext a
  apply Fin.ext
  match a with
  | ⟨0, _⟩ => show win1_1.index t 0 * 1024 + 1 * j.val = t.val / 4 * 1024 + j.val; rw [(vwidx1 t).1]; omega
  | ⟨1, _⟩ => show win1_1.index t 1 * 1024 + 1 * kk.val = t.val % 4 * 1024 + kk.val; rw [(vwidx1 t).2]; omega

theorem vld1_apply (x0 : Vec Ideal S512x4096 .bf16) (t : Fin cfg1.N) (b : Fin 512) (kk : Fin 1024) (hq : t.val % 4 * 1024 + kk.val < 4096) :
    (View.ld x0 (Rect.unit (s := S512x4096) (k1_off1 (grid1.coords t)) S512x1024.size (k1_off1_inb (grid1.coords t))) : S512x1024.Idx → EReal) (ValueIdx.ix2 b kk) = (x0 : S512x4096.Idx → EReal) (ValueIdx.ix2 b ⟨t.val % 4 * 1024 + kk.val, hq⟩) := by
  show (x0 : S512x4096.Idx → EReal) ((Rect.unit (s := S512x4096) (k1_off1 (grid1.coords t)) S512x1024.size (k1_off1_inb (grid1.coords t))).idx (ValueIdx.ix2 b kk)) = _
  congr 1
  funext a
  apply Fin.ext
  match a with
  | ⟨0, _⟩ => show k1_off1 (grid1.coords t) 0 + 1 * b.val = b.val; rw [(voff1 t).1]; omega
  | ⟨1, _⟩ => show k1_off1 (grid1.coords t) 1 + 1 * kk.val = t.val % 4 * 1024 + kk.val; rw [(voff1 t).2]; omega

theorem vstep1_apply (c : Dev nD) (t : Fin cfg1.N) (prev : Vec Ideal S512x1024 .f32) (b : Fin 512) (j : Fin 1024) :
    (vstep1 (F := Ideal) (U := U) VI c t prev : S512x1024.Idx → EReal) (ValueIdx.ix2 b j)
      = (if t.val % 4 = 0 then 0 else (prev : S512x1024.Idx → EReal) (ValueIdx.ix2 b j))
        + ∑ x ∈ Finset.range 1024, vXn1 VI c b (t.val % 4 * 1024 + x) * vWn1 VI c (t.val / 4 * 1024 + j.val) (t.val % 4 * 1024 + x) := by
  have core : ∀ a : Vec Ideal S512x1024 .f32,
      (k1_pay2 (View.ld (vxblk1 VI c t) (Rect.unit (s := S512x4096) (k1_off1 (grid1.coords t)) S512x1024.size (k1_off1_inb (grid1.coords t)))) (vwblk1 VI c t) a : S512x1024.Idx → EReal) (ValueIdx.ix2 b j)
        = (a : S512x1024.Idx → EReal) (ValueIdx.ix2 b j) + ∑ x ∈ Finset.range 1024, vXn1 VI c b (t.val % 4 * 1024 + x) * vWn1 VI c (t.val / 4 * 1024 + j.val) (t.val % 4 * 1024 + x) := by
    intro a
    refine (vpay2_1_apply (View.ld (vxblk1 VI c t) (Rect.unit (s := S512x4096) (k1_off1 (grid1.coords t)) S512x1024.size (k1_off1_inb (grid1.coords t)))) (vwblk1 VI c t) a b j).trans ?_
    rw [← Fin.sum_univ_eq_sum_range (fun x => vXn1 VI c b (t.val % 4 * 1024 + x) * vWn1 VI c (t.val / 4 * 1024 + j.val) (t.val % 4 * 1024 + x)) 1024]
    refine congrArg (fun z => (a : S512x1024.Idx → EReal) (ValueIdx.ix2 b j) + z) (Finset.sum_congr rfl fun kk _ => ?_)
    have hq : t.val % 4 * 1024 + kk.val < 4096 := by
      have := kk.isLt; have := Nat.mod_lt t.val (show 0 < 4 by decide); omega
    rw [vld1_apply (vxblk1 VI c t) t b kk hq, vxb1_apply VI c t b ⟨t.val % 4 * 1024 + kk.val, hq⟩, vwb1_apply VI c t j kk]
    unfold vXn1
    rw [dif_pos hq]
  by_cases h0 : t.val % 4 = 0
  · have hc0 : vc1_0 (grid1.coords t) := (vhc1_0 t).mpr h0
    have hc1 : ¬vc1_1 (grid1.coords t) := fun h => by have := (vhc1_1 t).mp h; omega
    rw [if_pos h0]
    refine (congrFun (vstep1_A (F := Ideal) (U := U) VI c t prev h0 hc0 hc1) (ValueIdx.ix2 b j)).trans ?_
    refine (congrFun (vsoutA1_eq (F := Ideal) (U := U) c (grid1.coords t) (vms1_0 t) (vhs1_0 t) (vms1_1 t) (vhs1_1 t) (vms1_2 t) (vhs1_2 t) vsc1 (Memref.isWhole_whole _) hc0 hc1 (vxblk1 VI c t) (vwblk1 VI c t)) (ValueIdx.ix2 b j)).trans ?_
    refine (core (k1_pay1 (F := Ideal))).trans ?_
    rw [vpay1_1_apply]
  · have hc0 : ¬vc1_0 (grid1.coords t) := fun h => h0 ((vhc1_0 t).mp h)
    rw [if_neg h0]
    by_cases h1 : t.val % 4 = 3
    · have hc1 : vc1_1 (grid1.coords t) := (vhc1_1 t).mpr h1
      refine (congrFun (vstep1_C (F := Ideal) (U := U) VI c t prev h0 h1 hc0 hc1) (ValueIdx.ix2 b j)).trans ?_
      refine (congrFun (vsoutC1_eq (F := Ideal) (U := U) c (grid1.coords t) (vms1_0 t) (vhs1_0 t) (vms1_1 t) (vhs1_1 t) (vms1_2 t) (vhs1_2 t) vsc1 (Memref.isWhole_whole _) hc0 hc1 (vxblk1 VI c t) (vwblk1 VI c t) prev) (ValueIdx.ix2 b j)).trans ?_
      exact core prev
    · have hc1 : ¬vc1_1 (grid1.coords t) := fun h => h1 ((vhc1_1 t).mp h)
      refine (congrFun (vstep1_B (F := Ideal) (U := U) VI c t prev h0 h1 hc0 hc1) (ValueIdx.ix2 b j)).trans ?_
      refine (congrFun (vsoutB1_eq (F := Ideal) (U := U) c (grid1.coords t) (vms1_0 t) (vhs1_0 t) (vms1_1 t) (vhs1_1 t) (vms1_2 t) (vhs1_2 t) vsc1 (Memref.isWhole_whole _) hc0 hc1 (vxblk1 VI c t) (vwblk1 VI c t) prev) (ValueIdx.ix2 b j)).trans ?_
      exact core prev

theorem vaccU1 (c : Dev nD) (n : ℕ) (hn : n < 16) (b : Fin 512) (j : Fin 1024) :
    (vaccB1 (F := Ideal) (U := U) VI c (n + 1) : S512x1024.Idx → EReal) (ValueIdx.ix2 b j)
      = (if n % 4 = 0 then 0 else (vaccB1 (F := Ideal) (U := U) VI c n : S512x1024.Idx → EReal) (ValueIdx.ix2 b j))
        + ∑ x ∈ Finset.range 1024, vXn1 VI c b (n % 4 * 1024 + x) * vWn1 VI c (n / 4 * 1024 + j.val) (n % 4 * 1024 + x) := by
  have hlt : n < cfg1.N := lt_of_lt_of_eq hn (show 16 = cfg1.N from N_1.symm)
  refine (congrFun (vaccB1_succ (F := Ideal) (U := U) VI c ⟨n, hlt⟩) (ValueIdx.ix2 b j)).trans ?_
  exact vstep1_apply VI c ⟨n, hlt⟩ _ b j

theorem vacc1_eq (c : Dev nD) : ∀ (n : ℕ), n < 16 → ∀ (b : Fin 512) (j : Fin 1024),
    (vaccB1 (F := Ideal) (U := U) VI c (n + 1) : S512x1024.Idx → EReal) (ValueIdx.ix2 b j)
      = ∑ q ∈ Finset.range ((n % 4 + 1) * 1024), vXn1 VI c b q * vWn1 VI c (n / 4 * 1024 + j.val) q := by
  intro n
  induction n with
  | zero =>
    intro hn b j
    rw [vaccU1 VI c 0 hn b j, if_pos (Nat.zero_mod _)]
    simp only [Nat.zero_mod, Nat.zero_div, zero_mul, zero_add, one_mul]
  | succ m ih =>
    intro hn b j
    rw [vaccU1 VI c (m + 1) hn b j]
    by_cases h0 : (m + 1) % 4 = 0
    · rw [if_pos h0, h0]
      simp only [zero_mul, zero_add, one_mul]
    · rw [if_neg h0, ih (by omega) b j]
      have e1 : (m + 1) % 4 = m % 4 + 1 := by omega
      have e2 : (m + 1) / 4 = m / 4 := by omega
      rw [e1, e2, show (m % 4 + 1 + 1) * 1024 = (m % 4 + 1) * 1024 + 1024 by ring, Finset.sum_range_add]

theorem vaccLast1 (c : Dev nD) (n : ℕ) (hn : n < 16) (h1 : n % 4 = 3) (b : Fin 512) (j : Fin 1024) (hr : n / 4 * 1024 + j.val < 4096) :
    (vaccB1 (F := Ideal) (U := U) VI c (n + 1) : S512x1024.Idx → EReal) (ValueIdx.ix2 b j)
      = ∑ k : Fin 4096, (vX1 VI c : S512x4096.Idx → EReal) (ValueIdx.ix2 b k) * (vW1 VI c : S4096x4096.Idx → EReal) (ValueIdx.ix2 ⟨n / 4 * 1024 + j.val, hr⟩ k) := by
  rw [vacc1_eq VI c n hn b j, h1, show (3 + 1) * 1024 = 4096 by norm_num,
    ← Fin.sum_univ_eq_sum_range (fun q => vXn1 VI c b q * vWn1 VI c (n / 4 * 1024 + j.val) q) 4096]
  refine Finset.sum_congr rfl fun k _ => ?_
  unfold vXn1 vWn1
  rw [dif_pos k.isLt, dif_pos ⟨hr, k.isLt⟩]

def vdat1 (V : (c : Dev nD) → (b : Ref sig .tc) → Buf (Elt Ideal) ((c : Thread nD τ).loc b)) (c : Dev nD) : Dat τ (Elt Ideal) Unit ℕ U ℕ cfg1 c := vdatF1 (F := Ideal) (U := U) V c
theorem vdat1_A (V : (c : Dev nD) → (b : Ref sig .tc) → Buf (Elt Ideal) ((c : Thread nD τ).loc b)) (c : Dev nD) (w : Fin cfg1.W) : (vdat1 (U := U) V c).A w = V c (Pipeline.arrRef spec1 w) := vA_eq1 (F := Ideal) (U := U) V c w
theorem vdat1_share (V : (c : Dev nD) → (b : Ref sig .tc) → Buf (Elt Ideal) ((c : Thread nD τ).loc b)) (c : Dev nD) (w : Fin cfg1.W) : (vdat1 (U := U) V c).share w = fullShare := by
  unfold Dat.share; split <;> rfl
theorem vdat1_owed (V : (c : Dev nD) → (b : Ref sig .tc) → Buf (Elt Ideal) ((c : Thread nD τ).loc b)) (c : Dev nD) (t : Fin (cfg1.N + 1)) : (vdat1 (U := U) V c).owed t = 0 := rfl
theorem vbody1 (V : (c : Dev nD) → (b : Ref sig .tc) → Buf (Elt Ideal) ((c : Thread nD τ).loc b)) (c : Dev nD) : BodyObligation (vdat1 (U := U) V c) (defs₀ (F := Ideal)) Variants.none () Set.univ := vbodyF1 (F := Ideal) (U := U) V c
theorem vhin1 (V : (c : Dev nD) → (b : Ref sig .tc) → Buf (Elt Ideal) ((c : Thread nD τ).loc b)) (c : Dev nD) : (Pipeline.ΦA spec1 c : sProp (MT nD τ sig Unit (Elt Ideal) ℕ U ℕ)) ⊢ (vdat1 V c).Φ 0 := vhinF1 (F := Ideal) (U := U) V c
theorem vhout1 (V : (c : Dev nD) → (b : Ref sig .tc) → Buf (Elt Ideal) ((c : Thread nD τ).loc b)) (c : Dev nD) : (vdat1 V c).Φ (Fin.last cfg1.N) ⊢ (Pipeline.ΦA spec1 c : sProp (MT nD τ sig Unit (Elt Ideal) ℕ U ℕ)) := vhoutF1 (F := Ideal) (U := U) V c

def vG1 (c : Dev nD) : Vec Ideal S512x4096 .bf16 := fun i =>
  Cert.Spec.layer (fun b k => (vX1 VI c : S512x4096.Idx → EReal) (ValueIdx.ix2 b k)) (fun h k => (vW1 VI c : S4096x4096.Idx → EReal) (ValueIdx.ix2 h k))
    ⟨(i 0).val, (i 0).isLt⟩ ⟨(i 1).val, (i 1).isLt⟩

theorem vkey1 (c : Dev nD) (t : Fin cfg1.N) (h1 : t.val % 4 = 3) (b : Fin 512) (j : Fin 1024) :
    (vout1 (F := Ideal) (U := U) VI c t : S512x1024.Idx → EReal) (ValueIdx.ix2 b j)
      = (vG1 VI c : S512x4096.Idx → EReal) (((cfg1.win 2).blk t).view.emb (ValueIdx.ix2 b j)) := by
  have hN : t.val < 16 := lt_of_lt_of_eq t.isLt (show cfg1.N = 16 from N_1)
  have h0 : ¬t.val % 4 = 0 := by omega
  have hc0 : ¬vc1_0 (grid1.coords t) := fun h => h0 ((vhc1_0 t).mp h)
  have hc1 : vc1_1 (grid1.coords t) := (vhc1_1 t).mpr h1
  have hj := j.isLt
  have hr : t.val / 4 * 1024 + j.val < 4096 := by omega
  refine (congrFun (vout1_last (F := Ideal) (U := U) VI c t h1 hc0 hc1) (ValueIdx.ix2 b j)).trans ?_
  refine (congrFun (voutC1_eq (F := Ideal) (U := U) c (grid1.coords t) (vms1_0 t) (vhs1_0 t) (vms1_1 t) (vhs1_1 t) (vms1_2 t) (vhs1_2 t) vsc1 (Memref.isWhole_whole _) hc0 hc1 (vxblk1 VI c t) (vwblk1 VI c t) (vaccB1 (F := Ideal) (U := U) VI c t.val)) (ValueIdx.ix2 b j)).trans ?_
  refine (vpay3_1_apply _ (ValueIdx.ix2 b j)).trans ?_
  have hacc : (k1_pay2 (View.ld (vxblk1 VI c t) (Rect.unit (s := S512x4096) (k1_off1 (grid1.coords t)) S512x1024.size (k1_off1_inb (grid1.coords t)))) (vwblk1 VI c t) (vaccB1 (F := Ideal) (U := U) VI c t.val) : S512x1024.Idx → EReal) (ValueIdx.ix2 b j)
      = (vaccB1 (F := Ideal) (U := U) VI c (t.val + 1) : S512x1024.Idx → EReal) (ValueIdx.ix2 b j) :=
    ((congrFun (vaccB1_succ (F := Ideal) (U := U) VI c t) (ValueIdx.ix2 b j)).trans
      ((congrFun (vstep1_C (F := Ideal) (U := U) VI c t _ h0 h1 hc0 hc1) (ValueIdx.ix2 b j)).trans
        (congrFun (vsoutC1_eq (F := Ideal) (U := U) c (grid1.coords t) (vms1_0 t) (vhs1_0 t) (vms1_1 t) (vhs1_1 t) (vms1_2 t) (vhs1_2 t) vsc1 (Memref.isWhole_whole _) hc0 hc1 (vxblk1 VI c t) (vwblk1 VI c t) (vaccB1 (F := Ideal) (U := U) VI c t.val)) (ValueIdx.ix2 b j)))).symm
  rw [hacc, vaccLast1 VI c t.val hN h1 b j hr]
  have e0 : (⟨((((cfg1.win 2).blk t).view.emb (ValueIdx.ix2 b j)) 0).val, ((((cfg1.win 2).blk t).view.emb (ValueIdx.ix2 b j)) 0).isLt⟩ : Fin 512) = b :=
    Fin.ext (by show win1_2.index t 0 * 512 + 1 * b.val = b.val; rw [(voidx1 t).1]; omega)
  have e1 : (⟨((((cfg1.win 2).blk t).view.emb (ValueIdx.ix2 b j)) 1).val, ((((cfg1.win 2).blk t).view.emb (ValueIdx.ix2 b j)) 1).isLt⟩ : Fin 4096) = ⟨t.val / 4 * 1024 + j.val, hr⟩ :=
    Fin.ext (by show win1_2.index t 1 * 1024 + 1 * j.val = t.val / 4 * 1024 + j.val; rw [(voidx1 t).2]; omega)
  refine Eq.trans ?_ (show Cert.Spec.layer (fun b k => (vX1 VI c : S512x4096.Idx → EReal) (ValueIdx.ix2 b k)) (fun h k => (vW1 VI c : S4096x4096.Idx → EReal) (ValueIdx.ix2 h k))
      ⟨((((cfg1.win 2).blk t).view.emb (ValueIdx.ix2 b j)) 0).val, ((((cfg1.win 2).blk t).view.emb (ValueIdx.ix2 b j)) 0).isLt⟩
      ⟨((((cfg1.win 2).blk t).view.emb (ValueIdx.ix2 b j)) 1).val, ((((cfg1.win 2).blk t).view.emb (ValueIdx.ix2 b j)) 1).isLt⟩
        = (vG1 VI c : S512x4096.Idx → EReal) (((cfg1.win 2).blk t).view.emb (ValueIdx.ix2 b j)) from rfl)
  rw [e0, e1]
  rfl

theorem vflushed1 (c : Dev nD) (t : Fin cfg1.N) (hf : (cfg1.win 2).flush t = true) :
    (vdat1 (U := U) VI c).flushed 2 t = ((cfg1.win 2).blk t).view.read (Elt Ideal) (vG1 VI c) := by
  have h1 : t.val % 4 = 3 := (flush1_2 t).mp hf
  show (cfg1.win 2).cut (grid1.coords t) ((vdatF1 (F := Ideal) (U := U) VI c).after 2 t) = _
  rw [vafter1_2 (F := Ideal) (U := U) VI c t]
  funext (x : S512x1024.Idx)
  obtain ⟨b, j, rfl⟩ : ∃ (b : Fin 512) (j : Fin 1024), x = ValueIdx.ix2 b j := ⟨x 0, x 1, ValueIdx.eq_ix2 x⟩
  rw [View.read_apply]
  exact vkey1 VI c t h1 b j

theorem vcover1 (i : S512x4096.Idx) : ∃ t : Fin cfg1.N, (cfg1.win 2).flush t = true ∧ i ∈ ((cfg1.win 2).blk t).view.set := by
  have h0 : (i 0 : Nat) < 512 := (i 0).isLt
  have h1 : (i 1 : Nat) < 4096 := (i 1).isLt
  have hlt : (i 1 : Nat) / 1024 * 4 + 3 < cfg1.N := lt_of_lt_of_eq (by omega) (show 16 = cfg1.N from N_1.symm)
  refine ⟨⟨(i 1 : Nat) / 1024 * 4 + 3, hlt⟩, (flush1_2 _).mpr (by show ((i 1 : Nat) / 1024 * 4 + 3) % 4 = 3; omega), ?_⟩
  show i ∈ ((View.whole main_v24).slice (win1_2.rect ⟨(i 1 : Nat) / 1024 * 4 + 3, hlt⟩)).set
  rw [View.set_slice_whole, Rect.mem_set_unit]
  intro a
  have e := voidx1 ⟨(i 1 : Nat) / 1024 * 4 + 3, hlt⟩
  have ediv : ((i 1 : Nat) / 1024 * 4 + 3) / 4 = (i 1 : Nat) / 1024 := by omega
  match a with
  | ⟨0, _⟩ =>
    show win1_2.index ⟨(i 1 : Nat) / 1024 * 4 + 3, hlt⟩ 0 * 512 ≤ (i 0 : Nat) ∧ (i 0 : Nat) < win1_2.index ⟨(i 1 : Nat) / 1024 * 4 + 3, hlt⟩ 0 * 512 + 512
    rw [e.1]; omega
  | ⟨1, _⟩ =>
    show win1_2.index ⟨(i 1 : Nat) / 1024 * 4 + 3, hlt⟩ 1 * 1024 ≤ (i 1 : Nat) ∧ (i 1 : Nat) < win1_2.index ⟨(i 1 : Nat) / 1024 * 4 + 3, hlt⟩ 1 * 1024 + 1024
    rw [e.2]; show ((i 1 : Nat) / 1024 * 4 + 3) / 4 * 1024 ≤ (i 1 : Nat) ∧ (i 1 : Nat) < ((i 1 : Nat) / 1024 * 4 + 3) / 4 * 1024 + 1024
    rw [ediv]; omega

theorem vfinalG1 (c : Dev nD) : (vdat1 (U := U) VI c).arrAt 2 cfg1.N = vG1 VI c :=
  (vdat1 (U := U) VI c).arrAt_eq_of_cover 2 (vG1 VI c) (vflushed1 VI c) vcover1

theorem vfinal1 (V : (c : Dev nD) → (b : Ref sig .tc) → Buf (Elt Ideal) ((c : Thread nD τ).loc b)) (c : Dev nD) (b : Fin 512) (h : Fin 4096) :
    ((vdat1 (U := U) V c).arrAt 2 cfg1.N : S512x4096.Idx → EReal) (ValueIdx.ix2 b h)
      = Cert.Spec.layer (fun b k => (V c main_v23 : S512x4096.Idx → EReal) (ValueIdx.ix2 b k))
          (fun h k => (V c main_arg2 : S4096x4096.Idx → EReal) (ValueIdx.ix2 h k)) b h := by
  refine (congrFun (vfinalG1 (U := U) V c) (ValueIdx.ix2 b h)).trans ?_
  rfl

end Cert.KernelIdeal.Hand

end
-- ==== Proof.KI.ValL2.lean ====
import proofs.«409727_j78632261255731_3_alg».proof.Proof.Gen.KernelIdeal.Launch
import proofs.«409727_j78632261255731_3_alg».proof.Proof.Gen.KernelIdeal.Skeleton
import proofs.«409727_j78632261255731_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«409727_j78632261255731_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] {U : Type} [URA U]

local notation "𝕄" => MT nD τ sig Unit (Elt F) ℕ U ℕ

abbrev vc2_0 (i : grid2.Coords) : Prop := (Scalar.cmpi .ne (Scalar.extui (Scalar.cmpi .eq (BitVec.ofNat 32 (i 1).val) 0#32)) 0#32) = 1#1
theorem vhc2_0 : ∀ t : Fin cfg2.N, vc2_0 (grid2.coords t) ↔ t.val % 4 = 0 :=
  (by decide +kernel : ∀ t : Fin grid2.N, vc2_0 (grid2.coords t) ↔ t.val % 4 = 0)
abbrev vc2_1 (i : grid2.Coords) : Prop := k2_cond2 i = 1#1
theorem vhc2_1 : ∀ t : Fin cfg2.N, vc2_1 (grid2.coords t) ↔ t.val % 4 = 3 :=
  (by decide +kernel : ∀ t : Fin grid2.N, vc2_1 (grid2.coords t) ↔ t.val % 4 = 3)

theorem vlive2_0 : ∀ t : Fin cfg2.N, cfg2.idle 0 (grid2.coords t) = false := by decide +kernel
theorem vlive2_1 : ∀ t : Fin cfg2.N, cfg2.idle 1 (grid2.coords t) = false := by decide +kernel
theorem vidle2_2 : ∀ t : Fin cfg2.N, ¬vc2_1 (grid2.coords t) → cfg2.idle 2 (grid2.coords t) = true := by decide +kernel
theorem vnoflush2_2 : ∀ t : Fin cfg2.N, ¬vc2_1 (grid2.coords t) → (cfg2.win 2).flush t = false := by decide +kernel
theorem vlive2_2 : ∀ t : Fin cfg2.N, vc2_1 (grid2.coords t) → cfg2.idle 2 (grid2.coords t) = false := by decide +kernel

abbrev vms2_0 (t : Fin cfg2.N) : Memref sig .tc .vmem S512x4096 .bf16 := win2_0.stage (cfg2.slots t 0)
abbrev vhs2_0 (t : Fin cfg2.N) : (vms2_0 t).IsWhole := hstage2_0 ((cfg2.slots t 0).cast nbuf2_0)
abbrev vms2_1 (t : Fin cfg2.N) : Memref sig .tc .vmem S1024x1024 .f32 := win2_1.stage (cfg2.slots t 1)
abbrev vhs2_1 (t : Fin cfg2.N) : (vms2_1 t).IsWhole := hstage2_1 ((cfg2.slots t 1).cast nbuf2_1)
abbrev vms2_2 (t : Fin cfg2.N) : Memref sig .tc .vmem S512x1024 .bf16 := win2_2.stage (cfg2.slots t 2)
abbrev vhs2_2 (t : Fin cfg2.N) : (vms2_2 t).IsWhole := hstage2_2 ((cfg2.slots t 2).cast nbuf2_2)
abbrev vsc2 : Memref sig .tc .vmem S512x1024 .f32 := Memref.whole cc2_scratch0
abbrev vVS2 : View sig .tc .vmem S512x1024 .f32 := (vsc2).view
abbrev vVO2 : View sig .tc .vmem S512x1024 .bf16 := (Memref.whole cc2_stg2_0 : Memref sig .tc .vmem S512x1024 .bf16).view

theorem vPhiA2_eq (c : Dev nD) :
    (Pipeline.ΦA spec2 c : sProp 𝕄)
      = iprop(iprop(iprop((∃ d, owns (c : Thread nD τ) vsc2 fullShare d)) ∗ Pipeline.scopedRestBut (Ix := Unit) (Name := ℕ) (U := U) (Lvl := ℕ) (Val := Elt F) spec2 c [cc2_scratch0]) ∗ (∃ r, prngReg c r)) := by
  unfold Pipeline.ΦA; rw [scopedRest2_split]; simp only [vsc2, owns_whole]; try rfl

section
variable (c : Dev nD) (i : grid2.Coords) (arg2 : Memref sig .tc .vmem S512x4096 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)

set_option maxHeartbeats 1000000 in
noncomputable def vrun2_A (hc0 : vc2_0 i) (hc1 : ¬vc2_1 i)
    (x0 : Vec F S512x4096 .bf16) (x1 : Vec F S1024x1024 .f32) :
    { LS0 : List (View.Piece (Elt F) S512x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__layer_kernel i arg2 harg2 arg3 harg3 arg4 harg4 arg5 harg5) K } := by
  refine ⟨?_, fun xi2 E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def vrun2_B (hc0 : ¬vc2_0 i) (hc1 : ¬vc2_1 i)
    (x0 : Vec F S512x4096 .bf16) (x1 : Vec F S1024x1024 .f32) (xs0 : Vec F S512x1024 .f32) :
    { LS0 : List (View.Piece (Elt F) S512x1024 .f32) //
      ∀ (xi2 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__layer_kernel i arg2 harg2 arg3 harg3 arg4 harg4 arg5 harg5) K } := by
  refine ⟨?_, fun xi2 E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def vrun2_C (hc0 : ¬vc2_0 i) (hc1 : vc2_1 i)
    (x0 : Vec F S512x4096 .bf16) (x1 : Vec F S1024x1024 .f32) (xs0 : Vec F S512x1024 .f32) :
    Σ' (L2 : List (View.Piece (Elt F) S512x1024 .bf16)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__layer_kernel i arg2 harg2 arg3 harg3 arg4 harg4 arg5 harg5) K } := by
  refine ⟨?_, ?_, fun E K => ?run⟩
  case run =>
    simp only [cc2__layer_kernel_eq_skeleton]; unfold cc2__layer_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

theorem vscover2_A (hc0 : vc2_0 i) (hc1 : ¬vc2_1 i)
    (x0 : Vec F S512x4096 .bf16) (x1 : Vec F S1024x1024 .f32) (y : S512x1024.Idx) :
    ∃ pc ∈ (vrun2_A (U := U) c i arg2 harg2 arg3 harg3 arg4 harg4 arg5 harg5 hc0 hc1 x0 x1).1, y ∈ pc.1.set :=
  View.cover_of_tiledL (vrun2_A (U := U) c i arg2 harg2 arg3 harg3 arg4 harg4 arg5 harg5 hc0 hc1 x0 x1).1 S512x1024.size (by sl_kernel_rfl) y

def vsout2_A (hc0 : vc2_0 i) (hc1 : ¬vc2_1 i)
    (x0 : Vec F S512x4096 .bf16) (x1 : Vec F S1024x1024 .f32) : Vec F S512x1024 .f32 :=
  vVS2.read (Elt F) (vVS2.writes (Elt F) vVS2.junk (vrun2_A (U := U) c i arg2 harg2 arg3 harg3 arg4 harg4 arg5 harg5 hc0 hc1 x0 x1).1)

theorem vscover2_B (hc0 : ¬vc2_0 i) (hc1 : ¬vc2_1 i)
    (x0 : Vec F S512x4096 .bf16) (x1 : Vec F S1024x1024 .f32) (xs0 : Vec F S512x1024 .f32) (y : S512x1024.Idx) :
    ∃ pc ∈ (vrun2_B (U := U) c i arg2 harg2 arg3 harg3 arg4 harg4 arg5 harg5 hc0 hc1 x0 x1 xs0).1, y ∈ pc.1.set :=
  View.cover_of_tiledL (vrun2_B (U := U) c i arg2 harg2 arg3 harg3 arg4 harg4 arg5 harg5 hc0 hc1 x0 x1 xs0).1 S512x1024.size (by sl_kernel_rfl) y

def vsout2_B (hc0 : ¬vc2_0 i) (hc1 : ¬vc2_1 i)
    (x0 : Vec F S512x4096 .bf16) (x1 : Vec F S1024x1024 .f32) (xs0 : Vec F S512x1024 .f32) : Vec F S512x1024 .f32 :=
  vVS2.read (Elt F) (vVS2.writes (Elt F) vVS2.junk (vrun2_B (U := U) c i arg2 harg2 arg3 harg3 arg4 harg4 arg5 harg5 hc0 hc1 x0 x1 xs0).1)

theorem vscover2_C (hc0 : ¬vc2_0 i) (hc1 : vc2_1 i)
    (x0 : Vec F S512x4096 .bf16) (x1 : Vec F S1024x1024 .f32) (xs0 : Vec F S512x1024 .f32) (y : S512x1024.Idx) :
    ∃ pc ∈ (vrun2_C (U := U) c i arg2 harg2 arg3 harg3 arg4 harg4 arg5 harg5 hc0 hc1 x0 x1 xs0).2.1, y ∈ pc.1.set :=
  View.cover_of_tiledL (vrun2_C (U := U) c i arg2 harg2 arg3 harg3 arg4 harg4 arg5 harg5 hc0 hc1 x0 x1 xs0).2.1 S512x1024.size (by sl_kernel_rfl) y

def vsout2_C (hc0 : ¬vc2_0 i) (hc1 : vc2_1 i)
    (x0 : Vec F S512x4096 .bf16) (x1 : Vec F S1024x1024 .f32) (xs0 : Vec F S512x1024 .f32) : Vec F S512x1024 .f32 :=
  vVS2.read (Elt F) (vVS2.writes (Elt F) vVS2.junk (vrun2_C (U := U) c i arg2 harg2 arg3 harg3 arg4 harg4 arg5 harg5 hc0 hc1 x0 x1 xs0).2.1)

theorem vcover2_C (hc0 : ¬vc2_0 i) (hc1 : vc2_1 i)
    (x0 : Vec F S512x4096 .bf16) (x1 : Vec F S1024x1024 .f32) (xs0 : Vec F S512x1024 .f32) (y : S512x1024.Idx) :
    ∃ pc ∈ (vrun2_C (U := U) c i arg2 harg2 arg3 harg3 arg4 harg4 arg5 harg5 hc0 hc1 x0 x1 xs0).1, y ∈ pc.1.set :=
  View.cover_of_tiledL (vrun2_C (U := U) c i arg2 harg2 arg3 harg3 arg4 harg4 arg5 harg5 hc0 hc1 x0 x1 xs0).1 S512x1024.size (by sl_kernel_rfl) y

def vout2_C (hc0 : ¬vc2_0 i) (hc1 : vc2_1 i)
    (x0 : Vec F S512x4096 .bf16) (x1 : Vec F S1024x1024 .f32) (xs0 : Vec F S512x1024 .f32) : Vec F S512x1024 .bf16 :=
  vVO2.read (Elt F) (vVO2.writes (Elt F) vVO2.junk (vrun2_C (U := U) c i arg2 harg2 arg3 harg3 arg4 harg4 arg5 harg5 hc0 hc1 x0 x1 xs0).1)
end

variable (V : (c : Dev nD) → (b : Ref sig .tc) → Buf (Elt F) ((c : Thread nD τ).loc b))

def viblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem vbefore2_0_of {c : Dev nD} (dat : Dat τ (Elt F) Unit ℕ U ℕ cfg2 c) (hA : dat.A 0 = V c (Pipeline.arrRef spec2 0))
    (hafter : ∀ t, dat.after 0 t = viblk2 V c 0 t) (t : Fin cfg2.N) (d) : dat.before 0 t d = viblk2 V c 0 t :=
  (dat.before_in_eq_fetched 0 rfl (fun _ => rfl) (fun _ _ _ => rfl) (fun t => by rw [hafter]; unfold Dat.blockOf viblk2; rw [hA]; try rfl) t d).trans
    (by unfold Dat.fetched Dat.blockOf viblk2; rw [hA]; try rfl)
theorem vbefore2_1_of {c : Dev nD} (dat : Dat τ (Elt F) Unit ℕ U ℕ cfg2 c) (hA : dat.A 1 = V c (Pipeline.arrRef spec2 1))
    (hafter : ∀ t, dat.after 1 t = viblk2 V c 1 t) (t : Fin cfg2.N) (d) : dat.before 1 t d = viblk2 V c 1 t :=
  (dat.before_in_eq_fetched 1 rfl (fun _ => rfl) (fun _ _ _ => rfl) (fun t => by rw [hafter]; unfold Dat.blockOf viblk2; rw [hA]; try rfl) t d).trans
    (by unfold Dat.fetched Dat.blockOf viblk2; rw [hA]; try rfl)

def vstep2 (c : Dev nD) (t : Fin cfg2.N) (prev : Vec F S512x1024 .f32) : Vec F S512x1024 .f32 :=
  if h0 : t.val % 4 = 0 then
    vsout2_A (U := U) c (grid2.coords t) (vms2_0 t) (vhs2_0 t) (vms2_1 t) (vhs2_1 t) (vms2_2 t) (vhs2_2 t) vsc2 (Memref.isWhole_whole _) ((vhc2_0 t).mpr h0) (fun h => by have := (vhc2_1 t).mp h; omega) (viblk2 V c 0 t) (viblk2 V c 1 t)
  else if h1 : t.val % 4 = 3 then
    vsout2_C (U := U) c (grid2.coords t) (vms2_0 t) (vhs2_0 t) (vms2_1 t) (vhs2_1 t) (vms2_2 t) (vhs2_2 t) vsc2 (Memref.isWhole_whole _) (fun h => h0 ((vhc2_0 t).mp h)) ((vhc2_1 t).mpr h1) (viblk2 V c 0 t) (viblk2 V c 1 t) prev
  else
    vsout2_B (U := U) c (grid2.coords t) (vms2_0 t) (vhs2_0 t) (vms2_1 t) (vhs2_1 t) (vms2_2 t) (vhs2_2 t) vsc2 (Memref.isWhole_whole _) (fun h => h0 ((vhc2_0 t).mp h)) (fun h => h1 ((vhc2_1 t).mp h)) (viblk2 V c 0 t) (viblk2 V c 1 t) prev

theorem vstep2_A (c : Dev nD) (t : Fin cfg2.N) (prev : Vec F S512x1024 .f32) (h0 : t.val % 4 = 0) (hc0 : vc2_0 (grid2.coords t)) (hc1 : ¬vc2_1 (grid2.coords t)) :
    vstep2 (U := U) V c t prev = vsout2_A (U := U) c (grid2.coords t) (vms2_0 t) (vhs2_0 t) (vms2_1 t) (vhs2_1 t) (vms2_2 t) (vhs2_2 t) vsc2 (Memref.isWhole_whole _) hc0 hc1 (viblk2 V c 0 t) (viblk2 V c 1 t) := dif_pos h0
theorem vstep2_B (c : Dev nD) (t : Fin cfg2.N) (prev : Vec F S512x1024 .f32) (h0 : ¬t.val % 4 = 0) (h1 : ¬t.val % 4 = 3) (hc0 : ¬vc2_0 (grid2.coords t)) (hc1 : ¬vc2_1 (grid2.coords t)) :
    vstep2 (U := U) V c t prev = vsout2_B (U := U) c (grid2.coords t) (vms2_0 t) (vhs2_0 t) (vms2_1 t) (vhs2_1 t) (vms2_2 t) (vhs2_2 t) vsc2 (Memref.isWhole_whole _) hc0 hc1 (viblk2 V c 0 t) (viblk2 V c 1 t) prev := (dif_neg h0).trans (dif_neg h1)
theorem vstep2_C (c : Dev nD) (t : Fin cfg2.N) (prev : Vec F S512x1024 .f32) (h0 : ¬t.val % 4 = 0) (h1 : t.val % 4 = 3) (hc0 : ¬vc2_0 (grid2.coords t)) (hc1 : vc2_1 (grid2.coords t)) :
    vstep2 (U := U) V c t prev = vsout2_C (U := U) c (grid2.coords t) (vms2_0 t) (vhs2_0 t) (vms2_1 t) (vhs2_1 t) (vms2_2 t) (vhs2_2 t) vsc2 (Memref.isWhole_whole _) hc0 hc1 (viblk2 V c 0 t) (viblk2 V c 1 t) prev := (dif_neg h0).trans (dif_pos h1)

def vaccB2 (c : Dev nD) : ℕ → Vec F S512x1024 .f32
  | 0 => vVS2.read (Elt F) vVS2.junk
  | n + 1 => if hn : n < cfg2.N then vstep2 (U := U) V c ⟨n, hn⟩ (vaccB2 c n) else vVS2.read (Elt F) vVS2.junk

theorem vaccB2_succ (c : Dev nD) (t : Fin cfg2.N) : vaccB2 (U := U) V c (t.val + 1) = vstep2 (U := U) V c t (vaccB2 (U := U) V c t.val) := by
  rw [vaccB2]; exact dif_pos t.isLt

def vout2 (c : Dev nD) (t : Fin cfg2.N) : Vec F S512x1024 .bf16 :=
  if h1 : t.val % 4 = 3 then
    vout2_C (U := U) c (grid2.coords t) (vms2_0 t) (vhs2_0 t) (vms2_1 t) (vhs2_1 t) (vms2_2 t) (vhs2_2 t) vsc2 (Memref.isWhole_whole _) (fun h => by have := (vhc2_0 t).mp h; omega) ((vhc2_1 t).mpr h1) (viblk2 V c 0 t) (viblk2 V c 1 t) (vaccB2 (U := U) V c t.val)
  else vVO2.read (Elt F) vVO2.junk

theorem vout2_last (c : Dev nD) (t : Fin cfg2.N) (h1 : t.val % 4 = 3) (hc0 : ¬vc2_0 (grid2.coords t)) (hc1 : vc2_1 (grid2.coords t)) :
    vout2 (U := U) V c t = vout2_C (U := U) c (grid2.coords t) (vms2_0 t) (vhs2_0 t) (vms2_1 t) (vhs2_1 t) (vms2_2 t) (vhs2_2 t) vsc2 (Memref.isWhole_whole _) hc0 hc1 (viblk2 V c 0 t) (viblk2 V c 1 t) (vaccB2 (U := U) V c t.val) := dif_pos h1

def vPhiS2 (c : Dev nD) : ℕ → sProp 𝕄
  | 0 => Pipeline.ΦA spec2 c
  | n + 1 => iprop(iprop(owns (c : Thread nD τ) vsc2 fullShare (vaccB2 (U := U) V c (n + 1)) ∗ Pipeline.scopedRestBut (Ix := Unit) (Name := ℕ) (U := U) (Lvl := ℕ) (Val := Elt F) spec2 c [cc2_scratch0]) ∗ (∃ r, prngReg c r))

theorem vPhiS2_zero (c : Dev nD) (n : ℕ) (hz : n = 0) : vPhiS2 (U := U) V c n = Pipeline.ΦA spec2 c := by subst hz; rfl
theorem vPhiS2_pos (c : Dev nD) (n : ℕ) (hz : n ≠ 0) :
    vPhiS2 (U := U) V c n = iprop(iprop(owns (c : Thread nD τ) vsc2 fullShare (vaccB2 (U := U) V c n) ∗ Pipeline.scopedRestBut (Ix := Unit) (Name := ℕ) (U := U) (Lvl := ℕ) (Val := Elt F) spec2 c [cc2_scratch0]) ∗ (∃ r, prngReg c r)) := by
  cases n with
  | zero => exact absurd rfl hz
  | succ n => rfl

def vdatF2 (c : Dev nD) : Dat τ (Elt F) Unit ℕ U ℕ cfg2 c where
  A w := V c (Pipeline.arrRef spec2 w)
  after w t := match w with
    | ⟨0, _⟩ => viblk2 V c 0 t
    | ⟨1, _⟩ => viblk2 V c 1 t
    | ⟨2, _⟩ => vout2 (U := U) V c t
  Φ t := vPhiS2 (U := U) V c t.val
  q _ := fullShare
  owed _ := 0

theorem vA_eq2 (c : Dev nD) (w : Fin cfg2.W) : (vdatF2 (U := U) V c).A w = V c (Pipeline.arrRef spec2 w) := by
  dsimp only [vdatF2]
theorem vafter2_0 (c : Dev nD) (t : Fin cfg2.N) : (vdatF2 (U := U) V c).after 0 t = viblk2 V c 0 t := by dsimp only [vdatF2]
theorem vafter2_1 (c : Dev nD) (t : Fin cfg2.N) : (vdatF2 (U := U) V c).after 1 t = viblk2 V c 1 t := by dsimp only [vdatF2]
theorem vafter2_2 (c : Dev nD) (t : Fin cfg2.N) : (vdatF2 (U := U) V c).after 2 t = vout2 (U := U) V c t := by dsimp only [vdatF2]
theorem vbefore2_0 (c : Dev nD) (t : Fin cfg2.N) (d) : (vdatF2 (U := U) V c).before 0 t d = viblk2 V c 0 t :=
  vbefore2_0_of V (vdatF2 V c) (vA_eq2 V c 0) (vafter2_0 V c) t d
theorem vbefore2_1 (c : Dev nD) (t : Fin cfg2.N) (d) : (vdatF2 (U := U) V c).before 1 t d = viblk2 V c 1 t :=
  vbefore2_1_of V (vdatF2 V c) (vA_eq2 V c 1) (vafter2_1 V c) t d

def vbodyPre2 (c : Dev nD) (t : Fin cfg2.N) : sProp 𝕄 :=
  iprop((vdatF2 (U := U) V c).Φ t.castSucc ∗ (vdatF2 (U := U) V c).owesAt () t.castSucc
    ∗ (∃ d, owns (c : Thread nD τ) (vms2_0 t) fullShare ((vdatF2 (U := U) V c).before 0 t d))
    ∗ (∃ d, owns (c : Thread nD τ) (vms2_1 t) fullShare ((vdatF2 (U := U) V c).before 1 t d))
    ∗ (∃ d, owns (c : Thread nD τ) (vms2_2 t) fullShare ((vdatF2 (U := U) V c).before 2 t d)))

def vbodyPost2 (c : Dev nD) (t : Fin cfg2.N) : sProp 𝕄 :=
  iprop((vdatF2 (U := U) V c).Φ t.succ ∗ (vdatF2 (U := U) V c).owesAt () t.succ
    ∗ (vdatF2 (U := U) V c).leavesExact 0 t
    ∗ (vdatF2 (U := U) V c).leavesExact 1 t
    ∗ (vdatF2 (U := U) V c).leavesExact 2 t)

set_option maxHeartbeats 4800000 in
theorem vsound2 (c : Dev nD) (t : Fin cfg2.N) :
    vbodyPre2 (U := U) V c t ⊢ wp frame (wpE (defs₀ (F := F)) Variants.none c none) Set.univ (bodyAt2 t) (fun _ => vbodyPost2 (U := U) V c t) := by
  unfold vbodyPre2 vbodyPost2 bodyAt2
  simp only [vbefore2_0, vbefore2_1]
  rw [show (vdatF2 (U := U) V c).owesAt () t.succ = (vdatF2 (U := U) V c).owesAt () t.castSucc from rfl]
  rw [show (vdatF2 (U := U) V c).Φ t.succ = vPhiS2 (U := U) V c (t.val + 1) from rfl, vPhiS2_pos V c _ (Nat.succ_ne_zero _), vaccB2_succ]
  rw [show (vdatF2 (U := U) V c).Φ t.castSucc = vPhiS2 (U := U) V c t.val from rfl]
  rw [show (vdatF2 (U := U) V c).leavesExact 0 t = owns (c : Thread nD τ) (vms2_0 t) fullShare ((vdatF2 (U := U) V c).after 0 t) from by
    unfold Dat.leavesExact; rw [vlive2_0 t], vafter2_0]
  rw [show (vdatF2 (U := U) V c).leavesExact 1 t = owns (c : Thread nD τ) (vms2_1 t) fullShare ((vdatF2 (U := U) V c).after 1 t) from by
    unfold Dat.leavesExact; rw [vlive2_1 t], vafter2_1]
  have hN : t.val < 16 := lt_of_lt_of_eq t.isLt (show cfg2.N = 16 from N_2)
  by_cases h0 : t.val % 4 = 0
  · have hc0 : vc2_0 (grid2.coords t) := (vhc2_0 t).mpr h0
    have hc1 : ¬vc2_1 (grid2.coords t) := fun h => by have := (vhc2_1 t).mp h; omega
    rw [Dat.leavesExact_idle (vdatF2 (U := U) V c) 2 t (vidle2_2 t hc1) (vnoflush2_2 t hc1)]
    rw [vstep2_A V c t _ h0 hc0 hc1]
    unfold vsout2_A; (try dsimp only)
    by_cases hz : t.val = 0
    · rw [vPhiS2_zero V c _ hz, vPhiA2_eq]
      iintro ⟨⟨⟨HS0, HR⟩, Hg⟩, Ho, ⟨%d0, H0⟩, ⟨%d1, H1⟩, ⟨%d2, H2⟩⟩
      iapply ((vrun2_A (U := U) c (grid2.coords t) _ _ _ _ _ _ _ _ hc0 hc1 (viblk2 V c 0 t) (viblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover2_A c _ _ _ _ _ _ _ _ _ _ _ _ _)
          iexact HR
        iexact Hg
      isplitl [Ho]; · iexact Ho
      isplitl [H0]; · iexact H0
      isplitl [H1]; · iexact H1
      iexists _; iexact H2
    · rw [vPhiS2_pos V c _ hz]
      iintro ⟨⟨⟨HS0, HR⟩, Hg⟩, Ho, ⟨%d0, H0⟩, ⟨%d1, H1⟩, ⟨%d2, H2⟩⟩
      iapply ((vrun2_A (U := U) c (grid2.coords t) _ _ _ _ _ _ _ _ hc0 hc1 (viblk2 V c 0 t) (viblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover2_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    have hc0 : ¬vc2_0 (grid2.coords t) := fun h => h0 ((vhc2_0 t).mp h)
    rw [vPhiS2_pos V c _ hz]
    by_cases h1 : t.val % 4 = 3
    · have hc1 : vc2_1 (grid2.coords t) := (vhc2_1 t).mpr h1
      rw [show (vdatF2 (U := U) V c).leavesExact 2 t = owns (c : Thread nD τ) (vms2_2 t) fullShare ((vdatF2 (U := U) V c).after 2 t) from by
        unfold Dat.leavesExact; rw [vlive2_2 t hc1], vafter2_2, vout2_last V c t h1 hc0 hc1]
      rw [vstep2_C V c t _ h0 h1 hc0 hc1]
      unfold vsout2_C vout2_C; (try dsimp only)
      iintro ⟨⟨⟨HS0, HR⟩, Hg⟩, Ho, ⟨%d0, H0⟩, ⟨%d1, H1⟩, ⟨%d2, H2⟩⟩
      iapply ((vrun2_C (U := U) c (grid2.coords t) _ _ _ _ _ _ _ _ hc0 hc1 (viblk2 V c 0 t) (viblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover2_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (vcover2_C c _ _ _ _ _ _ _ _ _ _ _ _ _ _)
    · have hc1 : ¬vc2_1 (grid2.coords t) := fun h => h1 ((vhc2_1 t).mp h)
      rw [Dat.leavesExact_idle (vdatF2 (U := U) V c) 2 t (vidle2_2 t hc1) (vnoflush2_2 t hc1)]
      rw [vstep2_B V c t _ h0 h1 hc0 hc1]
      unfold vsout2_B; (try dsimp only)
      iintro ⟨⟨⟨HS0, HR⟩, Hg⟩, Ho, ⟨%d0, H0⟩, ⟨%d1, H1⟩, ⟨%d2, H2⟩⟩
      iapply ((vrun2_B (U := U) c (grid2.coords t) _ _ _ _ _ _ _ _ hc0 hc1 (viblk2 V c 0 t) (viblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (vscover2_B c _ _ _ _ _ _ _ _ _ _ _ _ _ _)
          iexact HR
        iexact Hg
      isplitl [Ho]; · iexact Ho
      isplitl [H0]; · iexact H0
      isplitl [H1]; · iexact H1
      iexists _; iexact H2

theorem vbodyF2 (c : Dev nD) : BodyObligation (vdatF2 (U := U) V c) (defs₀ (F := F)) Variants.none () Set.univ := fun t => by
  rw [bigSep_W2, bigSep_W2]
  exact vsound2 V c t

theorem vhinF2 (c : Dev nD) : (Pipeline.ΦA spec2 c : sProp 𝕄) ⊢ (vdatF2 (U := U) V c).Φ 0 := by
  rw [show (vdatF2 (U := U) V c).Φ 0 = vPhiS2 (U := U) V c 0 from rfl, vPhiS2_zero V c 0 rfl]
  try exact Idealize.SL.BI.Entails.refl _

theorem vhoutF2 (c : Dev nD) : (vdatF2 (U := U) V c).Φ (Fin.last cfg2.N) ⊢ (Pipeline.ΦA spec2 c : sProp 𝕄) := by
  rw [show (vdatF2 (U := U) V c).Φ (Fin.last cfg2.N) = vPhiS2 (U := U) V c (Fin.last cfg2.N).val from rfl,
    vPhiS2_pos V c _ (by rw [Fin.val_last]; have : cfg2.N = 16 := N_2; omega), vPhiA2_eq]
  iintro ⟨⟨HS0, HR⟩, Hg⟩
  isplitl [HS0 HR]
  · isplitl [HS0]
    · iexists _; iexact HS0
    iexact HR
  iexact Hg

theorem vhz2 : (![0, 0] : Fin 2 → Nat) = fun _ => 0 := funext fun a => by fin_cases a <;> rfl

section
variable (c : Dev nD) (i : grid2.Coords) (arg2 : Memref sig .tc .vmem S512x4096 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S512x1024 .f32) (harg5 : arg5.IsWhole)

theorem vsoutB2_eq (hc0 : ¬vc2_0 i) (hc1 : ¬vc2_1 i)
    (x0 : Vec F S512x4096 .bf16) (x1 : Vec F S1024x1024 .f32) (xs0 : Vec F S512x1024 .f32) :
    vsout2_B (U := U) c i arg2 harg2 arg3 harg3 arg4 harg4 arg5 harg5 hc0 hc1 x0 x1 xs0 = k2_pay2 (View.ld x0 (Rect.unit (s := S512x4096) (k2_off1 i) S512x1024.size (k2_off1_inb i))) x1 xs0 := by
  unfold vsout2_B
  rw [View.read_writes_eq_canon _ _ _ (vscover2_B c i arg2 harg2 arg3 harg3 arg4 harg4 arg5 harg5 hc0 hc1 x0 x1 xs0)]
  unfold vrun2_B
  dsimp only
  sl_unfold_words
  rw [View.canon_unit_zero vhz2]
  simp only [View.readAt_eq_ld, harg2.read_unread, harg3.read_unread, harg5.read_unread, View.ld_unit_zero (S := S1024x1024) vhz2, View.ld_unit_zero (S := S512x1024) vhz2]

theorem vsoutA2_eq (hc0 : vc2_0 i) (hc1 : ¬vc2_1 i)
    (x0 : Vec F S512x4096 .bf16) (x1 : Vec F S1024x1024 .f32) :
    vsout2_A (U := U) c i arg2 harg2 arg3 harg3 arg4 harg4 arg5 harg5 hc0 hc1 x0 x1 = k2_pay2 (View.ld x0 (Rect.unit (s := S512x4096) (k2_off1 i) S512x1024.size (k2_off1_inb i))) x1 k2_pay1 := by
  unfold vsout2_A
  rw [View.read_writes_eq_canon _ _ _ (vscover2_A c i arg2 harg2 arg3 harg3 arg4 harg4 arg5 harg5 hc0 hc1 x0 x1)]
  unfold vrun2_A
  dsimp only
  sl_unfold_words
  rw [View.canon_cons_unit_zero (S := S512x1024) vhz2, View.readCov_unit_zero (S := S512x1024) _ vhz2]
  simp only [View.readAt_eq_ld, harg2.read_unread, harg3.read_unread, View.ld_unit_zero (S := S1024x1024) vhz2]

theorem vsoutC2_eq (hc0 : ¬vc2_0 i) (hc1 : vc2_1 i)
    (x0 : Vec F S512x4096 .bf16) (x1 : Vec F S1024x1024 .f32) (xs0 : Vec F S512x1024 .f32) :
    vsout2_C (U := U) c i arg2 harg2 arg3 harg3 arg4 harg4 arg5 harg5 hc0 hc1 x0 x1 xs0 = k2_pay2 (View.ld x0 (Rect.unit (s := S512x4096) (k2_off1 i) S512x1024.size (k2_off1_inb i))) x1 xs0 := by
  unfold vsout2_C
  rw [View.read_writes_eq_canon _ _ _ (vscover2_C c i arg2 harg2 arg3 harg3 arg4 harg4 arg5 harg5 hc0 hc1 x0 x1 xs0)]
  unfold vrun2_C
  dsimp only
  sl_unfold_words
  rw [View.canon_unit_zero vhz2]
  simp only [View.readAt_eq_ld, harg2.read_unread, harg3.read_unread, harg5.read_unread, View.ld_unit_zero (S := S1024x1024) vhz2, View.ld_unit_zero (S := S512x1024) vhz2]

theorem voutC2_eq (hc0 : ¬vc2_0 i) (hc1 : vc2_1 i)
    (x0 : Vec F S512x4096 .bf16) (x1 : Vec F S1024x1024 .f32) (xs0 : Vec F S512x1024 .f32) :
    vout2_C (U := U) c i arg2 harg2 arg3 harg3 arg4 harg4 arg5 harg5 hc0 hc1 x0 x1 xs0 = k2_pay3 (k2_pay2 (View.ld x0 (Rect.unit (s := S512x4096) (k2_off1 i) S512x1024.size (k2_off1_inb i))) x1 xs0) := by
  unfold vout2_C
  rw [View.read_writes_eq_canon _ _ _ (vcover2_C c i arg2 harg2 arg3 harg3 arg4 harg4 arg5 harg5 hc0 hc1 x0 x1 xs0)]
  unfold vrun2_C
  dsimp only
  sl_unfold_words
  rw [View.canon_unit_zero vhz2, View.readCov_unit_zero (S := S512x1024) _ vhz2]
  simp only [View.readAt_eq_ld, harg2.read_unread, harg3.read_unread, harg5.read_unread, View.ld_unit_zero (S := S1024x1024) vhz2, View.ld_unit_zero (S := S512x1024) vhz2]
end

theorem vbit2 (w : BitVec 1) : (((w.setWidth 32).toInt : ℝ) : EReal) = ((w.toNat : ℝ) : EReal) := by
  have h : (w.setWidth 32).toInt = (w.toNat : ℤ) := by revert w; decide
  rw [h, Int.cast_natCast]

theorem vpay1_2_apply (i : S512x1024.Idx) : (k2_pay1 (F := Ideal) : S512x1024.Idx → EReal) i = 0 := by
  unfold k2_pay1
  simp only [shapeCast_self]
  exact Ideal.ofBits_zero_f32

theorem vlhs2_0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem vlhs2_1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem vrhs2_0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem vrhs2_1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

theorem vpay2_2_apply (x6 : Vec Ideal S512x1024 .bf16) (x8 : Vec Ideal S1024x1024 .f32) (a : Vec Ideal S512x1024 .f32) (b : Fin 512) (j : Fin 1024) :
    (k2_pay2 x6 x8 a : S512x1024.Idx → EReal) (ValueIdx.ix2 b j)
      = (a : S512x1024.Idx → EReal) (ValueIdx.ix2 b j) + ∑ kk : Fin 1024, (x6 : S512x1024.Idx → EReal) (ValueIdx.ix2 b kk) * (x8 : S1024x1024.Idx → EReal) (ValueIdx.ix2 j kk) := by
  unfold k2_pay2
  simp only [shapeCast_self]
  show (a : S512x1024.Idx → EReal) (ValueIdx.ix2 b j) + FloatOps.matmul (F := Ideal) (φ₁ := .bf16) (φ₂ := .bf16) dot_S512x1024_S1024x1024_S512x1024_1_1_0_0_n_n none x6 x8 (constant (F := Ideal) S512x1024 .f32 0x00000000#32) (ValueIdx.ix2 b j) = _
  rw [Ideal.matmul_constant_zero_apply, ← Equiv.sum_comp (ValueIdx.contrEquiv1 dot_S512x1024_S1024x1024_S512x1024_1_1_0_0_n_n 1024 rfl rfl).symm]
  refine congrArg (fun z => (a : S512x1024.Idx → EReal) (ValueIdx.ix2 b j) + z) (Finset.sum_congr rfl fun kk _ => ?_)
  have hk := ValueIdx.contrEquiv1_symm_val dot_S512x1024_S1024x1024_S512x1024_1_1_0_0_n_n 1024 rfl rfl kk
  have el : dot_S512x1024_S1024x1024_S512x1024_1_1_0_0_n_n.lhsIdx (ValueIdx.ix2 b j) ((ValueIdx.contrEquiv1 dot_S512x1024_S1024x1024_S512x1024_1_1_0_0_n_n 1024 rfl rfl).symm kk) = ValueIdx.ix2 b kk := funext fun ax => Fin.ext (by
    match ax with
    | ⟨0, _⟩ => exact vlhs2_0 _ _
    | ⟨1, _⟩ => exact (vlhs2_1 _ _).trans hk)
  have er : dot_S512x1024_S1024x1024_S512x1024_1_1_0_0_n_n.rhsIdx (ValueIdx.ix2 b j) ((ValueIdx.contrEquiv1 dot_S512x1024_S1024x1024_S512x1024_1_1_0_0_n_n 1024 rfl rfl).symm kk) = ValueIdx.ix2 j kk := funext fun ax => Fin.ext (by
    match ax with
    | ⟨0, _⟩ => exact vrhs2_0 _ _
    | ⟨1, _⟩ => exact (vrhs2_1 _ _).trans hk)
  rw [el, er]

theorem vpay3_2_apply (a : Vec Ideal S512x1024 .f32) (i : S512x1024.Idx) :
    (k2_pay3 a : S512x1024.Idx → EReal) i = Cert.Spec.thr ((a : S512x1024.Idx → EReal) i) := by
  unfold k2_pay3 Cert.Spec.thr
  show ((((Ideal.cmp .oge ((a : S512x1024.Idx → EReal) i) (Ideal.ofBits .f32 0x40800000#32)).setWidth 32).toInt : ℝ) : EReal) = _
  exact vbit2 _

variable (VI : (c : Dev nD) → (b : Ref sig .tc) → Buf (Elt Ideal) ((c : Thread nD τ).loc b))

abbrev vX2 (c : Dev nD) : Vec Ideal S512x4096 .bf16 := VI c main_v24
abbrev vW2 (c : Dev nD) : Vec Ideal S4096x4096 .f32 := VI c main_arg3
abbrev vxblk2 (c : Dev nD) (t : Fin cfg2.N) : Vec Ideal S512x4096 .bf16 := viblk2 (F := Ideal) VI c 0 t
abbrev vwblk2 (c : Dev nD) (t : Fin cfg2.N) : Vec Ideal S1024x1024 .f32 := viblk2 (F := Ideal) VI c 1 t

def vXn2 (c : Dev nD) (b : Fin 512) (q : ℕ) : EReal := if h : q < 4096 then (vX2 VI c : S512x4096.Idx → EReal) (ValueIdx.ix2 b ⟨q, h⟩) else 0
def vWn2 (c : Dev nD) (r q : ℕ) : EReal := if h : r < 4096 ∧ q < 4096 then (vW2 VI c : S4096x4096.Idx → EReal) (ValueIdx.ix2 ⟨r, h.1⟩ ⟨q, h.2⟩) else 0

theorem vxidx2 : ∀ t : Fin cfg2.N, win2_0.index t 0 = 0 ∧ win2_0.index t 1 = 0 :=
  (by decide +kernel : ∀ t : Fin grid2.N, win2_0.index t 0 = 0 ∧ win2_0.index t 1 = 0)
theorem vwidx2 : ∀ t : Fin cfg2.N, win2_1.index t 0 = t.val / 4 ∧ win2_1.index t 1 = t.val % 4 :=
  (by decide +kernel : ∀ t : Fin grid2.N, win2_1.index t 0 = t.val / 4 ∧ win2_1.index t 1 = t.val % 4)
theorem voidx2 : ∀ t : Fin cfg2.N, win2_2.index t 0 = 0 ∧ win2_2.index t 1 = t.val / 4 :=
  (by decide +kernel : ∀ t : Fin grid2.N, win2_2.index t 0 = 0 ∧ win2_2.index t 1 = t.val / 4)
theorem voff2 : ∀ t : Fin cfg2.N, k2_off1 (grid2.coords t) 0 = 0 ∧ k2_off1 (grid2.coords t) 1 = t.val % 4 * 1024 :=
  (by decide +kernel : ∀ t : Fin grid2.N, k2_off1 (grid2.coords t) 0 = 0 ∧ k2_off1 (grid2.coords t) 1 = t.val % 4 * 1024)

theorem vxb2_apply (c : Dev nD) (t : Fin cfg2.N) (b : Fin 512) (q : Fin 4096) :
    (vxblk2 VI c t : S512x4096.Idx → EReal) (ValueIdx.ix2 b q) = (vX2 VI c : S512x4096.Idx → EReal) (ValueIdx.ix2 b q) := by
  unfold vxblk2 viblk2
  rw [View.read_apply]
  show VI c main_v24 _ = VI c main_v24 _
  congr 1
  funext a
  apply Fin.ext
  match a with
  | ⟨0, _⟩ => show win2_0.index t 0 * 512 + 1 * b.val = b.val; rw [(vxidx2 t).1]; omega
  | ⟨1, _⟩ => show win2_0.index t 1 * 4096 + 1 * q.val = q.val; rw [(vxidx2 t).2]; omega

theorem vwb2_apply (c : Dev nD) (t : Fin cfg2.N) (j kk : Fin 1024) :
    (vwblk2 VI c t : S1024x1024.Idx → EReal) (ValueIdx.ix2 j kk) = vWn2 VI c (t.val / 4 * 1024 + j.val) (t.val % 4 * 1024 + kk.val) := by
  have hN : t.val < 16 := lt_of_lt_of_eq t.isLt (show cfg2.N = 16 from N_2)
  have hj := j.isLt
  have hk := kk.isLt
  unfold vWn2
  rw [dif_pos ⟨by omega, by omega⟩]
  unfold vwblk2 viblk2
  rw [View.read_apply]
  show VI c main_arg3 _ = VI c main_arg3 _
  congr 1
  funext a
  apply Fin.ext
  match a with
  | ⟨0, _⟩ => show win2_1.index t 0 * 1024 + 1 * j.val = t.val / 4 * 1024 + j.val; rw [(vwidx2 t).1]; omega
  | ⟨1, _⟩ => show win2_1.index t 1 * 1024 + 1 * kk.val = t.val % 4 * 1024 + kk.val; rw [(vwidx2 t).2]; omega

theorem vld2_apply (x0 : Vec Ideal S512x4096 .bf16) (t : Fin cfg2.N) (b : Fin 512) (kk : Fin 1024) (hq : t.val % 4 * 1024 + kk.val < 4096) :
    (View.ld x0 (Rect.unit (s := S512x4096) (k2_off1 (grid2.coords t)) S512x1024.size (k2_off1_inb (grid2.coords t))) : S512x1024.Idx → EReal) (ValueIdx.ix2 b kk) = (x0 : S512x4096.Idx → EReal) (ValueIdx.ix2 b ⟨t.val % 4 * 1024 + kk.val, hq⟩) := by
  show (x0 : S512x4096.Idx → EReal) ((Rect.unit (s := S512x4096) (k2_off1 (grid2.coords t)) S512x1024.size (k2_off1_inb (grid2.coords t))).idx (ValueIdx.ix2 b kk)) = _
  congr 1
  funext a
  apply Fin.ext
  match a with
  | ⟨0, _⟩ => show k2_off1 (grid2.coords t) 0 + 1 * b.val = b.val; rw [(voff2 t).1]; omega
  | ⟨1, _⟩ => show k2_off1 (grid2.coords t) 1 + 1 * kk.val = t.val % 4 * 1024 + kk.val; rw [(voff2 t).2]; omega

theorem vstep2_apply (c : Dev nD) (t : Fin cfg2.N) (prev : Vec Ideal S512x1024 .f32) (b : Fin 512) (j : Fin 1024) :
    (vstep2 (F := Ideal) (U := U) VI c t prev : S512x1024.Idx → EReal) (ValueIdx.ix2 b j)
      = (if t.val % 4 = 0 then 0 else (prev : S512x1024.Idx → EReal) (ValueIdx.ix2 b j))
        + ∑ x ∈ Finset.range 1024, vXn2 VI c b (t.val % 4 * 1024 + x) * vWn2 VI c (t.val / 4 * 1024 + j.val) (t.val % 4 * 1024 + x) := by
  have core : ∀ a : Vec Ideal S512x1024 .f32,
      (k2_pay2 (View.ld (vxblk2 VI c t) (Rect.unit (s := S512x4096) (k2_off1 (grid2.coords t)) S512x1024.size (k2_off1_inb (grid2.coords t)))) (vwblk2 VI c t) a : S512x1024.Idx → EReal) (ValueIdx.ix2 b j)
        = (a : S512x1024.Idx → EReal) (ValueIdx.ix2 b j) + ∑ x ∈ Finset.range 1024, vXn2 VI c b (t.val % 4 * 1024 + x) * vWn2 VI c (t.val / 4 * 1024 + j.val) (t.val % 4 * 1024 + x) := by
    intro a
    refine (vpay2_2_apply (View.ld (vxblk2 VI c t) (Rect.unit (s := S512x4096) (k2_off1 (grid2.coords t)) S512x1024.size (k2_off1_inb (grid2.coords t)))) (vwblk2 VI c t) a b j).trans ?_
    rw [← Fin.sum_univ_eq_sum_range (fun x => vXn2 VI c b (t.val % 4 * 1024 + x) * vWn2 VI c (t.val / 4 * 1024 + j.val) (t.val % 4 * 1024 + x)) 1024]
    refine congrArg (fun z => (a : S512x1024.Idx → EReal) (ValueIdx.ix2 b j) + z) (Finset.sum_congr rfl fun kk _ => ?_)
    have hq : t.val % 4 * 1024 + kk.val < 4096 := by
      have := kk.isLt; have := Nat.mod_lt t.val (show 0 < 4 by decide); omega
    rw [vld2_apply (vxblk2 VI c t) t b kk hq, vxb2_apply VI c t b ⟨t.val % 4 * 1024 + kk.val, hq⟩, vwb2_apply VI c t j kk]
    unfold vXn2
    rw [dif_pos hq]
  by_cases h0 : t.val % 4 = 0
  · have hc0 : vc2_0 (grid2.coords t) := (vhc2_0 t).mpr h0
    have hc1 : ¬vc2_1 (grid2.coords t) := fun h => by have := (vhc2_1 t).mp h; omega
    rw [if_pos h0]
    refine (congrFun (vstep2_A (F := Ideal) (U := U) VI c t prev h0 hc0 hc1) (ValueIdx.ix2 b j)).trans ?_
    refine (congrFun (vsoutA2_eq (F := Ideal) (U := U) c (grid2.coords t) (vms2_0 t) (vhs2_0 t) (vms2_1 t) (vhs2_1 t) (vms2_2 t) (vhs2_2 t) vsc2 (Memref.isWhole_whole _) hc0 hc1 (vxblk2 VI c t) (vwblk2 VI c t)) (ValueIdx.ix2 b j)).trans ?_
    refine (core (k2_pay1 (F := Ideal))).trans ?_
    rw [vpay1_2_apply]
  · have hc0 : ¬vc2_0 (grid2.coords t) := fun h => h0 ((vhc2_0 t).mp h)
    rw [if_neg h0]
    by_cases h1 : t.val % 4 = 3
    · have hc1 : vc2_1 (grid2.coords t) := (vhc2_1 t).mpr h1
      refine (congrFun (vstep2_C (F := Ideal) (U := U) VI c t prev h0 h1 hc0 hc1) (ValueIdx.ix2 b j)).trans ?_
      refine (congrFun (vsoutC2_eq (F := Ideal) (U := U) c (grid2.coords t) (vms2_0 t) (vhs2_0 t) (vms2_1 t) (vhs2_1 t) (vms2_2 t) (vhs2_2 t) vsc2 (Memref.isWhole_whole _) hc0 hc1 (vxblk2 VI c t) (vwblk2 VI c t) prev) (ValueIdx.ix2 b j)).trans ?_
      exact core prev
    · have hc1 : ¬vc2_1 (grid2.coords t) := fun h => h1 ((vhc2_1 t).mp h)
      refine (congrFun (vstep2_B (F := Ideal) (U := U) VI c t prev h0 h1 hc0 hc1) (ValueIdx.ix2 b j)).trans ?_
      refine (congrFun (vsoutB2_eq (F := Ideal) (U := U) c (grid2.coords t) (vms2_0 t) (vhs2_0 t) (vms2_1 t) (vhs2_1 t) (vms2_2 t) (vhs2_2 t) vsc2 (Memref.isWhole_whole _) hc0 hc1 (vxblk2 VI c t) (vwblk2 VI c t) prev) (ValueIdx.ix2 b j)).trans ?_
      exact core prev

theorem vaccU2 (c : Dev nD) (n : ℕ) (hn : n < 16) (b : Fin 512) (j : Fin 1024) :
    (vaccB2 (F := Ideal) (U := U) VI c (n + 1) : S512x1024.Idx → EReal) (ValueIdx.ix2 b j)
      = (if n % 4 = 0 then 0 else (vaccB2 (F := Ideal) (U := U) VI c n : S512x1024.Idx → EReal) (ValueIdx.ix2 b j))
        + ∑ x ∈ Finset.range 1024, vXn2 VI c b (n % 4 * 1024 + x) * vWn2 VI c (n / 4 * 1024 + j.val) (n % 4 * 1024 + x) := by
  have hlt : n < cfg2.N := lt_of_lt_of_eq hn (show 16 = cfg2.N from N_2.symm)
  refine (congrFun (vaccB2_succ (F := Ideal) (U := U) VI c ⟨n, hlt⟩) (ValueIdx.ix2 b j)).trans ?_
  exact vstep2_apply VI c ⟨n, hlt⟩ _ b j

theorem vacc2_eq (c : Dev nD) : ∀ (n : ℕ), n < 16 → ∀ (b : Fin 512) (j : Fin 1024),
    (vaccB2 (F := Ideal) (U := U) VI c (n + 1) : S512x1024.Idx → EReal) (ValueIdx.ix2 b j)
      = ∑ q ∈ Finset.range ((n % 4 + 1) * 1024), vXn2 VI c b q * vWn2 VI c (n / 4 * 1024 + j.val) q := by
  intro n
  induction n with
  | zero =>
    intro hn b j
    rw [vaccU2 VI c 0 hn b j, if_pos (Nat.zero_mod _)]
    simp only [Nat.zero_mod, Nat.zero_div, zero_mul, zero_add, one_mul]
  | succ m ih =>
    intro hn b j
    rw [vaccU2 VI c (m + 1) hn b j]
    by_cases h0 : (m + 1) % 4 = 0
    · rw [if_pos h0, h0]
      simp only [zero_mul, zero_add, one_mul]
    · rw [if_neg h0, ih (by omega) b j]
      have e1 : (m + 1) % 4 = m % 4 + 1 := by omega
      have e2 : (m + 1) / 4 = m / 4 := by omega
      rw [e1, e2, show (m % 4 + 1 + 1) * 1024 = (m % 4 + 1) * 1024 + 1024 by ring, Finset.sum_range_add]

theorem vaccLast2 (c : Dev nD) (n : ℕ) (hn : n < 16) (h1 : n % 4 = 3) (b : Fin 512) (j : Fin 1024) (hr : n / 4 * 1024 + j.val < 4096) :
    (vaccB2 (F := Ideal) (U := U) VI c (n + 1) : S512x1024.Idx → EReal) (ValueIdx.ix2 b j)
      = ∑ k : Fin 4096, (vX2 VI c : S512x4096.Idx → EReal) (ValueIdx.ix2 b k) * (vW2 VI c : S4096x4096.Idx → EReal) (ValueIdx.ix2 ⟨n / 4 * 1024 + j.val, hr⟩ k) := by
  rw [vacc2_eq VI c n hn b j, h1, show (3 + 1) * 1024 = 4096 by norm_num,
    ← Fin.sum_univ_eq_sum_range (fun q => vXn2 VI c b q * vWn2 VI c (n / 4 * 1024 + j.val) q) 4096]
  refine Finset.sum_congr rfl fun k _ => ?_
  unfold vXn2 vWn2
  rw [dif_pos k.isLt, dif_pos ⟨hr, k.isLt⟩]

def vdat2 (V : (c : Dev nD) → (b : Ref sig .tc) → Buf (Elt Ideal) ((c : Thread nD τ).loc b)) (c : Dev nD) : Dat τ (Elt Ideal) Unit ℕ U ℕ cfg2 c := vdatF2 (F := Ideal) (U := U) V c
theorem vdat2_A (V : (c : Dev nD) → (b : Ref sig .tc) → Buf (Elt Ideal) ((c : Thread nD τ).loc b)) (c : Dev nD) (w : Fin cfg2.W) : (vdat2 (U := U) V c).A w = V c (Pipeline.arrRef spec2 w) := vA_eq2 (F := Ideal) (U := U) V c w
theorem vdat2_share (V : (c : Dev nD) → (b : Ref sig .tc) → Buf (Elt Ideal) ((c : Thread nD τ).loc b)) (c : Dev nD) (w : Fin cfg2.W) : (vdat2 (U := U) V c).share w = fullShare := by
  unfold Dat.share; split <;> rfl
theorem vdat2_owed (V : (c : Dev nD) → (b : Ref sig .tc) → Buf (Elt Ideal) ((c : Thread nD τ).loc b)) (c : Dev nD) (t : Fin (cfg2.N + 1)) : (vdat2 (U := U) V c).owed t = 0 := rfl
theorem vbody2 (V : (c : Dev nD) → (b : Ref sig .tc) → Buf (Elt Ideal) ((c : Thread nD τ).loc b)) (c : Dev nD) : BodyObligation (vdat2 (U := U) V c) (defs₀ (F := Ideal)) Variants.none () Set.univ := vbodyF2 (F := Ideal) (U := U) V c
theorem vhin2 (V : (c : Dev nD) → (b : Ref sig .tc) → Buf (Elt Ideal) ((c : Thread nD τ).loc b)) (c : Dev nD) : (Pipeline.ΦA spec2 c : sProp (MT nD τ sig Unit (Elt Ideal) ℕ U ℕ)) ⊢ (vdat2 V c).Φ 0 := vhinF2 (F := Ideal) (U := U) V c
theorem vhout2 (V : (c : Dev nD) → (b : Ref sig .tc) → Buf (Elt Ideal) ((c : Thread nD τ).loc b)) (c : Dev nD) : (vdat2 V c).Φ (Fin.last cfg2.N) ⊢ (Pipeline.ΦA spec2 c : sProp (MT nD τ sig Unit (Elt Ideal) ℕ U ℕ)) := vhoutF2 (F := Ideal) (U := U) V c

def vG2 (c : Dev nD) : Vec Ideal S512x4096 .bf16 := fun i =>
  Cert.Spec.layer (fun b k => (vX2 VI c : S512x4096.Idx → EReal) (ValueIdx.ix2 b k)) (fun h k => (vW2 VI c : S4096x4096.Idx → EReal) (ValueIdx.ix2 h k))
    ⟨(i 0).val, (i 0).isLt⟩ ⟨(i 1).val, (i 1).isLt⟩

theorem vkey2 (c : Dev nD) (t : Fin cfg2.N) (h1 : t.val % 4 = 3) (b : Fin 512) (j : Fin 1024) :
    (vout2 (F := Ideal) (U := U) VI c t : S512x1024.Idx → EReal) (ValueIdx.ix2 b j)
      = (vG2 VI c : S512x4096.Idx → EReal) (((cfg2.win 2).blk t).view.emb (ValueIdx.ix2 b j)) := by
  have hN : t.val < 16 := lt_of_lt_of_eq t.isLt (show cfg2.N = 16 from N_2)
  have h0 : ¬t.val % 4 = 0 := by omega
  have hc0 : ¬vc2_0 (grid2.coords t) := fun h => h0 ((vhc2_0 t).mp h)
  have hc1 : vc2_1 (grid2.coords t) := (vhc2_1 t).mpr h1
  have hj := j.isLt
  have hr : t.val / 4 * 1024 + j.val < 4096 := by omega
  refine (congrFun (vout2_last (F := Ideal) (U := U) VI c t h1 hc0 hc1) (ValueIdx.ix2 b j)).trans ?_
  refine (congrFun (voutC2_eq (F := Ideal) (U := U) c (grid2.coords t) (vms2_0 t) (vhs2_0 t) (vms2_1 t) (vhs2_1 t) (vms2_2 t) (vhs2_2 t) vsc2 (Memref.isWhole_whole _) hc0 hc1 (vxblk2 VI c t) (vwblk2 VI c t) (vaccB2 (F := Ideal) (U := U) VI c t.val)) (ValueIdx.ix2 b j)).trans ?_
  refine (vpay3_2_apply _ (ValueIdx.ix2 b j)).trans ?_
  have hacc : (k2_pay2 (View.ld (vxblk2 VI c t) (Rect.unit (s := S512x4096) (k2_off1 (grid2.coords t)) S512x1024.size (k2_off1_inb (grid2.coords t)))) (vwblk2 VI c t) (vaccB2 (F := Ideal) (U := U) VI c t.val) : S512x1024.Idx → EReal) (ValueIdx.ix2 b j)
      = (vaccB2 (F := Ideal) (U := U) VI c (t.val + 1) : S512x1024.Idx → EReal) (ValueIdx.ix2 b j) :=
    ((congrFun (vaccB2_succ (F := Ideal) (U := U) VI c t) (ValueIdx.ix2 b j)).trans
      ((congrFun (vstep2_C (F := Ideal) (U := U) VI c t _ h0 h1 hc0 hc1) (ValueIdx.ix2 b j)).trans
        (congrFun (vsoutC2_eq (F := Ideal) (U := U) c (grid2.coords t) (vms2_0 t) (vhs2_0 t) (vms2_1 t) (vhs2_1 t) (vms2_2 t) (vhs2_2 t) vsc2 (Memref.isWhole_whole _) hc0 hc1 (vxblk2 VI c t) (vwblk2 VI c t) (vaccB2 (F := Ideal) (U := U) VI c t.val)) (ValueIdx.ix2 b j)))).symm
  rw [hacc, vaccLast2 VI c t.val hN h1 b j hr]
  have e0 : (⟨((((cfg2.win 2).blk t).view.emb (ValueIdx.ix2 b j)) 0).val, ((((cfg2.win 2).blk t).view.emb (ValueIdx.ix2 b j)) 0).isLt⟩ : Fin 512) = b :=
    Fin.ext (by show win2_2.index t 0 * 512 + 1 * b.val = b.val; rw [(voidx2 t).1]; omega)
  have e1 : (⟨((((cfg2.win 2).blk t).view.emb (ValueIdx.ix2 b j)) 1).val, ((((cfg2.win 2).blk t).view.emb (ValueIdx.ix2 b j)) 1).isLt⟩ : Fin 4096) = ⟨t.val / 4 * 1024 + j.val, hr⟩ :=
    Fin.ext (by show win2_2.index t 1 * 1024 + 1 * j.val = t.val / 4 * 1024 + j.val; rw [(voidx2 t).2]; omega)
  refine Eq.trans ?_ (show Cert.Spec.layer (fun b k => (vX2 VI c : S512x4096.Idx → EReal) (ValueIdx.ix2 b k)) (fun h k => (vW2 VI c : S4096x4096.Idx → EReal) (ValueIdx.ix2 h k))
      ⟨((((cfg2.win 2).blk t).view.emb (ValueIdx.ix2 b j)) 0).val, ((((cfg2.win 2).blk t).view.emb (ValueIdx.ix2 b j)) 0).isLt⟩
      ⟨((((cfg2.win 2).blk t).view.emb (ValueIdx.ix2 b j)) 1).val, ((((cfg2.win 2).blk t).view.emb (ValueIdx.ix2 b j)) 1).isLt⟩
        = (vG2 VI c : S512x4096.Idx → EReal) (((cfg2.win 2).blk t).view.emb (ValueIdx.ix2 b j)) from rfl)
  rw [e0, e1]
  rfl

theorem vflushed2 (c : Dev nD) (t : Fin cfg2.N) (hf : (cfg2.win 2).flush t = true) :
    (vdat2 (U := U) VI c).flushed 2 t = ((cfg2.win 2).blk t).view.read (Elt Ideal) (vG2 VI c) := by
  have h1 : t.val % 4 = 3 := (flush2_2 t).mp hf
  show (cfg2.win 2).cut (grid2.coords t) ((vdatF2 (F := Ideal) (U := U) VI c).after 2 t) = _
  rw [vafter2_2 (F := Ideal) (U := U) VI c t]
  funext (x : S512x1024.Idx)
  obtain ⟨b, j, rfl⟩ : ∃ (b : Fin 512) (j : Fin 1024), x = ValueIdx.ix2 b j := ⟨x 0, x 1, ValueIdx.eq_ix2 x⟩
  rw [View.read_apply]
  exact vkey2 VI c t h1 b j

theorem vcover2 (i : S512x4096.Idx) : ∃ t : Fin cfg2.N, (cfg2.win 2).flush t = true ∧ i ∈ ((cfg2.win 2).blk t).view.set := by
  have h0 : (i 0 : Nat) < 512 := (i 0).isLt
  have h1 : (i 1 : Nat) < 4096 := (i 1).isLt
  have hlt : (i 1 : Nat) / 1024 * 4 + 3 < cfg2.N := lt_of_lt_of_eq (by omega) (show 16 = cfg2.N from N_2.symm)
  refine ⟨⟨(i 1 : Nat) / 1024 * 4 + 3, hlt⟩, (flush2_2 _).mpr (by show ((i 1 : Nat) / 1024 * 4 + 3) % 4 = 3; omega), ?_⟩
  show i ∈ ((View.whole main_v25).slice (win2_2.rect ⟨(i 1 : Nat) / 1024 * 4 + 3, hlt⟩)).set
  rw [View.set_slice_whole, Rect.mem_set_unit]
  intro a
  have e := voidx2 ⟨(i 1 : Nat) / 1024 * 4 + 3, hlt⟩
  have ediv : ((i 1 : Nat) / 1024 * 4 + 3) / 4 = (i 1 : Nat) / 1024 := by omega
  match a with
  | ⟨0, _⟩ =>
    show win2_2.index ⟨(i 1 : Nat) / 1024 * 4 + 3, hlt⟩ 0 * 512 ≤ (i 0 : Nat) ∧ (i 0 : Nat) < win2_2.index ⟨(i 1 : Nat) / 1024 * 4 + 3, hlt⟩ 0 * 512 + 512
    rw [e.1]; omega
  | ⟨1, _⟩ =>
    show win2_2.index ⟨(i 1 : Nat) / 1024 * 4 + 3, hlt⟩ 1 * 1024 ≤ (i 1 : Nat) ∧ (i 1 : Nat) < win2_2.index ⟨(i 1 : Nat) / 1024 * 4 + 3, hlt⟩ 1 * 1024 + 1024
    rw [e.2]; show ((i 1 : Nat) / 1024 * 4 + 3) / 4 * 1024 ≤ (i 1 : Nat) ∧ (i 1 : Nat) < ((i 1 : Nat) / 1024 * 4 + 3) / 4 * 1024 + 1024
    rw [ediv]; omega

theorem vfinalG2 (c : Dev nD) : (vdat2 (U := U) VI c).arrAt 2 cfg2.N = vG2 VI c :=
  (vdat2 (U := U) VI c).arrAt_eq_of_cover 2 (vG2 VI c) (vflushed2 VI c) vcover2

theorem vfinal2 (V : (c : Dev nD) → (b : Ref sig .tc) → Buf (Elt Ideal) ((c : Thread nD τ).loc b)) (c : Dev nD) (b : Fin 512) (h : Fin 4096) :
    ((vdat2 (U := U) V c).arrAt 2 cfg2.N : S512x4096.Idx → EReal) (ValueIdx.ix2 b h)
      = Cert.Spec.layer (fun b k => (V c main_v24 : S512x4096.Idx → EReal) (ValueIdx.ix2 b k))
          (fun h k => (V c main_arg3 : S4096x4096.Idx → EReal) (ValueIdx.ix2 h k)) b h := by
  refine (congrFun (vfinalG2 (U := U) V c) (ValueIdx.ix2 b h)).trans ?_
  rfl

end Cert.KernelIdeal.Hand

end
-- ==== Proof.KI.ValP3.lean ====
import proofs.«409727_j78632261255731_3_alg».proof.Proof.Gen.KernelIdeal.Launch
import proofs.«409727_j78632261255731_3_alg».proof.Proof.Gen.KernelIdeal.Skeleton
import proofs.«409727_j78632261255731_3_alg».proof.Proof.Gen.KernelIdeal.Points
import proofs.«409727_j78632261255731_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx
variable {U : Type} [URA U]
local notation "𝕄" => MT nD τ sig Unit (Elt Ideal) ℕ U ℕ

abbrev pc3_0 (i : grid3.Coords) : Prop := (Scalar.cmpi .ne (Scalar.extui (Scalar.cmpi .eq (BitVec.ofNat 32 (i 1).val) 0#32)) 0#32) = 1#1
abbrev pc3_1 (i : grid3.Coords) : Prop := k3_cond2 i = 1#1

theorem read_writes_unit_zero3 {sg : RefSig} {κ : Kind} {sp : Space} {S : Shape} {e : EltTy} (v : View sg κ sp S e) (f : v.ty.Contents (Elt Ideal))
    {off : Fin S.rank → Nat} (h : off = fun _ => 0) (inb : ∀ a, off a + S.size a ≤ S.size a) (w : S.Idx → Elt Ideal e)
    (L : List (View.Piece (Elt Ideal) S e)) :
    v.read (Elt Ideal) (v.writes (Elt Ideal) f ((⟨Rect.unit off S.size inb, w⟩ : View.Piece (Elt Ideal) S e) :: L)) = w := by
  rw [View.read_writes_eq_canon v f _ (fun y => ⟨_, List.mem_cons_self, View.mem_set_unit_zero h inb y⟩), View.canon_cons_unit_zero h]

section
variable (c : Dev nD) (i : grid3.Coords) (arg2 : Memref sig .tc .vmem S512x1024 .bf16) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole)

theorem pbody3_A (hc0 : pc3_0 i) (hc1 : ¬pc3_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k3_pay2 x3 (k3_pay1 x4) x2)) -∗ K ⟨⟩))
      ⊢ wp frame (wpE (defs₀ (F := Ideal)) Variants.none c none) E (cc3__proj_kernel i arg2 harg2 arg3 harg3 arg4 harg4 arg5 harg5 arg6 harg6) K := by
  have hz : (![0, 0] : Fin 2 → Nat) = fun _ => 0 := funext fun a => by fin_cases a <;> rfl
  simp only [cc3__proj_kernel_eq_skeleton]; unfold cc3__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  · iexists _; isplitr
    swap; · iexact H6
    ipureintro
    sl_unfold_words
    rw [read_writes_unit_zero3 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [View.readCov_unit_zero _ hz, e2, e3, e4]

theorem pbody3_B (hc0 : ¬pc3_0 i) (hc1 : ¬pc3_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k3_pay2 x3 x6 x2)) -∗ K ⟨⟩))
      ⊢ wp frame (wpE (defs₀ (F := Ideal)) Variants.none c none) E (cc3__proj_kernel i arg2 harg2 arg3 harg3 arg4 harg4 arg5 harg5 arg6 harg6) K := by
  have hz : (![0, 0] : Fin 2 → Nat) = fun _ => 0 := funext fun a => by fin_cases a <;> rfl
  simp only [cc3__proj_kernel_eq_skeleton]; unfold cc3__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  · iexists _; isplitr
    swap; · iexact H6
    ipureintro
    sl_unfold_words
    rw [read_writes_unit_zero3 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [e2, e3, e6]

theorem pbody3_C (hc0 : ¬pc3_0 i) (hc1 : pc3_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare (k3_pay2 x3 x6 x2) ∗ owns (c : Thread nD τ) arg6 fullShare (k3_pay2 x3 x6 x2)) -∗ K ⟨⟩))
      ⊢ wp frame (wpE (defs₀ (F := Ideal)) Variants.none c none) E (cc3__proj_kernel i arg2 harg2 arg3 harg3 arg4 harg4 arg5 harg5 arg6 harg6) K := by
  have hz : (![0, 0] : Fin 2 → Nat) = fun _ => 0 := funext fun a => by fin_cases a <;> rfl
  simp only [cc3__proj_kernel_eq_skeleton]; unfold cc3__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [read_writes_unit_zero3 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [View.readCov_unit_zero _ hz, e2, e3, e6]
  · iexists _; isplitr
    swap; · iexact H6
    ipureintro
    sl_unfold_words
    rw [read_writes_unit_zero3 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [e2, e3, e6]
end

theorem plhs3_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem plhs3_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem prhs3_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem prhs3_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem vpayP3_2_apply (x3 : Vec Ideal S1024x512 .f32) (s0 : Vec Ideal S512x512 .f32) (x2 : Vec Ideal S512x1024 .bf16)
    (r : Fin 512) (q : Fin 512) :
    k3_pay2 x3 s0 x2 (ix2 r q) = s0 (ix2 r q) + ∑ k : Fin 1024, x2 (ix2 r k) * x3 (ix2 k q) := by
  unfold k3_pay2
  simp only [shapeCast_self]
  rw [addf_apply]
  congr 1
  refine (Ideal.matmul_constant_zero_apply dot_S512x1024_S1024x512_S512x512_1_0_0_1_n_n none x2 (truncf .bf16 x3 bitsLt_bf16_f32) (ix2 r q)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r q) ((contrEquiv1 dot_S512x1024_S1024x512_S512x512_1_0_0_1_n_n 1024 rfl rfl).symm k) = (ix2 r k : S512x1024.Idx) := funext fun a => Fin.ext (by
    match a with
    | ⟨0, _⟩ => exact plhs3_0 _ _
    | ⟨1, _⟩ => exact (plhs3_1 _ _).trans hk)
  have er : dot_S512x1024_S1024x512_S512x512_1_0_0_1_n_n.rhsIdx (ix2 r q) ((contrEquiv1 dot_S512x1024_S1024x512_S512x512_1_0_0_1_n_n 1024 rfl rfl).symm k) = (ix2 k q : S1024x512.Idx) := funext fun a => Fin.ext (by
    match a with
    | ⟨0, _⟩ => exact (prhs3_0 _ _).trans hk
    | ⟨1, _⟩ => exact prhs3_1 _ _)
  rw [el, er]
  rfl

theorem vpayP3_1_apply (x4 : Vec Ideal S512x512 .f32) : k3_pay1 x4 = x4 := by
  unfold k3_pay1; simp only [shapeCast_self]

variable (V : (c : Dev nD) → (b : Ref sig .tc) → Buf (Elt Ideal) ((c : Thread nD τ).loc b)) (c : Dev nD)

def act3 (b : Fin 512) (h : Fin 4096) : EReal := (V c main_v23 : S512x4096.Idx → EReal) (ix2 b h)
def wgt3 (h : Fin 4096) (j : Fin 1000) : EReal := (V c main_v28 : S4096x1000.Idx → EReal) (ix2 h j)
def prev3 (b : Fin 512) (j : Fin 1000) : EReal := (V c main_v26 : S512x1000.Idx → EReal) (ix2 b j)

def hid3 (hh : Fin 4) (k : Fin 1024) : Fin 4096 := ⟨hh.val * 1024 + k.val, by have := hh.isLt; have := k.isLt; omega⟩

def tile3 (r : Fin 512) (j : Fin 1000) (hh : Fin 4) : EReal :=
  ∑ k : Fin 1024, act3 V c r (hid3 hh k) * wgt3 V c (hid3 hh k) j

def part3 (r : Fin 512) (j : Fin 1000) (n : ℕ) : EReal :=
  prev3 V c r j + ∑ hh : Fin 4, if hh.val < n then tile3 V c r j hh else 0

theorem part3_zero (r : Fin 512) (j : Fin 1000) : part3 V c r j 0 = prev3 V c r j := by
  unfold part3; simp

theorem part3_succ (r : Fin 512) (j : Fin 1000) (hh : Fin 4) :
    part3 V c r j (hh.val + 1) = part3 V c r j hh.val + tile3 V c r j hh := by
  unfold part3
  rw [add_assoc]; congr 1
  rw [Fin.sum_univ_four, Fin.sum_univ_four]
  fin_cases hh <;> simp

theorem part3_four (r : Fin 512) (j : Fin 1000) :
    part3 V c r j 4 = Cert.Spec.proj (prev3 V c) (act3 V c) (wgt3 V c) r j := by
  unfold part3 Cert.Spec.proj
  congr 1
  have h4 : ∀ hh : Fin 4, (if hh.val < 4 then tile3 V c r j hh else 0) = tile3 V c r j hh := fun hh => if_pos hh.isLt
  simp only [h4]
  unfold tile3
  rw [← Equiv.sum_comp (finProdFinEquiv (m := 4) (n := 1024)) (fun h : Fin 4096 => act3 V c r h * wgt3 V c h j), Fintype.sum_prod_type]
  refine Finset.sum_congr rfl fun hh _ => Finset.sum_congr rfl fun k _ => ?_
  have e : finProdFinEquiv (hh, k) = hid3 hh k := Fin.ext (by simp [finProdFinEquiv, hid3]; omega)
  rw [e]

def Inv3 (n : ℕ) (s : S512x512.Idx → EReal) : Prop :=
  n % 4 ≠ 0 → ∀ (r : Fin 512) (q : Fin 512) (hq : n / 4 * 512 + q.val < 1000),
    s (ix2 r q) = part3 V c r ⟨n / 4 * 512 + q.val, hq⟩ (n % 4)

def Phi3 (n : ℕ) : sProp 𝕄 :=
  iprop(iprop(iprop(∃ s : S512x512.Idx → EReal, ⌜Inv3 V c n s⌝ ∗ owns (c : Thread nD τ) (Memref.whole cc3_scratch0) fullShare s)
    ∗ Pipeline.scopedRestBut (Ix := Unit) (Name := ℕ) (U := U) (Lvl := ℕ) (Val := Elt Ideal) spec3 c [cc3_scratch0])
    ∗ (∃ r, prngReg c r))

def out3 (t : Fin cfg3.N) : S512x512.Idx → EReal := fun j =>
  if h : t.val / 4 * 512 + (j 1).val < 1000 then part3 V c ⟨(j 0).val, idx2_lt0 j⟩ ⟨t.val / 4 * 512 + (j 1).val, h⟩ 4 else 0

def vdat3 (c : Dev nD) : Dat τ (Elt Ideal) Unit ℕ U ℕ cfg3 c where
  A w := V c (Pipeline.arrRef spec3 w)
  after w t := match w with
    | ⟨0, _⟩ => ((cfg3.win 0).blk t).view.read (Elt Ideal) (V c (Pipeline.arrRef spec3 0))
    | ⟨1, _⟩ => (cfg3.win 1).fill (grid3.coords t) (fun _ => (0 : EReal)) (((cfg3.win 1).blk t).view.read (Elt Ideal) (V c (Pipeline.arrRef spec3 1)))
    | ⟨2, _⟩ => (cfg3.win 2).fill (grid3.coords t) (fun _ => (0 : EReal)) (((cfg3.win 2).blk t).view.read (Elt Ideal) (V c (Pipeline.arrRef spec3 2)))
    | ⟨3, _⟩ => out3 V c t
  Φ t := Phi3 V c t.val
  q _ := fullShare
  owed _ := 0

theorem vdat3_A (w : Fin cfg3.W) : (vdat3 (U := U) V c).A w = V c (Pipeline.arrRef spec3 w) := by
  dsimp only [vdat3]

theorem vdat3_share (w : Fin cfg3.W) : (vdat3 (U := U) V c).share w = fullShare :=
  (vdat3 (U := U) V c).share_full (fun _ => rfl) w

theorem vdat3_owed (t : Fin (cfg3.N + 1)) : (vdat3 (U := U) V c).owed t = 0 := rfl

theorem vafter3_0 (t : Fin cfg3.N) : (vdat3 (U := U) V c).after 0 t = ((cfg3.win 0).blk t).view.read (Elt Ideal) (V c (Pipeline.arrRef spec3 0)) := by dsimp only [vdat3]
theorem vafter3_1 (t : Fin cfg3.N) : (vdat3 (U := U) V c).after 1 t = (cfg3.win 1).fill (grid3.coords t) (fun _ => (0 : EReal)) (((cfg3.win 1).blk t).view.read (Elt Ideal) (V c (Pipeline.arrRef spec3 1))) := by dsimp only [vdat3]
theorem vafter3_2 (t : Fin cfg3.N) : (vdat3 (U := U) V c).after 2 t = (cfg3.win 2).fill (grid3.coords t) (fun _ => (0 : EReal)) (((cfg3.win 2).blk t).view.read (Elt Ideal) (V c (Pipeline.arrRef spec3 2))) := by dsimp only [vdat3]
theorem vafter3_3 (t : Fin cfg3.N) : (vdat3 (U := U) V c).after 3 t = out3 V c t := by dsimp only [vdat3]

theorem vbefore3_0 (t : Fin cfg3.N) (d) : (vdat3 (U := U) V c).before 0 t d = (vdat3 (U := U) V c).fetched 0 t d :=
  (vdat3 (U := U) V c).before_in_eq_fetched 0 rfl (fun _ => rfl) (fun _ _ _ => rfl)
    (fun t => by rw [vafter3_0]; unfold Dat.blockOf; rw [vdat3_A]; try rfl) t d
theorem vbefore3_1 (t : Fin cfg3.N) (d) : (vdat3 (U := U) V c).before 1 t d = (vdat3 (U := U) V c).fetched 1 t d :=
  (vdat3 (U := U) V c).before_in_eq_fetched 1 rfl (fun _ => rfl)
    (fun t t' h => by
      funext a
      show Pipeline.Clip.of ((cfg3.win 1).index t a) _ _ = Pipeline.Clip.of ((cfg3.win 1).index t' a) _ _
      rw [h])
    (fun t => by rw [vafter3_1, Window.cut_fill]; unfold Dat.blockOf; rw [vdat3_A]) t d
theorem vbefore3_2 (t : Fin cfg3.N) (d) : (vdat3 (U := U) V c).before 2 t d = (vdat3 (U := U) V c).fetched 2 t d :=
  (vdat3 (U := U) V c).before_in_eq_fetched 2 rfl (fun _ => rfl)
    (fun t t' h => by
      funext a
      show Pipeline.Clip.of ((cfg3.win 2).index t a) _ _ = Pipeline.Clip.of ((cfg3.win 2).index t' a) _ _
      rw [h])
    (fun t => by rw [vafter3_2, Window.cut_fill]; unfold Dat.blockOf; rw [vdat3_A]) t d

theorem vidle3_3 : ∀ t : Fin cfg3.N, t.val % 4 ≠ 3 → cfg3.idle 3 (grid3.coords t) = true :=
  (by decide +kernel : ∀ t : Fin grid3.N, t.val % 4 ≠ 3 → idle3 3 (grid3.coords t) = true)
theorem vlive3_3 : ∀ t : Fin cfg3.N, t.val % 4 = 3 → cfg3.idle 3 (grid3.coords t) = false :=
  (by decide +kernel : ∀ t : Fin grid3.N, t.val % 4 = 3 → idle3 3 (grid3.coords t) = false)
theorem vnoflush3_3 (t : Fin cfg3.N) (h : t.val % 4 ≠ 3) : (cfg3.win 3).flush t = false := by
  cases hf : (cfg3.win 3).flush t
  · rfl
  · exact absurd ((flush3_3 t).mp hf) h

theorem vnofetch3_3 : ∀ t : Fin cfg3.N, (cfg3.win 3).fetch t = false :=
  (by decide +kernel : ∀ t : Fin grid3.N, win3_3.fetch t = false)

theorem vbefore3_3 (t : Fin cfg3.N) (d) : (vdat3 (U := U) V c).before 3 t d = d := by
  obtain ⟨n, hn⟩ := t
  induction n with
  | zero => unfold Dat.before; rw [if_neg (by rw [vnofetch3_3]; exact Bool.false_ne_true), if_pos rfl]
  | succ n ih =>
    have hn' : n < cfg3.N := Nat.lt_of_succ_lt hn
    rw [Dat.before_of_pos _ 3 ⟨n + 1, hn⟩ (Nat.succ_ne_zero n) (vnofetch3_3 _)]
    show (if (cfg3.win 3).flush ⟨n, _⟩ = true then d else (vdat3 (U := U) V c).left 3 ⟨n, _⟩ d) = d
    by_cases hf : (cfg3.win 3).flush ⟨n, hn'⟩ = true
    · rw [if_pos hf]
    · rw [if_neg hf]
      have h3 : n % 4 ≠ 3 := fun h => hf ((flush3_3 ⟨n, hn'⟩).mpr h)
      unfold Dat.left
      rw [vidle3_3 ⟨n, hn'⟩ h3]
      exact ih hn'

theorem PhiA3_eq :
    (Pipeline.ΦA spec3 c : sProp 𝕄)
      = iprop(iprop(iprop((∃ d, owns (c : Thread nD τ) (Memref.whole cc3_scratch0) fullShare d))
          ∗ Pipeline.scopedRestBut (Ix := Unit) (Name := ℕ) (U := U) (Lvl := ℕ) (Val := Elt Ideal) spec3 c [cc3_scratch0])
          ∗ (∃ r, prngReg c r)) := by
  unfold Pipeline.ΦA; rw [scopedRest3_split]; simp only [owns_whole]; try rfl

theorem vhin3 : (Pipeline.ΦA spec3 c : sProp 𝕄) ⊢ (vdat3 V c).Φ 0 := by
  rw [PhiA3_eq]
  show _ ⊢ Phi3 V c 0
  unfold Phi3
  iintro ⟨⟨⟨%d, H1⟩, H2⟩, H3⟩
  isplitr [H3]
  · isplitl [H1]
    · iexists d; isplitr; · ipureintro; exact fun h => absurd rfl h
      iexact H1
    iexact H2
  iexact H3

theorem vhout3 : (vdat3 V c).Φ (Fin.last cfg3.N) ⊢ (Pipeline.ΦA spec3 c : sProp 𝕄) := by
  rw [PhiA3_eq]
  show Phi3 V c (Fin.last cfg3.N).val ⊢ _
  unfold Phi3
  iintro ⟨⟨⟨%d, %hd, H1⟩, H2⟩, H3⟩
  isplitr [H3]
  · isplitl [H1]
    · iexists d; iexact H1
    iexact H2
  iexact H3

theorem vcond3_0 : ∀ t : Fin cfg3.N, pc3_0 (grid3.coords t) ↔ t.val % 4 = 0 :=
  (by decide +kernel : ∀ t : Fin grid3.N, pc3_0 (grid3.coords t) ↔ t.val % 4 = 0)
theorem vcond3_1 : ∀ t : Fin cfg3.N, pc3_1 (grid3.coords t) ↔ t.val % 4 = 3 :=
  (by decide +kernel : ∀ t : Fin grid3.N, pc3_1 (grid3.coords t) ↔ t.val % 4 = 3)

theorem vindex3_0 : ∀ t : Fin grid3.N, win3_0.index t 0 = 0 ∧ win3_0.index t 1 = t.val % 4 := by decide +kernel
theorem vindex3_1 : ∀ t : Fin grid3.N, win3_1.index t 0 = t.val % 4 ∧ win3_1.index t 1 = t.val / 4 := by decide +kernel
theorem vindex3_2 : ∀ t : Fin grid3.N, win3_2.index t 0 = 0 ∧ win3_2.index t 1 = t.val / 4 := by decide +kernel
theorem vindex3_3 : ∀ t : Fin grid3.N, win3_3.index t 0 = 0 ∧ win3_3.index t 1 = t.val / 4 := by decide +kernel
theorem vxsize3_0 : ∀ t : Fin grid3.N, win3_0.xsize (grid3.coords t) 0 = 512 ∧ win3_0.xsize (grid3.coords t) 1 = 1024 := by decide +kernel
theorem vxsize3_1 : ∀ t : Fin grid3.N, win3_1.xsize (grid3.coords t) 0 = 1024 ∧ win3_1.xsize (grid3.coords t) 1 = min 512 (1000 - t.val / 4 * 512) := by decide +kernel
theorem vxsize3_2 : ∀ t : Fin grid3.N, win3_2.xsize (grid3.coords t) 0 = 512 ∧ win3_2.xsize (grid3.coords t) 1 = min 512 (1000 - t.val / 4 * 512) := by decide +kernel
theorem vxsize3_3 : ∀ t : Fin grid3.N, win3_3.xsize (grid3.coords t) 0 = 512 ∧ win3_3.xsize (grid3.coords t) 1 = min 512 (1000 - t.val / 4 * 512) := by decide +kernel

theorem vN3 (t : Fin cfg3.N) : t.val < 8 := lt_of_lt_of_eq t.isLt N_3

def hh3 (t : Fin cfg3.N) : Fin 4 := ⟨t.val % 4, Nat.mod_lt _ (by decide)⟩

theorem vfetch3_0_apply (t : Fin cfg3.N) (d) (r : Fin 512) (k : Fin 1024) :
    (vdat3 (U := U) V c).fetched 0 t d (ix2 r k) = act3 V c r (hid3 (hh3 t) k) := by
  have hlt : ∀ a, ((ix2 r k : S512x1024.Idx) a).val < (cfg3.win 0).xsize (grid3.coords t) a := fun a => by
    match a with
    | ⟨0, _⟩ => exact (show r.val < win3_0.xsize (grid3.coords t) 0 from by rw [(vxsize3_0 t).1]; exact r.isLt)
    | ⟨1, _⟩ => exact (show k.val < win3_0.xsize (grid3.coords t) 1 from by rw [(vxsize3_0 t).2]; exact k.isLt)
  have hm : (cfg3.win 0).moved (grid3.coords t) (ix2 r k : S512x1024.Idx) = true := ((cfg3.win 0).moved_iff _ _).mpr hlt
  unfold Dat.fetched Window.fill
  rw [dif_pos hm]
  unfold Dat.blockOf; rw [vdat3_A]
  show (V c main_v23 : S512x4096.Idx → EReal) ((win3_0.rect t).emb _) = _
  unfold act3
  congr 1
  funext a; apply Fin.ext
  rw [Window.rect_emb_val]
  match a with
  | ⟨0, _⟩ => exact (show win3_0.index t 0 * 512 + r.val = r.val from by rw [(vindex3_0 t).1]; omega)
  | ⟨1, _⟩ => exact (show win3_0.index t 1 * 1024 + k.val = t.val % 4 * 1024 + k.val from by rw [(vindex3_0 t).2])

theorem vfetch3_1_apply (t : Fin cfg3.N) (d) (k : Fin 1024) (q : Fin 512) (hq : t.val / 4 * 512 + q.val < 1000) :
    (vdat3 (U := U) V c).fetched 1 t d (ix2 k q) = wgt3 V c (hid3 (hh3 t) k) ⟨t.val / 4 * 512 + q.val, hq⟩ := by
  have hlt : ∀ a, ((ix2 k q : S1024x512.Idx) a).val < (cfg3.win 1).xsize (grid3.coords t) a := fun a => by
    match a with
    | ⟨0, _⟩ => exact (show k.val < win3_1.xsize (grid3.coords t) 0 from by rw [(vxsize3_1 t).1]; exact k.isLt)
    | ⟨1, _⟩ => exact (show q.val < win3_1.xsize (grid3.coords t) 1 from by rw [(vxsize3_1 t).2]; have := q.isLt; omega)
  have hm : (cfg3.win 1).moved (grid3.coords t) (ix2 k q : S1024x512.Idx) = true := ((cfg3.win 1).moved_iff _ _).mpr hlt
  unfold Dat.fetched Window.fill
  rw [dif_pos hm]
  unfold Dat.blockOf; rw [vdat3_A]
  show (V c main_v28 : S4096x1000.Idx → EReal) ((win3_1.rect t).emb _) = _
  unfold wgt3
  congr 1
  funext a; apply Fin.ext
  rw [Window.rect_emb_val]
  match a with
  | ⟨0, _⟩ => exact (show win3_1.index t 0 * 1024 + k.val = t.val % 4 * 1024 + k.val from by rw [(vindex3_1 t).1])
  | ⟨1, _⟩ => exact (show win3_1.index t 1 * 512 + q.val = t.val / 4 * 512 + q.val from by rw [(vindex3_1 t).2])

theorem vfetch3_2_apply (t : Fin cfg3.N) (d) (r : Fin 512) (q : Fin 512) (hq : t.val / 4 * 512 + q.val < 1000) :
    (vdat3 (U := U) V c).fetched 2 t d (ix2 r q) = prev3 V c r ⟨t.val / 4 * 512 + q.val, hq⟩ := by
  have hlt : ∀ a, ((ix2 r q : S512x512.Idx) a).val < (cfg3.win 2).xsize (grid3.coords t) a := fun a => by
    match a with
    | ⟨0, _⟩ => exact (show r.val < win3_2.xsize (grid3.coords t) 0 from by rw [(vxsize3_2 t).1]; exact r.isLt)
    | ⟨1, _⟩ => exact (show q.val < win3_2.xsize (grid3.coords t) 1 from by rw [(vxsize3_2 t).2]; have := q.isLt; omega)
  have hm : (cfg3.win 2).moved (grid3.coords t) (ix2 r q : S512x512.Idx) = true := ((cfg3.win 2).moved_iff _ _).mpr hlt
  unfold Dat.fetched Window.fill
  rw [dif_pos hm]
  unfold Dat.blockOf; rw [vdat3_A]
  show (V c main_v26 : S512x1000.Idx → EReal) ((win3_2.rect t).emb _) = _
  unfold prev3
  congr 1
  funext a; apply Fin.ext
  rw [Window.rect_emb_val]
  match a with
  | ⟨0, _⟩ => exact (show win3_2.index t 0 * 512 + r.val = r.val from by rw [(vindex3_2 t).1]; omega)
  | ⟨1, _⟩ => exact (show win3_2.index t 1 * 512 + q.val = t.val / 4 * 512 + q.val from by rw [(vindex3_2 t).2])

theorem vkeep3_0 (t : Fin cfg3.N) (d) : (vdat3 (U := U) V c).after 0 t = (vdat3 (U := U) V c).fetched 0 t d := by
  rw [vafter3_0]; unfold Dat.fetched Dat.blockOf; rw [vdat3_A]; try rfl

theorem vafter3_0_apply (t : Fin cfg3.N) (r : Fin 512) (k : Fin 1024) :
    (vdat3 (U := U) V c).after 0 t (ix2 r k) = act3 V c r (hid3 (hh3 t) k) := by
  rw [vkeep3_0 V c t ((vdat3 (U := U) V c).after 0 t)]; exact vfetch3_0_apply V c t _ r k

theorem part3_congr (r : Fin 512) {j j' : Fin 1000} (h : j.val = j'.val) {n n' : ℕ} (hn : n = n') :
    part3 V c r j n = part3 V c r j' n' := by subst hn; rw [Fin.ext h]

theorem vstep3 (t : Fin cfg3.N) (d1) (s0 : S512x512.Idx → EReal) (r q : Fin 512) (hq : t.val / 4 * 512 + q.val < 1000)
    (hs0 : s0 (ix2 r q) = part3 V c r ⟨t.val / 4 * 512 + q.val, hq⟩ (t.val % 4)) :
    k3_pay2 ((vdat3 (U := U) V c).fetched 1 t d1) s0 ((vdat3 (U := U) V c).after 0 t) (ix2 r q)
      = part3 V c r ⟨t.val / 4 * 512 + q.val, hq⟩ (t.val % 4 + 1) := by
  rw [vpayP3_2_apply, hs0]
  have hsucc := part3_succ V c r ⟨t.val / 4 * 512 + q.val, hq⟩ (hh3 t)
  rw [show (hh3 t).val = t.val % 4 from rfl] at hsucc
  rw [hsucc]; congr 1
  unfold tile3
  refine Finset.sum_congr rfl fun k _ => ?_
  rw [vafter3_0_apply, vfetch3_1_apply V c t d1 k q hq]

theorem vinv3_next (t : Fin cfg3.N) (acc : S512x512.Idx → EReal)
    (h : ∀ (r q : Fin 512) (hq : t.val / 4 * 512 + q.val < 1000), acc (ix2 r q) = part3 V c r ⟨t.val / 4 * 512 + q.val, hq⟩ (t.val % 4 + 1)) :
    Inv3 V c (t.val + 1) acc := by
  intro hne r q hq
  have h1 : (t.val + 1) / 4 = t.val / 4 := by omega
  have h2 : (t.val + 1) % 4 = t.val % 4 + 1 := by omega
  have hq' : t.val / 4 * 512 + q.val < 1000 := by rw [← h1]; exact hq
  rw [h r q hq']
  exact part3_congr V c r (by show t.val / 4 * 512 + q.val = (t.val + 1) / 4 * 512 + q.val; rw [h1]) h2.symm

theorem vout3_cut (t : Fin cfg3.N) (h3 : t.val % 4 = 3) (acc : S512x512.Idx → EReal)
    (h : ∀ (r q : Fin 512) (hq : t.val / 4 * 512 + q.val < 1000), acc (ix2 r q) = part3 V c r ⟨t.val / 4 * 512 + q.val, hq⟩ (t.val % 4 + 1)) :
    (cfg3.win 3).cut (grid3.coords t) acc = (cfg3.win 3).cut (grid3.coords t) (out3 V c t) := by
  funext y
  show acc ((cfg3.win 3).xinj (grid3.coords t) y) = out3 V c t ((cfg3.win 3).xinj (grid3.coords t) y)
  have hy1 : (y 1).val < win3_3.xsize (grid3.coords t) 1 := (y 1).isLt
  rw [(vxsize3_3 t).2] at hy1
  have hy0 : (y 0).val < win3_3.xsize (grid3.coords t) 0 := (y 0).isLt
  rw [(vxsize3_3 t).1] at hy0
  have hq : t.val / 4 * 512 + (y 1).val < 1000 := by omega
  have hq512 : (y 1).val < 512 := by omega
  have e : (cfg3.win 3).xinj (grid3.coords t) y = (ix2 (⟨(y 0).val, hy0⟩ : Fin 512) (⟨(y 1).val, hq512⟩ : Fin 512) : S512x512.Idx) := by
    funext a; apply Fin.ext
    match a with
    | ⟨0, _⟩ => rfl
    | ⟨1, _⟩ => rfl
  rw [e, h _ _ hq]
  unfold out3
  rw [dif_pos (show t.val / 4 * 512 + ((ix2 (⟨(y 0).val, hy0⟩ : Fin 512) (⟨(y 1).val, hq512⟩ : Fin 512) : S512x512.Idx) 1).val < 1000 from hq)]
  exact part3_congr V c _ rfl (by omega)

abbrev vms3_0 (t : Fin cfg3.N) : Memref sig .tc .vmem S512x1024 .bf16 := win3_0.stage (cfg3.slots t 0)
abbrev vhs3_0 (t : Fin cfg3.N) : (vms3_0 t).IsWhole := hstage3_0 ((cfg3.slots t 0).cast nbuf3_0)
abbrev vms3_1 (t : Fin cfg3.N) : Memref sig .tc .vmem S1024x512 .f32 := win3_1.stage (cfg3.slots t 1)
abbrev vhs3_1 (t : Fin cfg3.N) : (vms3_1 t).IsWhole := hstage3_1 ((cfg3.slots t 1).cast nbuf3_1)
abbrev vms3_2 (t : Fin cfg3.N) : Memref sig .tc .vmem S512x512 .f32 := win3_2.stage (cfg3.slots t 2)
abbrev vhs3_2 (t : Fin cfg3.N) : (vms3_2 t).IsWhole := hstage3_2 ((cfg3.slots t 2).cast nbuf3_2)
abbrev vms3_3 (t : Fin cfg3.N) : Memref sig .tc .vmem S512x512 .f32 := win3_3.stage (cfg3.slots t 3)
abbrev vhs3_3 (t : Fin cfg3.N) : (vms3_3 t).IsWhole := hstage3_3 ((cfg3.slots t 3).cast nbuf3_3)

theorem vleaves3_0 (t : Fin cfg3.N) :
    (vdat3 (U := U) V c).leaves 0 t = owns (c : Thread nD τ) (vms3_0 t) fullShare ((vdat3 (U := U) V c).after 0 t) := by
  unfold Dat.leaves; rfl
theorem vleaves3_1 (t : Fin cfg3.N) :
    (vdat3 (U := U) V c).leaves 1 t = iprop(∃ d, owns (c : Thread nD τ) (vms3_1 t) fullShare ((vdat3 (U := U) V c).fetched 1 t d)) := by
  have hk : (cfg3.win 1).cut (grid3.coords t) ((vdat3 (U := U) V c).after 1 t) = (vdat3 (U := U) V c).blockOf 1 t := by
    rw [vafter3_1, Window.cut_fill]; unfold Dat.blockOf; rw [vdat3_A]
  unfold Dat.leaves Dat.fetched; rw [← hk]; try rfl
theorem vleaves3_2 (t : Fin cfg3.N) :
    (vdat3 (U := U) V c).leaves 2 t = iprop(∃ d, owns (c : Thread nD τ) (vms3_2 t) fullShare ((vdat3 (U := U) V c).fetched 2 t d)) := by
  have hk : (cfg3.win 2).cut (grid3.coords t) ((vdat3 (U := U) V c).after 2 t) = (vdat3 (U := U) V c).blockOf 2 t := by
    rw [vafter3_2, Window.cut_fill]; unfold Dat.blockOf; rw [vdat3_A]
  unfold Dat.leaves Dat.fetched; rw [← hk]; try rfl
theorem vleaves3_3_idle (t : Fin cfg3.N) (h3 : t.val % 4 ≠ 3) :
    (vdat3 (U := U) V c).leaves 3 t = iprop(∃ d, owns (c : Thread nD τ) (vms3_3 t) fullShare d) := by
  rw [Dat.leaves_idle _ 3 t (vidle3_3 t h3) (vnoflush3_3 t h3)]
  simp only [vbefore3_3]; rfl
theorem vleaves3_3_live (t : Fin cfg3.N) (h3 : t.val % 4 = 3) :
    (vdat3 (U := U) V c).leaves 3 t = iprop(∃ d, owns (c : Thread nD τ) (vms3_3 t) fullShare
      ((cfg3.win 3).fill (grid3.coords t) d ((cfg3.win 3).cut (grid3.coords t) (out3 V c t)))) := by
  unfold Dat.leaves; rw [vlive3_3 t h3, vafter3_3]; rfl

set_option maxHeartbeats 1600000 in
theorem vsound3 (t : Fin cfg3.N) :
    iprop((vdat3 (U := U) V c).Φ t.castSucc ∗ (vdat3 (U := U) V c).owesAt () t.castSucc
        ∗ (∃ d, owns (c : Thread nD τ) (vms3_0 t) fullShare ((vdat3 (U := U) V c).before 0 t d))
        ∗ (∃ d, owns (c : Thread nD τ) (vms3_1 t) fullShare ((vdat3 (U := U) V c).before 1 t d))
        ∗ (∃ d, owns (c : Thread nD τ) (vms3_2 t) fullShare ((vdat3 (U := U) V c).before 2 t d))
        ∗ (∃ d, owns (c : Thread nD τ) (vms3_3 t) fullShare ((vdat3 (U := U) V c).before 3 t d)))
      ⊢ wp frame (wpE (defs₀ (F := Ideal)) Variants.none c none) Set.univ (bodyAt3 t) (fun _ =>
          iprop((vdat3 (U := U) V c).Φ t.succ ∗ (vdat3 (U := U) V c).owesAt () t.succ
            ∗ (vdat3 (U := U) V c).leaves 0 t ∗ (vdat3 (U := U) V c).leaves 1 t
            ∗ (vdat3 (U := U) V c).leaves 2 t ∗ (vdat3 (U := U) V c).leaves 3 t)) := by
  simp only [vbefore3_0, vbefore3_1, vbefore3_2, vbefore3_3]
  simp only [← vkeep3_0 V c t]
  rw [show (vdat3 (U := U) V c).owesAt () t.succ = (vdat3 (U := U) V c).owesAt () t.castSucc from rfl]
  rw [show (vdat3 (U := U) V c).Φ t.castSucc = Phi3 V c t.val from rfl, show (vdat3 (U := U) V c).Φ t.succ = Phi3 V c (t.val + 1) from rfl]
  rw [vleaves3_0, vleaves3_1, vleaves3_2]
  unfold Phi3 bodyAt3
  have hN := vN3 t
  by_cases h0 : t.val % 4 = 0
  · have h3 : t.val % 4 ≠ 3 := by omega
    rw [vleaves3_3_idle V c t h3]
    iintro ⟨⟨⟨⟨%s, %hs, HS⟩, HR⟩, Hg⟩, Ho, ⟨%d0, H0⟩, ⟨%d1, H1⟩, ⟨%d2, H2⟩, ⟨%d3, H3⟩⟩
    iapply (pbody3_A c (grid3.coords t) _ (vhs3_0 t) _ (vhs3_1 t) _ (vhs3_2 t) _ (vhs3_3 t) _ (Memref.isWhole_whole _) ((vcond3_0 t).mpr h0) (fun h => h3 ((vcond3_1 t).mp h)) _ _ _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitr [Hg]
      · isplitr [HR]
        · iexists _; isplitr
          swap; · iexact HS
          ipureintro
          exact vinv3_next V c t _ fun r q hq => vstep3 V c t d1 _ r q hq (by rw [vpayP3_1_apply, vfetch3_2_apply V c t d2 r q hq, h0, part3_zero])
        iexact HR
      iexact Hg
    isplitl [Ho]; · iexact Ho
    isplitl [H0]; · iexact H0
    isplitl [H1]; · iexists d1; iexact H1
    isplitl [H2]; · iexists d2; iexact H2
    iexists d3; iexact H3
  · by_cases h3 : t.val % 4 = 3
    · rw [vleaves3_3_live V c t h3]
      iintro ⟨⟨⟨⟨%s, %hs, HS⟩, HR⟩, Hg⟩, Ho, ⟨%d0, H0⟩, ⟨%d1, H1⟩, ⟨%d2, H2⟩, ⟨%d3, H3⟩⟩
      have hacc : ∀ (r q : Fin 512) (hq : t.val / 4 * 512 + q.val < 1000),
          k3_pay2 ((vdat3 (U := U) V c).fetched 1 t d1) s ((vdat3 (U := U) V c).after 0 t) (ix2 r q)
            = part3 V c r ⟨t.val / 4 * 512 + q.val, hq⟩ (t.val % 4 + 1) :=
        fun r q hq => vstep3 V c t d1 s r q hq (hs h0 r q hq)
      have hfill := (cfg3.win 3).fill_congr_cut (grid3.coords t) (vout3_cut V c t h3 _ hacc)
      iapply (pbody3_C c (grid3.coords t) _ (vhs3_0 t) _ (vhs3_1 t) _ (vhs3_2 t) _ (vhs3_3 t) _ (Memref.isWhole_whole _) (fun h => h0 ((vcond3_0 t).mp h)) ((vcond3_1 t).mpr h3) _ _ _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitr [HR]
          · iexists _; isplitr
            swap; · iexact HS
            ipureintro
            exact fun hne => absurd (show (t.val + 1) % 4 = 0 by omega) hne
          iexact HR
        iexact Hg
      isplitl [Ho]; · iexact Ho
      isplitl [H0]; · iexact H0
      isplitl [H1]; · iexists d1; iexact H1
      isplitl [H2]; · iexists d2; iexact H2
      iexists k3_pay2 ((vdat3 (U := U) V c).fetched 1 t d1) s ((vdat3 (U := U) V c).after 0 t)
      rw [hfill]; iexact H3
    · rw [vleaves3_3_idle V c t h3]
      iintro ⟨⟨⟨⟨%s, %hs, HS⟩, HR⟩, Hg⟩, Ho, ⟨%d0, H0⟩, ⟨%d1, H1⟩, ⟨%d2, H2⟩, ⟨%d3, H3⟩⟩
      iapply (pbody3_B c (grid3.coords t) _ (vhs3_0 t) _ (vhs3_1 t) _ (vhs3_2 t) _ (vhs3_3 t) _ (Memref.isWhole_whole _) (fun h => h0 ((vcond3_0 t).mp h)) (fun h => h3 ((vcond3_1 t).mp h)) _ _ _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitr [HR]
          · iexists _; isplitr
            swap; · iexact HS
            ipureintro
            exact vinv3_next V c t _ fun r q hq => vstep3 V c t d1 s r q hq (hs h0 r q hq)
          iexact HR
        iexact Hg
      isplitl [Ho]; · iexact Ho
      isplitl [H0]; · iexact H0
      isplitl [H1]; · iexists d1; iexact H1
      isplitl [H2]; · iexists d2; iexact H2
      iexists d3; iexact H3

theorem vbody3 : BodyObligationLoose (vdat3 (U := U) V c) (defs₀ (F := Ideal)) Variants.none () Set.univ := fun t => by
  rw [bigSep_W3, bigSep_W3]
  exact vsound3 V c t

theorem part3_congr2 {r r' : Fin 512} (hr : r.val = r'.val) {j j' : Fin 1000} (h : j.val = j'.val) (n : ℕ) :
    part3 V c r j n = part3 V c r' j' n := by rw [Fin.ext hr, Fin.ext h]

def G3 : S512x1000.Idx → EReal := fun i => part3 V c ⟨(i 0).val, idx2_lt0 i⟩ ⟨(i 1).val, idx2_lt1 i⟩ 4

theorem vmem3_blk (t : Fin cfg3.N) (i : S512x1000.Idx) :
    i ∈ ((cfg3.win 3).blk t).view.set ↔ t.val / 4 * 512 ≤ (i 1).val ∧ (i 1).val < t.val / 4 * 512 + min 512 (1000 - t.val / 4 * 512) := by
  have hi0 : (i 0).val < 512 := idx2_lt0 i
  show i ∈ ((View.whole main_v29).slice (win3_3.rect t)).set ↔ _
  rw [View.set_slice_whole, Rect.mem_set_unit]
  constructor
  · intro h
    have h1 : win3_3.index t 1 * 512 ≤ (i 1).val ∧ (i 1).val < win3_3.index t 1 * 512 + win3_3.xsize (grid3.coords t) 1 := h 1
    rw [(vindex3_3 t).2, (vxsize3_3 t).2] at h1
    exact h1
  · intro h a
    match a with
    | ⟨0, _⟩ =>
      show win3_3.index t 0 * 512 ≤ (i 0).val ∧ (i 0).val < win3_3.index t 0 * 512 + win3_3.xsize (grid3.coords t) 0
      rw [(vindex3_3 t).1, (vxsize3_3 t).1, Nat.zero_mul, Nat.zero_add]; exact ⟨Nat.zero_le _, hi0⟩
    | ⟨1, _⟩ =>
      show win3_3.index t 1 * 512 ≤ (i 1).val ∧ (i 1).val < win3_3.index t 1 * 512 + win3_3.xsize (grid3.coords t) 1
      rw [(vindex3_3 t).2, (vxsize3_3 t).2]; exact h

theorem vflushed3 (t : Fin cfg3.N) :
    (vdat3 (U := U) V c).flushed 3 t = ((cfg3.win 3).blk t).view.read (Elt Ideal) (G3 V c) := by
  funext y
  show (vdat3 (U := U) V c).after 3 t ((cfg3.win 3).xinj (grid3.coords t) y) = G3 V c ((win3_3.rect t).emb y)
  rw [vafter3_3]
  have hy1 : (y 1).val < win3_3.xsize (grid3.coords t) 1 := (y 1).isLt
  rw [(vxsize3_3 t).2] at hy1
  have e0 : ((win3_3.rect t).emb y 0).val = (y 0).val := by
    rw [Window.rect_emb_val]
    show win3_3.index t 0 * 512 + (y 0).val = (y 0).val
    rw [(vindex3_3 t).1]; omega
  have e1 : ((win3_3.rect t).emb y 1).val = t.val / 4 * 512 + (y 1).val := by
    rw [Window.rect_emb_val]
    show win3_3.index t 1 * 512 + (y 1).val = t.val / 4 * 512 + (y 1).val
    rw [(vindex3_3 t).2]
  have hq : t.val / 4 * 512 + (y 1).val < 1000 := by omega
  unfold out3 G3
  rw [dif_pos (show t.val / 4 * 512 + (((cfg3.win 3).xinj (grid3.coords t) y) 1).val < 1000 from hq)]
  exact part3_congr2 V c e0.symm e1.symm 4

theorem vcover3 (i : S512x1000.Idx) : ∃ t : Fin cfg3.N, (cfg3.win 3).flush t = true ∧ i ∈ ((cfg3.win 3).blk t).view.set := by
  have hi := idx2_lt1 i
  by_cases h : (i 1).val < 512
  · refine ⟨t3_3, (flush3_3 t3_3).mpr rfl, (vmem3_blk t3_3 i).mpr ?_⟩
    show 3 / 4 * 512 ≤ (i 1).val ∧ (i 1).val < 3 / 4 * 512 + min 512 (1000 - 3 / 4 * 512)
    omega
  · refine ⟨t3_7, (flush3_3 t3_7).mpr rfl, (vmem3_blk t3_7 i).mpr ?_⟩
    show 7 / 4 * 512 ≤ (i 1).val ∧ (i 1).val < 7 / 4 * 512 + min 512 (1000 - 7 / 4 * 512)
    omega

theorem varr3 : (vdat3 (U := U) V c).arrAt 3 cfg3.N = G3 V c :=
  (vdat3 (U := U) V c).arrAt_eq_of_cover 3 (G3 V c) (fun t _ => vflushed3 V c t) (vcover3)

theorem vfinal3 (b : Fin 512) (j : Fin 1000) :
    ((vdat3 (U := U) V c).arrAt 3 cfg3.N : S512x1000.Idx → EReal) (ix2 b j)
      = Cert.Spec.proj (fun b j => (V c main_v26 : S512x1000.Idx → EReal) (ix2 b j))
          (fun b h => (V c main_v23 : S512x4096.Idx → EReal) (ix2 b h))
          (fun h j => (V c main_v28 : S4096x1000.Idx → EReal) (ix2 h j)) b j := by
  rw [varr3]
  exact part3_four V c b j

end Cert.KernelIdeal.Hand
end
-- ==== Proof.KI.ValP4.lean ====
import proofs.«409727_j78632261255731_3_alg».proof.Proof.Gen.KernelIdeal.Launch
import proofs.«409727_j78632261255731_3_alg».proof.Proof.Gen.KernelIdeal.Skeleton
import proofs.«409727_j78632261255731_3_alg».proof.Proof.Gen.KernelIdeal.Points
import proofs.«409727_j78632261255731_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx
variable {U : Type} [URA U]
local notation "𝕄" => MT nD τ sig Unit (Elt Ideal) ℕ U ℕ

abbrev pc4_0 (i : grid4.Coords) : Prop := (Scalar.cmpi .ne (Scalar.extui (Scalar.cmpi .eq (BitVec.ofNat 32 (i 1).val) 0#32)) 0#32) = 1#1
abbrev pc4_1 (i : grid4.Coords) : Prop := k4_cond2 i = 1#1

theorem read_writes_unit_zero4 {sg : RefSig} {κ : Kind} {sp : Space} {S : Shape} {e : EltTy} (v : View sg κ sp S e) (f : v.ty.Contents (Elt Ideal))
    {off : Fin S.rank → Nat} (h : off = fun _ => 0) (inb : ∀ a, off a + S.size a ≤ S.size a) (w : S.Idx → Elt Ideal e)
    (L : List (View.Piece (Elt Ideal) S e)) :
    v.read (Elt Ideal) (v.writes (Elt Ideal) f ((⟨Rect.unit off S.size inb, w⟩ : View.Piece (Elt Ideal) S e) :: L)) = w := by
  rw [View.read_writes_eq_canon v f _ (fun y => ⟨_, List.mem_cons_self, View.mem_set_unit_zero h inb y⟩), View.canon_cons_unit_zero h]

section
variable (c : Dev nD) (i : grid4.Coords) (arg2 : Memref sig .tc .vmem S512x1024 .bf16) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole)

theorem pbody4_A (hc0 : pc4_0 i) (hc1 : ¬pc4_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k4_pay2 x3 (k4_pay1 x4) x2)) -∗ K ⟨⟩))
      ⊢ wp frame (wpE (defs₀ (F := Ideal)) Variants.none c none) E (cc4__proj_kernel i arg2 harg2 arg3 harg3 arg4 harg4 arg5 harg5 arg6 harg6) K := by
  have hz : (![0, 0] : Fin 2 → Nat) = fun _ => 0 := funext fun a => by fin_cases a <;> rfl
  simp only [cc4__proj_kernel_eq_skeleton]; unfold cc4__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  · iexists _; isplitr
    swap; · iexact H6
    ipureintro
    sl_unfold_words
    rw [read_writes_unit_zero4 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [View.readCov_unit_zero _ hz, e2, e3, e4]

theorem pbody4_B (hc0 : ¬pc4_0 i) (hc1 : ¬pc4_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k4_pay2 x3 x6 x2)) -∗ K ⟨⟩))
      ⊢ wp frame (wpE (defs₀ (F := Ideal)) Variants.none c none) E (cc4__proj_kernel i arg2 harg2 arg3 harg3 arg4 harg4 arg5 harg5 arg6 harg6) K := by
  have hz : (![0, 0] : Fin 2 → Nat) = fun _ => 0 := funext fun a => by fin_cases a <;> rfl
  simp only [cc4__proj_kernel_eq_skeleton]; unfold cc4__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  · iexists _; isplitr
    swap; · iexact H6
    ipureintro
    sl_unfold_words
    rw [read_writes_unit_zero4 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [e2, e3, e6]

theorem pbody4_C (hc0 : ¬pc4_0 i) (hc1 : pc4_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare (k4_pay2 x3 x6 x2) ∗ owns (c : Thread nD τ) arg6 fullShare (k4_pay2 x3 x6 x2)) -∗ K ⟨⟩))
      ⊢ wp frame (wpE (defs₀ (F := Ideal)) Variants.none c none) E (cc4__proj_kernel i arg2 harg2 arg3 harg3 arg4 harg4 arg5 harg5 arg6 harg6) K := by
  have hz : (![0, 0] : Fin 2 → Nat) = fun _ => 0 := funext fun a => by fin_cases a <;> rfl
  simp only [cc4__proj_kernel_eq_skeleton]; unfold cc4__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [read_writes_unit_zero4 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [View.readCov_unit_zero _ hz, e2, e3, e6]
  · iexists _; isplitr
    swap; · iexact H6
    ipureintro
    sl_unfold_words
    rw [read_writes_unit_zero4 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [e2, e3, e6]
end

theorem plhs4_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem plhs4_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem prhs4_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem prhs4_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem vpayP4_2_apply (x3 : Vec Ideal S1024x512 .f32) (s0 : Vec Ideal S512x512 .f32) (x2 : Vec Ideal S512x1024 .bf16)
    (r : Fin 512) (q : Fin 512) :
    k4_pay2 x3 s0 x2 (ix2 r q) = s0 (ix2 r q) + ∑ k : Fin 1024, x2 (ix2 r k) * x3 (ix2 k q) := by
  unfold k4_pay2
  simp only [shapeCast_self]
  rw [addf_apply]
  congr 1
  refine (Ideal.matmul_constant_zero_apply dot_S512x1024_S1024x512_S512x512_1_0_0_1_n_n none x2 (truncf .bf16 x3 bitsLt_bf16_f32) (ix2 r q)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r q) ((contrEquiv1 dot_S512x1024_S1024x512_S512x512_1_0_0_1_n_n 1024 rfl rfl).symm k) = (ix2 r k : S512x1024.Idx) := funext fun a => Fin.ext (by
    match a with
    | ⟨0, _⟩ => exact plhs4_0 _ _
    | ⟨1, _⟩ => exact (plhs4_1 _ _).trans hk)
  have er : dot_S512x1024_S1024x512_S512x512_1_0_0_1_n_n.rhsIdx (ix2 r q) ((contrEquiv1 dot_S512x1024_S1024x512_S512x512_1_0_0_1_n_n 1024 rfl rfl).symm k) = (ix2 k q : S1024x512.Idx) := funext fun a => Fin.ext (by
    match a with
    | ⟨0, _⟩ => exact (prhs4_0 _ _).trans hk
    | ⟨1, _⟩ => exact prhs4_1 _ _)
  rw [el, er]
  rfl

theorem vpayP4_1_apply (x4 : Vec Ideal S512x512 .f32) : k4_pay1 x4 = x4 := by
  unfold k4_pay1; simp only [shapeCast_self]

variable (V : (c : Dev nD) → (b : Ref sig .tc) → Buf (Elt Ideal) ((c : Thread nD τ).loc b)) (c : Dev nD)

def act4 (b : Fin 512) (h : Fin 4096) : EReal := (V c main_v24 : S512x4096.Idx → EReal) (ix2 b h)
def wgt4 (h : Fin 4096) (j : Fin 1000) : EReal := (V c main_v31 : S4096x1000.Idx → EReal) (ix2 h j)
def prev4 (b : Fin 512) (j : Fin 1000) : EReal := (V c main_v29 : S512x1000.Idx → EReal) (ix2 b j)

def hid4 (hh : Fin 4) (k : Fin 1024) : Fin 4096 := ⟨hh.val * 1024 + k.val, by have := hh.isLt; have := k.isLt; omega⟩

def tile4 (r : Fin 512) (j : Fin 1000) (hh : Fin 4) : EReal :=
  ∑ k : Fin 1024, act4 V c r (hid4 hh k) * wgt4 V c (hid4 hh k) j

def part4 (r : Fin 512) (j : Fin 1000) (n : ℕ) : EReal :=
  prev4 V c r j + ∑ hh : Fin 4, if hh.val < n then tile4 V c r j hh else 0

theorem part4_zero (r : Fin 512) (j : Fin 1000) : part4 V c r j 0 = prev4 V c r j := by
  unfold part4; simp

theorem part4_succ (r : Fin 512) (j : Fin 1000) (hh : Fin 4) :
    part4 V c r j (hh.val + 1) = part4 V c r j hh.val + tile4 V c r j hh := by
  unfold part4
  rw [add_assoc]; congr 1
  rw [Fin.sum_univ_four, Fin.sum_univ_four]
  fin_cases hh <;> simp

theorem part4_four (r : Fin 512) (j : Fin 1000) :
    part4 V c r j 4 = Cert.Spec.proj (prev4 V c) (act4 V c) (wgt4 V c) r j := by
  unfold part4 Cert.Spec.proj
  congr 1
  have h4 : ∀ hh : Fin 4, (if hh.val < 4 then tile4 V c r j hh else 0) = tile4 V c r j hh := fun hh => if_pos hh.isLt
  simp only [h4]
  unfold tile4
  rw [← Equiv.sum_comp (finProdFinEquiv (m := 4) (n := 1024)) (fun h : Fin 4096 => act4 V c r h * wgt4 V c h j), Fintype.sum_prod_type]
  refine Finset.sum_congr rfl fun hh _ => Finset.sum_congr rfl fun k _ => ?_
  have e : finProdFinEquiv (hh, k) = hid4 hh k := Fin.ext (by simp [finProdFinEquiv, hid4]; omega)
  rw [e]

def Inv4 (n : ℕ) (s : S512x512.Idx → EReal) : Prop :=
  n % 4 ≠ 0 → ∀ (r : Fin 512) (q : Fin 512) (hq : n / 4 * 512 + q.val < 1000),
    s (ix2 r q) = part4 V c r ⟨n / 4 * 512 + q.val, hq⟩ (n % 4)

def Phi4 (n : ℕ) : sProp 𝕄 :=
  iprop(iprop(iprop(∃ s : S512x512.Idx → EReal, ⌜Inv4 V c n s⌝ ∗ owns (c : Thread nD τ) (Memref.whole cc4_scratch0) fullShare s)
    ∗ Pipeline.scopedRestBut (Ix := Unit) (Name := ℕ) (U := U) (Lvl := ℕ) (Val := Elt Ideal) spec4 c [cc4_scratch0])
    ∗ (∃ r, prngReg c r))

def out4 (t : Fin cfg4.N) : S512x512.Idx → EReal := fun j =>
  if h : t.val / 4 * 512 + (j 1).val < 1000 then part4 V c ⟨(j 0).val, idx2_lt0 j⟩ ⟨t.val / 4 * 512 + (j 1).val, h⟩ 4 else 0

def vdat4 (c : Dev nD) : Dat τ (Elt Ideal) Unit ℕ U ℕ cfg4 c where
  A w := V c (Pipeline.arrRef spec4 w)
  after w t := match w with
    | ⟨0, _⟩ => ((cfg4.win 0).blk t).view.read (Elt Ideal) (V c (Pipeline.arrRef spec4 0))
    | ⟨1, _⟩ => (cfg4.win 1).fill (grid4.coords t) (fun _ => (0 : EReal)) (((cfg4.win 1).blk t).view.read (Elt Ideal) (V c (Pipeline.arrRef spec4 1)))
    | ⟨2, _⟩ => (cfg4.win 2).fill (grid4.coords t) (fun _ => (0 : EReal)) (((cfg4.win 2).blk t).view.read (Elt Ideal) (V c (Pipeline.arrRef spec4 2)))
    | ⟨3, _⟩ => out4 V c t
  Φ t := Phi4 V c t.val
  q _ := fullShare
  owed _ := 0

theorem vdat4_A (w : Fin cfg4.W) : (vdat4 (U := U) V c).A w = V c (Pipeline.arrRef spec4 w) := by
  dsimp only [vdat4]

theorem vdat4_share (w : Fin cfg4.W) : (vdat4 (U := U) V c).share w = fullShare :=
  (vdat4 (U := U) V c).share_full (fun _ => rfl) w

theorem vdat4_owed (t : Fin (cfg4.N + 1)) : (vdat4 (U := U) V c).owed t = 0 := rfl

theorem vafter4_0 (t : Fin cfg4.N) : (vdat4 (U := U) V c).after 0 t = ((cfg4.win 0).blk t).view.read (Elt Ideal) (V c (Pipeline.arrRef spec4 0)) := by dsimp only [vdat4]
theorem vafter4_1 (t : Fin cfg4.N) : (vdat4 (U := U) V c).after 1 t = (cfg4.win 1).fill (grid4.coords t) (fun _ => (0 : EReal)) (((cfg4.win 1).blk t).view.read (Elt Ideal) (V c (Pipeline.arrRef spec4 1))) := by dsimp only [vdat4]
theorem vafter4_2 (t : Fin cfg4.N) : (vdat4 (U := U) V c).after 2 t = (cfg4.win 2).fill (grid4.coords t) (fun _ => (0 : EReal)) (((cfg4.win 2).blk t).view.read (Elt Ideal) (V c (Pipeline.arrRef spec4 2))) := by dsimp only [vdat4]
theorem vafter4_3 (t : Fin cfg4.N) : (vdat4 (U := U) V c).after 3 t = out4 V c t := by dsimp only [vdat4]

theorem vbefore4_0 (t : Fin cfg4.N) (d) : (vdat4 (U := U) V c).before 0 t d = (vdat4 (U := U) V c).fetched 0 t d :=
  (vdat4 (U := U) V c).before_in_eq_fetched 0 rfl (fun _ => rfl) (fun _ _ _ => rfl)
    (fun t => by rw [vafter4_0]; unfold Dat.blockOf; rw [vdat4_A]; try rfl) t d
theorem vbefore4_1 (t : Fin cfg4.N) (d) : (vdat4 (U := U) V c).before 1 t d = (vdat4 (U := U) V c).fetched 1 t d :=
  (vdat4 (U := U) V c).before_in_eq_fetched 1 rfl (fun _ => rfl)
    (fun t t' h => by
      funext a
      show Pipeline.Clip.of ((cfg4.win 1).index t a) _ _ = Pipeline.Clip.of ((cfg4.win 1).index t' a) _ _
      rw [h])
    (fun t => by rw [vafter4_1, Window.cut_fill]; unfold Dat.blockOf; rw [vdat4_A]) t d
theorem vbefore4_2 (t : Fin cfg4.N) (d) : (vdat4 (U := U) V c).before 2 t d = (vdat4 (U := U) V c).fetched 2 t d :=
  (vdat4 (U := U) V c).before_in_eq_fetched 2 rfl (fun _ => rfl)
    (fun t t' h => by
      funext a
      show Pipeline.Clip.of ((cfg4.win 2).index t a) _ _ = Pipeline.Clip.of ((cfg4.win 2).index t' a) _ _
      rw [h])
    (fun t => by rw [vafter4_2, Window.cut_fill]; unfold Dat.blockOf; rw [vdat4_A]) t d

theorem vidle4_3 : ∀ t : Fin cfg4.N, t.val % 4 ≠ 3 → cfg4.idle 3 (grid4.coords t) = true :=
  (by decide +kernel : ∀ t : Fin grid4.N, t.val % 4 ≠ 3 → idle4 3 (grid4.coords t) = true)
theorem vlive4_3 : ∀ t : Fin cfg4.N, t.val % 4 = 3 → cfg4.idle 3 (grid4.coords t) = false :=
  (by decide +kernel : ∀ t : Fin grid4.N, t.val % 4 = 3 → idle4 3 (grid4.coords t) = false)
theorem vnoflush4_3 (t : Fin cfg4.N) (h : t.val % 4 ≠ 3) : (cfg4.win 3).flush t = false := by
  cases hf : (cfg4.win 3).flush t
  · rfl
  · exact absurd ((flush4_3 t).mp hf) h

theorem vnofetch4_3 : ∀ t : Fin cfg4.N, (cfg4.win 3).fetch t = false :=
  (by decide +kernel : ∀ t : Fin grid4.N, win4_3.fetch t = false)

theorem vbefore4_3 (t : Fin cfg4.N) (d) : (vdat4 (U := U) V c).before 3 t d = d := by
  obtain ⟨n, hn⟩ := t
  induction n with
  | zero => unfold Dat.before; rw [if_neg (by rw [vnofetch4_3]; exact Bool.false_ne_true), if_pos rfl]
  | succ n ih =>
    have hn' : n < cfg4.N := Nat.lt_of_succ_lt hn
    rw [Dat.before_of_pos _ 3 ⟨n + 1, hn⟩ (Nat.succ_ne_zero n) (vnofetch4_3 _)]
    show (if (cfg4.win 3).flush ⟨n, _⟩ = true then d else (vdat4 (U := U) V c).left 3 ⟨n, _⟩ d) = d
    by_cases hf : (cfg4.win 3).flush ⟨n, hn'⟩ = true
    · rw [if_pos hf]
    · rw [if_neg hf]
      have h3 : n % 4 ≠ 3 := fun h => hf ((flush4_3 ⟨n, hn'⟩).mpr h)
      unfold Dat.left
      rw [vidle4_3 ⟨n, hn'⟩ h3]
      exact ih hn'

theorem PhiA4_eq :
    (Pipeline.ΦA spec4 c : sProp 𝕄)
      = iprop(iprop(iprop((∃ d, owns (c : Thread nD τ) (Memref.whole cc4_scratch0) fullShare d))
          ∗ Pipeline.scopedRestBut (Ix := Unit) (Name := ℕ) (U := U) (Lvl := ℕ) (Val := Elt Ideal) spec4 c [cc4_scratch0])
          ∗ (∃ r, prngReg c r)) := by
  unfold Pipeline.ΦA; rw [scopedRest4_split]; simp only [owns_whole]; try rfl

theorem vhin4 : (Pipeline.ΦA spec4 c : sProp 𝕄) ⊢ (vdat4 V c).Φ 0 := by
  rw [PhiA4_eq]
  show _ ⊢ Phi4 V c 0
  unfold Phi4
  iintro ⟨⟨⟨%d, H1⟩, H2⟩, H3⟩
  isplitr [H3]
  · isplitl [H1]
    · iexists d; isplitr; · ipureintro; exact fun h => absurd rfl h
      iexact H1
    iexact H2
  iexact H3

theorem vhout4 : (vdat4 V c).Φ (Fin.last cfg4.N) ⊢ (Pipeline.ΦA spec4 c : sProp 𝕄) := by
  rw [PhiA4_eq]
  show Phi4 V c (Fin.last cfg4.N).val ⊢ _
  unfold Phi4
  iintro ⟨⟨⟨%d, %hd, H1⟩, H2⟩, H3⟩
  isplitr [H3]
  · isplitl [H1]
    · iexists d; iexact H1
    iexact H2
  iexact H3

theorem vcond4_0 : ∀ t : Fin cfg4.N, pc4_0 (grid4.coords t) ↔ t.val % 4 = 0 :=
  (by decide +kernel : ∀ t : Fin grid4.N, pc4_0 (grid4.coords t) ↔ t.val % 4 = 0)
theorem vcond4_1 : ∀ t : Fin cfg4.N, pc4_1 (grid4.coords t) ↔ t.val % 4 = 3 :=
  (by decide +kernel : ∀ t : Fin grid4.N, pc4_1 (grid4.coords t) ↔ t.val % 4 = 3)

theorem vindex4_0 : ∀ t : Fin grid4.N, win4_0.index t 0 = 0 ∧ win4_0.index t 1 = t.val % 4 := by decide +kernel
theorem vindex4_1 : ∀ t : Fin grid4.N, win4_1.index t 0 = t.val % 4 ∧ win4_1.index t 1 = t.val / 4 := by decide +kernel
theorem vindex4_2 : ∀ t : Fin grid4.N, win4_2.index t 0 = 0 ∧ win4_2.index t 1 = t.val / 4 := by decide +kernel
theorem vindex4_3 : ∀ t : Fin grid4.N, win4_3.index t 0 = 0 ∧ win4_3.index t 1 = t.val / 4 := by decide +kernel
theorem vxsize4_0 : ∀ t : Fin grid4.N, win4_0.xsize (grid4.coords t) 0 = 512 ∧ win4_0.xsize (grid4.coords t) 1 = 1024 := by decide +kernel
theorem vxsize4_1 : ∀ t : Fin grid4.N, win4_1.xsize (grid4.coords t) 0 = 1024 ∧ win4_1.xsize (grid4.coords t) 1 = min 512 (1000 - t.val / 4 * 512) := by decide +kernel
theorem vxsize4_2 : ∀ t : Fin grid4.N, win4_2.xsize (grid4.coords t) 0 = 512 ∧ win4_2.xsize (grid4.coords t) 1 = min 512 (1000 - t.val / 4 * 512) := by decide +kernel
theorem vxsize4_3 : ∀ t : Fin grid4.N, win4_3.xsize (grid4.coords t) 0 = 512 ∧ win4_3.xsize (grid4.coords t) 1 = min 512 (1000 - t.val / 4 * 512) := by decide +kernel

theorem vN4 (t : Fin cfg4.N) : t.val < 8 := lt_of_lt_of_eq t.isLt N_4

def hh4 (t : Fin cfg4.N) : Fin 4 := ⟨t.val % 4, Nat.mod_lt _ (by decide)⟩

theorem vfetch4_0_apply (t : Fin cfg4.N) (d) (r : Fin 512) (k : Fin 1024) :
    (vdat4 (U := U) V c).fetched 0 t d (ix2 r k) = act4 V c r (hid4 (hh4 t) k) := by
  have hlt : ∀ a, ((ix2 r k : S512x1024.Idx) a).val < (cfg4.win 0).xsize (grid4.coords t) a := fun a => by
    match a with
    | ⟨0, _⟩ => exact (show r.val < win4_0.xsize (grid4.coords t) 0 from by rw [(vxsize4_0 t).1]; exact r.isLt)
    | ⟨1, _⟩ => exact (show k.val < win4_0.xsize (grid4.coords t) 1 from by rw [(vxsize4_0 t).2]; exact k.isLt)
  have hm : (cfg4.win 0).moved (grid4.coords t) (ix2 r k : S512x1024.Idx) = true := ((cfg4.win 0).moved_iff _ _).mpr hlt
  unfold Dat.fetched Window.fill
  rw [dif_pos hm]
  unfold Dat.blockOf; rw [vdat4_A]
  show (V c main_v24 : S512x4096.Idx → EReal) ((win4_0.rect t).emb _) = _
  unfold act4
  congr 1
  funext a; apply Fin.ext
  rw [Window.rect_emb_val]
  match a with
  | ⟨0, _⟩ => exact (show win4_0.index t 0 * 512 + r.val = r.val from by rw [(vindex4_0 t).1]; omega)
  | ⟨1, _⟩ => exact (show win4_0.index t 1 * 1024 + k.val = t.val % 4 * 1024 + k.val from by rw [(vindex4_0 t).2])

theorem vfetch4_1_apply (t : Fin cfg4.N) (d) (k : Fin 1024) (q : Fin 512) (hq : t.val / 4 * 512 + q.val < 1000) :
    (vdat4 (U := U) V c).fetched 1 t d (ix2 k q) = wgt4 V c (hid4 (hh4 t) k) ⟨t.val / 4 * 512 + q.val, hq⟩ := by
  have hlt : ∀ a, ((ix2 k q : S1024x512.Idx) a).val < (cfg4.win 1).xsize (grid4.coords t) a := fun a => by
    match a with
    | ⟨0, _⟩ => exact (show k.val < win4_1.xsize (grid4.coords t) 0 from by rw [(vxsize4_1 t).1]; exact k.isLt)
    | ⟨1, _⟩ => exact (show q.val < win4_1.xsize (grid4.coords t) 1 from by rw [(vxsize4_1 t).2]; have := q.isLt; omega)
  have hm : (cfg4.win 1).moved (grid4.coords t) (ix2 k q : S1024x512.Idx) = true := ((cfg4.win 1).moved_iff _ _).mpr hlt
  unfold Dat.fetched Window.fill
  rw [dif_pos hm]
  unfold Dat.blockOf; rw [vdat4_A]
  show (V c main_v31 : S4096x1000.Idx → EReal) ((win4_1.rect t).emb _) = _
  unfold wgt4
  congr 1
  funext a; apply Fin.ext
  rw [Window.rect_emb_val]
  match a with
  | ⟨0, _⟩ => exact (show win4_1.index t 0 * 1024 + k.val = t.val % 4 * 1024 + k.val from by rw [(vindex4_1 t).1])
  | ⟨1, _⟩ => exact (show win4_1.index t 1 * 512 + q.val = t.val / 4 * 512 + q.val from by rw [(vindex4_1 t).2])

theorem vfetch4_2_apply (t : Fin cfg4.N) (d) (r : Fin 512) (q : Fin 512) (hq : t.val / 4 * 512 + q.val < 1000) :
    (vdat4 (U := U) V c).fetched 2 t d (ix2 r q) = prev4 V c r ⟨t.val / 4 * 512 + q.val, hq⟩ := by
  have hlt : ∀ a, ((ix2 r q : S512x512.Idx) a).val < (cfg4.win 2).xsize (grid4.coords t) a := fun a => by
    match a with
    | ⟨0, _⟩ => exact (show r.val < win4_2.xsize (grid4.coords t) 0 from by rw [(vxsize4_2 t).1]; exact r.isLt)
    | ⟨1, _⟩ => exact (show q.val < win4_2.xsize (grid4.coords t) 1 from by rw [(vxsize4_2 t).2]; have := q.isLt; omega)
  have hm : (cfg4.win 2).moved (grid4.coords t) (ix2 r q : S512x512.Idx) = true := ((cfg4.win 2).moved_iff _ _).mpr hlt
  unfold Dat.fetched Window.fill
  rw [dif_pos hm]
  unfold Dat.blockOf; rw [vdat4_A]
  show (V c main_v29 : S512x1000.Idx → EReal) ((win4_2.rect t).emb _) = _
  unfold prev4
  congr 1
  funext a; apply Fin.ext
  rw [Window.rect_emb_val]
  match a with
  | ⟨0, _⟩ => exact (show win4_2.index t 0 * 512 + r.val = r.val from by rw [(vindex4_2 t).1]; omega)
  | ⟨1, _⟩ => exact (show win4_2.index t 1 * 512 + q.val = t.val / 4 * 512 + q.val from by rw [(vindex4_2 t).2])

theorem vkeep4_0 (t : Fin cfg4.N) (d) : (vdat4 (U := U) V c).after 0 t = (vdat4 (U := U) V c).fetched 0 t d := by
  rw [vafter4_0]; unfold Dat.fetched Dat.blockOf; rw [vdat4_A]; try rfl

theorem vafter4_0_apply (t : Fin cfg4.N) (r : Fin 512) (k : Fin 1024) :
    (vdat4 (U := U) V c).after 0 t (ix2 r k) = act4 V c r (hid4 (hh4 t) k) := by
  rw [vkeep4_0 V c t ((vdat4 (U := U) V c).after 0 t)]; exact vfetch4_0_apply V c t _ r k

theorem part4_congr (r : Fin 512) {j j' : Fin 1000} (h : j.val = j'.val) {n n' : ℕ} (hn : n = n') :
    part4 V c r j n = part4 V c r j' n' := by subst hn; rw [Fin.ext h]

theorem vstep4 (t : Fin cfg4.N) (d1) (s0 : S512x512.Idx → EReal) (r q : Fin 512) (hq : t.val / 4 * 512 + q.val < 1000)
    (hs0 : s0 (ix2 r q) = part4 V c r ⟨t.val / 4 * 512 + q.val, hq⟩ (t.val % 4)) :
    k4_pay2 ((vdat4 (U := U) V c).fetched 1 t d1) s0 ((vdat4 (U := U) V c).after 0 t) (ix2 r q)
      = part4 V c r ⟨t.val / 4 * 512 + q.val, hq⟩ (t.val % 4 + 1) := by
  rw [vpayP4_2_apply, hs0]
  have hsucc := part4_succ V c r ⟨t.val / 4 * 512 + q.val, hq⟩ (hh4 t)
  rw [show (hh4 t).val = t.val % 4 from rfl] at hsucc
  rw [hsucc]; congr 1
  unfold tile4
  refine Finset.sum_congr rfl fun k _ => ?_
  rw [vafter4_0_apply, vfetch4_1_apply V c t d1 k q hq]

theorem vinv4_next (t : Fin cfg4.N) (acc : S512x512.Idx → EReal)
    (h : ∀ (r q : Fin 512) (hq : t.val / 4 * 512 + q.val < 1000), acc (ix2 r q) = part4 V c r ⟨t.val / 4 * 512 + q.val, hq⟩ (t.val % 4 + 1)) :
    Inv4 V c (t.val + 1) acc := by
  intro hne r q hq
  have h1 : (t.val + 1) / 4 = t.val / 4 := by omega
  have h2 : (t.val + 1) % 4 = t.val % 4 + 1 := by omega
  have hq' : t.val / 4 * 512 + q.val < 1000 := by rw [← h1]; exact hq
  rw [h r q hq']
  exact part4_congr V c r (by show t.val / 4 * 512 + q.val = (t.val + 1) / 4 * 512 + q.val; rw [h1]) h2.symm

theorem vout4_cut (t : Fin cfg4.N) (h3 : t.val % 4 = 3) (acc : S512x512.Idx → EReal)
    (h : ∀ (r q : Fin 512) (hq : t.val / 4 * 512 + q.val < 1000), acc (ix2 r q) = part4 V c r ⟨t.val / 4 * 512 + q.val, hq⟩ (t.val % 4 + 1)) :
    (cfg4.win 3).cut (grid4.coords t) acc = (cfg4.win 3).cut (grid4.coords t) (out4 V c t) := by
  funext y
  show acc ((cfg4.win 3).xinj (grid4.coords t) y) = out4 V c t ((cfg4.win 3).xinj (grid4.coords t) y)
  have hy1 : (y 1).val < win4_3.xsize (grid4.coords t) 1 := (y 1).isLt
  rw [(vxsize4_3 t).2] at hy1
  have hy0 : (y 0).val < win4_3.xsize (grid4.coords t) 0 := (y 0).isLt
  rw [(vxsize4_3 t).1] at hy0
  have hq : t.val / 4 * 512 + (y 1).val < 1000 := by omega
  have hq512 : (y 1).val < 512 := by omega
  have e : (cfg4.win 3).xinj (grid4.coords t) y = (ix2 (⟨(y 0).val, hy0⟩ : Fin 512) (⟨(y 1).val, hq512⟩ : Fin 512) : S512x512.Idx) := by
    funext a; apply Fin.ext
    match a with
    | ⟨0, _⟩ => rfl
    | ⟨1, _⟩ => rfl
  rw [e, h _ _ hq]
  unfold out4
  rw [dif_pos (show t.val / 4 * 512 + ((ix2 (⟨(y 0).val, hy0⟩ : Fin 512) (⟨(y 1).val, hq512⟩ : Fin 512) : S512x512.Idx) 1).val < 1000 from hq)]
  exact part4_congr V c _ rfl (by omega)

abbrev vms4_0 (t : Fin cfg4.N) : Memref sig .tc .vmem S512x1024 .bf16 := win4_0.stage (cfg4.slots t 0)
abbrev vhs4_0 (t : Fin cfg4.N) : (vms4_0 t).IsWhole := hstage4_0 ((cfg4.slots t 0).cast nbuf4_0)
abbrev vms4_1 (t : Fin cfg4.N) : Memref sig .tc .vmem S1024x512 .f32 := win4_1.stage (cfg4.slots t 1)
abbrev vhs4_1 (t : Fin cfg4.N) : (vms4_1 t).IsWhole := hstage4_1 ((cfg4.slots t 1).cast nbuf4_1)
abbrev vms4_2 (t : Fin cfg4.N) : Memref sig .tc .vmem S512x512 .f32 := win4_2.stage (cfg4.slots t 2)
abbrev vhs4_2 (t : Fin cfg4.N) : (vms4_2 t).IsWhole := hstage4_2 ((cfg4.slots t 2).cast nbuf4_2)
abbrev vms4_3 (t : Fin cfg4.N) : Memref sig .tc .vmem S512x512 .f32 := win4_3.stage (cfg4.slots t 3)
abbrev vhs4_3 (t : Fin cfg4.N) : (vms4_3 t).IsWhole := hstage4_3 ((cfg4.slots t 3).cast nbuf4_3)

theorem vleaves4_0 (t : Fin cfg4.N) :
    (vdat4 (U := U) V c).leaves 0 t = owns (c : Thread nD τ) (vms4_0 t) fullShare ((vdat4 (U := U) V c).after 0 t) := by
  unfold Dat.leaves; rfl
theorem vleaves4_1 (t : Fin cfg4.N) :
    (vdat4 (U := U) V c).leaves 1 t = iprop(∃ d, owns (c : Thread nD τ) (vms4_1 t) fullShare ((vdat4 (U := U) V c).fetched 1 t d)) := by
  have hk : (cfg4.win 1).cut (grid4.coords t) ((vdat4 (U := U) V c).after 1 t) = (vdat4 (U := U) V c).blockOf 1 t := by
    rw [vafter4_1, Window.cut_fill]; unfold Dat.blockOf; rw [vdat4_A]
  unfold Dat.leaves Dat.fetched; rw [← hk]; try rfl
theorem vleaves4_2 (t : Fin cfg4.N) :
    (vdat4 (U := U) V c).leaves 2 t = iprop(∃ d, owns (c : Thread nD τ) (vms4_2 t) fullShare ((vdat4 (U := U) V c).fetched 2 t d)) := by
  have hk : (cfg4.win 2).cut (grid4.coords t) ((vdat4 (U := U) V c).after 2 t) = (vdat4 (U := U) V c).blockOf 2 t := by
    rw [vafter4_2, Window.cut_fill]; unfold Dat.blockOf; rw [vdat4_A]
  unfold Dat.leaves Dat.fetched; rw [← hk]; try rfl
theorem vleaves4_3_idle (t : Fin cfg4.N) (h3 : t.val % 4 ≠ 3) :
    (vdat4 (U := U) V c).leaves 3 t = iprop(∃ d, owns (c : Thread nD τ) (vms4_3 t) fullShare d) := by
  rw [Dat.leaves_idle _ 3 t (vidle4_3 t h3) (vnoflush4_3 t h3)]
  simp only [vbefore4_3]; rfl
theorem vleaves4_3_live (t : Fin cfg4.N) (h3 : t.val % 4 = 3) :
    (vdat4 (U := U) V c).leaves 3 t = iprop(∃ d, owns (c : Thread nD τ) (vms4_3 t) fullShare
      ((cfg4.win 3).fill (grid4.coords t) d ((cfg4.win 3).cut (grid4.coords t) (out4 V c t)))) := by
  unfold Dat.leaves; rw [vlive4_3 t h3, vafter4_3]; rfl

set_option maxHeartbeats 1600000 in
theorem vsound4 (t : Fin cfg4.N) :
    iprop((vdat4 (U := U) V c).Φ t.castSucc ∗ (vdat4 (U := U) V c).owesAt () t.castSucc
        ∗ (∃ d, owns (c : Thread nD τ) (vms4_0 t) fullShare ((vdat4 (U := U) V c).before 0 t d))
        ∗ (∃ d, owns (c : Thread nD τ) (vms4_1 t) fullShare ((vdat4 (U := U) V c).before 1 t d))
        ∗ (∃ d, owns (c : Thread nD τ) (vms4_2 t) fullShare ((vdat4 (U := U) V c).before 2 t d))
        ∗ (∃ d, owns (c : Thread nD τ) (vms4_3 t) fullShare ((vdat4 (U := U) V c).before 3 t d)))
      ⊢ wp frame (wpE (defs₀ (F := Ideal)) Variants.none c none) Set.univ (bodyAt4 t) (fun _ =>
          iprop((vdat4 (U := U) V c).Φ t.succ ∗ (vdat4 (U := U) V c).owesAt () t.succ
            ∗ (vdat4 (U := U) V c).leaves 0 t ∗ (vdat4 (U := U) V c).leaves 1 t
            ∗ (vdat4 (U := U) V c).leaves 2 t ∗ (vdat4 (U := U) V c).leaves 3 t)) := by
  simp only [vbefore4_0, vbefore4_1, vbefore4_2, vbefore4_3]
  simp only [← vkeep4_0 V c t]
  rw [show (vdat4 (U := U) V c).owesAt () t.succ = (vdat4 (U := U) V c).owesAt () t.castSucc from rfl]
  rw [show (vdat4 (U := U) V c).Φ t.castSucc = Phi4 V c t.val from rfl, show (vdat4 (U := U) V c).Φ t.succ = Phi4 V c (t.val + 1) from rfl]
  rw [vleaves4_0, vleaves4_1, vleaves4_2]
  unfold Phi4 bodyAt4
  have hN := vN4 t
  by_cases h0 : t.val % 4 = 0
  · have h3 : t.val % 4 ≠ 3 := by omega
    rw [vleaves4_3_idle V c t h3]
    iintro ⟨⟨⟨⟨%s, %hs, HS⟩, HR⟩, Hg⟩, Ho, ⟨%d0, H0⟩, ⟨%d1, H1⟩, ⟨%d2, H2⟩, ⟨%d3, H3⟩⟩
    iapply (pbody4_A c (grid4.coords t) _ (vhs4_0 t) _ (vhs4_1 t) _ (vhs4_2 t) _ (vhs4_3 t) _ (Memref.isWhole_whole _) ((vcond4_0 t).mpr h0) (fun h => h3 ((vcond4_1 t).mp h)) _ _ _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitr [Hg]
      · isplitr [HR]
        · iexists _; isplitr
          swap; · iexact HS
          ipureintro
          exact vinv4_next V c t _ fun r q hq => vstep4 V c t d1 _ r q hq (by rw [vpayP4_1_apply, vfetch4_2_apply V c t d2 r q hq, h0, part4_zero])
        iexact HR
      iexact Hg
    isplitl [Ho]; · iexact Ho
    isplitl [H0]; · iexact H0
    isplitl [H1]; · iexists d1; iexact H1
    isplitl [H2]; · iexists d2; iexact H2
    iexists d3; iexact H3
  · by_cases h3 : t.val % 4 = 3
    · rw [vleaves4_3_live V c t h3]
      iintro ⟨⟨⟨⟨%s, %hs, HS⟩, HR⟩, Hg⟩, Ho, ⟨%d0, H0⟩, ⟨%d1, H1⟩, ⟨%d2, H2⟩, ⟨%d3, H3⟩⟩
      have hacc : ∀ (r q : Fin 512) (hq : t.val / 4 * 512 + q.val < 1000),
          k4_pay2 ((vdat4 (U := U) V c).fetched 1 t d1) s ((vdat4 (U := U) V c).after 0 t) (ix2 r q)
            = part4 V c r ⟨t.val / 4 * 512 + q.val, hq⟩ (t.val % 4 + 1) :=
        fun r q hq => vstep4 V c t d1 s r q hq (hs h0 r q hq)
      have hfill := (cfg4.win 3).fill_congr_cut (grid4.coords t) (vout4_cut V c t h3 _ hacc)
      iapply (pbody4_C c (grid4.coords t) _ (vhs4_0 t) _ (vhs4_1 t) _ (vhs4_2 t) _ (vhs4_3 t) _ (Memref.isWhole_whole _) (fun h => h0 ((vcond4_0 t).mp h)) ((vcond4_1 t).mpr h3) _ _ _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitr [HR]
          · iexists _; isplitr
            swap; · iexact HS
            ipureintro
            exact fun hne => absurd (show (t.val + 1) % 4 = 0 by omega) hne
          iexact HR
        iexact Hg
      isplitl [Ho]; · iexact Ho
      isplitl [H0]; · iexact H0
      isplitl [H1]; · iexists d1; iexact H1
      isplitl [H2]; · iexists d2; iexact H2
      iexists k4_pay2 ((vdat4 (U := U) V c).fetched 1 t d1) s ((vdat4 (U := U) V c).after 0 t)
      rw [hfill]; iexact H3
    · rw [vleaves4_3_idle V c t h3]
      iintro ⟨⟨⟨⟨%s, %hs, HS⟩, HR⟩, Hg⟩, Ho, ⟨%d0, H0⟩, ⟨%d1, H1⟩, ⟨%d2, H2⟩, ⟨%d3, H3⟩⟩
      iapply (pbody4_B c (grid4.coords t) _ (vhs4_0 t) _ (vhs4_1 t) _ (vhs4_2 t) _ (vhs4_3 t) _ (Memref.isWhole_whole _) (fun h => h0 ((vcond4_0 t).mp h)) (fun h => h3 ((vcond4_1 t).mp h)) _ _ _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitr [HR]
          · iexists _; isplitr
            swap; · iexact HS
            ipureintro
            exact vinv4_next V c t _ fun r q hq => vstep4 V c t d1 s r q hq (hs h0 r q hq)
          iexact HR
        iexact Hg
      isplitl [Ho]; · iexact Ho
      isplitl [H0]; · iexact H0
      isplitl [H1]; · iexists d1; iexact H1
      isplitl [H2]; · iexists d2; iexact H2
      iexists d3; iexact H3

theorem vbody4 : BodyObligationLoose (vdat4 (U := U) V c) (defs₀ (F := Ideal)) Variants.none () Set.univ := fun t => by
  rw [bigSep_W4, bigSep_W4]
  exact vsound4 V c t

theorem part4_congr2 {r r' : Fin 512} (hr : r.val = r'.val) {j j' : Fin 1000} (h : j.val = j'.val) (n : ℕ) :
    part4 V c r j n = part4 V c r' j' n := by rw [Fin.ext hr, Fin.ext h]

def G4 : S512x1000.Idx → EReal := fun i => part4 V c ⟨(i 0).val, idx2_lt0 i⟩ ⟨(i 1).val, idx2_lt1 i⟩ 4

theorem vmem4_blk (t : Fin cfg4.N) (i : S512x1000.Idx) :
    i ∈ ((cfg4.win 3).blk t).view.set ↔ t.val / 4 * 512 ≤ (i 1).val ∧ (i 1).val < t.val / 4 * 512 + min 512 (1000 - t.val / 4 * 512) := by
  have hi0 : (i 0).val < 512 := idx2_lt0 i
  show i ∈ ((View.whole main_v32).slice (win4_3.rect t)).set ↔ _
  rw [View.set_slice_whole, Rect.mem_set_unit]
  constructor
  · intro h
    have h1 : win4_3.index t 1 * 512 ≤ (i 1).val ∧ (i 1).val < win4_3.index t 1 * 512 + win4_3.xsize (grid4.coords t) 1 := h 1
    rw [(vindex4_3 t).2, (vxsize4_3 t).2] at h1
    exact h1
  · intro h a
    match a with
    | ⟨0, _⟩ =>
      show win4_3.index t 0 * 512 ≤ (i 0).val ∧ (i 0).val < win4_3.index t 0 * 512 + win4_3.xsize (grid4.coords t) 0
      rw [(vindex4_3 t).1, (vxsize4_3 t).1, Nat.zero_mul, Nat.zero_add]; exact ⟨Nat.zero_le _, hi0⟩
    | ⟨1, _⟩ =>
      show win4_3.index t 1 * 512 ≤ (i 1).val ∧ (i 1).val < win4_3.index t 1 * 512 + win4_3.xsize (grid4.coords t) 1
      rw [(vindex4_3 t).2, (vxsize4_3 t).2]; exact h

theorem vflushed4 (t : Fin cfg4.N) :
    (vdat4 (U := U) V c).flushed 3 t = ((cfg4.win 3).blk t).view.read (Elt Ideal) (G4 V c) := by
  funext y
  show (vdat4 (U := U) V c).after 3 t ((cfg4.win 3).xinj (grid4.coords t) y) = G4 V c ((win4_3.rect t).emb y)
  rw [vafter4_3]
  have hy1 : (y 1).val < win4_3.xsize (grid4.coords t) 1 := (y 1).isLt
  rw [(vxsize4_3 t).2] at hy1
  have e0 : ((win4_3.rect t).emb y 0).val = (y 0).val := by
    rw [Window.rect_emb_val]
    show win4_3.index t 0 * 512 + (y 0).val = (y 0).val
    rw [(vindex4_3 t).1]; omega
  have e1 : ((win4_3.rect t).emb y 1).val = t.val / 4 * 512 + (y 1).val := by
    rw [Window.rect_emb_val]
    show win4_3.index t 1 * 512 + (y 1).val = t.val / 4 * 512 + (y 1).val
    rw [(vindex4_3 t).2]
  have hq : t.val / 4 * 512 + (y 1).val < 1000 := by omega
  unfold out4 G4
  rw [dif_pos (show t.val / 4 * 512 + (((cfg4.win 3).xinj (grid4.coords t) y) 1).val < 1000 from hq)]
  exact part4_congr2 V c e0.symm e1.symm 4

theorem vcover4 (i : S512x1000.Idx) : ∃ t : Fin cfg4.N, (cfg4.win 3).flush t = true ∧ i ∈ ((cfg4.win 3).blk t).view.set := by
  have hi := idx2_lt1 i
  by_cases h : (i 1).val < 512
  · refine ⟨t4_3, (flush4_3 t4_3).mpr rfl, (vmem4_blk t4_3 i).mpr ?_⟩
    show 3 / 4 * 512 ≤ (i 1).val ∧ (i 1).val < 3 / 4 * 512 + min 512 (1000 - 3 / 4 * 512)
    omega
  · refine ⟨t4_7, (flush4_3 t4_7).mpr rfl, (vmem4_blk t4_7 i).mpr ?_⟩
    show 7 / 4 * 512 ≤ (i 1).val ∧ (i 1).val < 7 / 4 * 512 + min 512 (1000 - 7 / 4 * 512)
    omega

theorem varr4 : (vdat4 (U := U) V c).arrAt 3 cfg4.N = G4 V c :=
  (vdat4 (U := U) V c).arrAt_eq_of_cover 3 (G4 V c) (fun t _ => vflushed4 V c t) (vcover4)

theorem vfinal4 (b : Fin 512) (j : Fin 1000) :
    ((vdat4 (U := U) V c).arrAt 3 cfg4.N : S512x1000.Idx → EReal) (ix2 b j)
      = Cert.Spec.proj (fun b j => (V c main_v29 : S512x1000.Idx → EReal) (ix2 b j))
          (fun b h => (V c main_v24 : S512x4096.Idx → EReal) (ix2 b h))
          (fun h j => (V c main_v31 : S4096x1000.Idx → EReal) (ix2 h j)) b j := by
  rw [varr4]
  exact part4_four V c b j

end Cert.KernelIdeal.Hand
end
-- ==== Proof.KI.ValP5.lean ====
import proofs.«409727_j78632261255731_3_alg».proof.Proof.Gen.KernelIdeal.Launch
import proofs.«409727_j78632261255731_3_alg».proof.Proof.Gen.KernelIdeal.Skeleton
import proofs.«409727_j78632261255731_3_alg».proof.Proof.Gen.KernelIdeal.Points
import proofs.«409727_j78632261255731_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx
variable {U : Type} [URA U]
local notation "𝕄" => MT nD τ sig Unit (Elt Ideal) ℕ U ℕ

abbrev pc5_0 (i : grid5.Coords) : Prop := (Scalar.cmpi .ne (Scalar.extui (Scalar.cmpi .eq (BitVec.ofNat 32 (i 1).val) 0#32)) 0#32) = 1#1
abbrev pc5_1 (i : grid5.Coords) : Prop := k5_cond2 i = 1#1

theorem read_writes_unit_zero5 {sg : RefSig} {κ : Kind} {sp : Space} {S : Shape} {e : EltTy} (v : View sg κ sp S e) (f : v.ty.Contents (Elt Ideal))
    {off : Fin S.rank → Nat} (h : off = fun _ => 0) (inb : ∀ a, off a + S.size a ≤ S.size a) (w : S.Idx → Elt Ideal e)
    (L : List (View.Piece (Elt Ideal) S e)) :
    v.read (Elt Ideal) (v.writes (Elt Ideal) f ((⟨Rect.unit off S.size inb, w⟩ : View.Piece (Elt Ideal) S e) :: L)) = w := by
  rw [View.read_writes_eq_canon v f _ (fun y => ⟨_, List.mem_cons_self, View.mem_set_unit_zero h inb y⟩), View.canon_cons_unit_zero h]

section
variable (c : Dev nD) (i : grid5.Coords) (arg2 : Memref sig .tc .vmem S512x1024 .bf16) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole)

theorem pbody5_A (hc0 : pc5_0 i) (hc1 : ¬pc5_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k5_pay2 x3 (k5_pay1 x4) x2)) -∗ K ⟨⟩))
      ⊢ wp frame (wpE (defs₀ (F := Ideal)) Variants.none c none) E (cc5__proj_kernel i arg2 harg2 arg3 harg3 arg4 harg4 arg5 harg5 arg6 harg6) K := by
  have hz : (![0, 0] : Fin 2 → Nat) = fun _ => 0 := funext fun a => by fin_cases a <;> rfl
  simp only [cc5__proj_kernel_eq_skeleton]; unfold cc5__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  · iexists _; isplitr
    swap; · iexact H6
    ipureintro
    sl_unfold_words
    rw [read_writes_unit_zero5 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [View.readCov_unit_zero _ hz, e2, e3, e4]

theorem pbody5_B (hc0 : ¬pc5_0 i) (hc1 : ¬pc5_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k5_pay2 x3 x6 x2)) -∗ K ⟨⟩))
      ⊢ wp frame (wpE (defs₀ (F := Ideal)) Variants.none c none) E (cc5__proj_kernel i arg2 harg2 arg3 harg3 arg4 harg4 arg5 harg5 arg6 harg6) K := by
  have hz : (![0, 0] : Fin 2 → Nat) = fun _ => 0 := funext fun a => by fin_cases a <;> rfl
  simp only [cc5__proj_kernel_eq_skeleton]; unfold cc5__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  · iexists _; isplitr
    swap; · iexact H6
    ipureintro
    sl_unfold_words
    rw [read_writes_unit_zero5 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [e2, e3, e6]

theorem pbody5_C (hc0 : ¬pc5_0 i) (hc1 : pc5_1 i)
    (x2 : Vec Ideal S512x1024 .bf16) (x3 : Vec Ideal S1024x512 .f32) (x4 x5 x6 : Vec Ideal S512x512 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare (k5_pay2 x3 x6 x2) ∗ owns (c : Thread nD τ) arg6 fullShare (k5_pay2 x3 x6 x2)) -∗ K ⟨⟩))
      ⊢ wp frame (wpE (defs₀ (F := Ideal)) Variants.none c none) E (cc5__proj_kernel i arg2 harg2 arg3 harg3 arg4 harg4 arg5 harg5 arg6 harg6) K := by
  have hz : (![0, 0] : Fin 2 → Nat) = fun _ => 0 := funext fun a => by fin_cases a <;> rfl
  simp only [cc5__proj_kernel_eq_skeleton]; unfold cc5__proj_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [read_writes_unit_zero5 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [View.readCov_unit_zero _ hz, e2, e3, e6]
  · iexists _; isplitr
    swap; · iexact H6
    ipureintro
    sl_unfold_words
    rw [read_writes_unit_zero5 _ _ hz]
    have e2 : View.readAt (Elt Ideal) arg2.view (Rect.unit ![0, 0] S512x1024.size inb_S512x1024_S512x1024_0_0).toLoadRect (harg2.unread x2) = x2 :=
      (View.readAt_eq_ld _ _ _).trans (by rw [harg2.read_unread, View.ld_unit_zero hz])
    have e3 : View.readAt (Elt Ideal) arg3.view (Rect.unit ![0, 0] S1024x512.size inb_S1024x512_S1024x512_0_0).toLoadRect (harg3.unread x3) = x3 :=
      (View.readAt_eq_ld _ _ _).trans (by rw [harg3.read_unread, View.ld_unit_zero hz])
    have e4 : View.readAt (Elt Ideal) arg4.view (Rect.unit ![0, 0] S512x512.size inb_S512x512_S512x512_0_0).toLoadRect (harg4.unread x4) = x4 :=
      (View.readAt_eq_ld _ _ _).trans (by rw [harg4.read_unread, View.ld_unit_zero hz])
    have e6 : View.readAt (Elt Ideal) arg6.view (Rect.unit ![0, 0] S512x512.size inb_S512x512_S512x512_0_0).toLoadRect (harg6.unread x6) = x6 :=
      (View.readAt_eq_ld _ _ _).trans (by rw [harg6.read_unread, View.ld_unit_zero hz])
    rw [e2, e3, e6]
end

theorem plhs5_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem plhs5_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem prhs5_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem prhs5_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem vpayP5_2_apply (x3 : Vec Ideal S1024x512 .f32) (s0 : Vec Ideal S512x512 .f32) (x2 : Vec Ideal S512x1024 .bf16)
    (r : Fin 512) (q : Fin 512) :
    k5_pay2 x3 s0 x2 (ix2 r q) = s0 (ix2 r q) + ∑ k : Fin 1024, x2 (ix2 r k) * x3 (ix2 k q) := by
  unfold k5_pay2
  simp only [shapeCast_self]
  rw [addf_apply]
  congr 1
  refine (Ideal.matmul_constant_zero_apply dot_S512x1024_S1024x512_S512x512_1_0_0_1_n_n none x2 (truncf .bf16 x3 bitsLt_bf16_f32) (ix2 r q)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r q) ((contrEquiv1 dot_S512x1024_S1024x512_S512x512_1_0_0_1_n_n 1024 rfl rfl).symm k) = (ix2 r k : S512x1024.Idx) := funext fun a => Fin.ext (by
    match a with
    | ⟨0, _⟩ => exact plhs5_0 _ _
    | ⟨1, _⟩ => exact (plhs5_1 _ _).trans hk)
  have er : dot_S512x1024_S1024x512_S512x512_1_0_0_1_n_n.rhsIdx (ix2 r q) ((contrEquiv1 dot_S512x1024_S1024x512_S512x512_1_0_0_1_n_n 1024 rfl rfl).symm k) = (ix2 k q : S1024x512.Idx) := funext fun a => Fin.ext (by
    match a with
    | ⟨0, _⟩ => exact (prhs5_0 _ _).trans hk
    | ⟨1, _⟩ => exact prhs5_1 _ _)
  rw [el, er]
  rfl

theorem vpayP5_1_apply (x4 : Vec Ideal S512x512 .f32) : k5_pay1 x4 = x4 := by
  unfold k5_pay1; simp only [shapeCast_self]

variable (V : (c : Dev nD) → (b : Ref sig .tc) → Buf (Elt Ideal) ((c : Thread nD τ).loc b)) (c : Dev nD)

def act5 (b : Fin 512) (h : Fin 4096) : EReal := (V c main_v25 : S512x4096.Idx → EReal) (ix2 b h)
def wgt5 (h : Fin 4096) (j : Fin 1000) : EReal := (V c main_v34 : S4096x1000.Idx → EReal) (ix2 h j)
def prev5 (b : Fin 512) (j : Fin 1000) : EReal := (V c main_v32 : S512x1000.Idx → EReal) (ix2 b j)

def hid5 (hh : Fin 4) (k : Fin 1024) : Fin 4096 := ⟨hh.val * 1024 + k.val, by have := hh.isLt; have := k.isLt; omega⟩

def tile5 (r : Fin 512) (j : Fin 1000) (hh : Fin 4) : EReal :=
  ∑ k : Fin 1024, act5 V c r (hid5 hh k) * wgt5 V c (hid5 hh k) j

def part5 (r : Fin 512) (j : Fin 1000) (n : ℕ) : EReal :=
  prev5 V c r j + ∑ hh : Fin 4, if hh.val < n then tile5 V c r j hh else 0

theorem part5_zero (r : Fin 512) (j : Fin 1000) : part5 V c r j 0 = prev5 V c r j := by
  unfold part5; simp

theorem part5_succ (r : Fin 512) (j : Fin 1000) (hh : Fin 4) :
    part5 V c r j (hh.val + 1) = part5 V c r j hh.val + tile5 V c r j hh := by
  unfold part5
  rw [add_assoc]; congr 1
  rw [Fin.sum_univ_four, Fin.sum_univ_four]
  fin_cases hh <;> simp

theorem part5_four (r : Fin 512) (j : Fin 1000) :
    part5 V c r j 4 = Cert.Spec.proj (prev5 V c) (act5 V c) (wgt5 V c) r j := by
  unfold part5 Cert.Spec.proj
  congr 1
  have h4 : ∀ hh : Fin 4, (if hh.val < 4 then tile5 V c r j hh else 0) = tile5 V c r j hh := fun hh => if_pos hh.isLt
  simp only [h4]
  unfold tile5
  rw [← Equiv.sum_comp (finProdFinEquiv (m := 4) (n := 1024)) (fun h : Fin 4096 => act5 V c r h * wgt5 V c h j), Fintype.sum_prod_type]
  refine Finset.sum_congr rfl fun hh _ => Finset.sum_congr rfl fun k _ => ?_
  have e : finProdFinEquiv (hh, k) = hid5 hh k := Fin.ext (by simp [finProdFinEquiv, hid5]; omega)
  rw [e]

def Inv5 (n : ℕ) (s : S512x512.Idx → EReal) : Prop :=
  n % 4 ≠ 0 → ∀ (r : Fin 512) (q : Fin 512) (hq : n / 4 * 512 + q.val < 1000),
    s (ix2 r q) = part5 V c r ⟨n / 4 * 512 + q.val, hq⟩ (n % 4)

def Phi5 (n : ℕ) : sProp 𝕄 :=
  iprop(iprop(iprop(∃ s : S512x512.Idx → EReal, ⌜Inv5 V c n s⌝ ∗ owns (c : Thread nD τ) (Memref.whole cc5_scratch0) fullShare s)
    ∗ Pipeline.scopedRestBut (Ix := Unit) (Name := ℕ) (U := U) (Lvl := ℕ) (Val := Elt Ideal) spec5 c [cc5_scratch0])
    ∗ (∃ r, prngReg c r))

def out5 (t : Fin cfg5.N) : S512x512.Idx → EReal := fun j =>
  if h : t.val / 4 * 512 + (j 1).val < 1000 then part5 V c ⟨(j 0).val, idx2_lt0 j⟩ ⟨t.val / 4 * 512 + (j 1).val, h⟩ 4 else 0

def vdat5 (c : Dev nD) : Dat τ (Elt Ideal) Unit ℕ U ℕ cfg5 c where
  A w := V c (Pipeline.arrRef spec5 w)
  after w t := match w with
    | ⟨0, _⟩ => ((cfg5.win 0).blk t).view.read (Elt Ideal) (V c (Pipeline.arrRef spec5 0))
    | ⟨1, _⟩ => (cfg5.win 1).fill (grid5.coords t) (fun _ => (0 : EReal)) (((cfg5.win 1).blk t).view.read (Elt Ideal) (V c (Pipeline.arrRef spec5 1)))
    | ⟨2, _⟩ => (cfg5.win 2).fill (grid5.coords t) (fun _ => (0 : EReal)) (((cfg5.win 2).blk t).view.read (Elt Ideal) (V c (Pipeline.arrRef spec5 2)))
    | ⟨3, _⟩ => out5 V c t
  Φ t := Phi5 V c t.val
  q _ := fullShare
  owed _ := 0

theorem vdat5_A (w : Fin cfg5.W) : (vdat5 (U := U) V c).A w = V c (Pipeline.arrRef spec5 w) := by
  dsimp only [vdat5]

theorem vdat5_share (w : Fin cfg5.W) : (vdat5 (U := U) V c).share w = fullShare :=
  (vdat5 (U := U) V c).share_full (fun _ => rfl) w

theorem vdat5_owed (t : Fin (cfg5.N + 1)) : (vdat5 (U := U) V c).owed t = 0 := rfl

theorem vafter5_0 (t : Fin cfg5.N) : (vdat5 (U := U) V c).after 0 t = ((cfg5.win 0).blk t).view.read (Elt Ideal) (V c (Pipeline.arrRef spec5 0)) := by dsimp only [vdat5]
theorem vafter5_1 (t : Fin cfg5.N) : (vdat5 (U := U) V c).after 1 t = (cfg5.win 1).fill (grid5.coords t) (fun _ => (0 : EReal)) (((cfg5.win 1).blk t).view.read (Elt Ideal) (V c (Pipeline.arrRef spec5 1))) := by dsimp only [vdat5]
theorem vafter5_2 (t : Fin cfg5.N) : (vdat5 (U := U) V c).after 2 t = (cfg5.win 2).fill (grid5.coords t) (fun _ => (0 : EReal)) (((cfg5.win 2).blk t).view.read (Elt Ideal) (V c (Pipeline.arrRef spec5 2))) := by dsimp only [vdat5]
theorem vafter5_3 (t : Fin cfg5.N) : (vdat5 (U := U) V c).after 3 t = out5 V c t := by dsimp only [vdat5]

theorem vbefore5_0 (t : Fin cfg5.N) (d) : (vdat5 (U := U) V c).before 0 t d = (vdat5 (U := U) V c).fetched 0 t d :=
  (vdat5 (U := U) V c).before_in_eq_fetched 0 rfl (fun _ => rfl) (fun _ _ _ => rfl)
    (fun t => by rw [vafter5_0]; unfold Dat.blockOf; rw [vdat5_A]; try rfl) t d
theorem vbefore5_1 (t : Fin cfg5.N) (d) : (vdat5 (U := U) V c).before 1 t d = (vdat5 (U := U) V c).fetched 1 t d :=
  (vdat5 (U := U) V c).before_in_eq_fetched 1 rfl (fun _ => rfl)
    (fun t t' h => by
      funext a
      show Pipeline.Clip.of ((cfg5.win 1).index t a) _ _ = Pipeline.Clip.of ((cfg5.win 1).index t' a) _ _
      rw [h])
    (fun t => by rw [vafter5_1, Window.cut_fill]; unfold Dat.blockOf; rw [vdat5_A]) t d
theorem vbefore5_2 (t : Fin cfg5.N) (d) : (vdat5 (U := U) V c).before 2 t d = (vdat5 (U := U) V c).fetched 2 t d :=
  (vdat5 (U := U) V c).before_in_eq_fetched 2 rfl (fun _ => rfl)
    (fun t t' h => by
      funext a
      show Pipeline.Clip.of ((cfg5.win 2).index t a) _ _ = Pipeline.Clip.of ((cfg5.win 2).index t' a) _ _
      rw [h])
    (fun t => by rw [vafter5_2, Window.cut_fill]; unfold Dat.blockOf; rw [vdat5_A]) t d

theorem vidle5_3 : ∀ t : Fin cfg5.N, t.val % 4 ≠ 3 → cfg5.idle 3 (grid5.coords t) = true :=
  (by decide +kernel : ∀ t : Fin grid5.N, t.val % 4 ≠ 3 → idle5 3 (grid5.coords t) = true)
theorem vlive5_3 : ∀ t : Fin cfg5.N, t.val % 4 = 3 → cfg5.idle 3 (grid5.coords t) = false :=
  (by decide +kernel : ∀ t : Fin grid5.N, t.val % 4 = 3 → idle5 3 (grid5.coords t) = false)
theorem vnoflush5_3 (t : Fin cfg5.N) (h : t.val % 4 ≠ 3) : (cfg5.win 3).flush t = false := by
  cases hf : (cfg5.win 3).flush t
  · rfl
  · exact absurd ((flush5_3 t).mp hf) h

theorem vnofetch5_3 : ∀ t : Fin cfg5.N, (cfg5.win 3).fetch t = false :=
  (by decide +kernel : ∀ t : Fin grid5.N, win5_3.fetch t = false)

theorem vbefore5_3 (t : Fin cfg5.N) (d) : (vdat5 (U := U) V c).before 3 t d = d := by
  obtain ⟨n, hn⟩ := t
  induction n with
  | zero => unfold Dat.before; rw [if_neg (by rw [vnofetch5_3]; exact Bool.false_ne_true), if_pos rfl]
  | succ n ih =>
    have hn' : n < cfg5.N := Nat.lt_of_succ_lt hn
    rw [Dat.before_of_pos _ 3 ⟨n + 1, hn⟩ (Nat.succ_ne_zero n) (vnofetch5_3 _)]
    show (if (cfg5.win 3).flush ⟨n, _⟩ = true then d else (vdat5 (U := U) V c).left 3 ⟨n, _⟩ d) = d
    by_cases hf : (cfg5.win 3).flush ⟨n, hn'⟩ = true
    · rw [if_pos hf]
    · rw [if_neg hf]
      have h3 : n % 4 ≠ 3 := fun h => hf ((flush5_3 ⟨n, hn'⟩).mpr h)
      unfold Dat.left
      rw [vidle5_3 ⟨n, hn'⟩ h3]
      exact ih hn'

theorem PhiA5_eq :
    (Pipeline.ΦA spec5 c : sProp 𝕄)
      = iprop(iprop(iprop((∃ d, owns (c : Thread nD τ) (Memref.whole cc5_scratch0) fullShare d))
          ∗ Pipeline.scopedRestBut (Ix := Unit) (Name := ℕ) (U := U) (Lvl := ℕ) (Val := Elt Ideal) spec5 c [cc5_scratch0])
          ∗ (∃ r, prngReg c r)) := by
  unfold Pipeline.ΦA; rw [scopedRest5_split]; simp only [owns_whole]; try rfl

theorem vhin5 : (Pipeline.ΦA spec5 c : sProp 𝕄) ⊢ (vdat5 V c).Φ 0 := by
  rw [PhiA5_eq]
  show _ ⊢ Phi5 V c 0
  unfold Phi5
  iintro ⟨⟨⟨%d, H1⟩, H2⟩, H3⟩
  isplitr [H3]
  · isplitl [H1]
    · iexists d; isplitr; · ipureintro; exact fun h => absurd rfl h
      iexact H1
    iexact H2
  iexact H3

theorem vhout5 : (vdat5 V c).Φ (Fin.last cfg5.N) ⊢ (Pipeline.ΦA spec5 c : sProp 𝕄) := by
  rw [PhiA5_eq]
  show Phi5 V c (Fin.last cfg5.N).val ⊢ _
  unfold Phi5
  iintro ⟨⟨⟨%d, %hd, H1⟩, H2⟩, H3⟩
  isplitr [H3]
  · isplitl [H1]
    · iexists d; iexact H1
    iexact H2
  iexact H3

theorem vcond5_0 : ∀ t : Fin cfg5.N, pc5_0 (grid5.coords t) ↔ t.val % 4 = 0 :=
  (by decide +kernel : ∀ t : Fin grid5.N, pc5_0 (grid5.coords t) ↔ t.val % 4 = 0)
theorem vcond5_1 : ∀ t : Fin cfg5.N, pc5_1 (grid5.coords t) ↔ t.val % 4 = 3 :=
  (by decide +kernel : ∀ t : Fin grid5.N, pc5_1 (grid5.coords t) ↔ t.val % 4 = 3)

theorem vindex5_0 : ∀ t : Fin grid5.N, win5_0.index t 0 = 0 ∧ win5_0.index t 1 = t.val % 4 := by decide +kernel
theorem vindex5_1 : ∀ t : Fin grid5.N, win5_1.index t 0 = t.val % 4 ∧ win5_1.index t 1 = t.val / 4 := by decide +kernel
theorem vindex5_2 : ∀ t : Fin grid5.N, win5_2.index t 0 = 0 ∧ win5_2.index t 1 = t.val / 4 := by decide +kernel
theorem vindex5_3 : ∀ t : Fin grid5.N, win5_3.index t 0 = 0 ∧ win5_3.index t 1 = t.val / 4 := by decide +kernel
theorem vxsize5_0 : ∀ t : Fin grid5.N, win5_0.xsize (grid5.coords t) 0 = 512 ∧ win5_0.xsize (grid5.coords t) 1 = 1024 := by decide +kernel
theorem vxsize5_1 : ∀ t : Fin grid5.N, win5_1.xsize (grid5.coords t) 0 = 1024 ∧ win5_1.xsize (grid5.coords t) 1 = min 512 (1000 - t.val / 4 * 512) := by decide +kernel
theorem vxsize5_2 : ∀ t : Fin grid5.N, win5_2.xsize (grid5.coords t) 0 = 512 ∧ win5_2.xsize (grid5.coords t) 1 = min 512 (1000 - t.val / 4 * 512) := by decide +kernel
theorem vxsize5_3 : ∀ t : Fin grid5.N, win5_3.xsize (grid5.coords t) 0 = 512 ∧ win5_3.xsize (grid5.coords t) 1 = min 512 (1000 - t.val / 4 * 512) := by decide +kernel

theorem vN5 (t : Fin cfg5.N) : t.val < 8 := lt_of_lt_of_eq t.isLt N_5

def hh5 (t : Fin cfg5.N) : Fin 4 := ⟨t.val % 4, Nat.mod_lt _ (by decide)⟩

theorem vfetch5_0_apply (t : Fin cfg5.N) (d) (r : Fin 512) (k : Fin 1024) :
    (vdat5 (U := U) V c).fetched 0 t d (ix2 r k) = act5 V c r (hid5 (hh5 t) k) := by
  have hlt : ∀ a, ((ix2 r k : S512x1024.Idx) a).val < (cfg5.win 0).xsize (grid5.coords t) a := fun a => by
    match a with
    | ⟨0, _⟩ => exact (show r.val < win5_0.xsize (grid5.coords t) 0 from by rw [(vxsize5_0 t).1]; exact r.isLt)
    | ⟨1, _⟩ => exact (show k.val < win5_0.xsize (grid5.coords t) 1 from by rw [(vxsize5_0 t).2]; exact k.isLt)
  have hm : (cfg5.win 0).moved (grid5.coords t) (ix2 r k : S512x1024.Idx) = true := ((cfg5.win 0).moved_iff _ _).mpr hlt
  unfold Dat.fetched Window.fill
  rw [dif_pos hm]
  unfold Dat.blockOf; rw [vdat5_A]
  show (V c main_v25 : S512x4096.Idx → EReal) ((win5_0.rect t).emb _) = _
  unfold act5
  congr 1
  funext a; apply Fin.ext
  rw [Window.rect_emb_val]
  match a with
  | ⟨0, _⟩ => exact (show win5_0.index t 0 * 512 + r.val = r.val from by rw [(vindex5_0 t).1]; omega)
  | ⟨1, _⟩ => exact (show win5_0.index t 1 * 1024 + k.val = t.val % 4 * 1024 + k.val from by rw [(vindex5_0 t).2])

theorem vfetch5_1_apply (t : Fin cfg5.N) (d) (k : Fin 1024) (q : Fin 512) (hq : t.val / 4 * 512 + q.val < 1000) :
    (vdat5 (U := U) V c).fetched 1 t d (ix2 k q) = wgt5 V c (hid5 (hh5 t) k) ⟨t.val / 4 * 512 + q.val, hq⟩ := by
  have hlt : ∀ a, ((ix2 k q : S1024x512.Idx) a).val < (cfg5.win 1).xsize (grid5.coords t) a := fun a => by
    match a with
    | ⟨0, _⟩ => exact (show k.val < win5_1.xsize (grid5.coords t) 0 from by rw [(vxsize5_1 t).1]; exact k.isLt)
    | ⟨1, _⟩ => exact (show q.val < win5_1.xsize (grid5.coords t) 1 from by rw [(vxsize5_1 t).2]; have := q.isLt; omega)
  have hm : (cfg5.win 1).moved (grid5.coords t) (ix2 k q : S1024x512.Idx) = true := ((cfg5.win 1).moved_iff _ _).mpr hlt
  unfold Dat.fetched Window.fill
  rw [dif_pos hm]
  unfold Dat.blockOf; rw [vdat5_A]
  show (V c main_v34 : S4096x1000.Idx → EReal) ((win5_1.rect t).emb _) = _
  unfold wgt5
  congr 1
  funext a; apply Fin.ext
  rw [Window.rect_emb_val]
  match a with
  | ⟨0, _⟩ => exact (show win5_1.index t 0 * 1024 + k.val = t.val % 4 * 1024 + k.val from by rw [(vindex5_1 t).1])
  | ⟨1, _⟩ => exact (show win5_1.index t 1 * 512 + q.val = t.val / 4 * 512 + q.val from by rw [(vindex5_1 t).2])

theorem vfetch5_2_apply (t : Fin cfg5.N) (d) (r : Fin 512) (q : Fin 512) (hq : t.val / 4 * 512 + q.val < 1000) :
    (vdat5 (U := U) V c).fetched 2 t d (ix2 r q) = prev5 V c r ⟨t.val / 4 * 512 + q.val, hq⟩ := by
  have hlt : ∀ a, ((ix2 r q : S512x512.Idx) a).val < (cfg5.win 2).xsize (grid5.coords t) a := fun a => by
    match a with
    | ⟨0, _⟩ => exact (show r.val < win5_2.xsize (grid5.coords t) 0 from by rw [(vxsize5_2 t).1]; exact r.isLt)
    | ⟨1, _⟩ => exact (show q.val < win5_2.xsize (grid5.coords t) 1 from by rw [(vxsize5_2 t).2]; have := q.isLt; omega)
  have hm : (cfg5.win 2).moved (grid5.coords t) (ix2 r q : S512x512.Idx) = true := ((cfg5.win 2).moved_iff _ _).mpr hlt
  unfold Dat.fetched Window.fill
  rw [dif_pos hm]
  unfold Dat.blockOf; rw [vdat5_A]
  show (V c main_v32 : S512x1000.Idx → EReal) ((win5_2.rect t).emb _) = _
  unfold prev5
  congr 1
  funext a; apply Fin.ext
  rw [Window.rect_emb_val]
  match a with
  | ⟨0, _⟩ => exact (show win5_2.index t 0 * 512 + r.val = r.val from by rw [(vindex5_2 t).1]; omega)
  | ⟨1, _⟩ => exact (show win5_2.index t 1 * 512 + q.val = t.val / 4 * 512 + q.val from by rw [(vindex5_2 t).2])

theorem vkeep5_0 (t : Fin cfg5.N) (d) : (vdat5 (U := U) V c).after 0 t = (vdat5 (U := U) V c).fetched 0 t d := by
  rw [vafter5_0]; unfold Dat.fetched Dat.blockOf; rw [vdat5_A]; try rfl

theorem vafter5_0_apply (t : Fin cfg5.N) (r : Fin 512) (k : Fin 1024) :
    (vdat5 (U := U) V c).after 0 t (ix2 r k) = act5 V c r (hid5 (hh5 t) k) := by
  rw [vkeep5_0 V c t ((vdat5 (U := U) V c).after 0 t)]; exact vfetch5_0_apply V c t _ r k

theorem part5_congr (r : Fin 512) {j j' : Fin 1000} (h : j.val = j'.val) {n n' : ℕ} (hn : n = n') :
    part5 V c r j n = part5 V c r j' n' := by subst hn; rw [Fin.ext h]

theorem vstep5 (t : Fin cfg5.N) (d1) (s0 : S512x512.Idx → EReal) (r q : Fin 512) (hq : t.val / 4 * 512 + q.val < 1000)
    (hs0 : s0 (ix2 r q) = part5 V c r ⟨t.val / 4 * 512 + q.val, hq⟩ (t.val % 4)) :
    k5_pay2 ((vdat5 (U := U) V c).fetched 1 t d1) s0 ((vdat5 (U := U) V c).after 0 t) (ix2 r q)
      = part5 V c r ⟨t.val / 4 * 512 + q.val, hq⟩ (t.val % 4 + 1) := by
  rw [vpayP5_2_apply, hs0]
  have hsucc := part5_succ V c r ⟨t.val / 4 * 512 + q.val, hq⟩ (hh5 t)
  rw [show (hh5 t).val = t.val % 4 from rfl] at hsucc
  rw [hsucc]; congr 1
  unfold tile5
  refine Finset.sum_congr rfl fun k _ => ?_
  rw [vafter5_0_apply, vfetch5_1_apply V c t d1 k q hq]

theorem vinv5_next (t : Fin cfg5.N) (acc : S512x512.Idx → EReal)
    (h : ∀ (r q : Fin 512) (hq : t.val / 4 * 512 + q.val < 1000), acc (ix2 r q) = part5 V c r ⟨t.val / 4 * 512 + q.val, hq⟩ (t.val % 4 + 1)) :
    Inv5 V c (t.val + 1) acc := by
  intro hne r q hq
  have h1 : (t.val + 1) / 4 = t.val / 4 := by omega
  have h2 : (t.val + 1) % 4 = t.val % 4 + 1 := by omega
  have hq' : t.val / 4 * 512 + q.val < 1000 := by rw [← h1]; exact hq
  rw [h r q hq']
  exact part5_congr V c r (by show t.val / 4 * 512 + q.val = (t.val + 1) / 4 * 512 + q.val; rw [h1]) h2.symm

theorem vout5_cut (t : Fin cfg5.N) (h3 : t.val % 4 = 3) (acc : S512x512.Idx → EReal)
    (h : ∀ (r q : Fin 512) (hq : t.val / 4 * 512 + q.val < 1000), acc (ix2 r q) = part5 V c r ⟨t.val / 4 * 512 + q.val, hq⟩ (t.val % 4 + 1)) :
    (cfg5.win 3).cut (grid5.coords t) acc = (cfg5.win 3).cut (grid5.coords t) (out5 V c t) := by
  funext y
  show acc ((cfg5.win 3).xinj (grid5.coords t) y) = out5 V c t ((cfg5.win 3).xinj (grid5.coords t) y)
  have hy1 : (y 1).val < win5_3.xsize (grid5.coords t) 1 := (y 1).isLt
  rw [(vxsize5_3 t).2] at hy1
  have hy0 : (y 0).val < win5_3.xsize (grid5.coords t) 0 := (y 0).isLt
  rw [(vxsize5_3 t).1] at hy0
  have hq : t.val / 4 * 512 + (y 1).val < 1000 := by omega
  have hq512 : (y 1).val < 512 := by omega
  have e : (cfg5.win 3).xinj (grid5.coords t) y = (ix2 (⟨(y 0).val, hy0⟩ : Fin 512) (⟨(y 1).val, hq512⟩ : Fin 512) : S512x512.Idx) := by
    funext a; apply Fin.ext
    match a with
    | ⟨0, _⟩ => rfl
    | ⟨1, _⟩ => rfl
  rw [e, h _ _ hq]
  unfold out5
  rw [dif_pos (show t.val / 4 * 512 + ((ix2 (⟨(y 0).val, hy0⟩ : Fin 512) (⟨(y 1).val, hq512⟩ : Fin 512) : S512x512.Idx) 1).val < 1000 from hq)]
  exact part5_congr V c _ rfl (by omega)

abbrev vms5_0 (t : Fin cfg5.N) : Memref sig .tc .vmem S512x1024 .bf16 := win5_0.stage (cfg5.slots t 0)
abbrev vhs5_0 (t : Fin cfg5.N) : (vms5_0 t).IsWhole := hstage5_0 ((cfg5.slots t 0).cast nbuf5_0)
abbrev vms5_1 (t : Fin cfg5.N) : Memref sig .tc .vmem S1024x512 .f32 := win5_1.stage (cfg5.slots t 1)
abbrev vhs5_1 (t : Fin cfg5.N) : (vms5_1 t).IsWhole := hstage5_1 ((cfg5.slots t 1).cast nbuf5_1)
abbrev vms5_2 (t : Fin cfg5.N) : Memref sig .tc .vmem S512x512 .f32 := win5_2.stage (cfg5.slots t 2)
abbrev vhs5_2 (t : Fin cfg5.N) : (vms5_2 t).IsWhole := hstage5_2 ((cfg5.slots t 2).cast nbuf5_2)
abbrev vms5_3 (t : Fin cfg5.N) : Memref sig .tc .vmem S512x512 .f32 := win5_3.stage (cfg5.slots t 3)
abbrev vhs5_3 (t : Fin cfg5.N) : (vms5_3 t).IsWhole := hstage5_3 ((cfg5.slots t 3).cast nbuf5_3)

theorem vleaves5_0 (t : Fin cfg5.N) :
    (vdat5 (U := U) V c).leaves 0 t = owns (c : Thread nD τ) (vms5_0 t) fullShare ((vdat5 (U := U) V c).after 0 t) := by
  unfold Dat.leaves; rfl
theorem vleaves5_1 (t : Fin cfg5.N) :
    (vdat5 (U := U) V c).leaves 1 t = iprop(∃ d, owns (c : Thread nD τ) (vms5_1 t) fullShare ((vdat5 (U := U) V c).fetched 1 t d)) := by
  have hk : (cfg5.win 1).cut (grid5.coords t) ((vdat5 (U := U) V c).after 1 t) = (vdat5 (U := U) V c).blockOf 1 t := by
    rw [vafter5_1, Window.cut_fill]; unfold Dat.blockOf; rw [vdat5_A]
  unfold Dat.leaves Dat.fetched; rw [← hk]; try rfl
theorem vleaves5_2 (t : Fin cfg5.N) :
    (vdat5 (U := U) V c).leaves 2 t = iprop(∃ d, owns (c : Thread nD τ) (vms5_2 t) fullShare ((vdat5 (U := U) V c).fetched 2 t d)) := by
  have hk : (cfg5.win 2).cut (grid5.coords t) ((vdat5 (U := U) V c).after 2 t) = (vdat5 (U := U) V c).blockOf 2 t := by
    rw [vafter5_2, Window.cut_fill]; unfold Dat.blockOf; rw [vdat5_A]
  unfold Dat.leaves Dat.fetched; rw [← hk]; try rfl
theorem vleaves5_3_idle (t : Fin cfg5.N) (h3 : t.val % 4 ≠ 3) :
    (vdat5 (U := U) V c).leaves 3 t = iprop(∃ d, owns (c : Thread nD τ) (vms5_3 t) fullShare d) := by
  rw [Dat.leaves_idle _ 3 t (vidle5_3 t h3) (vnoflush5_3 t h3)]
  simp only [vbefore5_3]; rfl
theorem vleaves5_3_live (t : Fin cfg5.N) (h3 : t.val % 4 = 3) :
    (vdat5 (U := U) V c).leaves 3 t = iprop(∃ d, owns (c : Thread nD τ) (vms5_3 t) fullShare
      ((cfg5.win 3).fill (grid5.coords t) d ((cfg5.win 3).cut (grid5.coords t) (out5 V c t)))) := by
  unfold Dat.leaves; rw [vlive5_3 t h3, vafter5_3]; rfl

set_option maxHeartbeats 1600000 in
theorem vsound5 (t : Fin cfg5.N) :
    iprop((vdat5 (U := U) V c).Φ t.castSucc ∗ (vdat5 (U := U) V c).owesAt () t.castSucc
        ∗ (∃ d, owns (c : Thread nD τ) (vms5_0 t) fullShare ((vdat5 (U := U) V c).before 0 t d))
        ∗ (∃ d, owns (c : Thread nD τ) (vms5_1 t) fullShare ((vdat5 (U := U) V c).before 1 t d))
        ∗ (∃ d, owns (c : Thread nD τ) (vms5_2 t) fullShare ((vdat5 (U := U) V c).before 2 t d))
        ∗ (∃ d, owns (c : Thread nD τ) (vms5_3 t) fullShare ((vdat5 (U := U) V c).before 3 t d)))
      ⊢ wp frame (wpE (defs₀ (F := Ideal)) Variants.none c none) Set.univ (bodyAt5 t) (fun _ =>
          iprop((vdat5 (U := U) V c).Φ t.succ ∗ (vdat5 (U := U) V c).owesAt () t.succ
            ∗ (vdat5 (U := U) V c).leaves 0 t ∗ (vdat5 (U := U) V c).leaves 1 t
            ∗ (vdat5 (U := U) V c).leaves 2 t ∗ (vdat5 (U := U) V c).leaves 3 t)) := by
  simp only [vbefore5_0, vbefore5_1, vbefore5_2, vbefore5_3]
  simp only [← vkeep5_0 V c t]
  rw [show (vdat5 (U := U) V c).owesAt () t.succ = (vdat5 (U := U) V c).owesAt () t.castSucc from rfl]
  rw [show (vdat5 (U := U) V c).Φ t.castSucc = Phi5 V c t.val from rfl, show (vdat5 (U := U) V c).Φ t.succ = Phi5 V c (t.val + 1) from rfl]
  rw [vleaves5_0, vleaves5_1, vleaves5_2]
  unfold Phi5 bodyAt5
  have hN := vN5 t
  by_cases h0 : t.val % 4 = 0
  · have h3 : t.val % 4 ≠ 3 := by omega
    rw [vleaves5_3_idle V c t h3]
    iintro ⟨⟨⟨⟨%s, %hs, HS⟩, HR⟩, Hg⟩, Ho, ⟨%d0, H0⟩, ⟨%d1, H1⟩, ⟨%d2, H2⟩, ⟨%d3, H3⟩⟩
    iapply (pbody5_A c (grid5.coords t) _ (vhs5_0 t) _ (vhs5_1 t) _ (vhs5_2 t) _ (vhs5_3 t) _ (Memref.isWhole_whole _) ((vcond5_0 t).mpr h0) (fun h => h3 ((vcond5_1 t).mp h)) _ _ _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitr [Hg]
      · isplitr [HR]
        · iexists _; isplitr
          swap; · iexact HS
          ipureintro
          exact vinv5_next V c t _ fun r q hq => vstep5 V c t d1 _ r q hq (by rw [vpayP5_1_apply, vfetch5_2_apply V c t d2 r q hq, h0, part5_zero])
        iexact HR
      iexact Hg
    isplitl [Ho]; · iexact Ho
    isplitl [H0]; · iexact H0
    isplitl [H1]; · iexists d1; iexact H1
    isplitl [H2]; · iexists d2; iexact H2
    iexists d3; iexact H3
  · by_cases h3 : t.val % 4 = 3
    · rw [vleaves5_3_live V c t h3]
      iintro ⟨⟨⟨⟨%s, %hs, HS⟩, HR⟩, Hg⟩, Ho, ⟨%d0, H0⟩, ⟨%d1, H1⟩, ⟨%d2, H2⟩, ⟨%d3, H3⟩⟩
      have hacc : ∀ (r q : Fin 512) (hq : t.val / 4 * 512 + q.val < 1000),
          k5_pay2 ((vdat5 (U := U) V c).fetched 1 t d1) s ((vdat5 (U := U) V c).after 0 t) (ix2 r q)
            = part5 V c r ⟨t.val / 4 * 512 + q.val, hq⟩ (t.val % 4 + 1) :=
        fun r q hq => vstep5 V c t d1 s r q hq (hs h0 r q hq)
      have hfill := (cfg5.win 3).fill_congr_cut (grid5.coords t) (vout5_cut V c t h3 _ hacc)
      iapply (pbody5_C c (grid5.coords t) _ (vhs5_0 t) _ (vhs5_1 t) _ (vhs5_2 t) _ (vhs5_3 t) _ (Memref.isWhole_whole _) (fun h => h0 ((vcond5_0 t).mp h)) ((vcond5_1 t).mpr h3) _ _ _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitr [HR]
          · iexists _; isplitr
            swap; · iexact HS
            ipureintro
            exact fun hne => absurd (show (t.val + 1) % 4 = 0 by omega) hne
          iexact HR
        iexact Hg
      isplitl [Ho]; · iexact Ho
      isplitl [H0]; · iexact H0
      isplitl [H1]; · iexists d1; iexact H1
      isplitl [H2]; · iexists d2; iexact H2
      iexists k5_pay2 ((vdat5 (U := U) V c).fetched 1 t d1) s ((vdat5 (U := U) V c).after 0 t)
      rw [hfill]; iexact H3
    · rw [vleaves5_3_idle V c t h3]
      iintro ⟨⟨⟨⟨%s, %hs, HS⟩, HR⟩, Hg⟩, Ho, ⟨%d0, H0⟩, ⟨%d1, H1⟩, ⟨%d2, H2⟩, ⟨%d3, H3⟩⟩
      iapply (pbody5_B c (grid5.coords t) _ (vhs5_0 t) _ (vhs5_1 t) _ (vhs5_2 t) _ (vhs5_3 t) _ (Memref.isWhole_whole _) (fun h => h0 ((vcond5_0 t).mp h)) (fun h => h3 ((vcond5_1 t).mp h)) _ _ _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitr [HR]
          · iexists _; isplitr
            swap; · iexact HS
            ipureintro
            exact vinv5_next V c t _ fun r q hq => vstep5 V c t d1 s r q hq (hs h0 r q hq)
          iexact HR
        iexact Hg
      isplitl [Ho]; · iexact Ho
      isplitl [H0]; · iexact H0
      isplitl [H1]; · iexists d1; iexact H1
      isplitl [H2]; · iexists d2; iexact H2
      iexists d3; iexact H3

theorem vbody5 : BodyObligationLoose (vdat5 (U := U) V c) (defs₀ (F := Ideal)) Variants.none () Set.univ := fun t => by
  rw [bigSep_W5, bigSep_W5]
  exact vsound5 V c t

theorem part5_congr2 {r r' : Fin 512} (hr : r.val = r'.val) {j j' : Fin 1000} (h : j.val = j'.val) (n : ℕ) :
    part5 V c r j n = part5 V c r' j' n := by rw [Fin.ext hr, Fin.ext h]

def G5 : S512x1000.Idx → EReal := fun i => part5 V c ⟨(i 0).val, idx2_lt0 i⟩ ⟨(i 1).val, idx2_lt1 i⟩ 4

theorem vmem5_blk (t : Fin cfg5.N) (i : S512x1000.Idx) :
    i ∈ ((cfg5.win 3).blk t).view.set ↔ t.val / 4 * 512 ≤ (i 1).val ∧ (i 1).val < t.val / 4 * 512 + min 512 (1000 - t.val / 4 * 512) := by
  have hi0 : (i 0).val < 512 := idx2_lt0 i
  show i ∈ ((View.whole main_v35).slice (win5_3.rect t)).set ↔ _
  rw [View.set_slice_whole, Rect.mem_set_unit]
  constructor
  · intro h
    have h1 : win5_3.index t 1 * 512 ≤ (i 1).val ∧ (i 1).val < win5_3.index t 1 * 512 + win5_3.xsize (grid5.coords t) 1 := h 1
    rw [(vindex5_3 t).2, (vxsize5_3 t).2] at h1
    exact h1
  · intro h a
    match a with
    | ⟨0, _⟩ =>
      show win5_3.index t 0 * 512 ≤ (i 0).val ∧ (i 0).val < win5_3.index t 0 * 512 + win5_3.xsize (grid5.coords t) 0
      rw [(vindex5_3 t).1, (vxsize5_3 t).1, Nat.zero_mul, Nat.zero_add]; exact ⟨Nat.zero_le _, hi0⟩
    | ⟨1, _⟩ =>
      show win5_3.index t 1 * 512 ≤ (i 1).val ∧ (i 1).val < win5_3.index t 1 * 512 + win5_3.xsize (grid5.coords t) 1
      rw [(vindex5_3 t).2, (vxsize5_3 t).2]; exact h

theorem vflushed5 (t : Fin cfg5.N) :
    (vdat5 (U := U) V c).flushed 3 t = ((cfg5.win 3).blk t).view.read (Elt Ideal) (G5 V c) := by
  funext y
  show (vdat5 (U := U) V c).after 3 t ((cfg5.win 3).xinj (grid5.coords t) y) = G5 V c ((win5_3.rect t).emb y)
  rw [vafter5_3]
  have hy1 : (y 1).val < win5_3.xsize (grid5.coords t) 1 := (y 1).isLt
  rw [(vxsize5_3 t).2] at hy1
  have e0 : ((win5_3.rect t).emb y 0).val = (y 0).val := by
    rw [Window.rect_emb_val]
    show win5_3.index t 0 * 512 + (y 0).val = (y 0).val
    rw [(vindex5_3 t).1]; omega
  have e1 : ((win5_3.rect t).emb y 1).val = t.val / 4 * 512 + (y 1).val := by
    rw [Window.rect_emb_val]
    show win5_3.index t 1 * 512 + (y 1).val = t.val / 4 * 512 + (y 1).val
    rw [(vindex5_3 t).2]
  have hq : t.val / 4 * 512 + (y 1).val < 1000 := by omega
  unfold out5 G5
  rw [dif_pos (show t.val / 4 * 512 + (((cfg5.win 3).xinj (grid5.coords t) y) 1).val < 1000 from hq)]
  exact part5_congr2 V c e0.symm e1.symm 4

theorem vcover5 (i : S512x1000.Idx) : ∃ t : Fin cfg5.N, (cfg5.win 3).flush t = true ∧ i ∈ ((cfg5.win 3).blk t).view.set := by
  have hi := idx2_lt1 i
  by_cases h : (i 1).val < 512
  · refine ⟨t5_3, (flush5_3 t5_3).mpr rfl, (vmem5_blk t5_3 i).mpr ?_⟩
    show 3 / 4 * 512 ≤ (i 1).val ∧ (i 1).val < 3 / 4 * 512 + min 512 (1000 - 3 / 4 * 512)
    omega
  · refine ⟨t5_7, (flush5_3 t5_7).mpr rfl, (vmem5_blk t5_7 i).mpr ?_⟩
    show 7 / 4 * 512 ≤ (i 1).val ∧ (i 1).val < 7 / 4 * 512 + min 512 (1000 - 7 / 4 * 512)
    omega

theorem varr5 : (vdat5 (U := U) V c).arrAt 3 cfg5.N = G5 V c :=
  (vdat5 (U := U) V c).arrAt_eq_of_cover 3 (G5 V c) (fun t _ => vflushed5 V c t) (vcover5)

theorem vfinal5 (b : Fin 512) (j : Fin 1000) :
    ((vdat5 (U := U) V c).arrAt 3 cfg5.N : S512x1000.Idx → EReal) (ix2 b j)
      = Cert.Spec.proj (fun b j => (V c main_v32 : S512x1000.Idx → EReal) (ix2 b j))
          (fun b h => (V c main_v25 : S512x4096.Idx → EReal) (ix2 b h))
          (fun h j => (V c main_v34 : S4096x1000.Idx → EReal) (ix2 h j)) b j := by
  rw [varr5]
  exact part5_four V c b j

end Cert.KernelIdeal.Hand
end
-- ==== Proof.KI.ValueRegs.lean ====
import proofs.«409727_j78632261255731_3_alg».proof.Proof.KI.ThreadD
import proofs.«409727_j78632261255731_3_alg».proof.Proof.KI.ValueInv
import proofs.«409727_j78632261255731_3_alg».proof.Proof.KI.ValL0
import proofs.«409727_j78632261255731_3_alg».proof.Proof.KI.ValL1
import proofs.«409727_j78632261255731_3_alg».proof.Proof.KI.ValL2
import proofs.«409727_j78632261255731_3_alg».proof.Proof.KI.ValP3
import proofs.«409727_j78632261255731_3_alg».proof.Proof.KI.ValP4
import proofs.«409727_j78632261255731_3_alg».proof.Proof.KI.ValP5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

local notation "𝕄" => MT nD τ sig Unit (Elt Ideal) ℕ UU ℕ
def famD (V : Valuation τ sig (Elt Ideal)) : (q : Fin 6) → (c : Dev nD) → Dat τ (Elt Ideal) Unit ℕ UU ℕ (Pipeline.pin (pcfgs (F := Ideal)) adm q) c
  | ⟨0, _⟩ => fun c => vdat0 (U := UU) (fun _ b => V b) c
  | ⟨1, _⟩ => fun c => vdat1 (U := UU) (fun _ b => V b) c
  | ⟨2, _⟩ => fun c => vdat2 (U := UU) (fun _ b => V b) c
  | ⟨3, _⟩ => fun c => vdat3 (U := UU) (fun _ b => V b) c
  | ⟨4, _⟩ => fun c => vdat4 (U := UU) (fun _ b => V b) c
  | ⟨5, _⟩ => fun c => vdat5 (U := UU) (fun _ b => V b) c

/-- What a region leaves: every buffer other than its arrays unchanged, each array at the value its data computes. -/
def leftD (p : Fin 6) (V V' : Valuation τ sig (Elt Ideal)) (c : Dev nD) : Prop :=
  (∀ b : Ref sig .tc, (∀ w, Pipeline.arrRef (cfgs p).spec w ≠ b) → V' b = V b)
    ∧ ∀ w, V' (Pipeline.arrRef (cfgs p).spec w) = (famD V p c).arrAt w (cfgs p).N

/-- Of a region's arrays only its output changes. -/
theorem leftD_keep {p : Fin 6} {V V' : Valuation τ sig (Elt Ideal)} {c : Dev nD} (h : leftD p V V' c)
    (hA : ∀ w, (famD V p c).A w = V (Pipeline.arrRef (cfgs p).spec w)) (b : Ref sig .tc)
    (hb : ∀ w, Pipeline.arrRef (cfgs p).spec w = b → ((cfgs p).win w).isOut = false) : V' b = V b := by
  by_cases hw : ∃ w, Pipeline.arrRef (cfgs p).spec w = b
  · obtain ⟨w, rfl⟩ := hw
    exact (h.2 w).trans (((famD V p c).arrAt_in w (hb w rfl) _).trans (hA w))
  · exact h.1 b fun w e => hw ⟨w, e⟩

set_option backward.isDefEq.respectTransparency.types false in
/-- One record for all six regions: what differs from region to region enters as hypotheses. -/
def regD (p : Fin 6) (V : Valuation τ sig (Elt Ideal)) (lf : Pipeline.LaunchFacts (nD := nD) (τ := τ) cfgs p)
    (hbody : ∀ c, BodyObligationLoose (famD V p c) (defs₀ (F := Ideal)) 𝒱₀ () Set.univ)
    (hshare : ∀ c w, (famD V p c).share w = fullShare)
    (hA : ∀ c w, (famD V p c).A w = V (Pipeline.arrRef (cfgs p).spec w))
    (howed : ∀ c t, (famD V p c).owed t = 0)
    (hrec : ∀ c t, (famD V p c).recorded t = Set.univ)
    (hin : ∀ c, (Pipeline.ΦA (cfgs p).spec c : sProp 𝕄) ⊢ (famD V p c).Φ 0)
    (hout : ∀ c, (famD V p c).Φ (Fin.last (cfgs p).N) ⊢ (Pipeline.ΦA (cfgs p).spec c : sProp 𝕄)) :
    Pipeline.RegionSeg (pcfgs (F := Ideal)) adm (famD V) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) V ∗ base c)
  post c := iprop(∃ V' : Valuation τ sig (Elt Ideal), ⌜leftD p V V' c⌝ ∗ StableHlo.held (c : Thread nD τ) (Pipeline.ucRefs τ sig) V' ∗ base c)
  X c := iprop(∃ r, prngReg c r)
  Y c := iprop(∃ r, prngReg c r)
  Z c := Pipeline.unscopedRest (Ix := Unit) (Name := ℕ) (U := UU) (Lvl := ℕ) (cfgs p).spec c (fun b => V b)
  hentry c := by
    rw [Pipeline.ownSems0_none]
    have hsplit := Pipeline.arrays_of_unscopedBufs (p := p) (pcfgs (F := Ideal)) adm (famD V) lf.win lf.arr_whole c
      (hshare c) (fun b => V b) (hA c)
    rw [Pipeline.unscopedBufs_held] at hsplit
    unfold Pipeline.Dat.owesAt Pipeline.owesWithin
    rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl ((hrec c 0).symm ▸ Set.mem_univ x)
      iexact HO
    isplitl [Hp]; · iexact Hp
    iexact Hrest
  hin c := by
    have hΦ := hin c
    unfold Pipeline.ΦA at hΦ
    iintro ⟨Hp, -, Hr⟩
    iapply hΦ
    isplitl [Hr]; · iexact Hr
    iexact Hp
  hout c := by
    rw [Pipeline.ownSems0_none]
    have hΦ := hout c
    unfold Pipeline.ΦA at hΦ
    iintro HΦ
    ihave HΦ' := hΦ $$ HΦ
    icases HΦ' with ⟨Hr, Hp⟩
    isplitl [Hp]; · iexact Hp
    isplitr; · iempintro
    iexact Hr
  hexit c := by
    have hjoin := Pipeline.unscopedBufs_of_arrays (p := p) (pcfgs (F := Ideal)) adm (Ix := Unit) (Name := ℕ) (U := UU) (Lvl := ℕ)
      lf.win lf.arr_whole c (famD V) (hshare c)
      (fun b => V b) (fun b => Pipeline.withArrays (cfgs p).spec c V (fun w => (famD V p c).arrAt w (cfgs p).N) b)
      ((famD V p c).arrAt · (cfgs p).N)
      (fun w => (Pipeline.withArrays_arr (cfgs p).spec lf.win.arr_inj c V (fun w => (famD V p c).arrAt w (cfgs p).N) w).symm)
      (fun b hb => Pipeline.withArrays_of_ne (cfgs p).spec c V (fun w => (famD V p c).arrAt w (cfgs p).N) b
        fun w e => hb (Finset.mem_image.mpr ⟨w, Finset.mem_univ _, e⟩))
    rw [Pipeline.unscopedBufs_held] at hjoin
    unfold Pipeline.Dat.owesAt Pipeline.owesWithin
    rw [howed c (Fin.last _)]
    iintro ⟨Ha, HO, HY, Hrest⟩
    imodintro
    iexists (Pipeline.withArrays (cfgs p).spec c V (fun w => (famD V p c).arrAt w (cfgs p).N))
    isplitr
    · ipureintro
      exact ⟨fun b hb => Pipeline.withArrays_of_ne (cfgs p).spec c V _ b hb,
        fun w => Pipeline.withArrays_arr (cfgs p).spec lf.win.arr_inj c V _ w⟩
    isplitl [Ha Hrest]
    · iapply hjoin; isplitl [Ha] <;> iassumption
    isplitl [HY]; · iexact HY
    icases HO with ⟨%W, -, HO⟩; iexists W; iexact HO

abbrev regD0 (V : Valuation τ sig (Elt Ideal)) := regD 0 V launch0 (fun c => (vbody0 (U := UU) (fun _ b => V b) c).loose)
  (vdat0_share (U := UU) fun _ b => V b) (vdat0_A (U := UU) fun _ b => V b) (vdat0_owed (U := UU) fun _ b => V b) (fun _ _ => rfl)
  (vhin0 (U := UU) fun _ b => V b) (vhout0 (U := UU) fun _ b => V b)
abbrev regD1 (V : Valuation τ sig (Elt Ideal)) := regD 1 V launch1 (fun c => (vbody1 (U := UU) (fun _ b => V b) c).loose)
  (vdat1_share (U := UU) fun _ b => V b) (vdat1_A (U := UU) fun _ b => V b) (vdat1_owed (U := UU) fun _ b => V b) (fun _ _ => rfl)
  (vhin1 (U := UU) fun _ b => V b) (vhout1 (U := UU) fun _ b => V b)
abbrev regD2 (V : Valuation τ sig (Elt Ideal)) := regD 2 V launch2 (fun c => (vbody2 (U := UU) (fun _ b => V b) c).loose)
  (vdat2_share (U := UU) fun _ b => V b) (vdat2_A (U := UU) fun _ b => V b) (vdat2_owed (U := UU) fun _ b => V b) (fun _ _ => rfl)
  (vhin2 (U := UU) fun _ b => V b) (vhout2 (U := UU) fun _ b => V b)
abbrev regD3 (V : Valuation τ sig (Elt Ideal)) := regD 3 V launch3 (fun c => vbody3 (U := UU) (fun _ b => V b) c)
  (vdat3_share (U := UU) fun _ b => V b) (vdat3_A (U := UU) fun _ b => V b) (vdat3_owed (U := UU) fun _ b => V b) (fun _ _ => rfl)
  (vhin3 (U := UU) fun _ b => V b) (vhout3 (U := UU) fun _ b => V b)
abbrev regD4 (V : Valuation τ sig (Elt Ideal)) := regD 4 V launch4 (fun c => vbody4 (U := UU) (fun _ b => V b) c)
  (vdat4_share (U := UU) fun _ b => V b) (vdat4_A (U := UU) fun _ b => V b) (vdat4_owed (U := UU) fun _ b => V b) (fun _ _ => rfl)
  (vhin4 (U := UU) fun _ b => V b) (vhout4 (U := UU) fun _ b => V b)
abbrev regD5 (V : Valuation τ sig (Elt Ideal)) := regD 5 V launch5 (fun c => vbody5 (U := UU) (fun _ b => V b) c)
  (vdat5_share (U := UU) fun _ b => V b) (vdat5_A (U := UU) fun _ b => V b) (vdat5_owed (U := UU) fun _ b => V b) (fun _ _ => rfl)
  (vhin5 (U := UU) fun _ b => V b) (vhout5 (U := UU) fun _ b => V b)

variable (m : (ℓ : Loc nD τ sig) → Buf (Elt Ideal) ℓ)

/-- A region whose leavings satisfy the next invariant carries the thread state on to it. -/
theorem hpostD (p : Fin 6) (V : Valuation τ sig (Elt Ideal)) (c : Dev nD) (Inv' : Valuation τ sig (Elt Ideal) → Prop)
    (hk : ∀ V', leftD p V V' c → Inv' V') :
    iprop(∃ V' : Valuation τ sig (Elt Ideal), ⌜leftD p V V' c⌝ ∗ StableHlo.held (c : Thread nD τ) (Pipeline.ucRefs τ sig) V' ∗ base c)
      ⊢ iprop(∃ V', ⌜Inv' V'⌝ ∗ StableHlo.held (c : Thread nD τ) (Pipeline.ucRefs τ sig) V' ∗ base c) := by
  iintro ⟨%V', %hV', H⟩
  iexists V'
  isplitr; · ipureintro; exact hk V' hV'
  iexact H

theorem hpostV0 (V : Valuation τ sig (Elt Ideal)) (c : Dev nD) (h : I5 m c V) :
    (regD0 V).post c ⊢ iprop(∃ V', ⌜I6 m c V'⌝ ∗ StableHlo.held (c : Thread nD τ) (Pipeline.ucRefs τ sig) V' ∗ base c) :=
  hpostD 0 V c _ fun V' hV' => inv_reg0 h
    (fun b hb => leftD_keep hV' (vdat0_A (U := UU) (fun _ b => V b) c) b fun w e =>
      (by decide : ∀ w : Fin (cfgs 0).W, Pipeline.arrRef (cfgs 0).spec w ≠ main_v23 → ((cfgs 0).win w).isOut = false) w fun e' => hb (e.symm.trans e'))
    (fun b j => (congrFun (hV'.2 2) _).trans (vfinal0 (U := UU) (fun _ b => V b) c b j))
theorem hpostV1 (V : Valuation τ sig (Elt Ideal)) (c : Dev nD) (h : I6 m c V) :
    (regD1 V).post c ⊢ iprop(∃ V', ⌜I7 m c V'⌝ ∗ StableHlo.held (c : Thread nD τ) (Pipeline.ucRefs τ sig) V' ∗ base c) :=
  hpostD 1 V c _ fun V' hV' => inv_reg1 h
    (fun b hb => leftD_keep hV' (vdat1_A (U := UU) (fun _ b => V b) c) b fun w e =>
      (by decide : ∀ w : Fin (cfgs 1).W, Pipeline.arrRef (cfgs 1).spec w ≠ main_v24 → ((cfgs 1).win w).isOut = false) w fun e' => hb (e.symm.trans e'))
    (fun b j => (congrFun (hV'.2 2) _).trans (vfinal1 (U := UU) (fun _ b => V b) c b j))
theorem hpostV2 (V : Valuation τ sig (Elt Ideal)) (c : Dev nD) (h : I7 m c V) :
    (regD2 V).post c ⊢ iprop(∃ V', ⌜I8 m c V'⌝ ∗ StableHlo.held (c : Thread nD τ) (Pipeline.ucRefs τ sig) V' ∗ base c) :=
  hpostD 2 V c _ fun V' hV' => inv_reg2 h
    (fun b hb => leftD_keep hV' (vdat2_A (U := UU) (fun _ b => V b) c) b fun w e =>
      (by decide : ∀ w : Fin (cfgs 2).W, Pipeline.arrRef (cfgs 2).spec w ≠ main_v25 → ((cfgs 2).win w).isOut = false) w fun e' => hb (e.symm.trans e'))
    (fun b j => (congrFun (hV'.2 2) _).trans (vfinal2 (U := UU) (fun _ b => V b) c b j))
theorem hpostV3 (V : Valuation τ sig (Elt Ideal)) (c : Dev nD) (h : I9 m c V) :
    (regD3 V).post c ⊢ iprop(∃ V', ⌜I10 m c V'⌝ ∗ StableHlo.held (c : Thread nD τ) (Pipeline.ucRefs τ sig) V' ∗ base c) :=
  hpostD 3 V c _ fun V' hV' => inv_reg3 h
    (fun b hb => leftD_keep hV' (vdat3_A (U := UU) (fun _ b => V b) c) b fun w e =>
      (by decide : ∀ w : Fin (cfgs 3).W, Pipeline.arrRef (cfgs 3).spec w ≠ main_v29 → ((cfgs 3).win w).isOut = false) w fun e' => hb (e.symm.trans e'))
    (fun b j => (congrFun (hV'.2 3) _).trans (vfinal3 (U := UU) (fun _ b => V b) c b j))
theorem hpostV4 (V : Valuation τ sig (Elt Ideal)) (c : Dev nD) (h : I11 m c V) :
    (regD4 V).post c ⊢ iprop(∃ V', ⌜I12 m c V'⌝ ∗ StableHlo.held (c : Thread nD τ) (Pipeline.ucRefs τ sig) V' ∗ base c) :=
  hpostD 4 V c _ fun V' hV' => inv_reg4 h
    (fun b hb => leftD_keep hV' (vdat4_A (U := UU) (fun _ b => V b) c) b fun w e =>
      (by decide : ∀ w : Fin (cfgs 4).W, Pipeline.arrRef (cfgs 4).spec w ≠ main_v32 → ((cfgs 4).win w).isOut = false) w fun e' => hb (e.symm.trans e'))
    (fun b j => (congrFun (hV'.2 3) _).trans (vfinal4 (U := UU) (fun _ b => V b) c b j))
theorem hpostV5 (V : Valuation τ sig (Elt Ideal)) (c : Dev nD) (h : I13 m c V) :
    (regD5 V).post c ⊢ iprop(∃ V', ⌜I14 m c V'⌝ ∗ StableHlo.held (c : Thread nD τ) (Pipeline.ucRefs τ sig) V' ∗ base c) :=
  hpostD 5 V c _ fun V' hV' => inv_reg5 h
    (fun b hb => leftD_keep hV' (vdat5_A (U := UU) (fun _ b => V b) c) b fun w e =>
      (by decide : ∀ w : Fin (cfgs 5).W, Pipeline.arrRef (cfgs 5).spec w ≠ main_v35 → ((cfgs 5).win w).isOut = false) w fun e' => hb (e.symm.trans e'))
    (fun b j => (congrFun (hV'.2 3) _).trans (vfinal5 (U := UU) (fun _ b => V b) c b j))

end Cert.KernelIdeal.Hand
end
-- ==== Proof.KI.ValueRun.lean ====
import proofs.«409727_j78632261255731_3_alg».proof.Proof.KI.ThreadD
import proofs.«409727_j78632261255731_3_alg».proof.Proof.KI.ValueInv
import proofs.«409727_j78632261255731_3_alg».proof.Proof.KI.ValueRegs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

local notation "𝕄" => MT nD τ sig Unit (Elt Ideal) ℕ UU ℕ

variable (m : (ℓ : Loc nD τ sig) → Buf (Elt Ideal) ℓ) (ρ : Dev nD → PrngReg)

abbrev GG6 : Dev nD → sProp 𝕄 := fun _ => iprop(emp)
abbrev GG5 : Dev nD → sProp 𝕄 := fun c => iprop(gh 5 c ∗ GG6 c)
abbrev GG4 : Dev nD → sProp 𝕄 := fun c => iprop(gh 4 c ∗ GG5 c)
abbrev GG3 : Dev nD → sProp 𝕄 := fun c => iprop(gh 3 c ∗ GG4 c)
abbrev GG2 : Dev nD → sProp 𝕄 := fun c => iprop(gh 2 c ∗ GG3 c)
abbrev GG1 : Dev nD → sProp 𝕄 := fun c => iprop(gh 1 c ∗ GG2 c)
abbrev GG0 : Dev nD → sProp 𝕄 := fun c => iprop(gh 0 c ∗ GG1 c)

abbrev kitFam : (q : Fin 6) → (c : Dev nD) → RDat τ (Elt Ideal) Unit ℕ UU ℕ (Pipeline.pin (pcfgs (F := Ideal)) adm q) c :=
  fun q c => dummyR (fun b => m (c, b)) _ c

abbrev u₀ : UU :=
  (initOf (Pipeline.cells (Pipeline.pin (pcfgs (F := Ideal)) adm) cellOf_inj) (Pipeline.launchToks (Pipeline.pin (pcfgs (F := Ideal)) adm) cellOf_inj),
   initOf (Pipeline.cells (Pipeline.pin (pcfgs (F := Ideal)) adm) cellOf_inj) (Pipeline.launchToks (Pipeline.pin (pcfgs (F := Ideal)) adm) cellOf_inj))

abbrev Gl (c : Dev nD) : sProp 𝕄 :=
  iprop((bigSep Finset.univ fun p : Fin 6 => Pipeline.cellsGhost (Pipeline.pin (pcfgs (F := Ideal)) adm) EP2 p c)
    ∗ bigSep Finset.univ fun p : Fin 6 => (Pipeline.toksInit (Pipeline.pin (pcfgs (F := Ideal)) adm) EP2 p c : sProp 𝕄))

theorem bigSep_P6 {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

theorem Gl_GG0 (c : Dev nD) : Gl c ⊢ GG0 c := by
  unfold Gl
  rw [bigSep_P6, bigSep_P6]
  iintro ⟨⟨C0, C1, C2, C3, C4, C5⟩, ⟨T0, T1, T2, T3, T4, T5⟩⟩
  isplitl [C0 T0]; · isplitl [C0]; · iexact C0
                     iexact T0
  isplitl [C1 T1]; · isplitl [C1]; · iexact C1
                     iexact T1
  isplitl [C2 T2]; · isplitl [C2]; · iexact C2
                     iexact T2
  isplitl [C3 T3]; · isplitl [C3]; · iexact C3
                     iexact T3
  isplitl [C4 T4]; · isplitl [C4]; · iexact C4
                     iexact T4
  isplitl [C5 T5]; · isplitl [C5]; · iexact C5
                     iexact T5
  iempintro

def J0 (c : Dev nD) (V : Valuation τ sig (Elt Ideal)) : Prop := V = V0 (F := Ideal) m c
def J1 (c : Dev nD) (V : Valuation τ sig (Elt Ideal)) : Prop := V = V1 (F := Ideal) m c
def J2 (c : Dev nD) (V : Valuation τ sig (Elt Ideal)) : Prop := V = V2 (F := Ideal) m c
def J3 (c : Dev nD) (V : Valuation τ sig (Elt Ideal)) : Prop := V = V3 (F := Ideal) m c
def J4 (c : Dev nD) (V : Valuation τ sig (Elt Ideal)) : Prop := V = V4 (F := Ideal) m c

theorem J0_J1 (c : Dev nD) (V : Valuation τ sig (Elt Ideal)) (h : J0 m c V) : J1 m c (StableHlo.after hostOps0 V) := by
  unfold J0 at h; subst h; rfl
theorem J1_J2 (c : Dev nD) (V : Valuation τ sig (Elt Ideal)) (h : J1 m c V) : J2 m c (StableHlo.after hostOps0_1 V) := by
  unfold J1 at h; subst h; rfl
theorem J2_J3 (c : Dev nD) (V : Valuation τ sig (Elt Ideal)) (h : J2 m c V) : J3 m c (StableHlo.after hostOps0_2 V) := by
  unfold J2 at h; subst h; rfl
theorem J3_J4 (c : Dev nD) (V : Valuation τ sig (Elt Ideal)) (h : J3 m c V) : J4 m c (StableHlo.after hostOps0_3 V) := by
  unfold J3 at h; subst h; rfl
theorem J4_I5 (c : Dev nD) (V : Valuation τ sig (Elt Ideal)) (h : J4 m c V) : I5 m c (StableHlo.after hostOps0_4 V) := by
  unfold J4 at h; subst h
  exact inv_pre (m := m) (c := c) (V0 (F := Ideal) m c) (fun _ => rfl)

abbrev segsV : List (Pipeline.RDat.Seg (pcfgs (F := Ideal)) adm (kitFam m) () defs₀ 𝒱₀ L lv) :=
  [ .host (hostEx hostOps0 hostOps0_sub hostOps0_fresh (J0 m) (J1 m) (J0_J1 m) GG0),
    .host (hostEx hostOps0_1 hostOps0_1_sub hostOps0_1_fresh (J1 m) (J2 m) (J1_J2 m) GG0),
    .host (hostEx hostOps0_2 hostOps0_2_sub hostOps0_2_fresh (J2 m) (J3 m) (J2_J3 m) GG0),
    .host (hostEx hostOps0_3 hostOps0_3_sub hostOps0_3_fresh (J3 m) (J4 m) (J3_J4 m) GG0),
    .host (hostEx hostOps0_4 hostOps0_4_sub hostOps0_4_fresh (J4 m) (I5 m) (J4_I5 m) GG0),
    .host (regionExD 0 (I5 m) (I6 m) GG1 famD regD0 (fun _ _ => .rfl) (hpostV0 m)),
    .host (regionExD 1 (I6 m) (I7 m) GG2 famD regD1 (fun _ _ => .rfl) (hpostV1 m)),
    .host (regionExD 2 (I7 m) (I8 m) GG3 famD regD2 (fun _ _ => .rfl) (hpostV2 m)),
    .host (hostEx hostOps3 hostOps3_sub hostOps3_fresh (I8 m) (I9 m) (fun c V h => inv_host3 h) GG3),
    .host (regionExD 3 (I9 m) (I10 m) GG4 famD regD3 (fun _ _ => .rfl) (hpostV3 m)),
    .host (hostEx hostOps4 hostOps4_sub hostOps4_fresh (I10 m) (I11 m) (fun c V h => inv_host4 h) GG4),
    .host (regionExD 4 (I11 m) (I12 m) GG5 famD regD4 (fun _ _ => .rfl) (hpostV4 m)),
    .host (hostEx hostOps5 hostOps5_sub hostOps5_fresh (I12 m) (I13 m) (fun c V h => inv_host5 h) GG5),
    .host (regionExD 5 (I13 m) (I14 m) GG6 famD regD5 (fun _ _ => .rfl) (hpostV5 m)) ]

theorem main_runV (c : Dev nD) : main (F := Ideal) c = Pipeline.RDat.Seg.run (segsV m) := by
  rw [main_chain c, Pipeline.RDat.Seg.run_eq_chain]
  rfl

def kernelOut (c : Dev nD) : Buf (Elt Ideal) ((c.tc : Thread nD τ).loc main_v35) :=
  (fun (j : S512x1000.Idx) =>
    Cert.Spec.proj (Cert.Spec.proj (Cert.Spec.proj (fun _ _ => 0)
            (Cert.ReferenceIdeal.RefValue.refA0 (m ((c : Thread nD τ).loc main_arg0)) (m ((c : Thread nD τ).loc main_arg1)))
            (Cert.ReferenceIdeal.RefValue.refW (m ((c : Thread nD τ).loc main_arg4)) 0))
          (Cert.ReferenceIdeal.RefValue.refA1 (m ((c : Thread nD τ).loc main_arg0)) (m ((c : Thread nD τ).loc main_arg1)) (m ((c : Thread nD τ).loc main_arg2)))
          (Cert.ReferenceIdeal.RefValue.refW (m ((c : Thread nD τ).loc main_arg4)) 1))
        (Cert.ReferenceIdeal.RefValue.refA2 (m ((c : Thread nD τ).loc main_arg0)) (m ((c : Thread nD τ).loc main_arg1)) (m ((c : Thread nD τ).loc main_arg2)) (m ((c : Thread nD τ).loc main_arg3)))
        (Cert.ReferenceIdeal.RefValue.refW (m ((c : Thread nD τ).loc main_arg4)) 2) (j 0) (j 1) : S512x1000.Idx → EReal)

theorem out_eq (c : Dev nD) (V : Valuation τ sig (Elt Ideal)) (h : I14 m c V) :
    @Eq (S512x1000.Idx → EReal) (V main_v35) (kernelOut m c) :=
  funext fun j => (congrArg (V main_v35 : S512x1000.Idx → EReal) (ValueIdx.eq_ix2 j)).trans (inv_final h (j 0) (j 1))

set_option backward.isDefEq.respectTransparency.types false in
theorem value_run : θ_run defs (onTc (τ := τ) (main (F := Ideal))) ⟨m, fun _ => 0, ρ⟩ (fun r => ∀ c : Dev nD,
      r.2.mem ((c.tc : Thread nD τ).loc main_v35) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.RDat.θ_run_regions_kit (pcfgs (F := Ideal)) adm (kitFam m) () cellOf_inj EP1 defs₀ 𝒱₀ L lv m ρ main (segsV m)
    (fun c Q => by rw [main_runV m c]) (by simp only [segsV, Pipeline.RDat.Seg.pipes_host, Pipeline.RDat.Seg.pipes_nil]; exact List.nodup_nil)
    (O₀ := 0) (hL := fun _ _ => rfl) (G := Gl) (u₀ := u₀) (hu₀ := ?_)
    (T₀ := TS (J0 m) GG0)
    (Tₙ := fun c => iprop(∃ V : Valuation τ sig (Elt Ideal), ⌜I14 m c V⌝ ∗ StableHlo.held (c : Thread nD τ) (Pipeline.ucRefs τ sig) V))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => ?_⟩)
    (hinit := ?_)
    (QY := fun c s => s.mem ((c.tc : Thread nD τ).loc main_v35) = kernelOut m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  ·
    iintro Hu
    ihave H := (ownU_pair _ _) $$ Hu
    icases H with ⟨H1, H2⟩
    imod (Pipeline.fund_ghost (Pipeline.pin (pcfgs (F := Ideal)) adm) EP2 cellOf_inj) $$ H2 with ⟨Hg, Ht⟩
    imodintro
    isplitl [H1]; · iexact H1
    unfold Gl
    rw [bigSep_sep']
    isplitl [Hg]; · iexact Hg
    iexact Ht
  ·
    show TS (I14 m) GG6 c ⊢ iprop((∃ V : Valuation τ sig (Elt Ideal), ⌜I14 m c V⌝ ∗ StableHlo.held (c : Thread nD τ) (Pipeline.ucRefs τ sig) V)
      ∗ ∃ W, owes (c : Thread nD τ) (0 : CellTallies nD τ sig Unit) W)
    unfold TS
    iintro ⟨%V, %hV, Hh, ⟨-, HO⟩, -⟩
    isplitl [Hh]
    · iexists V; isplitr; · ipureintro; exact hV
      iexact Hh
    iexact HO
  ·
    refine Pipeline.initEach L lv fun c => ?_
    rw [show unscopedBufs c (fun b => m ((c : Thread nD τ).loc b)) = StableHlo.held (c : Thread nD τ) (Pipeline.ucRefs τ sig) (fun b => m (c, b))
      from Pipeline.unscopedBufs_held c (fun b => m (c, b))]
    iintro ⟨⟨Hh, -, HO, -, Hp, HG⟩, -⟩
    imodintro
    unfold TS
    iexists (fun b => m (c, b))
    isplitr; · ipureintro; exact rfl
    isplitl [Hh]; · iexact Hh
    isplitl [Hp HO]
    · isplitl [Hp]; · iexists _; iexact Hp
      iexists ∅; iexact HO
    iapply (Gl_GG0 c); iexact HG
  ·
    unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨(h (Proc.devRef .tc main_v35) (Finset.mem_filter.mpr ⟨StableHlo.devRef_mem_tcRefs main_v35, by decide⟩)).trans (out_eq m c V hV),
        (h (Proc.devRef .tc main_arg0) (Finset.mem_filter.mpr ⟨StableHlo.devRef_mem_tcRefs main_arg0, by decide⟩)).trans hV.1.1,
        (h (Proc.devRef .tc main_arg1) (Finset.mem_filter.mpr ⟨StableHlo.devRef_mem_tcRefs main_arg1, by decide⟩)).trans hV.1.2.1,
        (h (Proc.devRef .tc main_arg2) (Finset.mem_filter.mpr ⟨StableHlo.devRef_mem_tcRefs main_arg2, by decide⟩)).trans hV.1.2.2.1,
        (h (Proc.devRef .tc main_arg3) (Finset.mem_filter.mpr ⟨StableHlo.devRef_mem_tcRefs main_arg3, by decide⟩)).trans hV.1.2.2.2.1,
        (h (Proc.devRef .tc main_arg4) (Finset.mem_filter.mpr ⟨StableHlo.devRef_mem_tcRefs main_arg4, by decide⟩)).trans hV.1.2.2.2.2⟩
    · iexact HSI

end Cert.KernelIdeal.Hand
end
-- ==== Proof.lean ====
/-
  Kernel and reference both compute, over the extended reals, the logits of a three-layer threshold network on the
  gray-code bits of the input. The kernel tiles each matrix product over a grid and adds the tiles' partial sums in
  an accumulator; the reference takes each product whole. A finite sum of extended reals may be regrouped freely.
-/
import proofs.«409727_j78632261255731_3_alg».proof.Defs
import proofs.«409727_j78632261255731_3_alg».proof.Proof.Gen.Kernel
import proofs.«409727_j78632261255731_3_alg».proof.Proof.Gen.KernelIdeal
import proofs.«409727_j78632261255731_3_alg».proof.Proof.Gen.ReferenceIdeal
import proofs.«409727_j78632261255731_3_alg».proof.Proof.Gen.Pre_finite_inputs
import proofs.«409727_j78632261255731_3_alg».proof.Proof.Gen.ReferenceIdeal.Run
import proofs.«409727_j78632261255731_3_alg».proof.Proof.K.FrameRun
import proofs.«409727_j78632261255731_3_alg».proof.Proof.KI.ValueRun
import proofs.«409727_j78632261255731_3_alg».proof.Proof.Ref.Value
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Hand.frame_run m ρ

/-- The idealization's frame is its value run with the result dropped. -/
theorem frame_ki : Cert.frame_KernelIdeal := fun m ρ _ =>
  (θ_run Cert.KernelIdeal.defs _ _).mono (fun _ h c => (h c).2) (Cert.KernelIdeal.Hand.value_run m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v49 (F := Ideal) m' c = Cert.KernelIdeal.Hand.kernelOut m c := by
  refine funext fun (j : Cert.ReferenceIdeal.S512x1000.Idx) => ?_
  obtain ⟨p, q, rfl⟩ : ∃ (p : Fin 512) (q : Fin 1000), j = ValueIdx.ix2 p q := ⟨j 0, j 1, ValueIdx.eq_ix2 j⟩
  refine (Cert.ReferenceIdeal.RefValue.ref_value m' c p q).trans ?_
  rw [hagree.1, hagree.2.1, hagree.2.2.1, hagree.2.2.2.1, hagree.2.2.2.2]
  rfl

theorem algebraic : Cert.algebraic_KernelIdeal_ReferenceIdeal := by
  intro m ρ m' ρ' _ hagree
  refine ⟨Cert.KernelIdeal.Hand.kernelOut m, Cert.KernelIdeal.Hand.value_run m ρ, ?_⟩
  exact (θ_run Cert.ReferenceIdeal.defs _ _).mono
    (fun _ h c => ⟨(h c).1.trans (ref_result m m' c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
